-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.named_const.Statement Cert.KernelIdeal.κ "inv_temp" .f32 0x41200000#32 ((134217728 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S4096 : Shape := ⟨1, ![4096]⟩
abbrev S2048x2048 : Shape := ⟨2, ![2048, 2048]⟩
abbrev S2048 : Shape := ⟨1, ![2048]⟩
abbrev S128x2048 : Shape := ⟨2, ![128, 2048]⟩
abbrev S_ : Shape := ⟨0, ![]⟩
abbrev S1x2048 : Shape := ⟨2, ![1, 2048]⟩
abbrev S2048x128 : Shape := ⟨2, ![2048, 128]⟩
abbrev S4096x128 : Shape := ⟨2, ![4096, 128]⟩
abbrev S4096x1 : Shape := ⟨2, ![4096, 1]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4096 : S_.BroadcastsInDim S4096 (![] : Fin 0 → Fin S4096.rank)
  reducesTo_S4096_S_d0 : S4096.ReducesTo [0] S_
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_
  bcast_S_S128x2048 : S_.BroadcastsInDim S128x2048 (![] : Fin 0 → Fin S128x2048.rank)
  reducesTo_S128x2048_S_d0_1 : S128x2048.ReducesTo [0, 1] S_
  transposes_S2048x2048_S2048x2048_1_0 : S2048x2048.Transposes [1, 0] S2048x2048
  reducesTo_S4096x2048_S2048_d0 : S4096x2048.ReducesTo [0] S2048
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  transposes_S128x2048_S2048x128_1_0 : S128x2048.Transposes [1, 0] S2048x128
  reducesTo_S4096x128_S4096_d1 : S4096x128.ReducesTo [1] S4096
  bcast_S4096_S4096x1_0 : S4096.BroadcastsInDim S4096x1 (![0] : Fin 1 → Fin S4096x1.rank)
  bcast_S_S4096x1 : S_.BroadcastsInDim S4096x1 (![] : Fin 0 → Fin S4096x1.rank)
  reducesTo_S4096x1_S_d0_1 : S4096x1.ReducesTo [0, 1] S_
  dot_S4096x2048_S2048x2048_S4096x2048_1_0_0_1_n_n_wf : DotDims.WF S4096x2048 S2048x2048 S4096x2048 [1] [0] [0] [1] [] []
  dot_S4096x2048_S2048x128_S4096x128_1_0_0_1_n_n_wf : DotDims.WF S4096x2048 S2048x128 S4096x128 [1] [0] [0] [1] [] []

variable [Facts]

def dot_S4096x2048_S2048x2048_S4096x2048_1_0_0_1_n_n : DotDims S4096x2048 S2048x2048 S4096x2048 where
  lhsContracting := [1]
  rhsContracting := [0]
  lhsNonContracting := [0]
  rhsNonContracting := [1]
  lhsBatch := []
  rhsBatch := []
  wf := dot_S4096x2048_S2048x2048_S4096x2048_1_0_0_1_n_n_wf
def dot_S4096x2048_S2048x128_S4096x128_1_0_0_1_n_n : DotDims S4096x2048 S2048x128 S4096x128 where
  lhsContracting := [1]
  rhsContracting := [0]
  lhsNonContracting := [0]
  rhsNonContracting := [1]
  lhsBatch := []
  rhsBatch := []
  wf := dot_S4096x2048_S2048x128_S4096x128_1_0_0_1_n_n_wf
def fn_part5 {F : FTy → Type} [FloatOps F] (main_arg4 : FVec F S2048 .f32) (main_arg5 : FVec F S2048 .f32) (main_arg6 : FVec F S128x2048 .f32) (main_v72 : IVec S_ 1) (main_v87 : FVec F S4096x2048 .f32) (main_v91 : FVec F S1x2048 .f32) : IVec S_ 1 :=
  let main_v92 : FVec F S4096x2048 .f32 := broadcastInDim S4096x2048 ![0, 1] bcast_S1x2048_S4096x2048_0_1 main_v91
  let main_v93 : FVec F S4096x2048 .f32 := mulf main_v87 main_v92
  let main_v94 : FVec F S1x2048 .f32 := broadcastInDim S1x2048 ![1] bcast_S2048_S1x2048_1 main_arg4
  let main_v95 : FVec F S4096x2048 .f32 := broadcastInDim S4096x2048 ![0, 1] bcast_S1x2048_S4096x2048_0_1 main_v94
  let main_v96 : FVec F S4096x2048 .f32 := mulf main_v93 main_v95
  let main_v97 : FVec F S1x2048 .f32 := broadcastInDim S1x2048 ![1] bcast_S2048_S1x2048_1 main_arg5
  let main_v98 : FVec F S4096x2048 .f32 := broadcastInDim S4096x2048 ![0, 1] bcast_S1x2048_S4096x2048_0_1 main_v97
  let main_v99 : FVec F S4096x2048 .f32 := addf main_v96 main_v98
  let main_cst_26 : FVec F S_ .f32 := constant S_ .f32 0x00000000#32
  let main_v100 : FVec F S4096x2048 .f32 := broadcastInDim S4096x2048 ![] bcast_S_S4096x2048 main_cst_26
  let main_v101 : FVec F S4096x2048 .f32 := maximumf main_v99 main_v100
  let main_v102 : FVec F S2048x128 .f32 := (transpose S2048x128 [1, 0] · transposes_S128x2048_S2048x128_1_0) main_arg6
  let main_v103 : FVec F S4096x128 .f32 := (fun l r => Host.dotGeneral dot_S4096x2048_S2048x128_S4096x128_1_0_0_1_n_n none l r) main_v101 main_v102
  let main_v104 : FVec F S4096x128 .f32 := mulf main_v103 main_v103
  let main_cst_27 : FVec F S_ .f32 := constant S_ .f32 0x00000000#32
  let main_v105 : FVec F S4096 .f32 := (fun x v => Host.reduceAdd x v reducesTo_S4096x128_S4096_d1 h_S_) main_v104 main_cst_27
  let main_v106 : FVec F S4096x1 .f32 := broadcastInDim S4096x1 ![0] bcast_S4096_S4096x1_0 main_v105
  let main_v107 : FVec F S4096x1 .f32 := Host.sqrt main_v106
  let main_cst_28 : FVec F S_ .f32 := constant S_ .f32 0x00000000#32
  let main_v108 : FVec F S4096x1 .f32 := broadcastInDim S4096x1 ![] bcast_S_S4096x1 main_cst_28
  let main_v109 : IVec S4096x1 1 := cmpf .ogt main_v107 main_v108
  let main_c_29 : IVec S_ 1 := constantI S_ 1 1#1
  let main_v110 : IVec S_ 1 := (fun x v => Host.reduce IntOp.andi x v reducesTo_S4096x1_S_d0_1 h_S_) main_v109 main_c_29
  let main_v111 : IVec S_ 1 := andi main_v72 main_v110
  main_v111

def fn_part4 {F : FTy → Type} [FloatOps F] (main_arg1 : FVec F S4096x2048 .f32) (main_arg3 : FVec F S2048x2048 .f32) (main_arg4 : FVec F S2048 .f32) (main_arg5 : FVec F S2048 .f32) (main_arg6 : FVec F S128x2048 .f32) (main_v72 : IVec S_ 1) : IVec S_ 1 :=
  let main_v73 : FVec F S2048x2048 .f32 := (transpose S2048x2048 [1, 0] · transposes_S2048x2048_S2048x2048_1_0) main_arg3
  let main_v74 : FVec F S4096x2048 .f32 := (fun l r => Host.dotGeneral dot_S4096x2048_S2048x2048_S4096x2048_1_0_0_1_n_n none l r) main_arg1 main_v73
  let main_cst_21 : FVec F S_ .f32 := constant S_ .f32 0x00000000#32
  let main_v75 : FVec F S2048 .f32 := (fun x v => Host.reduceAdd x v reducesTo_S4096x2048_S2048_d0 h_S_) main_v74 main_cst_21
  let main_cst_22 : FVec F S_ .f32 := constant S_ .f32 0x45800000#32
  let main_v76 : FVec F S2048 .f32 := broadcastInDim S2048 ![] bcast_S_S2048 main_cst_22
  let main_v77 : FVec F S2048 .f32 := Host.divf main_v75 main_v76
  let main_v78 : FVec F S1x2048 .f32 := broadcastInDim S1x2048 ![1] bcast_S2048_S1x2048_1 main_v77
  let main_v79 : FVec F S4096x2048 .f32 := broadcastInDim S4096x2048 ![0, 1] bcast_S1x2048_S4096x2048_0_1 main_v78
  let main_v80 : FVec F S4096x2048 .f32 := subf main_v74 main_v79
  let main_v81 : FVec F S4096x2048 .f32 := mulf main_v80 main_v80
  let main_cst_23 : FVec F S_ .f32 := constant S_ .f32 0x00000000#32
  let main_v82 : FVec F S2048 .f32 := (fun x v => Host.reduceAdd x v reducesTo_S4096x2048_S2048_d0 h_S_) main_v81 main_cst_23
  let main_cst_24 : FVec F S_ .f32 := constant S_ .f32 0x45800000#32
  let main_v83 : FVec F S2048 .f32 := broadcastInDim S2048 ![] bcast_S_S2048 main_cst_24
  let main_v84 : FVec F S2048 .f32 := Host.divf main_v82 main_v83
  let main_v85 : FVec F S1x2048 .f32 := broadcastInDim S1x2048 ![1] bcast_S2048_S1x2048_1 main_v77
  let main_v86 : FVec F S4096x2048 .f32 := broadcastInDim S4096x2048 ![0, 1] bcast_S1x2048_S4096x2048_0_1 main_v85
  let main_v87 : FVec F S4096x2048 .f32 := subf main_v74 main_v86
  let main_cst_25 : FVec F S_ .f32 := constant S_ .f32 0x3727C5AC#32
  let main_v88 : FVec F S2048 .f32 := broadcastInDim S2048 ![] bcast_S_S2048 main_cst_25
  let main_v89 : FVec F S2048 .f32 := addf main_v84 main_v88
  let main_v90 : FVec F S2048 .f32 := Host.rsqrt main_v89
  let main_v91 : FVec F S1x2048 .f32 := broadcastInDim S1x2048 ![1] bcast_S2048_S1x2048_1 main_v90
  fn_part5 (F := F) main_arg4 main_arg5 main_arg6 main_v72 main_v87 main_v91

def fn_part3 {F : FTy → Type} [FloatOps F] (main_arg1 : FVec F S4096x2048 .f32) (main_arg3 : FVec F S2048x2048 .f32) (main_arg4 : FVec F S2048 .f32) (main_arg5 : FVec F S2048 .f32) (main_arg6 : FVec F S128x2048 .f32) (main_v33 : IVec S_ 1) (main_v48 : FVec F S4096x2048 .f32) (main_v52 : FVec F S1x2048 .f32) : IVec S_ 1 :=
  let main_v53 : FVec F S4096x2048 .f32 := broadcastInDim S4096x2048 ![0, 1] bcast_S1x2048_S4096x2048_0_1 main_v52
  let main_v54 : FVec F S4096x2048 .f32 := mulf main_v48 main_v53
  let main_v55 : FVec F S1x2048 .f32 := broadcastInDim S1x2048 ![1] bcast_S2048_S1x2048_1 main_arg4
  let main_v56 : FVec F S4096x2048 .f32 := broadcastInDim S4096x2048 ![0, 1] bcast_S1x2048_S4096x2048_0_1 main_v55
  let main_v57 : FVec F S4096x2048 .f32 := mulf main_v54 main_v56
  let main_v58 : FVec F S1x2048 .f32 := broadcastInDim S1x2048 ![1] bcast_S2048_S1x2048_1 main_arg5
  let main_v59 : FVec F S4096x2048 .f32 := broadcastInDim S4096x2048 ![0, 1] bcast_S1x2048_S4096x2048_0_1 main_v58
  let main_v60 : FVec F S4096x2048 .f32 := addf main_v57 main_v59
  let main_cst_17 : FVec F S_ .f32 := constant S_ .f32 0x00000000#32
  let main_v61 : FVec F S4096x2048 .f32 := broadcastInDim S4096x2048 ![] bcast_S_S4096x2048 main_cst_17
  let main_v62 : FVec F S4096x2048 .f32 := maximumf main_v60 main_v61
  let main_v63 : FVec F S2048x128 .f32 := (transpose S2048x128 [1, 0] · transposes_S128x2048_S2048x128_1_0) main_arg6
  let main_v64 : FVec F S4096x128 .f32 := (fun l r => Host.dotGeneral dot_S4096x2048_S2048x128_S4096x128_1_0_0_1_n_n none l r) main_v62 main_v63
  let main_v65 : FVec F S4096x128 .f32 := mulf main_v64 main_v64
  let main_cst_18 : FVec F S_ .f32 := constant S_ .f32 0x00000000#32
  let main_v66 : FVec F S4096 .f32 := (fun x v => Host.reduceAdd x v reducesTo_S4096x128_S4096_d1 h_S_) main_v65 main_cst_18
  let main_v67 : FVec F S4096x1 .f32 := broadcastInDim S4096x1 ![0] bcast_S4096_S4096x1_0 main_v66
  let main_v68 : FVec F S4096x1 .f32 := Host.sqrt main_v67
  let main_cst_19 : FVec F S_ .f32 := constant S_ .f32 0x00000000#32
  let main_v69 : FVec F S4096x1 .f32 := broadcastInDim S4096x1 ![] bcast_S_S4096x1 main_cst_19
  let main_v70 : IVec S4096x1 1 := cmpf .ogt main_v68 main_v69
  let main_c_20 : IVec S_ 1 := constantI S_ 1 1#1
  let main_v71 : IVec S_ 1 := (fun x v => Host.reduce IntOp.andi x v reducesTo_S4096x1_S_d0_1 h_S_) main_v70 main_c_20
  let main_v72 : IVec S_ 1 := andi main_v33 main_v71
  fn_part4 (F := F) main_arg1 main_arg3 main_arg4 main_arg5 main_arg6 main_v72

def fn_part2 {F : FTy → Type} [FloatOps F] (main_arg0 : FVec F S4096x2048 .f32) (main_arg1 : FVec F S4096x2048 .f32) (main_arg3 : FVec F S2048x2048 .f32) (main_arg4 : FVec F S2048 .f32) (main_arg5 : FVec F S2048 .f32) (main_arg6 : FVec F S128x2048 .f32) (main_v33 : IVec S_ 1) : IVec S_ 1 :=
  let main_v34 : FVec F S2048x2048 .f32 := (transpose S2048x2048 [1, 0] · transposes_S2048x2048_S2048x2048_1_0) main_arg3
  let main_v35 : FVec F S4096x2048 .f32 := (fun l r => Host.dotGeneral dot_S4096x2048_S2048x2048_S4096x2048_1_0_0_1_n_n none l r) main_arg0 main_v34
  let main_cst_12 : FVec F S_ .f32 := constant S_ .f32 0x00000000#32
  let main_v36 : FVec F S2048 .f32 := (fun x v => Host.reduceAdd x v reducesTo_S4096x2048_S2048_d0 h_S_) main_v35 main_cst_12
  let main_cst_13 : FVec F S_ .f32 := constant S_ .f32 0x45800000#32
  let main_v37 : FVec F S2048 .f32 := broadcastInDim S2048 ![] bcast_S_S2048 main_cst_13
  let main_v38 : FVec F S2048 .f32 := Host.divf main_v36 main_v37
  let main_v39 : FVec F S1x2048 .f32 := broadcastInDim S1x2048 ![1] bcast_S2048_S1x2048_1 main_v38
  let main_v40 : FVec F S4096x2048 .f32 := broadcastInDim S4096x2048 ![0, 1] bcast_S1x2048_S4096x2048_0_1 main_v39
  let main_v41 : FVec F S4096x2048 .f32 := subf main_v35 main_v40
  let main_v42 : FVec F S4096x2048 .f32 := mulf main_v41 main_v41
  let main_cst_14 : FVec F S_ .f32 := constant S_ .f32 0x00000000#32
  let main_v43 : FVec F S2048 .f32 := (fun x v => Host.reduceAdd x v reducesTo_S4096x2048_S2048_d0 h_S_) main_v42 main_cst_14
  let main_cst_15 : FVec F S_ .f32 := constant S_ .f32 0x45800000#32
  let main_v44 : FVec F S2048 .f32 := broadcastInDim S2048 ![] bcast_S_S2048 main_cst_15
  let main_v45 : FVec F S2048 .f32 := Host.divf main_v43 main_v44
  let main_v46 : FVec F S1x2048 .f32 := broadcastInDim S1x2048 ![1] bcast_S2048_S1x2048_1 main_v38
  let main_v47 : FVec F S4096x2048 .f32 := broadcastInDim S4096x2048 ![0, 1] bcast_S1x2048_S4096x2048_0_1 main_v46
  let main_v48 : FVec F S4096x2048 .f32 := subf main_v35 main_v47
  let main_cst_16 : FVec F S_ .f32 := constant S_ .f32 0x3727C5AC#32
  let main_v49 : FVec F S2048 .f32 := broadcastInDim S2048 ![] bcast_S_S2048 main_cst_16
  let main_v50 : FVec F S2048 .f32 := addf main_v45 main_v49
  let main_v51 : FVec F S2048 .f32 := Host.rsqrt main_v50
  let main_v52 : FVec F S1x2048 .f32 := broadcastInDim S1x2048 ![1] bcast_S2048_S1x2048_1 main_v51
  fn_part3 (F := F) main_arg1 main_arg3 main_arg4 main_arg5 main_arg6 main_v33 main_v48 main_v52

def fn_part1 {F : FTy → Type} [FloatOps F] (main_arg0 : FVec F S4096x2048 .f32) (main_arg1 : FVec F S4096x2048 .f32) (main_arg3 : FVec F S2048x2048 .f32) (main_arg4 : FVec F S2048 .f32) (main_arg5 : FVec F S2048 .f32) (main_arg6 : FVec F S128x2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S128x2048 .f32 := Host.absf main_arg6
  let main_cst_10 : FVec F S_ .f32 := constant S_ .f32 0x7F800000#32
  let main_v30 : FVec F S128x2048 .f32 := broadcastInDim S128x2048 ![] bcast_S_S128x2048 main_cst_10
  let main_v31 : IVec S128x2048 1 := cmpf .olt main_v29 main_v30
  let main_c_11 : IVec S_ 1 := constantI S_ 1 1#1
  let main_v32 : IVec S_ 1 := (fun x v => Host.reduce IntOp.andi x v reducesTo_S128x2048_S_d0_1 h_S_) main_v31 main_c_11
  let main_v33 : IVec S_ 1 := andi main_v28 main_v32
  fn_part2 (F := F) main_arg0 main_arg1 main_arg3 main_arg4 main_arg5 main_arg6 main_v33

def fn {F : FTy → Type} [FloatOps F] (main_arg0 : FVec F S4096x2048 .f32) (main_arg1 : FVec F S4096x2048 .f32) (main_arg2 : FVec F S4096 .f32) (main_arg3 : FVec F S2048x2048 .f32) (main_arg4 : FVec F S2048 .f32) (main_arg5 : FVec F S2048 .f32) (main_arg6 : FVec F S128x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg0 main_arg1 main_arg3 main_arg4 main_arg5 main_arg6 main_v13 main_v16
-- ==== Kernel.lean ====
abbrev S4096x2048 : Shape := ⟨2, ![4096, 2048]⟩
abbrev S4096 : Shape := ⟨1, ![4096]⟩
abbrev S2048x2048 : Shape := ⟨2, ![2048, 2048]⟩
abbrev S2048 : Shape := ⟨1, ![2048]⟩
abbrev S128x2048 : Shape := ⟨2, ![128, 2048]⟩
abbrev S1x2048 : Shape := ⟨2, ![1, 2048]⟩
abbrev S512x2048 : Shape := ⟨2, ![512, 2048]⟩
abbrev S_ : Shape := ⟨0, ![]⟩
abbrev S4096x128 : Shape := ⟨2, ![4096, 128]⟩
abbrev S512x128 : Shape := ⟨2, ![512, 128]⟩
abbrev S512 : Shape := ⟨1, ![512]⟩
abbrev S512x1 : Shape := ⟨2, ![512, 1]⟩
abbrev S8192x128 : Shape := ⟨2, ![8192, 128]⟩
abbrev S8192 : Shape := ⟨1, ![8192]⟩
abbrev S8192x1 : Shape := ⟨2, ![8192, 1]⟩
abbrev S1x8192 : Shape := ⟨2, ![1, 8192]⟩
abbrev S512x512 : Shape := ⟨2, ![512, 512]⟩
abbrev S1x512 : Shape := ⟨2, ![1, 512]⟩

abbrev nBuf : Space → Nat
  | .hbm => 42
  | .vmem => 39
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096, .f32⟩
  | .hbm, ⟨3, _⟩ => ⟨S2048x2048, .f32⟩
  | .hbm, ⟨4, _⟩ => ⟨S2048, .f32⟩
  | .hbm, ⟨5, _⟩ => ⟨S2048, .f32⟩
  | .hbm, ⟨6, _⟩ => ⟨S128x2048, .f32⟩
  | .hbm, ⟨7, _⟩ => ⟨S2048x2048, .bf16⟩
  | .hbm, ⟨8, _⟩ => ⟨S128x2048, .bf16⟩
  | .hbm, ⟨9, _⟩ => ⟨S1x2048, .f32⟩
  | .hbm, ⟨10, _⟩ => ⟨S1x2048, .f32⟩
  | .hbm, ⟨11, _⟩ => ⟨S1x2048, .f32⟩
  | .hbm, ⟨12, _⟩ => ⟨S1x2048, .f32⟩
  | .hbm, ⟨13, _⟩ => ⟨S_, .f32⟩
  | .hbm, ⟨14, _⟩ => ⟨S1x2048, .f32⟩
  | .hbm, ⟨15, _⟩ => ⟨S1x2048, .f32⟩
  | .hbm, ⟨16, _⟩ => ⟨S_, .f32⟩
  | .hbm, ⟨17, _⟩ => ⟨S1x2048, .f32⟩
  | .hbm, ⟨18, _⟩ => ⟨S1x2048, .f32⟩
  | .hbm, ⟨19, _⟩ => ⟨S1x2048, .f32⟩
  | .hbm, ⟨20, _⟩ => ⟨S1x2048, .f32⟩
  | .hbm, ⟨21, _⟩ => ⟨S1x2048, .f32⟩
  | .hbm, ⟨22, _⟩ => ⟨S1x2048, .f32⟩
  | .hbm, ⟨23, _⟩ => ⟨S_, .f32⟩
  | .hbm, ⟨24, _⟩ => ⟨S1x2048, .f32⟩
  | .hbm, ⟨25, _⟩ => ⟨S1x2048, .f32⟩
  | .hbm, ⟨26, _⟩ => ⟨S_, .f32⟩
  | .hbm, ⟨27, _⟩ => ⟨S1x2048, .f32⟩
  | .hbm, ⟨28, _⟩ => ⟨S1x2048, .f32⟩
  | .hbm, ⟨29, _⟩ => ⟨S1x2048, .f32⟩
  | .hbm, ⟨30, _⟩ => ⟨S1x2048, .f32⟩
  | .hbm, ⟨31, _⟩ => ⟨S4096x128, .f32⟩
  | .hbm, ⟨32, _⟩ => ⟨S4096x128, .f32⟩
  | .hbm, ⟨33, _⟩ => ⟨S8192x128, .f32⟩
  | .hbm, ⟨34, _⟩ => ⟨S8192, .f32⟩
  | .hbm, ⟨35, _⟩ => ⟨S8192x1, .f32⟩
  | .hbm, ⟨36, _⟩ => ⟨S1x8192, .f32⟩
  | .hbm, ⟨37, _⟩ => ⟨S8192x1, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .local _ .vmem, ⟨0, _⟩ => ⟨S512x2048, .f32⟩
  | .local _ .vmem, ⟨1, _⟩ => ⟨S512x2048, .f32⟩
  | .local _ .vmem, ⟨2, _⟩ => ⟨S2048x2048, .bf16⟩
  | .local _ .vmem, ⟨3, _⟩ => ⟨S1x2048, .f32⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S2048x2048, .bf16⟩
  | .local _ .vmem, ⟨8, _⟩ => ⟨S1x2048, .f32⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S2048x2048, .bf16⟩
  | .local _ .vmem, ⟨13, _⟩ => ⟨S1x2048, .f32⟩
  | .local _ .vmem, ⟨14, _⟩ => ⟨S1x2048, .f32⟩
  | .local _ .vmem, ⟨15, _⟩ => ⟨S1x2048, .f32⟩
  | .local _ .vmem, ⟨16, _⟩ => ⟨S1x2048, .f32⟩
  | .local _ .vmem, ⟨17, _⟩ => ⟨S128x2048, .bf16⟩
  | .local _ .vmem, ⟨18, _⟩ => ⟨S512x128, .f32⟩
  | .local _ .vmem, ⟨19, _⟩ => ⟨S512x128, .f32⟩
  | .local _ .vmem, ⟨20, _⟩ => ⟨S512x2048, .f32⟩
  | .local _ .vmem, ⟨21, _⟩ => ⟨S512x2048, .f32⟩
  | .local _ .vmem, ⟨22, _⟩ => ⟨S2048x2048, .bf16⟩
  | .local _ .vmem, ⟨23, _⟩ => ⟨S1x2048, .f32⟩
  | .local _ .vmem, ⟨24, _⟩ => ⟨S1x2048, .f32⟩
  | .local _ .vmem, ⟨25, _⟩ => ⟨S1x2048, .f32⟩
  | .local _ .vmem, ⟨26, _⟩ => ⟨S1x2048, .f32⟩
  | .local _ .vmem, ⟨27, _⟩ => ⟨S128x2048, .bf16⟩
  | .local _ .vmem, ⟨28, _⟩ => ⟨S512x128, .f32⟩
  | .local _ .vmem, ⟨29, _⟩ => ⟨S512x128, .f32⟩
  | .local _ .vmem, ⟨30, _⟩ => ⟨S8192x128, .f32⟩
  | .local _ .vmem, ⟨31, _⟩ => ⟨S8192x1, .f32⟩
  | .local _ .vmem, ⟨32, _⟩ => ⟨S1x8192, .f32⟩
  | .local _ .vmem, ⟨33, _⟩ => ⟨S512x1, .f32⟩
  | .local _ .vmem, ⟨34, _⟩ => ⟨S512x1, .f32⟩
  | .local _ .vmem, ⟨35, _⟩ => ⟨S512x1, .f32⟩
  | .local _ .vmem, ⟨36, _⟩ => ⟨S512x1, .f32⟩
  | .local _ .vmem, ⟨37, _⟩ => ⟨S512x1, .f32⟩
  | .local _ .vmem, ⟨38, _⟩ => ⟨S512x1, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11_0 : Ref sig .tc := ⟨.hbm, 21, rfl⟩
abbrev main_v11_1 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg6_0 : Ref sig .tc := ⟨.vmem, 17, rfl⟩
abbrev cc2_stg7_0 : Ref sig .tc := ⟨.vmem, 18, rfl⟩
abbrev cc2_stg7_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg4_0 : Ref sig .tc := ⟨.vmem, 25, rfl⟩
abbrev cc3_stg5_0 : Ref sig .tc := ⟨.vmem, 26, rfl⟩
abbrev cc3_stg6_0 : Ref sig .tc := ⟨.vmem, 27, rfl⟩
abbrev cc3_stg7_0 : Ref sig .tc := ⟨.vmem, 28, rfl⟩
abbrev cc3_stg7_1 : Ref sig .tc := ⟨.vmem, 29, rfl⟩
abbrev cc4_stg0_0 : Ref sig .tc := ⟨.vmem, 30, rfl⟩
abbrev cc4_stg1_0 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg3_1 : Ref sig .tc := ⟨.vmem, 34, rfl⟩
abbrev cc4_scratch0 : Ref sig .tc := ⟨.vmem, 35, rfl⟩
abbrev cc4_scratch1 : Ref sig .tc := ⟨.vmem, 36, rfl⟩
abbrev cc4_scratch2 : Ref sig .tc := ⟨.vmem, 37, rfl⟩
abbrev cc4_scratch3 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem6_0 : DmaSem sig := 17
abbrev cc2_sem7_0 : DmaSem sig := 18
abbrev cc2_sem7_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem3_0 : DmaSem sig := 24
abbrev cc3_sem4_0 : DmaSem sig := 25
abbrev cc3_sem5_0 : DmaSem sig := 26
abbrev cc3_sem6_0 : DmaSem sig := 27
abbrev cc3_sem7_0 : DmaSem sig := 28
abbrev cc3_sem7_1 : DmaSem sig := 29
abbrev cc4_sem0_0 : DmaSem sig := 30
abbrev cc4_sem1_0 : DmaSem sig := 31
abbrev cc4_sem2_0 : DmaSem sig := 32
abbrev cc4_sem3_0 : DmaSem sig := 33
abbrev cc4_sem3_1 : DmaSem sig := 34

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2048x2048 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x2048 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x2048 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x2048 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x2048 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x2048 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S512x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S2048x2048 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x2048 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x2048 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x2048 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x2048 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128x2048 .bf16 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S512x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨2, ![16, 16], ![false, false]⟩

def k4_mult1 (i : grid4.Coords) : BitVec 32 :=
  let arg0 : BitVec 32 := BitVec.ofNat 32 (i 0).val
  let c512_i32 : BitVec 32 := 512#32
  let v0 : BitVec 32 := Scalar.muli arg0 c512_i32
  v0
def k4_mult2 (i : grid4.Coords) : BitVec 32 :=
  let arg1 : BitVec 32 := BitVec.ofNat 32 (i 1).val
  let c512_i32_0 : BitVec 32 := 512#32
  let v2 : BitVec 32 := Scalar.muli arg1 c512_i32_0
  v2
def k4_off1 (i : grid4.Coords) : Fin 2 → Nat :=
  let arg0 : BitVec 32 := BitVec.ofNat 32 (i 0).val
  let c512_i32 : BitVec 32 := 512#32
  let v0 : BitVec 32 := Scalar.muli arg0 c512_i32
  let v1 : BitVec 32 := v0
  let v7 : Index := Scalar.indexCast v1
  let c0 : Index := 0#32
  ![v7.toNat, 0]
def k4_off2 (i : grid4.Coords) : Fin 2 → Nat :=
  let arg1 : BitVec 32 := BitVec.ofNat 32 (i 1).val
  let c512_i32_0 : BitVec 32 := 512#32
  let v2 : BitVec 32 := Scalar.muli arg1 c512_i32_0
  let v3 : BitVec 32 := v2
  let v11 : Index := Scalar.indexCast v3
  let c0_2 : Index := 0#32
  ![v11.toNat, 0]
def k4_off3 (i : grid4.Coords) : Fin 2 → Nat :=
  let arg0 : BitVec 32 := BitVec.ofNat 32 (i 0).val
  let c512_i32 : BitVec 32 := 512#32
  let v0 : BitVec 32 := Scalar.muli arg0 c512_i32
  let v1 : BitVec 32 := v0
  let v28 : Index := Scalar.indexCast v1
  let c0_5 : Index := 0#32
  ![v28.toNat, 0]
def k4_off4 (i : grid4.Coords) : Fin 2 → Nat :=
  let c0_6 : Index := 0#32
  let arg1 : BitVec 32 := BitVec.ofNat 32 (i 1).val
  let c512_i32_0 : BitVec 32 := 512#32
  let v2 : BitVec 32 := Scalar.muli arg1 c512_i32_0
  let v3 : BitVec 32 := v2
  let v31 : Index := Scalar.indexCast v3
  ![0, v31.toNat]
def k4_cond2 (i : grid4.Coords) : BitVec 1 :=
  let arg1 : BitVec 32 := BitVec.ofNat 32 (i 1).val
  let c15_i32 : BitVec 32 := 15#32
  let v79 : BitVec 1 := Scalar.cmpi .eq arg1 c15_i32
  let v80 : BitVec 32 := Scalar.extui v79
  let c0_i32_31 : BitVec 32 := 0#32
  let v81 : BitVec 1 := Scalar.cmpi .ne v80 c0_i32_31
  v81

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 1 → Memref sig .tc .vmem S8192x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false, false]

abbrev stage4_1 : Fin 1 → Memref sig .tc .vmem S8192x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, false]

abbrev stage4_2 : Fin 1 → Memref sig .tc .vmem S1x8192 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, false]

abbrev stage4_3 : Fin 2 → Memref sig .tc .vmem S512x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

class Facts₀ : Prop where
  bitsLt_bf16_f32 : FTy.bits .bf16 < FTy.bits .f32
  shapeCasts_S2048_S1x2048 : S2048.ShapeCasts S1x2048
  inb_S1x2048_S1x2048_0_0 : ∀ a, (![0, 0] : Fin 2 → Nat) a + S1x2048.size a ≤ S1x2048.size a
  h_S1x2048 : 0 < S1x2048.numel
  inb_S512x2048_S512x2048_0_0 : ∀ a, (![0, 0] : Fin 2 → Nat) a + S512x2048.size a ≤ S512x2048.size a
  h_S512x2048 : 0 < S512x2048.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  shapeCasts_S1x2048_S1x2048 : S1x2048.ShapeCasts S1x2048
  reduces_S512x2048_S2048 : S512x2048.Reduces [0] S2048
  bcast_S_S1x2048 : S_.BroadcastsInDim S1x2048 (![] : Fin 0 → Fin S1x2048.rank)
  broadcasts_S1x2048_S512x2048 : S1x2048.Broadcasts S512x2048
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  reduces_S512x128_S512 : S512x128.Reduces [1] S512
  shapeCasts_S512_S512x1 : S512.ShapeCasts S512x1
  broadcasts_S512x1_S512x128 : S512x1.Broadcasts S512x128
  inb_S512x128_S512x128_0_0 : ∀ a, (![0, 0] : Fin 2 → Nat) a + S512x128.size a ≤ S512x128.size a
  h_S512x128 : 0 < S512x128.numel
  concatenates_S4096x128_S4096x128_S8192x128_d0 : Shape.Concatenates [S4096x128, S4096x128] S8192x128 0
  concatenates_S4096_S4096_S8192_d0 : Shape.Concatenates [S4096, S4096] S8192 0
  shapeCasts_S8192_S8192x1 : S8192.ShapeCasts S8192x1
  shapeCasts_S8192_S1x8192 : S8192.ShapeCasts S1x8192
  inb_S512x1_S512x1_0_0 : ∀ a, (![0, 0] : Fin 2 → Nat) a + S512x1.size a ≤ S512x1.size a
  h_S512x1 : 0 < S512x1.numel
  shapeCasts_S512x1_S512x1 : S512x1.ShapeCasts S512x1
  shapeCasts_S512x128_S512x128 : S512x128.ShapeCasts S512x128
  iota_S512x512_d0_w32 : S512x512.Iotas .tc 32 [0]
  iota_S512x512_d1_w32 : S512x512.Iotas .tc 32 [1]
  h_S1x512 : 0 < S1x512.numel
  shapeCasts_S1x512_S1x512 : S1x512.ShapeCasts S1x512
  broadcasts_S512x1_S512x512 : S512x1.Broadcasts S512x512
  broadcasts_S1x512_S512x512 : S1x512.Broadcasts S512x512
  reduces_S512x512_S512 : S512x512.Reduces [1] S512
  reducesTo_S8192x1_S_d0_1 : S8192x1.ReducesTo [0, 1] S_
  h_S_ : 0 < S_.numel
  dot_S512x2048_S2048x2048_S512x2048_1_1_0_0_n_n_wf : DotDims.WF S512x2048 S2048x2048 S512x2048 [1] [1] [0] [0] [] []
  dot_S512x2048_S128x2048_S512x128_1_1_0_0_n_n_wf : DotDims.WF S512x2048 S128x2048 S512x128 [1] [1] [0] [0] [] []
  dot_S512x128_S512x128_S512x512_1_1_0_0_n_n_wf : DotDims.WF S512x128 S512x128 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .f32 = 32 ∨ (Rect.block (s := S4096x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S4096x2048.size a
  hwx1_0 : ∀ i : grid1.Coords, EltTy.bits .f32 = 32 ∨ (Rect.block (s := S4096x2048) S512x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x2048.size a ≤ S2048x2048.size a
  hwx1_1 : ∀ i : grid1.Coords, EltTy.bits .bf16 = 32 ∨ (Rect.block (s := S2048x2048) S2048x2048.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x2048.size a
  hwx1_2 : ∀ i : grid1.Coords, EltTy.bits .f32 = 32 ∨ (Rect.block (s := S1x2048) S1x2048.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x2048.size a ≤ S1x2048.size a
  hwx1_3 : ∀ i : grid1.Coords, EltTy.bits .f32 = 32 ∨ (Rect.block (s := S1x2048) S1x2048.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x2048.size a ≤ S4096x2048.size a
  hwx2_0 : ∀ i : grid2.Coords, EltTy.bits .f32 = 32 ∨ (Rect.block (s := S4096x2048) S512x2048.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S2048x2048.size a ≤ S2048x2048.size a
  hwx2_1 : ∀ i : grid2.Coords, EltTy.bits .bf16 = 32 ∨ (Rect.block (s := S2048x2048) S2048x2048.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x2048.size a ≤ S1x2048.size a
  hwx2_2 : ∀ i : grid2.Coords, EltTy.bits .f32 = 32 ∨ (Rect.block (s := S1x2048) S1x2048.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x2048.size a ≤ S1x2048.size a
  hwx2_3 : ∀ i : grid2.Coords, EltTy.bits .f32 = 32 ∨ (Rect.block (s := S1x2048) S1x2048.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x2048.size a ≤ S1x2048.size a
  hwx2_4 : ∀ i : grid2.Coords, EltTy.bits .f32 = 32 ∨ (Rect.block (s := S1x2048) S1x2048.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x2048.size a ≤ S1x2048.size a
  hwx2_5 : ∀ i : grid2.Coords, EltTy.bits .f32 = 32 ∨ (Rect.block (s := S1x2048) S1x2048.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x2048.size a ≤ S128x2048.size a
  hwx2_6 : ∀ i : grid2.Coords, EltTy.bits .bf16 = 32 ∨ (Rect.block (s := S128x2048) S128x2048.size (cc2_transform_6 i) (hinb2_6 i)).WholeWords (EltTy.packing .bf16)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S512x128.size a ≤ S4096x128.size a
  hwx2_7 : ∀ i : grid2.Coords, EltTy.bits .f32 = 32 ∨ (Rect.block (s := S4096x128) S512x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x2048.size a ≤ S4096x2048.size a
  hwx3_0 : ∀ i : grid3.Coords, EltTy.bits .f32 = 32 ∨ (Rect.block (s := S4096x2048) S512x2048.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S2048x2048.size a ≤ S2048x2048.size a
  hwx3_1 : ∀ i : grid3.Coords, EltTy.bits .bf16 = 32 ∨ (Rect.block (s := S2048x2048) S2048x2048.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x2048.size a ≤ S1x2048.size a
  hwx3_2 : ∀ i : grid3.Coords, EltTy.bits .f32 = 32 ∨ (Rect.block (s := S1x2048) S1x2048.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x2048.size a ≤ S1x2048.size a
  hwx3_3 : ∀ i : grid3.Coords, EltTy.bits .f32 = 32 ∨ (Rect.block (s := S1x2048) S1x2048.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x2048.size a ≤ S1x2048.size a
  hwx3_4 : ∀ i : grid3.Coords, EltTy.bits .f32 = 32 ∨ (Rect.block (s := S1x2048) S1x2048.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x2048.size a ≤ S1x2048.size a
  hwx3_5 : ∀ i : grid3.Coords, EltTy.bits .f32 = 32 ∨ (Rect.block (s := S1x2048) S1x2048.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128x2048.size a ≤ S128x2048.size a
  hwx3_6 : ∀ i : grid3.Coords, EltTy.bits .bf16 = 32 ∨ (Rect.block (s := S128x2048) S128x2048.size (cc3_transform_6 i) (hinb3_6 i)).WholeWords (EltTy.packing .bf16)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S512x128.size a ≤ S4096x128.size a
  hwx3_7 : ∀ i : grid3.Coords, EltTy.bits .f32 = 32 ∨ (Rect.block (s := S4096x128) S512x128.size (cc3_transform_7 i) (hinb3_7 i)).WholeWords (EltTy.packing .f32)
  hrank4 : 0 < grid4.rank
  k4_mult1_dvd : ∀ i : grid4.Coords, 512 ∣ (k4_mult1 i).toNat
  k4_mult2_dvd : ∀ i : grid4.Coords, 512 ∣ (k4_mult2 i).toNat
  k4_off1_inb : ∀ i : grid4.Coords, ∀ a, (k4_off1 i) a + S512x128.size a ≤ S8192x128.size a
  k4_off2_inb : ∀ i : grid4.Coords, ∀ a, (k4_off2 i) a + S512x128.size a ≤ S8192x128.size a
  k4_off3_inb : ∀ i : grid4.Coords, ∀ a, (k4_off3 i) a + S512x1.size a ≤ S8192x1.size a
  k4_off4_inb : ∀ i : grid4.Coords, ∀ a, (k4_off4 i) a + S1x512.size a ≤ S1x8192.size a
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S8192x128.size a ≤ S8192x128.size a
  hwx4_0 : ∀ i : grid4.Coords, EltTy.bits .f32 = 32 ∨ (Rect.block (s := S8192x128) S8192x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S8192x1.size a ≤ S8192x1.size a
  hwx4_1 : ∀ i : grid4.Coords, EltTy.bits .f32 = 32 ∨ (Rect.block (s := S8192x1) S8192x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x8192.size a ≤ S1x8192.size a
  hwx4_2 : ∀ i : grid4.Coords, EltTy.bits .f32 = 32 ∨ (Rect.block (s := S1x8192) S1x8192.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S512x1.size a ≤ S8192x1.size a
  hwx4_3 : ∀ i : grid4.Coords, EltTy.bits .f32 = 32 ∨ (Rect.block (s := S8192x1) S512x1.size (cc4_transform_3 i) (hinb4_3 i)).WholeWords (EltTy.packing .f32)

variable [Facts₀]

def dot_S512x2048_S2048x2048_S512x2048_1_1_0_0_n_n : DotDims S512x2048 S2048x2048 S512x2048 where
  lhsContracting := [1]
  rhsContracting := [1]
  lhsNonContracting := [0]
  rhsNonContracting := [0]
  lhsBatch := []
  rhsBatch := []
  wf := dot_S512x2048_S2048x2048_S512x2048_1_1_0_0_n_n_wf
def dot_S512x2048_S128x2048_S512x128_1_1_0_0_n_n : DotDims S512x2048 S128x2048 S512x128 where
  lhsContracting := [1]
  rhsContracting := [1]
  lhsNonContracting := [0]
  rhsNonContracting := [0]
  lhsBatch := []
  rhsBatch := []
  wf := dot_S512x2048_S128x2048_S512x128_1_1_0_0_n_n_wf
def dot_S512x128_S512x128_S512x512_1_1_0_0_n_n : DotDims S512x128 S512x128 S512x512 where
  lhsContracting := [1]
  rhsContracting := [1]
  lhsNonContracting := [0]
  rhsNonContracting := [0]
  lhsBatch := []
  rhsBatch := []
  wf := dot_S512x128_S512x128_S512x512_1_1_0_0_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4_0) S1x2048.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4_1) S1x2048.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2048x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v11_0) S1x2048.size cc1_transform_2 reads1_2 true true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11_1) S1x2048.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg0) S512x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0) S2048x2048.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v6) S1x2048.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v10) S1x2048.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v2) S1x2048.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v3) S1x2048.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v1) S128x2048.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v18) S512x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_arg1) S512x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v0) S2048x2048.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v13) S1x2048.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v17) S1x2048.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v2) S1x2048.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v3) S1x2048.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v1) S128x2048.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v19) S512x128.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v20) S8192x128.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_v22) S8192x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v23) S1x8192.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v24) S512x1.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun _ => false | 3 => fun i => !(k4_cond2 i == 1#1) | ⟨_ + 4, h⟩ => absurd h (Nat.not_lt.2 (Nat.le_add_left _ _))

class Facts : Prop extends Facts₀ where

variable [Facts]
-- ==== ReferenceIdeal.lean ====
abbrev S4096x2048 : Shape := ⟨2, ![4096, 2048]⟩
abbrev S4096 : Shape := ⟨1, ![4096]⟩
abbrev S2048x2048 : Shape := ⟨2, ![2048, 2048]⟩
abbrev S2048 : Shape := ⟨1, ![2048]⟩
abbrev S128x2048 : Shape := ⟨2, ![128, 2048]⟩
abbrev S_ : Shape := ⟨0, ![]⟩
abbrev S1x2048 : Shape := ⟨2, ![1, 2048]⟩
abbrev S2048x128 : Shape := ⟨2, ![2048, 128]⟩
abbrev S4096x128 : Shape := ⟨2, ![4096, 128]⟩
abbrev S4096x1 : Shape := ⟨2, ![4096, 1]⟩
abbrev S4096x4096 : Shape := ⟨2, ![4096, 4096]⟩
abbrev S128x4096 : Shape := ⟨2, ![128, 4096]⟩
abbrev S8192 : Shape := ⟨1, ![8192]⟩
abbrev S8192x1 : Shape := ⟨2, ![8192, 1]⟩
abbrev S8192x1x1 : Shape := ⟨3, ![8192, 1, 1]⟩
abbrev S1x8192x1 : Shape := ⟨3, ![1, 8192, 1]⟩
abbrev S8192x8192x1 : Shape := ⟨3, ![8192, 8192, 1]⟩
abbrev S8192x8192 : Shape := ⟨2, ![8192, 8192]⟩
abbrev S4096x8192 : Shape := ⟨2, ![4096, 8192]⟩

abbrev nBuf : Space → Nat
  | .hbm => 180
  | .vmem => 0
  | .smem => 0
  | _ => 0

abbrev hbmTy0_0 (i : Nat) : BufTy := match i % 128 with
  | 0 => ⟨S4096x2048, .f32⟩
  | 1 => ⟨S4096x2048, .f32⟩
  | 2 => ⟨S4096, .f32⟩
  | 3 => ⟨S2048x2048, .f32⟩
  | 4 => ⟨S2048, .f32⟩
  | 5 => ⟨S2048, .f32⟩
  | 6 => ⟨S128x2048, .f32⟩
  | 7 => ⟨S2048x2048, .f32⟩
  | 8 => ⟨S4096x2048, .f32⟩
  | 9 => ⟨S_, .f32⟩
  | 10 => ⟨S2048, .f32⟩
  | 11 => ⟨S_, .f32⟩
  | 12 => ⟨S2048, .f32⟩
  | 13 => ⟨S2048, .f32⟩
  | 14 => ⟨S1x2048, .f32⟩
  | 15 => ⟨S4096x2048, .f32⟩
  | 16 => ⟨S4096x2048, .f32⟩
  | 17 => ⟨S4096x2048, .f32⟩
  | 18 => ⟨S_, .f32⟩
  | 19 => ⟨S2048, .f32⟩
  | 20 => ⟨S_, .f32⟩
  | 21 => ⟨S2048, .f32⟩
  | 22 => ⟨S2048, .f32⟩
  | 23 => ⟨S1x2048, .f32⟩
  | 24 => ⟨S4096x2048, .f32⟩
  | 25 => ⟨S4096x2048, .f32⟩
  | 26 => ⟨S_, .f32⟩
  | 27 => ⟨S2048, .f32⟩
  | 28 => ⟨S2048, .f32⟩
  | 29 => ⟨S2048, .f32⟩
  | 30 => ⟨S1x2048, .f32⟩
  | 31 => ⟨S4096x2048, .f32⟩
  | 32 => ⟨S4096x2048, .f32⟩
  | 33 => ⟨S1x2048, .f32⟩
  | 34 => ⟨S4096x2048, .f32⟩
  | 35 => ⟨S4096x2048, .f32⟩
  | 36 => ⟨S1x2048, .f32⟩
  | 37 => ⟨S4096x2048, .f32⟩
  | 38 => ⟨S4096x2048, .f32⟩
  | 39 => ⟨S_, .f32⟩
  | 40 => ⟨S4096x2048, .f32⟩
  | 41 => ⟨S4096x2048, .f32⟩
  | 42 => ⟨S2048x128, .f32⟩
  | 43 => ⟨S4096x128, .f32⟩
  | 44 => ⟨S2048x2048, .f32⟩
  | 45 => ⟨S4096x2048, .f32⟩
  | 46 => ⟨S_, .f32⟩
  | 47 => ⟨S2048, .f32⟩
  | 48 => ⟨S_, .f32⟩
  | 49 => ⟨S2048, .f32⟩
  | 50 => ⟨S2048, .f32⟩
  | 51 => ⟨S1x2048, .f32⟩
  | 52 => ⟨S4096x2048, .f32⟩
  | 53 => ⟨S4096x2048, .f32⟩
  | 54 => ⟨S4096x2048, .f32⟩
  | 55 => ⟨S_, .f32⟩
  | 56 => ⟨S2048, .f32⟩
  | 57 => ⟨S_, .f32⟩
  | 58 => ⟨S2048, .f32⟩
  | 59 => ⟨S2048, .f32⟩
  | 60 => ⟨S1x2048, .f32⟩
  | 61 => ⟨S4096x2048, .f32⟩
  | 62 => ⟨S4096x2048, .f32⟩
  | 63 => ⟨S_, .f32⟩
  | 64 => ⟨S2048, .f32⟩
  | 65 => ⟨S2048, .f32⟩
  | 66 => ⟨S2048, .f32⟩
  | 67 => ⟨S1x2048, .f32⟩
  | 68 => ⟨S4096x2048, .f32⟩
  | 69 => ⟨S4096x2048, .f32⟩
  | 70 => ⟨S1x2048, .f32⟩
  | 71 => ⟨S4096x2048, .f32⟩
  | 72 => ⟨S4096x2048, .f32⟩
  | 73 => ⟨S1x2048, .f32⟩
  | 74 => ⟨S4096x2048, .f32⟩
  | 75 => ⟨S4096x2048, .f32⟩
  | 76 => ⟨S_, .f32⟩
  | 77 => ⟨S4096x2048, .f32⟩
  | 78 => ⟨S4096x2048, .f32⟩
  | 79 => ⟨S2048x128, .f32⟩
  | 80 => ⟨S4096x128, .f32⟩
  | 81 => ⟨S4096x128, .f32⟩
  | 82 => ⟨S_, .f32⟩
  | 83 => ⟨S4096, .f32⟩
  | 84 => ⟨S4096x1, .f32⟩
  | 85 => ⟨S4096x1, .f32⟩
  | 86 => ⟨S4096x128, .f32⟩
  | 87 => ⟨S4096x128, .f32⟩
  | 88 => ⟨S4096x128, .f32⟩
  | 89 => ⟨S_, .f32⟩
  | 90 => ⟨S4096, .f32⟩
  | 91 => ⟨S4096x1, .f32⟩
  | 92 => ⟨S4096x1, .f32⟩
  | 93 => ⟨S4096x128, .f32⟩
  | 94 => ⟨S4096x128, .f32⟩
  | 95 => ⟨S4096x4096, .i32⟩
  | 96 => ⟨S4096x4096, .i32⟩
  | 97 => ⟨S_, .i32⟩
  | 98 => ⟨S4096x4096, .i32⟩
  | 99 => ⟨S4096x4096, .i32⟩
  | 100 => ⟨S4096x4096, .i1⟩
  | 101 => ⟨S4096x4096, .f32⟩
  | 102 => ⟨S128x4096, .f32⟩
  | 103 => ⟨S4096x4096, .f32⟩
  | 104 => ⟨S_, .f32⟩
  | 105 => ⟨S4096x4096, .f32⟩
  | 106 => ⟨S4096x4096, .f32⟩
  | 107 => ⟨S_, .f32⟩
  | 108 => ⟨S4096x4096, .f32⟩
  | 109 => ⟨S4096x4096, .f32⟩
  | 110 => ⟨S4096x4096, .f32⟩
  | 111 => ⟨S128x4096, .f32⟩
  | 112 => ⟨S4096x4096, .f32⟩
  | 113 => ⟨S_, .f32⟩
  | 114 => ⟨S4096x4096, .f32⟩
  | 115 => ⟨S4096x4096, .f32⟩
  | 116 => ⟨S_, .f32⟩
  | 117 => ⟨S4096x4096, .f32⟩
  | 118 => ⟨S4096x4096, .f32⟩
  | 119 => ⟨S4096x4096, .f32⟩
  | 120 => ⟨S128x4096, .f32⟩
  | 121 => ⟨S4096x4096, .f32⟩
  | 122 => ⟨S_, .f32⟩
  | 123 => ⟨S4096x4096, .f32⟩
  | 124 => ⟨S4096x4096, .f32⟩
  | 125 => ⟨S8192, .f32⟩
  | 126 => ⟨S8192x1, .f32⟩
  | 127 => ⟨S8192x1x1, .f32⟩
  | _ => ⟨S4096x2048, .f32⟩

abbrev hbmTy0_1 (i : Nat) : BufTy := match i % 128 with
  | 0 => ⟨S1x8192x1, .f32⟩
  | 1 => ⟨S8192x8192x1, .f32⟩
  | 2 => ⟨S8192x8192x1, .f32⟩
  | 3 => ⟨S8192x8192x1, .f32⟩
  | 4 => ⟨S8192x8192x1, .f32⟩
  | 5 => ⟨S_, .f32⟩
  | 6 => ⟨S8192x8192, .f32⟩
  | 7 => ⟨S_, .f32⟩
  | 8 => ⟨S8192x8192, .f32⟩
  | 9 => ⟨S8192x8192, .f32⟩
  | 10 => ⟨S8192x8192, .f32⟩
  | 11 => ⟨S8192x8192, .i32⟩
  | 12 => ⟨S8192x8192, .i32⟩
  | 13 => ⟨S_, .i32⟩
  | 14 => ⟨S8192x8192, .i32⟩
  | 15 => ⟨S8192x8192, .i32⟩
  | 16 => ⟨S8192x8192, .i1⟩
  | 17 => ⟨S8192x8192, .f32⟩
  | 18 => ⟨S_, .f32⟩
  | 19 => ⟨S8192x8192, .f32⟩
  | 20 => ⟨S8192x8192, .f32⟩
  | 21 => ⟨S8192x8192, .f32⟩
  | 22 => ⟨S_, .f32⟩
  | 23 => ⟨S8192, .f32⟩
  | 24 => ⟨S8192x1, .f32⟩
  | 25 => ⟨S8192x8192, .f32⟩
  | 26 => ⟨S8192x8192, .f32⟩
  | 27 => ⟨S4096x8192, .f32⟩
  | 28 => ⟨S4096x4096, .f32⟩
  | 29 => ⟨S4096x8192, .f32⟩
  | 30 => ⟨S8192x8192, .f32⟩
  | 31 => ⟨S_, .f32⟩
  | 32 => ⟨S8192, .f32⟩
  | 33 => ⟨S_, .f32⟩
  | 34 => ⟨S8192, .f32⟩
  | 35 => ⟨S8192, .f32⟩
  | 36 => ⟨S8192x1, .f32⟩
  | 37 => ⟨S8192x8192, .f32⟩
  | 38 => ⟨S8192x8192, .f32⟩
  | 39 => ⟨S8192x8192, .f32⟩
  | 40 => ⟨S_, .f32⟩
  | 41 => ⟨S8192, .f32⟩
  | 42 => ⟨S8192x1, .f32⟩
  | 43 => ⟨S8192x1, .f32⟩
  | 44 => ⟨S8192x8192, .f32⟩
  | 45 => ⟨S8192x8192, .f32⟩
  | 46 => ⟨S8192x8192, .f32⟩
  | 47 => ⟨S_, .f32⟩
  | 48 => ⟨S_, .f32⟩
  | 49 => ⟨S_, .f32⟩
  | 50 => ⟨S_, .f32⟩
  | 51 => ⟨S_, .f32⟩
  | _ => ⟨S4096x2048, .f32⟩

abbrev hbmTy (i : Nat) : BufTy := match i / 128 with
  | 0 => hbmTy0_0 i
  | 1 => hbmTy0_1 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_call0_cst : Ref sig .tc := ⟨.hbm, 39, rfl⟩
abbrev main_call0_v0 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_6 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_8 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_call1_cst : Ref sig .tc := ⟨.hbm, 76, rfl⟩
abbrev main_call1_v0 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_call2_v0 : Ref sig .tc := ⟨.hbm, 81, rfl⟩
abbrev main_call2_cst : Ref sig .tc := ⟨.hbm, 82, rfl⟩
abbrev main_call2_v1 : Ref sig .tc := ⟨.hbm, 83, rfl⟩
abbrev main_call2_v2 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_call3_v0 : Ref sig .tc := ⟨.hbm, 88, rfl⟩
abbrev main_call3_cst : Ref sig .tc := ⟨.hbm, 89, rfl⟩
abbrev main_call3_v1 : Ref sig .tc := ⟨.hbm, 90, rfl⟩
abbrev main_call3_v2 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_c : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_9 : Ref sig .tc := ⟨.hbm, 104, rfl⟩
abbrev main_v74 : Ref sig .tc := ⟨.hbm, 105, rfl⟩
abbrev main_v75 : Ref sig .tc := ⟨.hbm, 106, rfl⟩
abbrev main_cst_10 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_cst_11 : Ref sig .tc := ⟨.hbm, 113, rfl⟩
abbrev main_v81 : Ref sig .tc := ⟨.hbm, 114, rfl⟩
abbrev main_v82 : Ref sig .tc := ⟨.hbm, 115, rfl⟩
abbrev main_cst_12 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_cst_13 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_cst_14 : Ref sig .tc := ⟨.hbm, 133, rfl⟩
abbrev main_v98 : Ref sig .tc := ⟨.hbm, 134, rfl⟩
abbrev main_cst_15 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_c_16 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_cst_17 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_cst_18 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_call4_cst : Ref sig .tc := ⟨.hbm, 159, rfl⟩
abbrev main_call4_v0 : Ref sig .tc := ⟨.hbm, 160, rfl⟩
abbrev main_call4_cst_0 : Ref sig .tc := ⟨.hbm, 161, rfl⟩
abbrev main_call4_v1 : Ref sig .tc := ⟨.hbm, 162, rfl⟩
abbrev main_call4_v2 : Ref sig .tc := ⟨.hbm, 163, rfl⟩
abbrev main_call4_v3 : Ref sig .tc := ⟨.hbm, 164, rfl⟩
abbrev main_call4_v4 : Ref sig .tc := ⟨.hbm, 165, rfl⟩
abbrev main_call4_v5 : Ref sig .tc := ⟨.hbm, 166, rfl⟩
abbrev main_call4_v6 : Ref sig .tc := ⟨.hbm, 167, rfl⟩
abbrev main_call4_cst_1 : Ref sig .tc := ⟨.hbm, 168, rfl⟩
abbrev main_call4_v7 : Ref sig .tc := ⟨.hbm, 169, rfl⟩
abbrev main_call4_v8 : Ref sig .tc := ⟨.hbm, 170, rfl⟩
abbrev main_call4_v9 : Ref sig .tc := ⟨.hbm, 171, rfl⟩
abbrev main_call4_v10 : Ref sig .tc := ⟨.hbm, 172, rfl⟩
abbrev main_v119 : Ref sig .tc := ⟨.hbm, 173, rfl⟩
abbrev main_v120 : Ref sig .tc := ⟨.hbm, 174, rfl⟩
abbrev main_cst_19 : Ref sig .tc := ⟨.hbm, 175, rfl⟩
abbrev main_v121 : Ref sig .tc := ⟨.hbm, 176, rfl⟩
abbrev main_v122 : Ref sig .tc := ⟨.hbm, 177, rfl⟩
abbrev main_cst_20 : Ref sig .tc := ⟨.hbm, 178, rfl⟩
abbrev main_v123 : Ref sig .tc := ⟨.hbm, 179, rfl⟩

abbrev nD : Nat := 1
abbrev τ : Topo := Topo.v7x

variable {F : FTy → Type} [FloatOps F]

class Facts₀ : Prop where
  transposes_S2048x2048_S2048x2048_1_0 : S2048x2048.Transposes [1, 0] S2048x2048
  reducesTo_S4096x2048_S2048_d0 : S4096x2048.ReducesTo [0] S2048
  h_S_ : 0 < S_.numel
  bcast_S_S2048 : S_.BroadcastsInDim S2048 (![] : Fin 0 → Fin S2048.rank)
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  bcast_S_S4096x2048 : S_.BroadcastsInDim S4096x2048 (![] : Fin 0 → Fin S4096x2048.rank)
  transposes_S128x2048_S2048x128_1_0 : S128x2048.Transposes [1, 0] S2048x128
  reducesTo_S4096x128_S4096_d1 : S4096x128.ReducesTo [1] S4096
  bcast_S4096_S4096x1_0 : S4096.BroadcastsInDim S4096x1 (![0] : Fin 1 → Fin S4096x1.rank)
  bcast_S4096x1_S4096x128_0_1 : S4096x1.BroadcastsInDim S4096x128 (![0, 1] : Fin 2 → Fin S4096x128.rank)
  bcast_S_S4096x4096 : S_.BroadcastsInDim S4096x4096 (![] : Fin 0 → Fin S4096x4096.rank)
  transposes_S4096x128_S128x4096_1_0 : S4096x128.Transposes [1, 0] S128x4096
  concatenates_S4096_S4096_S8192_d0 : Shape.Concatenates [S4096, S4096] S8192 0
  shapeCasts_S8192_S8192x1 : S8192.ShapeCasts S8192x1
  bcast_S8192x1_S8192x1x1_0_2 : S8192x1.BroadcastsInDim S8192x1x1 (![0, 2] : Fin 2 → Fin S8192x1x1.rank)
  bcast_S8192x1_S1x8192x1_1_2 : S8192x1.BroadcastsInDim S1x8192x1 (![1, 2] : Fin 2 → Fin S1x8192x1.rank)
  bcast_S8192x1x1_S8192x8192x1_0_1_2 : S8192x1x1.BroadcastsInDim S8192x8192x1 (![0, 1, 2] : Fin 3 → Fin S8192x8192x1.rank)
  bcast_S1x8192x1_S8192x8192x1_0_1_2 : S1x8192x1.BroadcastsInDim S8192x8192x1 (![0, 1, 2] : Fin 3 → Fin S8192x8192x1.rank)
  reducesTo_S8192x8192x1_S8192x8192_d2 : S8192x8192x1.ReducesTo [2] S8192x8192
  bcast_S_S8192x8192 : S_.BroadcastsInDim S8192x8192 (![] : Fin 0 → Fin S8192x8192.rank)
  reducesTo_S8192x8192_S8192_d1 : S8192x8192.ReducesTo [1] S8192
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  concatenates_S4096x4096_S4096x4096_S4096x8192_d1 : Shape.Concatenates [S4096x4096, S4096x4096] S4096x8192 1
  transposes_S4096x4096_S4096x4096_1_0 : S4096x4096.Transposes [1, 0] S4096x4096
  concatenates_S4096x8192_S4096x8192_S8192x8192_d0 : Shape.Concatenates [S4096x8192, S4096x8192] S8192x8192 0
  bcast_S_S8192 : S_.BroadcastsInDim S8192 (![] : Fin 0 → Fin S8192.rank)
  reducesTo_S8192x8192_S_d0_1 : S8192x8192.ReducesTo [0, 1] S_
  dot_S4096x2048_S2048x2048_S4096x2048_1_0_0_1_n_n_wf : DotDims.WF S4096x2048 S2048x2048 S4096x2048 [1] [0] [0] [1] [] []
  dot_S4096x2048_S2048x128_S4096x128_1_0_0_1_n_n_wf : DotDims.WF S4096x2048 S2048x128 S4096x128 [1] [0] [0] [1] [] []
  dot_S4096x128_S128x4096_S4096x4096_1_0_0_1_n_n_wf : DotDims.WF S4096x128 S128x4096 S4096x4096 [1] [0] [0] [1] [] []

variable [Facts₀]

def dot_S4096x2048_S2048x2048_S4096x2048_1_0_0_1_n_n : DotDims S4096x2048 S2048x2048 S4096x2048 where
  lhsContracting := [1]
  rhsContracting := [0]
  lhsNonContracting := [0]
  rhsNonContracting := [1]
  lhsBatch := []
  rhsBatch := []
  wf := dot_S4096x2048_S2048x2048_S4096x2048_1_0_0_1_n_n_wf
def dot_S4096x2048_S2048x128_S4096x128_1_0_0_1_n_n : DotDims S4096x2048 S2048x128 S4096x128 where
  lhsContracting := [1]
  rhsContracting := [0]
  lhsNonContracting := [0]
  rhsNonContracting := [1]
  lhsBatch := []
  rhsBatch := []
  wf := dot_S4096x2048_S2048x128_S4096x128_1_0_0_1_n_n_wf
def dot_S4096x128_S128x4096_S4096x4096_1_0_0_1_n_n : DotDims S4096x128 S128x4096 S4096x4096 where
  lhsContracting := [1]
  rhsContracting := [0]
  lhsNonContracting := [0]
  rhsNonContracting := [1]
  lhsBatch := []
  rhsBatch := []
  wf := dot_S4096x128_S128x4096_S4096x4096_1_0_0_1_n_n_wf

class Facts : Prop extends Facts₀ where

variable [Facts]
-- ==== Proof.Carry.lean ====
import Idealize.ShloMosaic.Lib.Pipeline.Value

namespace Cert.Carry

open Idealize.ShloMosaic Idealize.ShloMosaic.Pipeline

variable {α : Type*} {N : ℕ} (g : (n : ℕ) → n < N → α → α) (z : α)

/-- `z` stepped through the points `0 … n`: the library's fold from the first point, its reset the step on `z`. -/
def row (n : ℕ) (h : n < N) : α := accAt (fun n h => g n h z) g 0 n ((Nat.zero_add n).symm ▸ h)

theorem row_first (t : Fin N) (h0 : t.val = 0) : row g z t.val t.isLt = g t.val t.isLt z := by
  obtain ⟨n, hn⟩ := t
  cases n with
  | zero => rfl
  | succ n => exact absurd h0 (Nat.succ_ne_zero n)

theorem row_later (t : Fin N) (h0 : t.val ≠ 0) :
    row g z t.val t.isLt = g t.val t.isLt (row g z (t.val - 1) (Nat.lt_of_le_of_lt (Nat.sub_le _ _) t.isLt)) := by
  obtain ⟨n, hn⟩ := t
  cases n with
  | zero => exact absurd rfl h0
  | succ n =>
    have e : ∀ m (e : m = n + 1) (h : m < N) x, g m h x = g (n + 1) (e ▸ h) x := by rintro _ rfl _ _; rfl
    exact (accAt_succ _ g 0 n _).trans (e _ (Nat.zero_add _) _ _)

/-- If the step adds `M n` at index `i` and `z` is zero there, the carried value at `i` is the sum of the additions. -/
theorem row_apply {ι β : Type*} [AddCommMonoid β] {N : ℕ} (g : (n : ℕ) → n < N → (ι → β) → ι → β) (z : ι → β) (i : ι)
    (M : ℕ → β) (hz : z i = 0) (hg : ∀ n h s, g n h s i = s i + M n) :
    ∀ n h, row g z n h i = ∑ t ∈ Finset.range (n + 1), M t
  | 0, h => by rw [Finset.sum_range_one]; exact (hg 0 h z).trans (by rw [hz, zero_add])
  | n + 1, h => by
    rw [Finset.sum_range_succ, ← row_apply g z i M hz hg n (Nat.lt_of_succ_lt h)]
    exact (congrFun (row_later g z ⟨n + 1, h⟩ n.succ_ne_zero) i).trans (hg _ _ _)

end Cert.Carry
-- ==== Proof.KReg0.lean ====
import proofs.«115278_j52183852646963_1_alg».proof.Proof.Gen.Kernel.Launch
import proofs.«115278_j52183852646963_1_alg».proof.Proof.Gen.Kernel.Skeleton
import proofs.«115278_j52183852646963_1_alg».proof.Proof.Gen.Kernel.Points
import proofs.«115278_j52183852646963_1_alg».proof.Proof.Carry
import Idealize.ShloMosaic.Lib.Pipeline.FrameSuffix
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

abbrev cond0 (i : grid0.Coords) : Prop :=
  (Scalar.cmpi .ne (Scalar.extui (Scalar.cmpi .eq (BitVec.ofNat 32 (i 0).val) 0#32)) 0#32) = 1#1

theorem hcond0 : ∀ t : Fin cfg0.N, cond0 (grid0.coords t) ↔ t.val = 0 :=
  (by decide +kernel : ∀ t : Fin grid0.N, cond0 (grid0.coords t) ↔ t.val = 0)

theorem hzero0 : (![0, 0] : Fin 2 → Nat) = fun _ => 0 := funext fun a => by fin_cases a <;> rfl

set_option maxHeartbeats 1000000 in
/-- At the first point the body zeroes the two rows; at every point it then adds to each the block product's column sums (of squares). -/
theorem sound_kernel0_pt (c : Dev nD) (E : Set ℕ) (i : grid0.Coords)
    (arg1 : Memref sig .tc .vmem S512x2048 .f32) (harg1 : arg1.IsWhole)
    (arg2 : Memref sig .tc .vmem S2048x2048 .bf16) (harg2 : arg2.IsWhole)
    (arg3 : Memref sig .tc .vmem S1x2048 .f32) (harg3 : arg3.IsWhole)
    (arg4 : Memref sig .tc .vmem S1x2048 .f32) (harg4 : arg4.IsWhole)
    (x : Vec F S512x2048 .f32) (w : Vec F S2048x2048 .bf16) (s q : Vec F S1x2048 .f32) (K : PUnit → sProp 𝕄) :
    iprop(owns (c : Thread nD τ) arg1 fullShare x ∗ owns (c : Thread nD τ) arg2 fullShare w
        ∗ owns (c : Thread nD τ) arg3 fullShare s ∗ owns (c : Thread nD τ) arg4 fullShare q
        ∗ (iprop(owns (c : Thread nD τ) arg1 fullShare x ∗ owns (c : Thread nD τ) arg2 fullShare w
            ∗ owns (c : Thread nD τ) arg3 fullShare (k0_pay4 x w (if cond0 i then k0_pay1 else s))
            ∗ owns (c : Thread nD τ) arg4 fullShare (k0_pay5 x w (if cond0 i then k0_pay2 else q))) -∗ K ⟨⟩))
      ⊢ wp frame (wpE (defs₀ (F := F)) Variants.none c none) E (cc0__stats_kernel i arg1 harg1 arg2 harg2 arg3 harg3 arg4 harg4) K := by
  simp only [cc0__stats_kernel_eq_skeleton]; unfold cc0__stats_kernel_skel owns
  by_cases hc : cond0 i
  all_goals
    first | simp only [@if_pos (cond0 i) _ hc] | simp only [@if_neg (cond0 i) _ hc]
    iintro ⟨⟨%f1, %hf1, H1⟩, ⟨%f2, %hf2, H2⟩, ⟨%f3, %hf3, H3⟩, ⟨%f4, %hf4, H4⟩, Hk⟩
    obtain rfl := harg1.eq_unread hf1
    obtain rfl := harg2.eq_unread hf2
    obtain rfl := harg3.eq_unread hf3
    obtain rfl := harg4.eq_unread hf4
    sl_exec (disch := first | exact hc)
    sl_step
    iapply Hk
    isplitl [H1]
    · iexists _; isplitr; · ipureintro; exact harg1.read_unread _
      iexact H1
    isplitl [H2]
    · iexists _; isplitr; · ipureintro; exact harg2.read_unread _
      iexact H2
    isplitl [H3] <;>
    · iexists _; isplitr
      swap; · first | iexact H3 | iexact H4
      ipureintro
      first
      | have : cond0 i := hc
        sl_unfold_words
        rw [View.read_writes_eq_canon _ _ _ (fun y => ⟨_, List.mem_cons_self, View.mem_set_unit_zero hzero0 inb_S1x2048_S1x2048_0_0 y⟩),
          View.canon_cons_unit_zero (S := S1x2048) hzero0, View.readCov_unit_zero (S := S1x2048) _ hzero0]
        simp only [View.readAt_eq_ld, harg1.read_unread, harg2.read_unread, View.ld_unit_zero (S := S512x2048) hzero0,
          View.ld_unit_zero (S := S2048x2048) hzero0]
      | rw [View.read_writes_eq_canon _ _ _ (fun y => ⟨_, List.mem_singleton_self _, View.mem_set_unit_zero hzero0 inb_S1x2048_S1x2048_0_0 y⟩),
          View.canon_unit_zero (S := S1x2048) hzero0]
        simp only [View.readAt_eq_ld, harg1.read_unread, harg2.read_unread, harg3.read_unread, harg4.read_unread,
          View.ld_unit_zero (S := S512x2048) hzero0, View.ld_unit_zero (S := S2048x2048) hzero0, View.ld_unit_zero (S := S1x2048) hzero0]

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev xblk0 (c : Dev nD) (t : Fin cfg0.N) : Vec F S512x2048 .f32 := iblk0 V c 0 t
abbrev wblk0 (c : Dev nD) (t : Fin cfg0.N) : Vec F S2048x2048 .bf16 := iblk0 V c 1 t

/-- The two carried rows after point `n`: the zero row updated by the blocks of the points `0 … n`, in order. -/
def acc0_2 (c : Dev nD) (n : ℕ) (h : n < cfg0.N) : Vec F S1x2048 .f32 :=
  Carry.row (fun n h => k0_pay4 (xblk0 V c ⟨n, h⟩) (wblk0 V c ⟨n, h⟩)) k0_pay1 n h

def acc0_3 (c : Dev nD) (n : ℕ) (h : n < cfg0.N) : Vec F S1x2048 .f32 :=
  Carry.row (fun n h => k0_pay5 (xblk0 V c ⟨n, h⟩) (wblk0 V c ⟨n, h⟩)) k0_pay2 n h

def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => acc0_2 V c t.val t.isLt
    | ⟨3, _⟩ => acc0_3 V c t.val t.isLt
  Φ _ := Pipeline.ΦA spec0 c
  q _ := fullShare
  owed _ := 0

theorem A_eq0 (c : Dev nD) (w : Fin cfg0.W) : (dat0 V c).A w = V c (Pipeline.arrRef spec0 w) := rfl

theorem before0_in (c : Dev nD) (t : Fin cfg0.N) :
    (∀ d, (dat0 V c).before 0 t d = iblk0 V c 0 t) ∧ ∀ d, (dat0 V c).before 1 t d = iblk0 V c 1 t := by
  constructor <;> intro d <;>
  exact ((dat0 V c).before_in_eq_fetched _ rfl (fun _ => rfl) (fun _ _ _ => rfl) (fun _ => rfl) t d).trans rfl

theorem after0_in (c : Dev nD) (t : Fin cfg0.N) :
    (dat0 V c).after 0 t = iblk0 V c 0 t ∧ (dat0 V c).after 1 t = iblk0 V c 1 t := by
  dsimp only [dat0]
  exact ⟨rfl, rfl⟩

theorem flush0_out (w : Fin cfg0.W) (hw : w = 2 ∨ w = 3) (t : Fin cfg0.N) : (cfg0.win w).flush t = true ↔ t.val = 7 := by
  have := t.isLt
  have hN : cfg0.N = 8 := N_0
  rcases hw with rfl | rfl
  · rw [flush0_2]; omega
  · rw [flush0_3]; omega

theorem before0_out (c : Dev nD) (w : Fin cfg0.W) (hw : w = 2 ∨ w = 3) (t : Fin cfg0.N) (h0 : t.val ≠ 0) (d) :
    (dat0 V c).before w t d = (dat0 V c).after w ⟨t.val - 1, Nat.lt_of_le_of_lt (Nat.sub_le _ _) t.isLt⟩ := by
  have hN : t.val < 8 := lt_of_lt_of_eq t.isLt (show cfg0.N = 8 from N_0)
  have hf := Bool.eq_false_iff.mpr fun h => by have := (flush0_out w hw ⟨t.val - 1, Nat.lt_of_le_of_lt (Nat.sub_le _ _) t.isLt⟩).mp h; dsimp only at this; omega
  rcases hw with rfl | rfl <;> exact Dat.before_out_kept _ _ rfl t h0 hf (fun _ => rfl) (fun _ _ => rfl) d

/-- A carried row after point `t` updates the zero row at the first point, the row carried from the point before at a later one. -/
theorem after0_out (c : Dev nD) (t : Fin cfg0.N) (d2 d3) :
    (dat0 V c).after 2 t
        = k0_pay4 (xblk0 V c t) (wblk0 V c t) (if cond0 (grid0.coords t) then k0_pay1 else (dat0 V c).before 2 t d2)
      ∧ (dat0 V c).after 3 t
        = k0_pay5 (xblk0 V c t) (wblk0 V c t) (if cond0 (grid0.coords t) then k0_pay2 else (dat0 V c).before 3 t d3) := by
  by_cases h0 : t.val = 0
  · rw [if_pos ((hcond0 t).mpr h0), if_pos ((hcond0 t).mpr h0)]
    dsimp only [dat0]
    exact ⟨Carry.row_first _ _ t h0, Carry.row_first _ _ t h0⟩
  · rw [if_neg (h0 ∘ (hcond0 t).mp), if_neg (h0 ∘ (hcond0 t).mp), before0_out V c 2 (.inl rfl) t h0,
      before0_out V c 3 (.inr rfl) t h0]
    dsimp only [dat0]
    exact ⟨Carry.row_later _ _ t h0, Carry.row_later _ _ t h0⟩

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [(before0_in V c t).1, (before0_in V c t).2, (after0_in V c t).1, (after0_in V c t).2]
  rw [show (dat0 V c).Φ t.succ = (dat0 V c).Φ t.castSucc from rfl,
    show (dat0 V c).owesAt () t.succ = (dat0 V c).owesAt () t.castSucc from rfl]
  iintro ⟨HΦ, Ho, ⟨%d0, H0⟩, ⟨%d1, H1⟩, ⟨%d2, H2⟩, ⟨%d3, H3⟩⟩
  rw [(after0_out V c t d2 d3).1, (after0_out V c t d2 d3).2]
  iapply (sound_kernel0_pt c Set.univ (grid0.coords t) _ _ _ _ _ _ _ _ (xblk0 V c t) (wblk0 V c t) _ _ _)
  iframe
  iintro ⟨H0, H1, H2, H3⟩
  iframe

theorem body_obligation0 (c : Dev nD) : BodyObligation (dat0 (F := F) V c) (defs₀ (F := F)) Variants.none () Set.univ := fun t => by
  rw [bigSep_W0, bigSep_W0]
  exact sound_body0 V c t

theorem lt_N0 : 7 < cfg0.N := by rw [show cfg0.N = 8 from N_0]; decide

abbrev out0_2 (c : Dev nD) : Buf (Elt F) ((c : Thread nD τ).loc main_v4_0) := acc0_2 V c 7 lt_N0
abbrev out0_3 (c : Dev nD) : Buf (Elt F) ((c : Thread nD τ).loc main_v4_1) := acc0_3 V c 7 lt_N0

/-- A row's one block is its whole array, so the array ends at the row carried after the last point. -/
theorem arrAt0_2 (c : Dev nD) : (dat0 V c).arrAt 2 cfg0.N = out0_2 V c :=
  (dat0 V c).arrAt_eq_of_cover 2 _ (fun t hf => by
      obtain rfl : t = t0_7 := Fin.ext ((flush0_out 2 (.inl rfl) t).mp hf)
      refine Eq.trans ?_ (Memref.read_access_unit_zero (Elt F) main_v4_0
        (off := fun a => win0_2.index t0_7 a * main_v4_0.ty.shape.size a) (funext (by decide)) (by decide) _).symm
      dsimp only [dat0]
      rfl)
    fun i => ⟨t0_7, (flush0_2 t0_7).mpr rfl, by
      show i ∈ ((View.whole main_v4_0).slice (win0_2.rect t0_7)).set
      rw [View.set_slice_whole, Rect.mem_set_unit]
      exact fun a => by fin_cases a <;> exact ⟨Nat.zero_le _, (i _).isLt⟩⟩

theorem arrAt0_3 (c : Dev nD) : (dat0 V c).arrAt 3 cfg0.N = out0_3 V c :=
  (dat0 V c).arrAt_eq_of_cover 3 _ (fun t hf => by
      obtain rfl : t = t0_7 := Fin.ext ((flush0_out 3 (.inr rfl) t).mp hf)
      refine Eq.trans ?_ (Memref.read_access_unit_zero (Elt F) main_v4_1
        (off := fun a => win0_3.index t0_7 a * main_v4_1.ty.shape.size a) (funext (by decide)) (by decide) _).symm
      dsimp only [dat0]
      rfl)
    fun i => ⟨t0_7, (flush0_3 t0_7).mpr rfl, by
      show i ∈ ((View.whole main_v4_1).slice (win0_3.rect t0_7)).set
      rw [View.set_slice_whole, Rect.mem_set_unit]
      exact fun a => by fin_cases a <;> exact ⟨Nat.zero_le _, (i _).isLt⟩⟩

end Cert.Kernel.Hand

end
-- ==== Proof.KReg1.lean ====
import proofs.«115278_j52183852646963_1_alg».proof.Proof.Gen.Kernel.Launch
import proofs.«115278_j52183852646963_1_alg».proof.Proof.Gen.Kernel.Skeleton
import proofs.«115278_j52183852646963_1_alg».proof.Proof.Gen.Kernel.Points
import proofs.«115278_j52183852646963_1_alg».proof.Proof.Carry
import Idealize.ShloMosaic.Lib.Pipeline.FrameSuffix
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

abbrev cond1 (i : grid1.Coords) : Prop :=
  (Scalar.cmpi .ne (Scalar.extui (Scalar.cmpi .eq (BitVec.ofNat 32 (i 0).val) 0#32)) 0#32) = 1#1

theorem hcond1 : ∀ t : Fin cfg1.N, cond1 (grid1.coords t) ↔ t.val = 0 :=
  (by decide +kernel : ∀ t : Fin grid1.N, cond1 (grid1.coords t) ↔ t.val = 0)

theorem hzero1 : (![0, 0] : Fin 2 → Nat) = fun _ => 0 := funext fun a => by fin_cases a <;> rfl

set_option maxHeartbeats 1000000 in
/-- At the first point the body zeroes the two rows; at every point it then adds to each the block product's column sums (of squares). -/
theorem sound_kernel1_pt (c : Dev nD) (E : Set ℕ) (i : grid1.Coords)
    (arg1 : Memref sig .tc .vmem S512x2048 .f32) (harg1 : arg1.IsWhole)
    (arg2 : Memref sig .tc .vmem S2048x2048 .bf16) (harg2 : arg2.IsWhole)
    (arg3 : Memref sig .tc .vmem S1x2048 .f32) (harg3 : arg3.IsWhole)
    (arg4 : Memref sig .tc .vmem S1x2048 .f32) (harg4 : arg4.IsWhole)
    (x : Vec F S512x2048 .f32) (w : Vec F S2048x2048 .bf16) (s q : Vec F S1x2048 .f32) (K : PUnit → sProp 𝕄) :
    iprop(owns (c : Thread nD τ) arg1 fullShare x ∗ owns (c : Thread nD τ) arg2 fullShare w
        ∗ owns (c : Thread nD τ) arg3 fullShare s ∗ owns (c : Thread nD τ) arg4 fullShare q
        ∗ (iprop(owns (c : Thread nD τ) arg1 fullShare x ∗ owns (c : Thread nD τ) arg2 fullShare w
            ∗ owns (c : Thread nD τ) arg3 fullShare (k1_pay4 x w (if cond1 i then k1_pay1 else s))
            ∗ owns (c : Thread nD τ) arg4 fullShare (k1_pay5 x w (if cond1 i then k1_pay2 else q))) -∗ K ⟨⟩))
      ⊢ wp frame (wpE (defs₀ (F := F)) Variants.none c none) E (cc1__stats_kernel i arg1 harg1 arg2 harg2 arg3 harg3 arg4 harg4) K := by
  simp only [cc1__stats_kernel_eq_skeleton]; unfold cc1__stats_kernel_skel owns
  by_cases hc : cond1 i
  all_goals
    first | simp only [@if_pos (cond1 i) _ hc] | simp only [@if_neg (cond1 i) _ hc]
    iintro ⟨⟨%f1, %hf1, H1⟩, ⟨%f2, %hf2, H2⟩, ⟨%f3, %hf3, H3⟩, ⟨%f4, %hf4, H4⟩, Hk⟩
    obtain rfl := harg1.eq_unread hf1
    obtain rfl := harg2.eq_unread hf2
    obtain rfl := harg3.eq_unread hf3
    obtain rfl := harg4.eq_unread hf4
    sl_exec (disch := first | exact hc)
    sl_step
    iapply Hk
    isplitl [H1]
    · iexists _; isplitr; · ipureintro; exact harg1.read_unread _
      iexact H1
    isplitl [H2]
    · iexists _; isplitr; · ipureintro; exact harg2.read_unread _
      iexact H2
    isplitl [H3] <;>
    · iexists _; isplitr
      swap; · first | iexact H3 | iexact H4
      ipureintro
      first
      | have : cond1 i := hc
        sl_unfold_words
        rw [View.read_writes_eq_canon _ _ _ (fun y => ⟨_, List.mem_cons_self, View.mem_set_unit_zero hzero1 inb_S1x2048_S1x2048_0_0 y⟩),
          View.canon_cons_unit_zero (S := S1x2048) hzero1, View.readCov_unit_zero (S := S1x2048) _ hzero1]
        simp only [View.readAt_eq_ld, harg1.read_unread, harg2.read_unread, View.ld_unit_zero (S := S512x2048) hzero1,
          View.ld_unit_zero (S := S2048x2048) hzero1]
      | rw [View.read_writes_eq_canon _ _ _ (fun y => ⟨_, List.mem_singleton_self _, View.mem_set_unit_zero hzero1 inb_S1x2048_S1x2048_0_0 y⟩),
          View.canon_unit_zero (S := S1x2048) hzero1]
        simp only [View.readAt_eq_ld, harg1.read_unread, harg2.read_unread, harg3.read_unread, harg4.read_unread,
          View.ld_unit_zero (S := S512x2048) hzero1, View.ld_unit_zero (S := S2048x2048) hzero1, View.ld_unit_zero (S := S1x2048) hzero1]

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev xblk1 (c : Dev nD) (t : Fin cfg1.N) : Vec F S512x2048 .f32 := iblk1 V c 0 t
abbrev wblk1 (c : Dev nD) (t : Fin cfg1.N) : Vec F S2048x2048 .bf16 := iblk1 V c 1 t

/-- The two carried rows after point `n`: the zero row updated by the blocks of the points `0 … n`, in order. -/
def acc1_2 (c : Dev nD) (n : ℕ) (h : n < cfg1.N) : Vec F S1x2048 .f32 :=
  Carry.row (fun n h => k1_pay4 (xblk1 V c ⟨n, h⟩) (wblk1 V c ⟨n, h⟩)) k1_pay1 n h

def acc1_3 (c : Dev nD) (n : ℕ) (h : n < cfg1.N) : Vec F S1x2048 .f32 :=
  Carry.row (fun n h => k1_pay5 (xblk1 V c ⟨n, h⟩) (wblk1 V c ⟨n, h⟩)) k1_pay2 n h

def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => acc1_2 V c t.val t.isLt
    | ⟨3, _⟩ => acc1_3 V c t.val t.isLt
  Φ _ := Pipeline.ΦA spec1 c
  q _ := fullShare
  owed _ := 0

theorem A_eq1 (c : Dev nD) (w : Fin cfg1.W) : (dat1 V c).A w = V c (Pipeline.arrRef spec1 w) := rfl

theorem before1_in (c : Dev nD) (t : Fin cfg1.N) :
    (∀ d, (dat1 V c).before 0 t d = iblk1 V c 0 t) ∧ ∀ d, (dat1 V c).before 1 t d = iblk1 V c 1 t := by
  constructor <;> intro d <;>
  exact ((dat1 V c).before_in_eq_fetched _ rfl (fun _ => rfl) (fun _ _ _ => rfl) (fun _ => rfl) t d).trans rfl

theorem after1_in (c : Dev nD) (t : Fin cfg1.N) :
    (dat1 V c).after 0 t = iblk1 V c 0 t ∧ (dat1 V c).after 1 t = iblk1 V c 1 t := by
  dsimp only [dat1]
  exact ⟨rfl, rfl⟩

theorem flush1_out (w : Fin cfg1.W) (hw : w = 2 ∨ w = 3) (t : Fin cfg1.N) : (cfg1.win w).flush t = true ↔ t.val = 7 := by
  have := t.isLt
  have hN : cfg1.N = 8 := N_1
  rcases hw with rfl | rfl
  · rw [flush1_2]; omega
  · rw [flush1_3]; omega

theorem before1_out (c : Dev nD) (w : Fin cfg1.W) (hw : w = 2 ∨ w = 3) (t : Fin cfg1.N) (h0 : t.val ≠ 0) (d) :
    (dat1 V c).before w t d = (dat1 V c).after w ⟨t.val - 1, Nat.lt_of_le_of_lt (Nat.sub_le _ _) t.isLt⟩ := by
  have hN : t.val < 8 := lt_of_lt_of_eq t.isLt (show cfg1.N = 8 from N_1)
  have hf := Bool.eq_false_iff.mpr fun h => by have := (flush1_out w hw ⟨t.val - 1, Nat.lt_of_le_of_lt (Nat.sub_le _ _) t.isLt⟩).mp h; dsimp only at this; omega
  rcases hw with rfl | rfl <;> exact Dat.before_out_kept _ _ rfl t h0 hf (fun _ => rfl) (fun _ _ => rfl) d

/-- A carried row after point `t` updates the zero row at the first point, the row carried from the point before at a later one. -/
theorem after1_out (c : Dev nD) (t : Fin cfg1.N) (d2 d3) :
    (dat1 V c).after 2 t
        = k1_pay4 (xblk1 V c t) (wblk1 V c t) (if cond1 (grid1.coords t) then k1_pay1 else (dat1 V c).before 2 t d2)
      ∧ (dat1 V c).after 3 t
        = k1_pay5 (xblk1 V c t) (wblk1 V c t) (if cond1 (grid1.coords t) then k1_pay2 else (dat1 V c).before 3 t d3) := by
  by_cases h0 : t.val = 0
  · rw [if_pos ((hcond1 t).mpr h0), if_pos ((hcond1 t).mpr h0)]
    dsimp only [dat1]
    exact ⟨Carry.row_first _ _ t h0, Carry.row_first _ _ t h0⟩
  · rw [if_neg (h0 ∘ (hcond1 t).mp), if_neg (h0 ∘ (hcond1 t).mp), before1_out V c 2 (.inl rfl) t h0,
      before1_out V c 3 (.inr rfl) t h0]
    dsimp only [dat1]
    exact ⟨Carry.row_later _ _ t h0, Carry.row_later _ _ t h0⟩

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [(before1_in V c t).1, (before1_in V c t).2, (after1_in V c t).1, (after1_in V c t).2]
  rw [show (dat1 V c).Φ t.succ = (dat1 V c).Φ t.castSucc from rfl,
    show (dat1 V c).owesAt () t.succ = (dat1 V c).owesAt () t.castSucc from rfl]
  iintro ⟨HΦ, Ho, ⟨%d0, H0⟩, ⟨%d1, H1⟩, ⟨%d2, H2⟩, ⟨%d3, H3⟩⟩
  rw [(after1_out V c t d2 d3).1, (after1_out V c t d2 d3).2]
  iapply (sound_kernel1_pt c Set.univ (grid1.coords t) _ _ _ _ _ _ _ _ (xblk1 V c t) (wblk1 V c t) _ _ _)
  iframe
  iintro ⟨H0, H1, H2, H3⟩
  iframe

theorem body_obligation1 (c : Dev nD) : BodyObligation (dat1 (F := F) V c) (defs₀ (F := F)) Variants.none () Set.univ := fun t => by
  rw [bigSep_W1, bigSep_W1]
  exact sound_body1 V c t

theorem lt_N1 : 7 < cfg1.N := by rw [show cfg1.N = 8 from N_1]; decide

abbrev out1_2 (c : Dev nD) : Buf (Elt F) ((c : Thread nD τ).loc main_v11_0) := acc1_2 V c 7 lt_N1
abbrev out1_3 (c : Dev nD) : Buf (Elt F) ((c : Thread nD τ).loc main_v11_1) := acc1_3 V c 7 lt_N1

/-- A row's one block is its whole array, so the array ends at the row carried after the last point. -/
theorem arrAt1_2 (c : Dev nD) : (dat1 V c).arrAt 2 cfg1.N = out1_2 V c :=
  (dat1 V c).arrAt_eq_of_cover 2 _ (fun t hf => by
      obtain rfl : t = t1_7 := Fin.ext ((flush1_out 2 (.inl rfl) t).mp hf)
      refine Eq.trans ?_ (Memref.read_access_unit_zero (Elt F) main_v11_0
        (off := fun a => win1_2.index t1_7 a * main_v11_0.ty.shape.size a) (funext (by decide)) (by decide) _).symm
      dsimp only [dat1]
      rfl)
    fun i => ⟨t1_7, (flush1_2 t1_7).mpr rfl, by
      show i ∈ ((View.whole main_v11_0).slice (win1_2.rect t1_7)).set
      rw [View.set_slice_whole, Rect.mem_set_unit]
      exact fun a => by fin_cases a <;> exact ⟨Nat.zero_le _, (i _).isLt⟩⟩

theorem arrAt1_3 (c : Dev nD) : (dat1 V c).arrAt 3 cfg1.N = out1_3 V c :=
  (dat1 V c).arrAt_eq_of_cover 3 _ (fun t hf => by
      obtain rfl : t = t1_7 := Fin.ext ((flush1_out 3 (.inr rfl) t).mp hf)
      refine Eq.trans ?_ (Memref.read_access_unit_zero (Elt F) main_v11_1
        (off := fun a => win1_3.index t1_7 a * main_v11_1.ty.shape.size a) (funext (by decide)) (by decide) _).symm
      dsimp only [dat1]
      rfl)
    fun i => ⟨t1_7, (flush1_3 t1_7).mpr rfl, by
      show i ∈ ((View.whole main_v11_1).slice (win1_3.rect t1_7)).set
      rw [View.set_slice_whole, Rect.mem_set_unit]
      exact fun a => by fin_cases a <;> exact ⟨Nat.zero_le _, (i _).isLt⟩⟩

end Cert.Kernel.Hand

end
-- ==== Proof.KReg2.lean ====
import proofs.«115278_j52183852646963_1_alg».proof.Proof.Gen.Kernel.Launch
import proofs.«115278_j52183852646963_1_alg».proof.Proof.Gen.Kernel.Skeleton
import proofs.«115278_j52183852646963_1_alg».proof.Proof.Gen.Kernel.Points
import Idealize.ShloMosaic.Lib.Pipeline.FrameBody
import Idealize.ShloMosaic.Lib.QrPanel.Panel
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

-- The one store covers the result's block, and every load is of a whole block, so the result's block ends at the body's value of the seven.
theorem sound_kernel2 (c : Dev nD) (E : Set ℕ) (i : grid2.Coords) (arg1 : Memref sig .tc .vmem S512x2048 .f32) (harg1 : arg1.IsWhole) (arg2 : Memref sig .tc .vmem S2048x2048 .bf16) (harg2 : arg2.IsWhole) (arg3 arg4 arg5 arg6 : Memref sig .tc .vmem S1x2048 .f32) (harg3 : arg3.IsWhole) (harg4 : arg4.IsWhole) (harg5 : arg5.IsWhole) (harg6 : arg6.IsWhole) (arg7 : Memref sig .tc .vmem S128x2048 .bf16) (harg7 : arg7.IsWhole) (arg8 : Memref sig .tc .vmem S512x128 .f32) (harg8 : arg8.IsWhole)
    (x0 : Vec F S512x2048 .f32) (x1 : Vec F S2048x2048 .bf16) (x2 x3 x4 x5 : Vec F S1x2048 .f32) (x6 : Vec F S128x2048 .bf16) (K : PUnit → sProp 𝕄) :
    iprop(owns c.tc arg1 fullShare x0 ∗ owns c.tc arg2 fullShare x1 ∗ owns c.tc arg3 fullShare x2 ∗ owns c.tc arg4 fullShare x3
        ∗ owns c.tc arg5 fullShare x4 ∗ owns c.tc arg6 fullShare x5 ∗ owns c.tc arg7 fullShare x6 ∗ (∃ d, owns c.tc arg8 fullShare d)
        ∗ (iprop(owns c.tc arg1 fullShare x0 ∗ owns c.tc arg2 fullShare x1 ∗ owns c.tc arg3 fullShare x2 ∗ owns c.tc arg4 fullShare x3
            ∗ owns c.tc arg5 fullShare x4 ∗ owns c.tc arg6 fullShare x5 ∗ owns c.tc arg7 fullShare x6 ∗ owns c.tc arg8 fullShare (k2_pay1 x0 x1 x3 x2 x4 x5 x6)) -∗ K ⟨⟩))
      ⊢ wp frame (wpE (defs₀ (F := F)) Variants.none c none) E (cc2__project_kernel i arg1 harg1 arg2 harg2 arg3 harg3 arg4 harg4 arg5 harg5 arg6 harg6 arg7 harg7 arg8 harg8) K := by
  simp only [cc2__project_kernel_eq_skeleton]; unfold cc2__project_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]; swap; isplitl [H1]; swap; isplitl [H2]; swap; isplitl [H3]; swap; isplitl [H4]; swap; isplitl [H5]; swap; isplitl [H6]; swap
  all_goals
    iexists _; isplitr; swap; iassumption
    ipureintro
    first
      | rfl
      | refine (View.read_writes_eq_canon _ _ _ (View.cover_of_tiled _ S512x128.size (by rfl))).trans ?_
        rw [View.canon_unit_zero QrPanel.Panel.zeros2]
        congr <;> exact View.ld_unit_zero QrPanel.Panel.zeros2 _ _

def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => k2_pay1 (iblk2 V c 0 t) (iblk2 V c 1 t) (iblk2 V c 3 t) (iblk2 V c 2 t) (iblk2 V c 4 t) (iblk2 V c 5 t) (iblk2 V c 6 t)
  Φ _ := Pipeline.ΦA spec2 c
  q _ := fullShare
  owed _ := 0

theorem A_eq2 (c : Dev nD) (w : Fin cfg2.W) : (dat2 V c).A w = V c (Pipeline.arrRef spec2 w) := rfl

-- By cases on the window: the library's lemma for an input window applies to each of the first seven, and the eighth is the output.
theorem before2_in (c : Dev nD) (w : Fin 8) (hw : (cfg2.win w).isOut = false) (t : Fin cfg2.N) (d) :
    (dat2 V c).before w t d = (dat2 V c).fetched w t d := by
  fin_cases w
  all_goals first
    | exact absurd hw (by decide)
    | exact (dat2 V c).before_in_eq_fetched _ hw (fun _ => rfl) (fun _ _ _ => rfl) (fun _ => by dsimp only [dat2]; rfl) t d

theorem body_obligation2 (c : Dev nD) : BodyObligation (dat2 (F := F) V c) (defs₀ (F := F)) Variants.none () Set.univ := fun t => by
  rw [bigSep_W2, bigSep_W2]
  simp only [before2_in V c 0 rfl, before2_in V c 1 rfl, before2_in V c 2 rfl, before2_in V c 3 rfl, before2_in V c 4 rfl, before2_in V c 5 rfl, before2_in V c 6 rfl]
  dsimp only [dat2, Dat.owesAt, Dat.bound]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ (grid2.coords t) _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro H
  iframe

def out2_7 (c : Dev nD) : Buf (Elt F) ((c : Thread nD τ).loc main_v18) := (dat2 V c).arrAt 7 cfg2.N

theorem arrAt2_7 (c : Dev nD) : (dat2 V c).arrAt 7 cfg2.N = out2_7 V c := rfl

end Cert.Kernel.Hand

end
-- ==== Proof.KReg3.lean ====
import proofs.«115278_j52183852646963_1_alg».proof.Proof.Gen.Kernel.Launch
import proofs.«115278_j52183852646963_1_alg».proof.Proof.Gen.Kernel.Skeleton
import proofs.«115278_j52183852646963_1_alg».proof.Proof.Gen.Kernel.Points
import Idealize.ShloMosaic.Lib.Pipeline.FrameBody
import Idealize.ShloMosaic.Lib.QrPanel.Panel
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

-- The one store covers the result's block, and every load is of a whole block, so the result's block ends at the body's value of the seven.
theorem sound_kernel3 (c : Dev nD) (E : Set ℕ) (i : grid3.Coords) (arg1 : Memref sig .tc .vmem S512x2048 .f32) (harg1 : arg1.IsWhole) (arg2 : Memref sig .tc .vmem S2048x2048 .bf16) (harg2 : arg2.IsWhole) (arg3 arg4 arg5 arg6 : Memref sig .tc .vmem S1x2048 .f32) (harg3 : arg3.IsWhole) (harg4 : arg4.IsWhole) (harg5 : arg5.IsWhole) (harg6 : arg6.IsWhole) (arg7 : Memref sig .tc .vmem S128x2048 .bf16) (harg7 : arg7.IsWhole) (arg8 : Memref sig .tc .vmem S512x128 .f32) (harg8 : arg8.IsWhole)
    (x0 : Vec F S512x2048 .f32) (x1 : Vec F S2048x2048 .bf16) (x2 x3 x4 x5 : Vec F S1x2048 .f32) (x6 : Vec F S128x2048 .bf16) (K : PUnit → sProp 𝕄) :
    iprop(owns c.tc arg1 fullShare x0 ∗ owns c.tc arg2 fullShare x1 ∗ owns c.tc arg3 fullShare x2 ∗ owns c.tc arg4 fullShare x3
        ∗ owns c.tc arg5 fullShare x4 ∗ owns c.tc arg6 fullShare x5 ∗ owns c.tc arg7 fullShare x6 ∗ (∃ d, owns c.tc arg8 fullShare d)
        ∗ (iprop(owns c.tc arg1 fullShare x0 ∗ owns c.tc arg2 fullShare x1 ∗ owns c.tc arg3 fullShare x2 ∗ owns c.tc arg4 fullShare x3
            ∗ owns c.tc arg5 fullShare x4 ∗ owns c.tc arg6 fullShare x5 ∗ owns c.tc arg7 fullShare x6 ∗ owns c.tc arg8 fullShare (k3_pay1 x0 x1 x3 x2 x4 x5 x6)) -∗ K ⟨⟩))
      ⊢ wp frame (wpE (defs₀ (F := F)) Variants.none c none) E (cc3__project_kernel i arg1 harg1 arg2 harg2 arg3 harg3 arg4 harg4 arg5 harg5 arg6 harg6 arg7 harg7 arg8 harg8) K := by
  simp only [cc3__project_kernel_eq_skeleton]; unfold cc3__project_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]; swap; isplitl [H1]; swap; isplitl [H2]; swap; isplitl [H3]; swap; isplitl [H4]; swap; isplitl [H5]; swap; isplitl [H6]; swap
  all_goals
    iexists _; isplitr; swap; iassumption
    ipureintro
    first
      | rfl
      | refine (View.read_writes_eq_canon _ _ _ (View.cover_of_tiled _ S512x128.size (by rfl))).trans ?_
        rw [View.canon_unit_zero QrPanel.Panel.zeros2]
        congr <;> exact View.ld_unit_zero QrPanel.Panel.zeros2 _ _

def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => k3_pay1 (iblk3 V c 0 t) (iblk3 V c 1 t) (iblk3 V c 3 t) (iblk3 V c 2 t) (iblk3 V c 4 t) (iblk3 V c 5 t) (iblk3 V c 6 t)
  Φ _ := Pipeline.ΦA spec3 c
  q _ := fullShare
  owed _ := 0

theorem A_eq3 (c : Dev nD) (w : Fin cfg3.W) : (dat3 V c).A w = V c (Pipeline.arrRef spec3 w) := rfl

-- By cases on the window: the library's lemma for an input window applies to each of the first seven, and the eighth is the output.
theorem before3_in (c : Dev nD) (w : Fin 8) (hw : (cfg3.win w).isOut = false) (t : Fin cfg3.N) (d) :
    (dat3 V c).before w t d = (dat3 V c).fetched w t d := by
  fin_cases w
  all_goals first
    | exact absurd hw (by decide)
    | exact (dat3 V c).before_in_eq_fetched _ hw (fun _ => rfl) (fun _ _ _ => rfl) (fun _ => by dsimp only [dat3]; rfl) t d

theorem body_obligation3 (c : Dev nD) : BodyObligation (dat3 (F := F) V c) (defs₀ (F := F)) Variants.none () Set.univ := fun t => by
  rw [bigSep_W3, bigSep_W3]
  simp only [before3_in V c 0 rfl, before3_in V c 1 rfl, before3_in V c 2 rfl, before3_in V c 3 rfl, before3_in V c 4 rfl, before3_in V c 5 rfl, before3_in V c 6 rfl]
  dsimp only [dat3, Dat.owesAt, Dat.bound]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ (grid3.coords t) _ _ _ _ _ _ _ _ _ _ _ _ _ _ _ _ (iblk3 V c 0 t) (iblk3 V c 1 t) (iblk3 V c 2 t) (iblk3 V c 3 t) (iblk3 V c 4 t) (iblk3 V c 5 t) (iblk3 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro H
  iframe

def out3_7 (c : Dev nD) : Buf (Elt F) ((c : Thread nD τ).loc main_v19) := (dat3 V c).arrAt 7 cfg3.N

theorem arrAt3_7 (c : Dev nD) : (dat3 V c).arrAt 7 cfg3.N = out3_7 V c := rfl

end Cert.Kernel.Hand

end
-- ==== Proof.KReg4Defs.lean ====
import proofs.«115278_j52183852646963_1_alg».proof.Proof.Gen.Kernel.Skeleton
import Idealize.ShloMosaic.Lib.Pipeline.FrameBody

noncomputable section

namespace Cert.Kernel.Hand

open Idealize.ShloMosaic Idealize.SL.Sem
open Cert.Kernel Cert.Kernel.Gen

variable {F : FTy → Type} [FloatOps F]

structure Sc (F : FTy → Type) where
  m : Vec F S512x1 .f32
  l : Vec F S512x1 .f32
  ws : Vec F S512x1 .f32
  wz : Vec F S512x1 .f32

def scInit : Sc F := ⟨k4_pay2, k4_pay3, k4_pay4, k4_pay5⟩

def zRow (i : grid4.Coords) (Z : Vec F S8192x128 .f32) : Vec F S512x128 .f32 :=
  View.ld Z (Rect.unit (s := S8192x128) (k4_off1 i) S512x128.size (k4_off1_inb i))
def zCol (i : grid4.Coords) (Z : Vec F S8192x128 .f32) : Vec F S512x128 .f32 :=
  View.ld Z (Rect.unit (s := S8192x128) (k4_off2 i) S512x128.size (k4_off2_inb i))
def labCol (i : grid4.Coords) (lc : Vec F S8192x1 .f32) : Vec F S512x1 .f32 :=
  View.ld lc (Rect.unit (s := S8192x1) (k4_off3 i) S512x1.size (k4_off3_inb i))
def labRow (i : grid4.Coords) (lr : Vec F S1x8192 .f32) : Vec F S1x512 .f32 :=
  View.ld lr (Rect.unit (s := S1x8192) (k4_off4 i) S1x512.size (k4_off4_inb i))

def simTile (i : grid4.Coords) (Z : Vec F S8192x128 .f32) : FVec F S512x512 .f32 :=
  k4_pay7 i (zRow i Z) (zCol i Z)
def wtTile (i : grid4.Coords) (lc : Vec F S8192x1 .f32) (lr : Vec F S1x8192 .f32) : FVec F S512x512 .f32 :=
  k4_pay8 i (labCol i lc) (labRow i lr)

def scBase (i : grid4.Coords) (s : Sc F) : Sc F := if (i 1).val = 0 then scInit else s

def scStep (i : grid4.Coords) (Z : Vec F S8192x128 .f32) (lc : Vec F S8192x1 .f32) (lr : Vec F S1x8192 .f32) (s : Sc F) : Sc F :=
  ⟨k4_pay11 (simTile i Z) (scBase i s).m,
   k4_pay10 (simTile i Z) (scBase i s).m (scBase i s).m (scBase i s).l,
   k4_pay12 (wtTile i lc lr) (scBase i s).ws,
   k4_pay13 (simTile i Z) (wtTile i lc lr) (scBase i s).wz⟩

def scAtN (Z : Vec F S8192x128 .f32) (lc : Vec F S8192x1 .f32) (lr : Vec F S1x8192 .f32) : ℕ → Sc F
  | 0 => scInit
  | t + 1 => if h : t < grid4.N then scStep (grid4.coords ⟨t, h⟩) Z lc lr (scAtN Z lc lr t) else scAtN Z lc lr t

theorem scAtN_succ (Z : Vec F S8192x128 .f32) (lc : Vec F S8192x1 .f32) (lr : Vec F S1x8192 .f32) (t : Fin grid4.N) :
    scAtN Z lc lr (t.val + 1) = scStep (grid4.coords t) Z lc lr (scAtN Z lc lr t.val) := by
  rw [scAtN, dif_pos t.isLt]

def outOf (s : Sc F) : Vec F S512x1 .f32 := k4_pay1 s.m s.l s.wz s.ws

def outAt (Z : Vec F S8192x128 .f32) (lc : Vec F S8192x1 .f32) (lr : Vec F S1x8192 .f32) (t : Fin grid4.N) : Vec F S512x1 .f32 :=
  outOf (scAtN Z lc lr (t.val + 1))

end Cert.Kernel.Hand

end
-- ==== Proof.KReg4Dat.lean ====
import proofs.«115278_j52183852646963_1_alg».proof.Proof.Gen.Kernel.Launch
import proofs.«115278_j52183852646963_1_alg».proof.Proof.Gen.Kernel.Skeleton
import proofs.«115278_j52183852646963_1_alg».proof.Proof.Gen.Kernel.Points
import proofs.«115278_j52183852646963_1_alg».proof.Proof.KReg4Defs
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

section Region

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def Z4 (c : Dev nD) : Vec F S8192x128 .f32 := V c main_v20
def lc4 (c : Dev nD) : Vec F S8192x1 .f32 := V c main_v22
def lr4 (c : Dev nD) : Vec F S1x8192 .f32 := V c main_v23

theorem iblk4_0 (c : Dev nD) (t : Fin cfg4.N) : iblk4 V c 0 t = Z4 V c :=
  funext fun y => congrArg (V c main_v20) (funext fun a => Fin.ext ((cfg4.win 0).rect_emb_val_of_index_zero t a (by fin_cases a <;> rfl) y))

theorem iblk4_1 (c : Dev nD) (t : Fin cfg4.N) : iblk4 V c 1 t = lc4 V c :=
  funext fun y => congrArg (V c main_v22) (funext fun a => Fin.ext ((cfg4.win 1).rect_emb_val_of_index_zero t a (by fin_cases a <;> rfl) y))

theorem iblk4_2 (c : Dev nD) (t : Fin cfg4.N) : iblk4 V c 2 t = lr4 V c :=
  funext fun y => congrArg (V c main_v23) (funext fun a => Fin.ext ((cfg4.win 2).rect_emb_val_of_index_zero t a (by fin_cases a <;> rfl) y))

def sc4 (c : Dev nD) (n : ℕ) : Sc F := scAtN (Z4 V c) (lc4 V c) (lr4 V c) n

abbrev scM4_0 : Memref sig .tc .vmem S512x1 .f32 := Memref.whole cc4_scratch0
abbrev scM4_1 : Memref sig .tc .vmem S512x1 .f32 := Memref.whole cc4_scratch1
abbrev scM4_2 : Memref sig .tc .vmem S512x1 .f32 := Memref.whole cc4_scratch2
abbrev scM4_3 : Memref sig .tc .vmem S512x1 .f32 := Memref.whole cc4_scratch3

def scPts (c : Dev nD) (s : Sc F) : sProp 𝕄 :=
  iprop(owns (c : Thread nD τ) scM4_0 fullShare s.m ∗ owns (c : Thread nD τ) scM4_1 fullShare s.l
    ∗ owns (c : Thread nD τ) scM4_2 fullShare s.ws ∗ owns (c : Thread nD τ) scM4_3 fullShare s.wz)

def Φ4 (c : Dev nD) (t : Fin (cfg4.N + 1)) : sProp 𝕄 :=
  iprop((∃ s : Sc F, ⌜t.val ≠ 0 → s = sc4 V c t.val⌝ ∗ scPts c s)
    ∗ Pipeline.scopedRestBut (Ix := Unit) (Name := ℕ) (U := Pipeline.UD sig nD τ) (Lvl := ℕ) (Val := Elt F) spec4 c [cc4_scratch0, cc4_scratch1, cc4_scratch2, cc4_scratch3]
    ∗ ∃ r, prngReg c r)

def dat4 (c : Dev nD) : Dat τ (Elt F) Unit ℕ (Pipeline.UD sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => outAt (Z4 V c) (lc4 V c) (lr4 V c) t
  Φ t := Φ4 V c t
  q _ := fullShare
  owed _ := 0

theorem A_eq4 (c : Dev nD) (w : Fin cfg4.W) : (dat4 V c).A w = V c (Pipeline.arrRef spec4 w) := rfl

theorem after4_3 (c : Dev nD) (t : Fin cfg4.N) : (dat4 V c).after 3 t = outAt (Z4 V c) (lc4 V c) (lr4 V c) t := rfl

theorem before4_0 (c : Dev nD) (t : Fin cfg4.N) (d) : (dat4 V c).before 0 t d = iblk4 V c 0 t :=
  (dat4 V c).before_in_eq_fetched 0 rfl (fun _ => rfl) (fun _ _ _ => rfl) (fun _ => rfl) t d
theorem before4_1 (c : Dev nD) (t : Fin cfg4.N) (d) : (dat4 V c).before 1 t d = iblk4 V c 1 t :=
  (dat4 V c).before_in_eq_fetched 1 rfl (fun _ => rfl) (fun _ _ _ => rfl) (fun _ => rfl) t d
theorem before4_2 (c : Dev nD) (t : Fin cfg4.N) (d) : (dat4 V c).before 2 t d = iblk4 V c 2 t :=
  (dat4 V c).before_in_eq_fetched 2 rfl (fun _ => rfl) (fun _ _ _ => rfl) (fun _ => rfl) t d

def out4_3 (c : Dev nD) : Buf (Elt F) ((c : Thread nD τ).loc main_v24) := (dat4 V c).arrAt 3 cfg4.N

theorem arrAt4_3 (c : Dev nD) : (dat4 V c).arrAt 3 cfg4.N = out4_3 V c := rfl

end Region

end Cert.Kernel.Hand
end
-- ==== Proof.KReg4Rest.lean ====
import proofs.«115278_j52183852646963_1_alg».proof.Proof.KReg4Dat

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

section Region

variable (V : (c : Dev nD) → (b : Ref sig .tc) → Buf (Elt F) ((c : Thread nD τ).loc b))

-- At point 0 the invariant constrains no column, so any contents satisfy it.
theorem hin4 (c : Dev nD) :
    iprop((∃ r, prngReg c r) ∗ Pipeline.scopedRest (Ix := Unit) (Name := ℕ) (U := Pipeline.UD sig nD τ) (Lvl := ℕ) (Val := Elt F) spec4 c)
      ⊢ (dat4 V c).Φ 0 := by
  show _ ⊢ Φ4 V c 0
  rw [Gen.scopedRest4_split c]
  unfold Φ4 scPts
  simp only [scM4_0, scM4_1, scM4_2, scM4_3, owns_whole]
  iintro ⟨Hr, ⟨⟨%f0, H0⟩, ⟨%f1, H1⟩, ⟨%f2, H2⟩, ⟨%f3, H3⟩⟩, HB⟩
  iframe
  iexists (⟨f0, f1, f2, f3⟩ : Sc F)
  iframe
  ipureintro; exact fun h => (h (Fin.val_zero _)).elim

theorem hout4 (c : Dev nD) :
    (dat4 V c).Φ (Fin.last cfg4.N)
      ⊢ iprop((∃ r, prngReg c r) ∗ Pipeline.scopedRest (Ix := Unit) (Name := ℕ) (U := Pipeline.UD sig nD τ) (Lvl := ℕ) (Val := Elt F) spec4 c) := by
  show Φ4 V c (Fin.last cfg4.N) ⊢ _
  rw [Gen.scopedRest4_split c]
  unfold Φ4 scPts
  simp only [scM4_0, scM4_1, scM4_2, scM4_3, owns_whole]
  iintro ⟨⟨%s, -, H0, H1, H2, H3⟩, HB, Hr⟩
  iframe
  isplitl [H0]; swap; isplitl [H1]; swap; isplitl [H2]
  all_goals (iexists _; iassumption)

end Region

end Cert.Kernel.Hand

end
-- ==== Proof.KReg4.lean ====
import proofs.«115278_j52183852646963_1_alg».proof.Proof.KReg4Dat

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

theorem cond1_iff (i : grid4.Coords) : Scalar.cmpi .ne (Scalar.extui (Scalar.cmpi .eq (BitVec.ofNat 32 (i 1).val) 0#32) : BitVec 32) 0#32 = 1#1 ↔ (i 1).val = 0 :=
  (by decide : ∀ j : Fin 16, Scalar.cmpi .ne (Scalar.extui (Scalar.cmpi .eq (BitVec.ofNat 32 j.val) 0#32) : BitVec 32) 0#32 = 1#1 ↔ j.val = 0) (i 1)

theorem cond2_iff (i : grid4.Coords) : k4_cond2 i = 1#1 ↔ (i 1).val = 15 := by
  have : ∀ j : Fin 16, (Scalar.cmpi .ne (Scalar.extui (Scalar.cmpi .eq (BitVec.ofNat 32 j.val) 15#32) : BitVec 32) 0#32 = 1#1) ↔ j.val = 15 := by decide
  exact this (i 1)

theorem hz2 : (![0, 0] : Fin S512x1.rank → Nat) = fun _ => 0 := by funext a; fin_cases a <;> rfl

theorem read_writes_col {κ : Kind} {sp : Space} (v : View sig κ sp S512x1 .f32) (f : v.ty.Contents (Elt F))
    (w : Vec F S512x1 .f32) (L : List (View.Piece (Elt F) S512x1 .f32)) :
    v.read (Elt F) (v.writes (Elt F) f (⟨Rect.unit (s := S512x1) ![0, 0] ![512, 1] inb_S512x1_S512x1_0_0, w⟩ :: L)) = w := by
  rw [View.read_writes_eq_canon _ _ _ (fun y => ⟨_, List.mem_cons_self, View.mem_set_unit_zero hz2 inb_S512x1_S512x1_0_0 y⟩), View.canon_cons_unit_zero hz2]

theorem readCov_col {κ : Kind} {sp : Space} (v : View sig κ sp S512x1 .f32) (w : Vec F S512x1 .f32) :
    v.readCov [(⟨Rect.unit (s := S512x1) ![0, 0] ![512, 1] inb_S512x1_S512x1_0_0, w⟩ : View.Piece (Elt F) S512x1 .f32)]
      (Rect.unit (s := S512x1) ![0, 0] ![512, 1] inb_S512x1_S512x1_0_0).toLoadRect = w :=
  View.readCov_unit_zero v hz2 _ w

theorem readAt_col {κ : Kind} {sp : Space} (v : View sig κ sp S512x1 .f32) (f : v.ty.Contents (Elt F)) :
    v.readAt (Elt F) (Rect.unit (s := S512x1) ![0, 0] ![512, 1] inb_S512x1_S512x1_0_0).toLoadRect f = v.read (Elt F) f :=
  View.ld_unit_zero hz2 _ _

theorem sound_kernel4 (c : Dev nD) (E : Set ℕ) (i : grid4.Coords)
    (arg2 : Memref sig .tc .vmem S8192x128 .f32) (harg2 : arg2.IsWhole) (arg3 : Memref sig .tc .vmem S8192x1 .f32) (harg3 : arg3.IsWhole)
    (arg4 : Memref sig .tc .vmem S1x8192 .f32) (harg4 : arg4.IsWhole) (arg5 : Memref sig .tc .vmem S512x1 .f32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (x0 : Vec F S8192x128 .f32) (x1 : Vec F S8192x1 .f32) (x2 : Vec F S1x8192 .f32) (y : Vec F S512x1 .f32) (s : Sc F)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare y
        ∗ owns (c : Thread nD τ) arg6 fullShare s.m ∗ owns (c : Thread nD τ) arg7 fullShare s.l
        ∗ owns (c : Thread nD τ) arg8 fullShare s.ws ∗ owns (c : Thread nD τ) arg9 fullShare s.wz
        ∗ (iprop(owns (c : Thread nD τ) arg2 fullShare x0 ∗ owns (c : Thread nD τ) arg3 fullShare x1 ∗ owns (c : Thread nD τ) arg4 fullShare x2
            ∗ owns (c : Thread nD τ) arg5 fullShare (if (i 1).val = 15 then outOf (scStep i x0 x1 x2 s) else y)
            ∗ owns (c : Thread nD τ) arg6 fullShare (scStep i x0 x1 x2 s).m ∗ owns (c : Thread nD τ) arg7 fullShare (scStep i x0 x1 x2 s).l
            ∗ owns (c : Thread nD τ) arg8 fullShare (scStep i x0 x1 x2 s).ws ∗ owns (c : Thread nD τ) arg9 fullShare (scStep i x0 x1 x2 s).wz) -∗ K ⟨⟩))
      ⊢ wp frame (wpE (defs₀ (F := F)) Variants.none c none) E (cc4__loss_kernel i arg2 harg2 arg3 harg3 arg4 harg4 arg5 harg5 arg6 harg6 arg7 harg7 arg8 harg8 arg9 harg9) K := by
  obtain ⟨sm, sl, sws, swz⟩ := s
  by_cases hj0 : (i 1).val = 0 <;> by_cases hj15 : (i 1).val = 15
  · omega
  all_goals
    have h1 := hj0
    have h2 := hj15
    rw [← cond1_iff] at h1
    rw [← cond2_iff] at h2
    simp only [hj15, ↓reduceIte, cc4__loss_kernel_eq_skeleton]; unfold cc4__loss_kernel_skel
    simp only [k4_part1_eq_skeleton, k4_part2_eq_skeleton]; unfold k4_part1_skel k4_part2_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    subst hf2 hf3 hf4 hf5 hf6 hf7 hf8 hf9
    sl_exec
    sl_step
    iapply Hk
    isplitl [H2]; swap; isplitl [H3]; swap; isplitl [H4]; swap; isplitl [H5]; swap
    isplitl [H6]; swap; isplitl [H7]; swap; isplitl [H8]
    all_goals
      iexists _; isplitr; swap; iassumption
      ipureintro; try sl_unfold_run_names
      simp only [read_writes_col, readAt_col, readCov_col, scStep, scBase, scInit, outOf, simTile, wtTile, zRow, zCol, labCol, labRow, hj0, ↓reduceIte] <;> rfl

theorem coords4_1 : ∀ t : Fin grid4.N, ((grid4.coords t) 1).val = t.val % 16 := by decide +kernel

theorem idle4_3 (t : Fin cfg4.N) : cfg4.idle 3 (cfg4.grid.coords t) = true ↔ ((cfg4.grid.coords t) 1).val ≠ 15 := by
  show (!(k4_cond2 (cfg4.grid.coords t) == 1#1)) = true ↔ _
  rw [Ne, ← cond2_iff]; simp

section Region

variable (V : (c : Dev nD) → (b : Ref sig .tc) → Buf (Elt F) ((c : Thread nD τ).loc b))

theorem sound_body4 (c : Dev nD) (t : Fin cfg4.N) :
    iprop(Φ4 V c t.castSucc ∗ (dat4 V c).owesAt () t.castSucc
        ∗ (∃ d, owns (c : Thread nD τ) (st4_0 t) fullShare ((dat4 V c).before 0 t d))
        ∗ (∃ d, owns (c : Thread nD τ) (st4_1 t) fullShare ((dat4 V c).before 1 t d))
        ∗ (∃ d, owns (c : Thread nD τ) (st4_2 t) fullShare ((dat4 V c).before 2 t d))
        ∗ (∃ d, owns (c : Thread nD τ) (st4_3 t) fullShare ((dat4 V c).before 3 t d)))
      ⊢ wp frame (wpE (defs₀ (F := F)) Variants.none c none) Set.univ (bodyAt4 t) (fun _ =>
          iprop(Φ4 V c t.succ ∗ (dat4 V c).owesAt () t.castSucc
            ∗ owns (c : Thread nD τ) (st4_0 t) fullShare (iblk4 V c 0 t)
            ∗ owns (c : Thread nD τ) (st4_1 t) fullShare (iblk4 V c 1 t)
            ∗ owns (c : Thread nD τ) (st4_2 t) fullShare (iblk4 V c 2 t)
            ∗ (if ((grid4.coords t) 1).val = 15 then owns (c : Thread nD τ) (st4_3 t) fullShare ((dat4 V c).after 3 t)
                else ∃ d, owns (c : Thread nD τ) (st4_3 t) fullShare ((dat4 V c).before 3 t d)))) := by
  unfold bodyAt4 Φ4 scPts
  simp only [before4_0, before4_1, before4_2]
  iintro ⟨⟨⟨%s, %hs, Hm, Hl, Hws, Hwz⟩, Hrest, Hg⟩, Ho, ⟨%d0, H0⟩, ⟨%d1, H1⟩, ⟨%d2, H2⟩, ⟨%d3, H3⟩⟩
  have hstep : scStep (grid4.coords t) (iblk4 V c 0 t) (iblk4 V c 1 t) (iblk4 V c 2 t) s = sc4 V c (t.val + 1) := by
    unfold sc4; rw [scAtN_succ, iblk4_0, iblk4_1, iblk4_2]
    by_cases ht0 : t.val = 0
    · simp only [scStep, scBase, if_pos (show ((grid4.coords t) 1).val = 0 by rw [coords4_1]; omega)]
    · rw [hs ht0]; rfl
  iapply (sound_kernel4 c Set.univ (grid4.coords t) _ _ _ _ _ _ _ _ _ _ _ _ _ _ _ _
    (iblk4 V c 0 t) (iblk4 V c 1 t) (iblk4 V c 2 t) ((dat4 V c).before 3 t d3) s _)
  rw [hstep]
  iframe H0 H1 H2 H3 Hm Hl Hws Hwz
  iintro ⟨H0, H1, H2, H3, Hm, Hl, Hws, Hwz⟩
  iframe
  isplitr [H3]
  · iexists _; iframe; ipureintro; exact fun _ => rfl
  by_cases h : ((grid4.coords t) 1).val = 15
  · simp only [if_pos h]; iexact H3
  · simp only [if_neg h]; iexists d3; iexact H3

theorem body_obligation4 (c : Dev nD) : BodyObligation (dat4 (F := F) V c) (defs₀ (F := F)) Variants.none () Set.univ := fun t => by
  rw [bigSep_W4, bigSep_W4]
  have := sound_body4 V c t
  by_cases hj15 : ((grid4.coords t) 1).val = 15
  · rw [if_pos hj15] at this
    rw [show cfg4.idle 3 (cfg4.grid.coords t) = false by rw [← Bool.not_eq_true, idle4_3]; exact fun h => h hj15]
    exact this
  · rw [if_neg hj15] at this
    rw [(idle4_3 t).mpr hj15, show (cfg4.win 3).flush t = false by rw [← Bool.not_eq_true, flush4_3, ← coords4_1]; exact hj15]
    exact this

end Region

end Cert.Kernel.Hand
end
-- ==== Proof.Seam.lean ====
import Idealize.ShloMosaic.Lib.Pipeline.FrameBody
import Idealize.ShloMosaic.Lib.Pipeline.FrameSuffix
import Idealize.ShloMosaic.Lib.Pipeline.RegionsLoop
import Idealize.ShloMosaic.Lib.Tactic

noncomputable section

namespace Cert.Seam

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

section Upd
variable {α : Type} [DecidableEq α] {β : α → Type} (f : (a : α) → β a) {a b : α} (x : β a) (y : β b)

theorem update_fst (hab : a ≠ b) : Function.update (Function.update f a x) b y a = x := by
  rw [Function.update_of_ne hab, Function.update_self]

-- Writing back what an updated function already holds at the updated keys changes nothing.
theorem update_update_self (hab : a ≠ b) :
    Function.update (Function.update f a (Function.update (Function.update f a x) b y a)) b (Function.update (Function.update f a x) b y b)
      = Function.update (Function.update f a x) b y := by
  rw [update_fst f x y hab, Function.update_self]

theorem update_self_self : Function.update f a (Function.update f a x a) = Function.update f a x := by
  rw [Function.update_self]
end Upd

variable {nD : Nat} {τ : Topo} {sig : RefSig}

-- A reference outside a pipeline's arrays is none of a list of them.
theorem not_mem_of_not_arr {gr W : Nat} (spec : Fin W → Pipeline.WinSpec sig gr) (l : List (Ref sig .tc))
    (hl : ∀ r ∈ l, ∃ w, Pipeline.arrRef spec w = r) {b : Ref sig .tc} (hb : b ∉ Finset.univ.image (Pipeline.arrRef spec)) : b ∉ l :=
  fun h => let ⟨w, e⟩ := hl b h; hb (Finset.mem_image.mpr ⟨w, Finset.mem_univ _, e⟩)

variable {Λ₀ : Labels} {F : FTy → Type} [FloatOps F] {cfg : Pipeline.Cfg sig Λ₀} {c : Dev nD}
  (dat : Dat τ (Elt F) Unit ℕ (Pipeline.UD sig nD τ) ℕ cfg c)

local notation "𝕄" => MT nD τ sig Unit (Elt F) ℕ (Pipeline.UD sig nD τ) ℕ

-- Used at a region's two ends, where nothing is owed.
theorem owesAt_of_none (t : Fin (cfg.N + 1)) (h0 : dat.owed t = 0) (hr : dat.recorded t = Set.univ) :
    iprop(∃ W, owes (c : Thread nD τ) (0 : CellTallies nD τ sig Unit) W) ⊢ (dat.owesAt () t : sProp 𝕄) := by
  unfold Pipeline.Dat.owesAt Pipeline.owesWithin
  rw [h0]
  iintro ⟨%W, HO⟩
  iexists W
  isplitr
  · ipureintro; intro x _; unfold Pipeline.Dat.bound; rw [hr]; exact Or.inl trivial
  iexact HO

theorem none_of_owesAt (t : Fin (cfg.N + 1)) (h0 : dat.owed t = 0) :
    (dat.owesAt () t : sProp 𝕄) ⊢ iprop(∃ W, owes (c : Thread nD τ) (0 : CellTallies nD τ sig Unit) W) := by
  unfold Pipeline.Dat.owesAt Pipeline.owesWithin
  rw [h0]
  iintro ⟨%W, -, HO⟩
  iexists W
  iexact HO

end Cert.Seam

end
-- ==== Proof.KRun.lean ====
import proofs.«115278_j52183852646963_1_alg».proof.Proof.Gen.Kernel.Launch
import proofs.«115278_j52183852646963_1_alg».proof.Proof.Gen.Kernel.Skeleton
import proofs.«115278_j52183852646963_1_alg».proof.Proof.Gen.Kernel.Points
import proofs.«115278_j52183852646963_1_alg».proof.Proof.Gen.Kernel.Regions
import proofs.«115278_j52183852646963_1_alg».proof.Proof.KReg0
import proofs.«115278_j52183852646963_1_alg».proof.Proof.KReg1
import proofs.«115278_j52183852646963_1_alg».proof.Proof.KReg2
import proofs.«115278_j52183852646963_1_alg».proof.Proof.KReg3
import proofs.«115278_j52183852646963_1_alg».proof.Proof.KReg4Dat
import proofs.«115278_j52183852646963_1_alg».proof.Proof.KReg4Rest
import proofs.«115278_j52183852646963_1_alg».proof.Proof.KReg4
import proofs.«115278_j52183852646963_1_alg».proof.Proof.Seam

noncomputable section

namespace Cert.Kernel.Hand

open Cert.Kernel Cert.Kernel.Gen Cert.Seam
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (Pipeline.UD sig nD τ) ℕ

variable (m : (ℓ : Loc nD τ sig) → Buf (Elt F) ℓ)

abbrev atTc (W : Dev nD → Valuation τ sig (Elt F)) : (c : Dev nD) → (b : Ref sig .tc) → Buf (Elt F) ((c : Thread nD τ).loc b) :=
  fun c b => W c b

def U2 (c : Dev nD) : Valuation τ sig (Elt F) :=
  Function.update (Function.update (V1 m c) main_v4_0 (out0_2 (atTc (V1 m)) c)) main_v4_1 (out0_3 (atTc (V1 m)) c)
def U3 (c : Dev nD) : Valuation τ sig (Elt F) := StableHlo.after hostOps1 (U2 m c)
def U4 (c : Dev nD) : Valuation τ sig (Elt F) :=
  Function.update (Function.update (U3 m c) main_v11_0 (out1_2 (atTc (U3 m)) c)) main_v11_1 (out1_3 (atTc (U3 m)) c)
def U5 (c : Dev nD) : Valuation τ sig (Elt F) := StableHlo.after hostOps2 (U4 m c)
def U6 (c : Dev nD) : Valuation τ sig (Elt F) := Function.update (U5 m c) main_v18 (out2_7 (atTc (U5 m)) c)
def U7 (c : Dev nD) : Valuation τ sig (Elt F) := Function.update (U6 m c) main_v19 (out3_7 (atTc (U6 m)) c)
def U8 (c : Dev nD) : Valuation τ sig (Elt F) := StableHlo.after hostOps4 (U7 m c)
def U9 (c : Dev nD) : Valuation τ sig (Elt F) := Function.update (U8 m c) main_v24 (out4_3 (atTc (U8 m)) c)

-- Each region's outputs, computed from the contents it is entered at; the regions are threaded without reference to `outs` itself.
def outs : Outs (F := F) := fun J r c =>
  match J with
  | 2 => U2 m c r
  | 4 => U4 m c r
  | 6 => U6 m c r
  | 7 => U7 m c r
  | 9 => U9 m c r
  | _ => V1 m c r

theorem V2_eq (c : Dev nD) : V2 m (outs m) c = U2 m c :=
  update_update_self (V1 m c) _ _ (StableHlo.devRef_ne_of_ne (by decide))
theorem V3_eq (c : Dev nD) : V3 m (outs m) c = U3 m c := congrArg (StableHlo.after hostOps1) (V2_eq m c)
theorem V4_eq (c : Dev nD) : V4 m (outs m) c = U4 m c := by
  show Function.update (Function.update (V3 m (outs m) c) _ _) _ _ = _
  rw [V3_eq]
  exact update_update_self (U3 m c) _ _ (StableHlo.devRef_ne_of_ne (by decide))
theorem V5_eq (c : Dev nD) : V5 m (outs m) c = U5 m c := congrArg (StableHlo.after hostOps2) (V4_eq m c)
theorem V6_eq (c : Dev nD) : V6 m (outs m) c = U6 m c := by
  show Function.update (V5 m (outs m) c) _ _ = _
  rw [V5_eq]
  exact update_self_self (U5 m c) _
theorem V7_eq (c : Dev nD) : V7 m (outs m) c = U7 m c := by
  show Function.update (V6 m (outs m) c) _ _ = _
  rw [V6_eq]
  exact update_self_self (U6 m c) _
theorem V8_eq (c : Dev nD) : V8 m (outs m) c = U8 m c := congrArg (StableHlo.after hostOps4) (V7_eq m c)
theorem V9_eq (c : Dev nD) : V9 m (outs m) c = U9 m c := by
  show Function.update (V8 m (outs m) c) _ _ = _
  rw [V8_eq]
  exact update_self_self (U8 m c) _

theorem atTc_eq {V U : Dev nD → Valuation τ sig (Elt F)} (h : ∀ c, V c = U c) : atTc U = atTc V := by
  funext c b; show U c b = V c b; rw [h]

theorem outs_main_v4_0 (c : Dev nD) : outs m 2 main_v4_0 c = out0_2 (atTc (fun c => V1 m c)) c := by
  show U2 m c main_v4_0 = _; unfold U2; exact update_fst _ _ _ (StableHlo.devRef_ne_of_ne (by decide))
theorem outs_main_v4_1 (c : Dev nD) : outs m 2 main_v4_1 c = out0_3 (atTc (fun c => V1 m c)) c := by
  show U2 m c main_v4_1 = _; unfold U2; rw [Function.update_self]
theorem outs_main_v11_0 (c : Dev nD) : outs m 4 main_v11_0 c = out1_2 (atTc (fun c => V3 m (outs m) c)) c := by
  rw [← atTc_eq (V3_eq m)]; show U4 m c main_v11_0 = _; unfold U4; exact update_fst _ _ _ (StableHlo.devRef_ne_of_ne (by decide))
theorem outs_main_v11_1 (c : Dev nD) : outs m 4 main_v11_1 c = out1_3 (atTc (fun c => V3 m (outs m) c)) c := by
  rw [← atTc_eq (V3_eq m)]; show U4 m c main_v11_1 = _; unfold U4; rw [Function.update_self]
theorem outs_main_v18 (c : Dev nD) : outs m 6 main_v18 c = out2_7 (atTc (fun c => V5 m (outs m) c)) c := by
  rw [← atTc_eq (V5_eq m)]; show U6 m c main_v18 = _; unfold U6; rw [Function.update_self]
theorem outs_main_v19 (c : Dev nD) : outs m 7 main_v19 c = out3_7 (atTc (fun c => V6 m (outs m) c)) c := by
  rw [← atTc_eq (V6_eq m)]; show U7 m c main_v19 = _; unfold U7; rw [Function.update_self]
theorem outs_main_v24 (c : Dev nD) : outs m 9 main_v24 c = out4_3 (atTc (fun c => V8 m (outs m) c)) c := by
  rw [← atTc_eq (V8_eq m)]; show U9 m c main_v24 = _; unfold U9; rw [Function.update_self]

-- The regions' proof data, each at the contents its region is entered at.
def pdats : (p : Fin 5) → (c : Dev nD) → Dat τ (Elt F) Unit ℕ (Pipeline.UD sig nD τ) ℕ (cfgs p) c
  | ⟨0, _⟩ => fun c => dat0 (atTc (V1 m)) c
  | ⟨1, _⟩ => fun c => dat1 (atTc (V3 m (outs m))) c
  | ⟨2, _⟩ => fun c => dat2 (atTc (V5 m (outs m))) c
  | ⟨3, _⟩ => fun c => dat3 (atTc (V6 m (outs m))) c
  | ⟨4, _⟩ => fun c => dat4 (atTc (V8 m (outs m))) c

abbrev 𝒱₀ : Variants := Variants.none
abbrev L : GSem nD τ sig → Finset Unit := fun _ => ∅
abbrev lv : GSem nD τ sig → Unit → ℕ := fun _ _ => 0

abbrev owesNone (c : Dev nD) : sProp 𝕄 := iprop(∃ W, owes (c : Thread nD τ) (0 : CellTallies nD τ sig Unit) W)
abbrev prngSome (c : Dev nD) : sProp 𝕄 := iprop(∃ r, prngReg c r)
-- The resource kept between any two items besides the buffers' contents.
abbrev R (c : Dev nD) : sProp 𝕄 := iprop(prngSome (F := F) c ∗ owesNone (F := F) c)
abbrev E : Fin 6 → Dev nD → sProp 𝕄 := fun _ c => R (F := F) c

set_option backward.isDefEq.respectTransparency.types false in
-- A region as a segment from contents `Uin` to contents `Uout` that agree off its output arrays `O`; every other window's array ends as it began.
def regOf (p : Fin 5) (lf : Pipeline.LaunchFacts (nD := nD) (τ := τ) cfgs p)
    (Uin Uout : Dev nD → Valuation τ sig (Elt F))
    (hbody : ∀ c, BodyObligation (pdats m p c) (defs₀ (F := F)) Variants.none () Set.univ)
    (hA : ∀ c w, (pdats m p c).A w = atTc Uin c (Pipeline.arrRef (cfgs p).spec w))
    (O : List (Ref sig .tc))
    (hrest : ∀ c b, b ∉ O → atTc Uout c b = atTc Uin c b)
    (hF : ∀ c w, Pipeline.arrRef (cfgs p).spec w ∈ O → (pdats m p c).arrAt w (cfgs p).N = atTc Uout c (Pipeline.arrRef (cfgs p).spec w))
    (hin : ∀ c, iprop(prngSome (F := F) c ∗ Pipeline.scopedRest (Ix := Unit) (Name := ℕ) (U := Pipeline.UD sig nD τ) (Lvl := ℕ) (Val := Elt F) (cfgs p).spec c)
      ⊢ ((pdats m p c).Φ 0 : sProp 𝕄))
    (hout : ∀ c, ((pdats m p c).Φ (Fin.last (cfgs p).N) : sProp 𝕄)
      ⊢ iprop(prngSome (F := F) c ∗ Pipeline.scopedRest (Ix := Unit) (Name := ℕ) (U := Pipeline.UD sig nD τ) (Lvl := ℕ) (Val := Elt F) (cfgs p).spec c))
    (hq : ∀ c w, (pdats m p c).q w = fullShare := by exact fun _ _ => rfl)
    (howed : ∀ c t, (pdats m p c).owed t = 0 := by exact fun _ _ => rfl)
    (hrec : ∀ c t, (pdats m p c).recorded t = Set.univ := by exact fun _ _ => rfl)
    (hO : ∀ r ∈ O, ∃ w, Pipeline.arrRef (cfgs p).spec w = r := by decide)
    (hio : ∀ w, Pipeline.arrRef (cfgs p).spec w ∉ O → ((cfgs p).win w).isOut = false := by decide) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Uin c) ∗ R (F := F) c)
  post c := iprop(StableHlo.held (c : Thread nD τ) (Pipeline.ucRefs τ sig) (Uout c) ∗ R (F := F) c)
  X c := prngSome (F := F) c
  Y c := prngSome (F := F) c
  Z c := Pipeline.unscopedRest (Ix := Unit) (Name := ℕ) (U := Pipeline.UD sig nD τ) (Lvl := ℕ) (cfgs p).spec c (atTc Uin c)
  hentry c := by
    rw [Pipeline.ownSems0_none]
    have hsplit := Pipeline.arrays_of_unscopedBufs (p := p) (pcfgs (F := F)) adm (pdats m) lf.win lf.arr_whole c
      ((pdats m p c).share_full (hq c)) (atTc Uin c) (hA c)
    rw [Pipeline.unscopedBufs_held] at hsplit
    iintro ⟨⟨Hbufs, Hprng, Howes⟩, -, -⟩
    ihave Hsp := hsplit $$ Hbufs
    icases Hsp with ⟨Harr, Hrest⟩
    imodintro
    iframe
    isplitr
    · unfold Pipeline.prefHeld; rw [show (Finset.univ : Finset (Fin 0)) = ∅ from rfl, BI.bigSep_empty]; iempintro
    iapply (owesAt_of_none (pdats m p c) 0 (howed c 0) (hrec c 0)); iexact Howes
  hin c := by
    iintro ⟨Hprng, -, Hsc⟩
    iapply (hin c)
    iframe
  hout c := by
    rw [Pipeline.ownSems0_none]
    exact (hout c).trans (sep_mono_right BI.emp_sep.2)
  hexit c := by
    have hjoin := Pipeline.unscopedBufs_of_arrays (p := p) (pcfgs (F := F)) adm (Ix := Unit) (Name := ℕ) (U := Pipeline.UD sig nD τ) (Lvl := ℕ)
      lf.win lf.arr_whole c (pdats m) ((pdats m p c).share_full (hq c))
      (atTc Uin c) (atTc Uout c) ((pdats m p c).arrAt · (cfgs p).N)
      (fun w => if h : Pipeline.arrRef (cfgs p).spec w ∈ O then hF c w h
        else ((pdats m p c).arrAt_in w (hio w h) _).trans ((hA c w).trans (hrest c _ h).symm))
      (fun b hb => hrest c b (not_mem_of_not_arr _ O hO hb))
    rw [Pipeline.unscopedBufs_held] at hjoin
    iintro ⟨Harr, Howes, Hprng, Hrest⟩
    imodintro
    isplitl [Harr Hrest]
    · iapply hjoin; isplitl [Harr] <;> iassumption
    isplitl [Hprng]; · iexact Hprng
    iapply (none_of_owesAt (pdats m p c) (Fin.last _) (howed c _)); iexact Howes

def reg0 : Pipeline.RegionSeg (pcfgs (F := F)) adm (pdats m) () defs₀ 𝒱₀ L lv 0 :=
  regOf m 0 launch0 (V1 m) (V2 m (outs m)) (body_obligation0 _)
    (A_eq0 _) [main_v4_0, main_v4_1] (V2_of m (outs m))
    (fun c w h => by
      rcases (by decide : ∀ w : Fin cfg0.W, Pipeline.arrRef spec0 w ∈ [main_v4_0, main_v4_1] → w = 2 ∨ w = 3) w h with rfl | rfl
      · exact (arrAt0_2 _ c).trans ((congrFun (V2_eq m c) _).trans (outs_main_v4_0 m c)).symm
      · exact (arrAt0_3 _ c).trans ((congrFun (V2_eq m c) _).trans (outs_main_v4_1 m c)).symm)
    (fun _ => sep_comm.1) (fun _ => sep_comm.1)

def reg1 : Pipeline.RegionSeg (pcfgs (F := F)) adm (pdats m) () defs₀ 𝒱₀ L lv 1 :=
  regOf m 1 launch1 (V3 m (outs m)) (V4 m (outs m)) (body_obligation1 _)
    (A_eq1 _) [main_v11_0, main_v11_1] (V4_of m (outs m))
    (fun c w h => by
      rcases (by decide : ∀ w : Fin cfg1.W, Pipeline.arrRef spec1 w ∈ [main_v11_0, main_v11_1] → w = 2 ∨ w = 3) w h with rfl | rfl
      · exact (arrAt1_2 _ c).trans ((congrFun (V4_eq m c) _).trans (outs_main_v11_0 m c)).symm
      · exact (arrAt1_3 _ c).trans ((congrFun (V4_eq m c) _).trans (outs_main_v11_1 m c)).symm)
    (fun _ => sep_comm.1) (fun _ => sep_comm.1)

def reg2 : Pipeline.RegionSeg (pcfgs (F := F)) adm (pdats m) () defs₀ 𝒱₀ L lv 2 :=
  regOf m 2 launch2 (V5 m (outs m)) (V6 m (outs m)) (body_obligation2 _)
    (A_eq2 _) [main_v18] (V6_of m (outs m))
    (fun c w h => by
      obtain rfl : w = 7 := (by decide : ∀ w : Fin cfg2.W, Pipeline.arrRef spec2 w ∈ [main_v18] → w = 7) w h
      exact (arrAt2_7 _ c).trans ((congrFun (V6_eq m c) _).trans (outs_main_v18 m c)).symm)
    (fun _ => sep_comm.1) (fun _ => sep_comm.1)

def reg3 : Pipeline.RegionSeg (pcfgs (F := F)) adm (pdats m) () defs₀ 𝒱₀ L lv 3 :=
  regOf m 3 launch3 (V6 m (outs m)) (V7 m (outs m)) (body_obligation3 _)
    (A_eq3 _) [main_v19] (V7_of m (outs m))
    (fun c w h => by
      obtain rfl : w = 7 := (by decide : ∀ w : Fin cfg3.W, Pipeline.arrRef spec3 w ∈ [main_v19] → w = 7) w h
      exact (arrAt3_7 _ c).trans ((congrFun (V7_eq m c) _).trans (outs_main_v19 m c)).symm)
    (fun _ => sep_comm.1) (fun _ => sep_comm.1)

def reg4 : Pipeline.RegionSeg (pcfgs (F := F)) adm (pdats m) () defs₀ 𝒱₀ L lv 4 :=
  regOf m 4 launch4 (V8 m (outs m)) (V9 m (outs m)) (body_obligation4 _)
    (A_eq4 _) [main_v24] (V9_of m (outs m))
    (fun c w h => by
      obtain rfl : w = 3 := (by decide : ∀ w : Fin cfg4.W, Pipeline.arrRef spec4 w ∈ [main_v24] → w = 3) w h
      exact (arrAt4_3 _ c).trans ((congrFun (V9_eq m c) _).trans (outs_main_v24 m c)).symm)
    (hin4 _) (hout4 _)

variable (ρ : Dev nD → PrngReg)

abbrev EP : Emb (URounds (GSem nD τ sig) Unit) (MT nD τ sig Unit (Elt F) ℕ (Pipeline.UD sig nD τ) ℕ) := embL

def u₀ : Pipeline.UD sig nD τ := (initOf (Pipeline.cells cfgs cellOf_inj) (Pipeline.launchToks cfgs cellOf_inj), 1)

theorem hu₀ : (ownU u₀ : sProp 𝕄)
    ⊢ |={Set.univ}=> iprop(BI.own ((EP (F := F)) (initOf (Pipeline.cells cfgs cellOf_inj) (Pipeline.launchToks cfgs cellOf_inj)))
        ∗ bigSep Finset.univ fun _ : Dev nD => (BI.emp : sProp 𝕄)) := by
  unfold u₀
  iintro Hu
  ihave H := (ownU_pair _ _) $$ Hu
  icases H with ⟨HP, -⟩
  imodintro
  iframe
  rw [BI.bigSep_emp_const]
  iempintro

theorem hE5 (c : Dev nD) : E (F := F) 5 c ⊢ (owesNone (F := F) c : sProp 𝕄) := by
  iintro ⟨-, Howes⟩; iexact Howes

def QYfin (c : Dev nD) (s : MemSt nD τ sig (Elt F)) : Prop :=
  s.mem ((c.tc : Thread nD τ).loc main_v26) = V10 m (outs m) c main_v26
  ∧ s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)
  ∧ s.mem ((c.tc : Thread nD τ).loc main_arg5) = m ((c.tc : Thread nD τ).loc main_arg5)
  ∧ s.mem ((c.tc : Thread nD τ).loc main_arg6) = m ((c.tc : Thread nD τ).loc main_arg6)

set_option backward.isDefEq.respectTransparency.types false in
-- Every weakly fair execution terminates; the final memory holds the result where the last boundary contents put it, and each argument as launched.
theorem run_main : θ_run defs (onTc (τ := τ) (main (F := F))) ⟨m, fun _ => 0, ρ⟩ (fun r => ∀ c : Dev nD, QYfin m c r.2) := by
  refine Pipeline.θ_run_regions_kit_dev (pcfgs (F := F)) adm (pdats m) () cellOf_inj (EP (F := F)) defs₀ 𝒱₀ L lv m ρ main
    (segs m (outs m) 𝒱₀ L lv (E (F := F)) () (pdats m) (reg0 m) (reg1 m) (reg2 m) (reg3 m) (reg4 m))
    (fun c Q => by
      rewrite [main_chain c, Pipeline.Seg.run_eq_chain]
      exact .rfl)
    (fun c => by simp only [segs, Pipeline.Seg.pipes_host, Pipeline.Seg.pipes_region, Pipeline.Seg.pipes_nil]; decide)
    0 (fun _ _ => rfl) (fun _ => (BI.emp : sProp 𝕄)) u₀ hu₀
    (T₀ := fun c => iprop(StableHlo.held (c : Thread nD τ) (Pipeline.ucRefs τ sig) (V0 m c) ∗ E (F := F) 0 c))
    (Tₙ := fun c => StableHlo.held (c : Thread nD τ) (Pipeline.ucRefs τ sig) (V10 m (outs m) c))
    (hch := fun c => ⟨.rfl, .rfl, .rfl, .rfl, .rfl, .rfl, .rfl, .rfl, .rfl, .rfl, sep_mono .rfl (hE5 c)⟩)
    (hinit := Pipeline.initEach L lv fun c => by
      iintro ⟨⟨Hb, -, Howes, -, Hprng, -⟩, -⟩
      imodintro
      isplitl [Hb]
      · rw [← Pipeline.unscopedBufs_held (Ix := Unit) (Name := ℕ) (U := Pipeline.UD sig nD τ) (Lvl := ℕ) c (V0 m c)]; iexact Hb
      isplitl [Hprng]; · iexists _; iexact Hprng
      iexists ∅; iexact Howes)
    (QY := QYfin m) (hfin := fun c s' => ?_) (hQ := fun _ h => h)
  unfold StableHlo.held
  iintro ⟨Hheld, HSI⟩
  ihave Hr := (pointsTo_read_all (Pipeline.ucRefs τ sig) (fun b => ((c : Thread nD τ).1, b)) (V10 m (outs m) c) s') $$ [Hheld HSI]
  · isplitl [Hheld] <;> iassumption
  icases Hr with ⟨%h, HSI⟩
  imodintro
  isplitr
  · ipureintro
    have g := fun (r : Ref sig .tc) (hr : _) => h (Proc.devRef .tc r) (Finset.mem_filter.mpr ⟨StableHlo.devRef_mem_tcRefs r, hr⟩)
    exact ⟨g main_v26 (by decide), (g main_arg0 (by decide)).trans (V10_main_arg0 m (outs m) c),
      (g main_arg1 (by decide)).trans (V10_main_arg1 m (outs m) c), (g main_arg2 (by decide)).trans (V10_main_arg2 m (outs m) c),
      (g main_arg3 (by decide)).trans (V10_main_arg3 m (outs m) c), (g main_arg4 (by decide)).trans (V10_main_arg4 m (outs m) c),
      (g main_arg5 (by decide)).trans (V10_main_arg5 m (outs m) c), (g main_arg6 (by decide)).trans (V10_main_arg6 m (outs m) c)⟩
  · iexact HSI

-- The frame is the valued run with the result's conjunct dropped.
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  OrdCont.mono (θ_run defs (onTc (τ := τ) (main (F := F))) ⟨m, fun _ => 0, ρ⟩) (fun _ h c => (h c).2) (run_main m ρ)

end Cert.Kernel.Hand

end
-- ==== Proof.Spec.lean ====
import Idealize.ShloMosaic.PureOps.Ideal

noncomputable section

namespace Cert.Spec

open Idealize.ShloMosaic

structure Lits where

  cnt : EReal

  eps : EReal

  temp : EReal

  itemp : EReal

  big : EReal

  ngam : EReal

structure Lits.Good (L : Lits) : Prop where
  cnt : L.cnt = ((4096 : ℝ) : EReal)
  eps : ∃ e : ℝ, 0 < e ∧ L.eps = (e : EReal)
  temp : ∃ d : ℝ, 0 < d ∧ L.temp = (d : EReal) ∧ L.itemp = ((1 / d : ℝ) : EReal)
  big : ∃ B : ℝ, L.big = (B : EReal)
  ngam : ∃ γ : ℝ, L.ngam = (γ : EReal)

variable (L : Lits)

section Projector

variable (x : Fin 4096 → Fin 2048 → EReal) (W1 : Fin 2048 → Fin 2048 → EReal) (g b : Fin 2048 → EReal)
  (W2 : Fin 128 → Fin 2048 → EReal)

def lin (r : Fin 4096) (j : Fin 2048) : EReal := ∑ k : Fin 2048, x r k * W1 j k

def colSum (j : Fin 2048) : EReal := ∑ r : Fin 4096, lin x W1 r j
def colSumSq (j : Fin 2048) : EReal := ∑ r : Fin 4096, lin x W1 r j * lin x W1 r j

def mean (j : Fin 2048) : EReal := Ideal.div (colSum x W1 j) L.cnt

def varR (j : Fin 2048) : EReal :=
  Ideal.div (∑ r : Fin 4096, (lin x W1 r j - mean L x W1 j) * (lin x W1 r j - mean L x W1 j)) L.cnt

def varK (j : Fin 2048) : EReal := Ideal.div (colSumSq x W1 j) L.cnt - mean L x W1 j * mean L x W1 j

def act (var : Fin 2048 → EReal) (r : Fin 4096) (j : Fin 2048) : EReal :=
  max (((lin x W1 r j - mean L x W1 j) * Ideal.rsqrt (var j + L.eps)) * g j + b j) 0

def proj (var : Fin 2048 → EReal) (r : Fin 4096) (p : Fin 128) : EReal := ∑ j : Fin 2048, act L x W1 g b var r j * W2 p j
def rowNorm (var : Fin 2048 → EReal) (r : Fin 4096) : EReal :=
  Ideal.sqrt (∑ p : Fin 128, proj L x W1 g b W2 var r p * proj L x W1 g b W2 var r p)
def unit (var : Fin 2048 → EReal) (r : Fin 4096) (p : Fin 128) : EReal :=
  Ideal.div (proj L x W1 g b W2 var r p) (rowNorm L x W1 g b W2 var r)

def unitR : Fin 4096 → Fin 128 → EReal := unit L x W1 g b W2 (varR L x W1)
def unitK : Fin 4096 → Fin 128 → EReal := unit L x W1 g b W2 (varK L x W1)

end Projector

def stack {α : Type} (u v : Fin 4096 → α) (a : Fin 8192) : α :=
  if h : a.val < 4096 then u ⟨a.val, h⟩ else v ⟨a.val - 4096, by omega⟩

section Pairwise

variable (Z : Fin 8192 → Fin 128 → EReal) (lab : Fin 8192 → EReal)

def dotZ (a b : Fin 8192) : EReal := ∑ p : Fin 128, Z a p * Z b p

def wt (a b : Fin 8192) : EReal :=
  if a = b then 0 else Ideal.exp (L.ngam * ((lab a - lab b) * (lab a - lab b)))

def rowW (a : Fin 8192) : EReal := ∑ b : Fin 8192, wt L lab a b

def simR (a b : Fin 8192) : EReal :=
  if a = b then Ideal.div (dotZ Z a b) L.temp - L.big else Ideal.div (dotZ Z a b) L.temp

def simK (a b : Fin 8192) : EReal :=
  if a = b then dotZ Z a b * L.itemp - L.big else dotZ Z a b * L.itemp

def rowMaxR (a : Fin 8192) : EReal := Finset.univ.sup (simR L Z a)
def lsmR (a b : Fin 8192) : EReal :=
  (simR L Z a b - rowMaxR L Z a) - Ideal.log (∑ b' : Fin 8192, Ideal.exp (simR L Z a b' - rowMaxR L Z a))
def lossR : EReal :=
  Ideal.div (-(∑ a : Fin 8192, ∑ b : Fin 8192, Ideal.div (wt L lab a b) (rowW L lab a) * lsmR L Z a b)) L.cnt

def col (j : Fin 16) (c : Fin 512) : Fin 8192 := ⟨j.val * 512 + c.val, by have := j.isLt; have := c.isLt; omega⟩

def tileMax (a : Fin 8192) (j : Fin 16) : EReal := Finset.univ.sup fun c : Fin 512 => simK L Z a (col j c)

def mAt (a : Fin 8192) : ℕ → EReal
  | 0 => ⊥
  | j + 1 => if h : j < 16 then max (mAt a j) (tileMax L Z a ⟨j, h⟩) else mAt a j

def lAt (a : Fin 8192) : ℕ → EReal
  | 0 => 0
  | j + 1 => if h : j < 16 then
      lAt a j * Ideal.exp (mAt L Z a j - mAt L Z a (j + 1))
        + ∑ c : Fin 512, Ideal.exp (simK L Z a (col ⟨j, h⟩ c) - mAt L Z a (j + 1))
    else lAt a j

def wsAt (a : Fin 8192) : ℕ → EReal
  | 0 => 0
  | j + 1 => if h : j < 16 then wsAt a j + ∑ c : Fin 512, wt L lab a (col ⟨j, h⟩ c) else wsAt a j

def wzAt (a : Fin 8192) : ℕ → EReal
  | 0 => 0
  | j + 1 => if h : j < 16 then wzAt a j + ∑ c : Fin 512, wt L lab a (col ⟨j, h⟩ c) * simK L Z a (col ⟨j, h⟩ c) else wzAt a j

def outK (a : Fin 8192) : EReal :=
  (mAt L Z a 16 + Ideal.log (lAt L Z a 16)) - Ideal.div (wzAt L Z lab a 16) (wsAt L lab a 16)
def lossK : EReal := Ideal.div (∑ a : Fin 8192, outK L Z lab a) L.cnt

end Pairwise

section Whole

variable (y1 y2 : Fin 4096 → Fin 2048 → EReal) (labels : Fin 4096 → EReal) (W1 : Fin 2048 → Fin 2048 → EReal)
  (g b : Fin 2048 → EReal) (W2 : Fin 128 → Fin 2048 → EReal)

def refLoss : EReal :=
  lossR L (stack (unitR L y1 W1 g b W2) (unitR L y2 W1 g b W2)) (stack labels labels)
def kerLoss : EReal :=
  lossK L (stack (unitK L y1 W1 g b W2) (unitK L y2 W1 g b W2)) (stack labels labels)

end Whole

end Cert.Spec

end
-- ==== Proof.MathProj.lean ====
import proofs.«115278_j52183852646963_1_alg».proof.Proof.Spec

namespace Cert.Spec

open Idealize.ShloMosaic

theorem coe_sum {ι : Type} (s : Finset ι) (f : ι → ℝ) : ∑ i ∈ s, (f i : EReal) = ((∑ i ∈ s, f i : ℝ) : EReal) :=
  (map_sum (⟨⟨Real.toEReal, EReal.coe_zero⟩, EReal.coe_add⟩ : ℝ →+ EReal) f s).symm

namespace ProjAux

theorem max_coe_zero (a : ℝ) : max (a : EReal) 0 = ((max a 0 : ℝ) : EReal) :=
  (EReal.coe_strictMono.monotone.map_max (a := a) (b := 0)).symm

theorem rsqrt_coe_pos {v : ℝ} (hv : 0 < v) : Ideal.rsqrt (v : EReal) = (((Real.sqrt v)⁻¹ : ℝ) : EReal) := by
  rw [Ideal.rsqrt_coe, if_neg (not_lt.mpr hv.le), if_neg hv.ne']

theorem sqrt_coe_nonneg {v : ℝ} (hv : 0 ≤ v) : Ideal.sqrt (v : EReal) = ((Real.sqrt v : ℝ) : EReal) := by
  rw [Ideal.sqrt_coe, if_neg (not_lt.mpr hv)]

theorem real_var_eq {ι : Type} [Fintype ι] (h : ι → ℝ) (c : ℝ) (hc : (Fintype.card ι : ℝ) = c) (hc0 : c ≠ 0) :
    (∑ r, h r * h r) * (1 / c) - ((∑ r, h r) * (1 / c)) * ((∑ r, h r) * (1 / c))
      = (∑ r, (h r - (∑ r, h r) * (1 / c)) * (h r - (∑ r, h r) * (1 / c))) * (1 / c) := by
  have e : ∀ μ : ℝ, ∑ r, (h r - μ) * (h r - μ) = (∑ r, h r * h r) - 2 * μ * (∑ r, h r) + c * (μ * μ) := by
    intro μ
    have : ∀ r, (h r - μ) * (h r - μ) = h r * h r - 2 * μ * h r + μ * μ := fun r => by ring
    simp only [this, Finset.sum_add_distrib, Finset.sum_sub_distrib, ← Finset.mul_sum, Finset.sum_const,
      Finset.card_univ, nsmul_eq_mul, hc]
    ring
  rw [e]; field_simp; ring

end ProjAux

open ProjAux

variable (L : Lits) (hL : L.Good) (x : Fin 4096 → Fin 2048 → EReal) (W1 : Fin 2048 → Fin 2048 → EReal)
  (g b : Fin 2048 → EReal) (W2 : Fin 128 → Fin 2048 → EReal)
  (hx : ∀ r k, ∃ v : ℝ, x r k = (v : EReal)) (hW : ∀ j k, ∃ v : ℝ, W1 j k = (v : EReal))
  (hg : ∀ j, ∃ v : ℝ, g j = (v : EReal)) (hb : ∀ j, ∃ v : ℝ, b j = (v : EReal))
  (hW2 : ∀ p j, ∃ v : ℝ, W2 p j = (v : EReal))
  (var : Fin 2048 → EReal) (hvar : ∀ j, ∃ v : ℝ, 0 ≤ v ∧ var j = (v : EReal))

include hx hW in
theorem lin_real (r : Fin 4096) (j : Fin 2048) : ∃ v : ℝ, lin x W1 r j = (v : EReal) := by
  choose vx hvx using hx
  choose vW hvW using hW
  refine ⟨∑ k, vx r k * vW j k, ?_⟩
  unfold lin
  rw [← coe_sum]
  refine Finset.sum_congr rfl fun k _ => ?_
  rw [hvx, hvW, EReal.coe_mul]

include hL in
theorem mean_eq (j : Fin 2048) (h : Fin 4096 → ℝ) (hh : ∀ r, lin x W1 r j = (h r : EReal)) :
    mean L x W1 j = (((∑ r, h r) * (1 / 4096) : ℝ) : EReal) := by
  unfold mean colSum
  rw [hL.cnt, Ideal.div_coe (by norm_num)]
  simp only [hh]
  rw [coe_sum, ← EReal.coe_mul]

include hL in
theorem varR_eq (j : Fin 2048) (h : Fin 4096 → ℝ) (hh : ∀ r, lin x W1 r j = (h r : EReal)) :
    varR L x W1 j
      = (((∑ r, (h r - (∑ r, h r) * (1 / 4096)) * (h r - (∑ r, h r) * (1 / 4096))) * (1 / 4096) : ℝ) : EReal) := by
  unfold varR
  rw [mean_eq L hL x W1 j h hh, hL.cnt, Ideal.div_coe (by norm_num)]
  simp only [hh, ← EReal.coe_sub, ← EReal.coe_mul, coe_sum]

include hL hx hW in
theorem varK_eq_varR (j : Fin 2048) : varK L x W1 j = varR L x W1 j := by
  choose h hh using fun r => lin_real x W1 hx hW r j
  rw [varR_eq L hL x W1 j h hh]
  unfold varK colSumSq
  rw [mean_eq L hL x W1 j h hh, hL.cnt, Ideal.div_coe (by norm_num)]
  simp only [hh, ← EReal.coe_sub, ← EReal.coe_mul, coe_sum]
  exact congrArg _ (real_var_eq h 4096 (by simp) (by norm_num))

include hL hx hW in
theorem mean_real (j : Fin 2048) : ∃ v : ℝ, mean L x W1 j = (v : EReal) := by
  choose h hh using fun r => lin_real x W1 hx hW r j
  exact ⟨_, mean_eq L hL x W1 j h hh⟩

include hL hx hW in
theorem varR_real (j : Fin 2048) : ∃ v : ℝ, 0 ≤ v ∧ varR L x W1 j = (v : EReal) := by
  choose h hh using fun r => lin_real x W1 hx hW r j
  exact ⟨_, mul_nonneg (Finset.sum_nonneg fun r _ => mul_self_nonneg _) (by norm_num), varR_eq L hL x W1 j h hh⟩

include hL hx hW in
theorem unitK_eq_unitR : unitK L x W1 g b W2 = unitR L x W1 g b W2 := by
  unfold unitK unitR
  rw [funext (varK_eq_varR L hL x W1 hx hW)]

include hL hx hW hg hb hvar in
theorem act_real (r : Fin 4096) (j : Fin 2048) : ∃ v : ℝ, act L x W1 g b var r j = (v : EReal) := by
  obtain ⟨h, hh⟩ := lin_real x W1 hx hW r j
  obtain ⟨μ, hμ⟩ := mean_real L hL x W1 hx hW j
  obtain ⟨v, hv0, hv⟩ := hvar j
  obtain ⟨e, he0, he⟩ := hL.eps
  obtain ⟨γ, hγ⟩ := hg j
  obtain ⟨β, hβ⟩ := hb j
  refine ⟨max ((h - μ) * (Real.sqrt (v + e))⁻¹ * γ + β) 0, ?_⟩
  unfold act
  rw [hh, hμ, hv, he, hγ, hβ, ← EReal.coe_add, rsqrt_coe_pos (add_pos_of_nonneg_of_pos hv0 he0), ← EReal.coe_sub,
    ← EReal.coe_mul, ← EReal.coe_mul, ← EReal.coe_add, max_coe_zero]

include hL hx hW hg hb hW2 hvar in
theorem proj_real (r : Fin 4096) (p : Fin 128) : ∃ v : ℝ, proj L x W1 g b W2 var r p = (v : EReal) := by
  choose a ha using fun j => act_real L hL x W1 g b hx hW hg hb var hvar r j
  choose w hw using hW2
  refine ⟨∑ j, a j * w p j, ?_⟩
  unfold proj
  rw [← coe_sum]
  refine Finset.sum_congr rfl fun j _ => ?_
  rw [ha, hw, EReal.coe_mul]

include hL hx hW hg hb hW2 hvar in
theorem rowNorm_real (r : Fin 4096) : ∃ n : ℝ, 0 ≤ n ∧ rowNorm L x W1 g b W2 var r = (n : EReal) := by
  choose q hq using fun p => proj_real L hL x W1 g b W2 hx hW hg hb hW2 var hvar r p
  refine ⟨Real.sqrt (∑ p, q p * q p), Real.sqrt_nonneg _, ?_⟩
  unfold rowNorm
  simp only [hq, ← EReal.coe_mul, coe_sum]
  exact sqrt_coe_nonneg (Finset.sum_nonneg fun p _ => mul_self_nonneg _)

include hL hx hW hg hb hW2 hvar in
theorem unit_real (r : Fin 4096) (hn : 0 < rowNorm L x W1 g b W2 var r) (p : Fin 128) :
    ∃ v : ℝ, unit L x W1 g b W2 var r p = (v : EReal) := by
  obtain ⟨q, hq⟩ := proj_real L hL x W1 g b W2 hx hW hg hb hW2 var hvar r p
  obtain ⟨n, -, hn'⟩ := rowNorm_real L hL x W1 g b W2 hx hW hg hb hW2 var hvar r
  rw [hn'] at hn
  have hn0 : n ≠ 0 := (EReal.coe_pos.mp hn).ne'
  refine ⟨q * (1 / n), ?_⟩
  unfold unit
  rw [hq, hn', Ideal.div_coe hn0, ← EReal.coe_mul]

include hL hx hW hg hb hW2 in
theorem unitR_real (hn : ∀ r, 0 < rowNorm L x W1 g b W2 (varR L x W1) r) :
    ∀ r p, ∃ v : ℝ, unitR L x W1 g b W2 r p = (v : EReal) := fun r p =>
  unit_real L hL x W1 g b W2 hx hW hg hb hW2 (varR L x W1) (varR_real L hL x W1 hx hW) r (hn r) p

end Cert.Spec
-- ==== Proof.MathLse.lean ====
import proofs.«115278_j52183852646963_1_alg».proof.Proof.MathProj

noncomputable section

namespace Cert.Spec

open Idealize.ShloMosaic

namespace Lse

def pre (n : ℕ) : Finset (Fin 8192) := Finset.univ.filter fun b => b.val < 512 * n

theorem mem_pre (n : ℕ) (b : Fin 8192) : b ∈ pre n ↔ b.val < 512 * n := by
  simp only [pre, Finset.mem_filter, Finset.mem_univ, true_and]

theorem pre_zero : pre 0 = ∅ := by
  ext b; simp [mem_pre]

theorem pre_sixteen : pre 16 = Finset.univ := by
  ext b
  have := b.isLt
  simp only [mem_pre, Finset.mem_univ, iff_true]
  omega

theorem pre_succ_nonempty (j : ℕ) : (pre (j + 1)).Nonempty :=
  ⟨⟨0, by norm_num⟩, by rw [mem_pre]; show 0 < 512 * (j + 1); omega⟩

theorem col_val (j : Fin 16) (c : Fin 512) : (col j c).val = j.val * 512 + c.val := rfl

theorem col_injective (j : Fin 16) : Function.Injective (col j) := by
  intro c c' h
  have h' := congrArg Fin.val h
  rw [col_val, col_val] at h'
  exact Fin.ext (by omega)

theorem pre_succ (j : ℕ) (h : j < 16) : pre (j + 1) = pre j ∪ Finset.univ.image (col ⟨j, h⟩) := by
  ext b
  simp only [mem_pre, Finset.mem_union, Finset.mem_image, Finset.mem_univ, true_and]
  constructor
  · intro hb
    by_cases hlt : b.val < 512 * j
    · exact Or.inl hlt
    · refine Or.inr ⟨⟨b.val - 512 * j, by omega⟩, Fin.ext ?_⟩
      rw [col_val]
      show j * 512 + (b.val - 512 * j) = b.val
      omega
  · rintro (hb | ⟨c, rfl⟩)
    · omega
    · have := c.isLt
      rw [col_val]
      show j * 512 + c.val < 512 * (j + 1)
      omega

theorem pre_disjoint (j : ℕ) (h : j < 16) : Disjoint (pre j) (Finset.univ.image (col ⟨j, h⟩)) := by
  rw [Finset.disjoint_left]
  intro b hb hb'
  obtain ⟨c, -, rfl⟩ := Finset.mem_image.1 hb'
  rw [mem_pre, col_val] at hb
  have hb2 : j * 512 + c.val < 512 * j := hb
  omega

theorem sum_pre_succ {M : Type} [AddCommMonoid M] (f : Fin 8192 → M) (j : ℕ) (h : j < 16) :
    ∑ b ∈ pre (j + 1), f b = ∑ b ∈ pre j, f b + ∑ c : Fin 512, f (col ⟨j, h⟩ c) := by
  rw [pre_succ j h, Finset.sum_union (pre_disjoint j h),
    Finset.sum_image (fun c _ c' _ hc => col_injective _ hc)]

theorem sup_pre_succ (f : Fin 8192 → EReal) (j : ℕ) (h : j < 16) :
    (pre (j + 1)).sup f = max ((pre j).sup f) (Finset.univ.sup fun c : Fin 512 => f (col ⟨j, h⟩ c)) := by
  rw [pre_succ j h, Finset.sup_union, Finset.sup_image]
  rfl

theorem sup_real (s : Finset (Fin 8192)) (hs : s.Nonempty) (f : Fin 8192 → EReal)
    (hf : ∀ b, ∃ v : ℝ, f b = (v : EReal)) : ∃ M : ℝ, s.sup f = (M : EReal) := by
  obtain ⟨i, -, hi⟩ := Finset.exists_mem_eq_sup s hs f
  obtain ⟨v, hv⟩ := hf i
  exact ⟨v, hi.trans hv⟩

variable (L : Lits) (Z : Fin 8192 → Fin 128 → EReal) (lab : Fin 8192 → EReal) (a : Fin 8192)

theorem wsAt_pre : ∀ j, j ≤ 16 → wsAt L lab a j = ∑ b ∈ pre j, wt L lab a b
  | 0, _ => by rw [wsAt, pre_zero, Finset.sum_empty]
  | j + 1, hj => by
    have h : j < 16 := hj
    rw [wsAt, dif_pos h, wsAt_pre j (by omega), sum_pre_succ _ j h]

theorem wzAt_pre : ∀ j, j ≤ 16 → wzAt L Z lab a j = ∑ b ∈ pre j, wt L lab a b * simK L Z a b
  | 0, _ => by rw [wzAt, pre_zero, Finset.sum_empty]
  | j + 1, hj => by
    have h : j < 16 := hj
    rw [wzAt, dif_pos h, wzAt_pre j (by omega), sum_pre_succ (fun b => wt L lab a b * simK L Z a b) j h]

theorem mAt_pre : ∀ j, j ≤ 16 → mAt L Z a j = (pre j).sup (simK L Z a)
  | 0, _ => by rw [mAt, pre_zero, Finset.sup_empty]
  | j + 1, hj => by
    have h : j < 16 := hj
    rw [mAt, dif_pos h, mAt_pre j (by omega), sup_pre_succ _ j h]
    rfl

theorem mAt_succ_real (hs : ∀ b, ∃ v : ℝ, simK L Z a b = (v : EReal)) (j : ℕ) (hj : j + 1 ≤ 16) :
    ∃ M : ℝ, mAt L Z a (j + 1) = (M : EReal) := by
  rw [mAt_pre L Z a (j + 1) hj]
  exact sup_real _ (pre_succ_nonempty j) _ hs

theorem lAt_pre (hs : ∀ b, ∃ v : ℝ, simK L Z a b = (v : EReal)) :
    ∀ j, j ≤ 16 → lAt L Z a j = ∑ b ∈ pre j, Ideal.exp (simK L Z a b - mAt L Z a j)
  | 0, _ => by rw [lAt, pre_zero, Finset.sum_empty]
  | j + 1, hj => by
    have h : j < 16 := hj
    rw [lAt, dif_pos h, lAt_pre hs j (by omega),
      sum_pre_succ (fun b => Ideal.exp (simK L Z a b - mAt L Z a (j + 1))) j h]
    congr 1
    rcases Nat.eq_zero_or_pos j with rfl | hpos
    · rw [pre_zero, Finset.sum_empty, Finset.sum_empty, zero_mul]
    · obtain ⟨i, rfl⟩ : ∃ i, j = i + 1 := ⟨j - 1, by omega⟩
      obtain ⟨M, hM⟩ := mAt_succ_real L Z a hs i (by omega)
      obtain ⟨M', hM'⟩ := mAt_succ_real L Z a hs (i + 1) hj
      choose σ hσ using hs
      rw [hM, hM']
      simp only [hσ, ← EReal.coe_sub, Ideal.exp_coe, coe_sum, ← EReal.coe_mul]
      congr 1
      rw [Finset.sum_mul]
      refine Finset.sum_congr rfl fun b _ => ?_
      rw [← Real.exp_add]
      congr 1
      ring

end Lse

variable (L : Lits) (Z : Fin 8192 → Fin 128 → EReal) (lab : Fin 8192 → EReal) (a : Fin 8192)

theorem wsAt_final : wsAt L lab a 16 = rowW L lab a := by
  rw [Lse.wsAt_pre L lab a 16 le_rfl, Lse.pre_sixteen]
  rfl

theorem wzAt_final : wzAt L Z lab a 16 = ∑ b : Fin 8192, wt L lab a b * simK L Z a b := by
  rw [Lse.wzAt_pre L Z lab a 16 le_rfl, Lse.pre_sixteen]

theorem mAt_final : mAt L Z a 16 = Finset.univ.sup (simK L Z a) := by
  rw [Lse.mAt_pre L Z a 16 le_rfl, Lse.pre_sixteen]

theorem lAt_final (hs : ∀ b, ∃ v : ℝ, simK L Z a b = (v : EReal)) :
    lAt L Z a 16 = ∑ b : Fin 8192, Ideal.exp (simK L Z a b - mAt L Z a 16) := by
  rw [Lse.lAt_pre L Z a hs 16 le_rfl, Lse.pre_sixteen]

theorem mAt_real (hs : ∀ b, ∃ v : ℝ, simK L Z a b = (v : EReal)) : ∃ M : ℝ, mAt L Z a 16 = (M : EReal) :=
  Lse.mAt_succ_real L Z a hs 15 le_rfl

theorem lAt_pos (hs : ∀ b, ∃ v : ℝ, simK L Z a b = (v : EReal)) :
    ∃ l : ℝ, 0 < l ∧ lAt L Z a 16 = (l : EReal) := by
  obtain ⟨M, hM⟩ := mAt_real L Z a hs
  rw [lAt_final L Z a hs, hM]
  choose σ hσ using hs
  refine ⟨∑ b : Fin 8192, Real.exp (σ b - M), ?_, ?_⟩
  · exact Finset.sum_pos (fun b _ => Real.exp_pos _) ⟨⟨0, by norm_num⟩, Finset.mem_univ _⟩
  · simp only [hσ, ← EReal.coe_sub, Ideal.exp_coe, coe_sum]

end Cert.Spec

end
-- ==== Proof.MathPair.lean ====
import proofs.«115278_j52183852646963_1_alg».proof.Proof.MathLse

noncomputable section

namespace Cert.Spec

open Idealize.ShloMosaic

variable (L : Lits) (hL : L.Good) (Z : Fin 8192 → Fin 128 → EReal) (lab : Fin 8192 → EReal)

theorem Pair.dotZ_real (hZ : ∀ a p, ∃ v : ℝ, Z a p = (v : EReal)) (a b : Fin 8192) :
    ∃ v : ℝ, dotZ Z a b = (v : EReal) := by
  choose z hz using hZ
  refine ⟨∑ p : Fin 128, z a p * z b p, ?_⟩
  unfold dotZ
  rw [← coe_sum]
  refine Finset.sum_congr rfl fun p _ => ?_
  rw [hz a p, hz b p, EReal.coe_mul]

include hL in

theorem simK_eq_simR (_hZ : ∀ a p, ∃ v : ℝ, Z a p = (v : EReal)) (a b : Fin 8192) :
    simK L Z a b = simR L Z a b := by
  obtain ⟨d, hd, ht, hi⟩ := hL.temp
  unfold simK simR
  rw [ht, hi, Ideal.div_coe hd.ne']

include hL in

theorem Pair.simR_real (hZ : ∀ a p, ∃ v : ℝ, Z a p = (v : EReal)) (a b : Fin 8192) :
    ∃ v : ℝ, simR L Z a b = (v : EReal) := by
  obtain ⟨d, hd, ht, -⟩ := hL.temp
  obtain ⟨B, hB⟩ := hL.big
  obtain ⟨v, hv⟩ := Pair.dotZ_real Z hZ a b
  unfold simR
  rw [ht, hB, hv, Ideal.div_coe hd.ne', ← EReal.coe_mul]
  split_ifs
  · exact ⟨v * (1 / d) - B, by rw [EReal.coe_sub]⟩
  · exact ⟨_, rfl⟩

include hL in

theorem Pair.wt_real (hlab : ∀ a, ∃ v : ℝ, lab a = (v : EReal)) (a b : Fin 8192) :
    ∃ w : ℝ, 0 ≤ w ∧ (a ≠ b → 0 < w) ∧ wt L lab a b = (w : EReal) := by
  obtain ⟨γ, hγ⟩ := hL.ngam
  obtain ⟨u, hu⟩ := hlab a
  obtain ⟨v, hv⟩ := hlab b
  unfold wt
  split_ifs with h
  · exact ⟨0, le_rfl, fun h' => absurd h h', EReal.coe_zero.symm⟩
  · refine ⟨Real.exp (γ * ((u - v) * (u - v))), (Real.exp_pos _).le, fun _ => Real.exp_pos _, ?_⟩
    rw [hγ, hu, hv, ← EReal.coe_sub, ← EReal.coe_mul, ← EReal.coe_mul, Ideal.exp_coe]

include hL in

theorem Pair.rowW_pos (hlab : ∀ a, ∃ v : ℝ, lab a = (v : EReal)) (a : Fin 8192) :
    ∃ W : ℝ, 0 < W ∧ rowW L lab a = (W : EReal) := by
  choose w hw0 hwpos hw using fun b => Pair.wt_real L hL lab hlab a b
  refine ⟨∑ b, w b, ?_, ?_⟩
  · obtain ⟨b, hb⟩ := exists_ne a
    exact Finset.sum_pos' (fun i _ => hw0 i) ⟨b, Finset.mem_univ _, hwpos b hb.symm⟩
  · unfold rowW
    rw [← coe_sum]
    exact Finset.sum_congr rfl fun b _ => hw b

include hL in

theorem Pair.row_eq (hZ : ∀ a p, ∃ v : ℝ, Z a p = (v : EReal)) (hlab : ∀ a, ∃ v : ℝ, lab a = (v : EReal))
    (a : Fin 8192) :
    ∃ ρ : ℝ, (∑ b : Fin 8192, Ideal.div (wt L lab a b) (rowW L lab a) * lsmR L Z a b) = (ρ : EReal)
      ∧ outK L Z lab a = ((-ρ : ℝ) : EReal) := by
  have hKR : simK L Z a = simR L Z a := funext fun b => simK_eq_simR L hL Z hZ a b
  have hs : ∀ b, ∃ v : ℝ, simK L Z a b = (v : EReal) := fun b => by
    rw [hKR]; exact Pair.simR_real L hL Z hZ a b
  choose s hs' using fun b => Pair.simR_real L hL Z hZ a b
  choose w hw0 hwpos hw using fun b => Pair.wt_real L hL lab hlab a b
  obtain ⟨W, hWpos, hW⟩ := Pair.rowW_pos L hL lab hlab a
  obtain ⟨M, hM⟩ := mAt_real L Z a hs
  obtain ⟨l, hlpos, hl⟩ := lAt_pos L Z a hs
  have hW0 : W ≠ 0 := hWpos.ne'
  have hWsum : ∑ b, w b = W := by
    have h : ((∑ b, w b : ℝ) : EReal) = (W : EReal) := by
      rw [← hW]; unfold rowW; rw [← coe_sum]
      exact (Finset.sum_congr rfl fun b _ => hw b).symm
    exact_mod_cast h
  have hmax : rowMaxR L Z a = (M : EReal) := by
    unfold rowMaxR; rw [← hKR, ← mAt_final, hM]
  have hlse : (∑ b' : Fin 8192, Ideal.exp (simR L Z a b' - rowMaxR L Z a)) = (l : EReal) := by
    rw [hmax, ← hM, ← hKR, ← lAt_final L Z a hs, hl]
  have key : ∑ b, w b / W * ((s b - M) - Real.log l) = (∑ b, w b * s b) * (1 / W) - (M + Real.log l) := by
    have h1 : ∀ b, w b / W * ((s b - M) - Real.log l)
        = (w b * s b) * (1 / W) - w b * ((M + Real.log l) * (1 / W)) := by
      intro b; ring
    rw [Finset.sum_congr rfl fun b _ => h1 b, Finset.sum_sub_distrib, ← Finset.sum_mul, ← Finset.sum_mul, hWsum]
    field_simp
  refine ⟨∑ b, w b / W * ((s b - M) - Real.log l), ?_, ?_⟩
  · rw [← coe_sum]
    refine Finset.sum_congr rfl fun b _ => ?_
    unfold lsmR
    rw [hlse, hmax, hs' b, hw b, hW, Ideal.div_coe hW0, Ideal.log_coe, if_neg (not_le.mpr hlpos),
      ← EReal.coe_mul, ← EReal.coe_sub, ← EReal.coe_sub, ← EReal.coe_mul]
    exact congrArg _ (by ring)
  · have hwz : (∑ b : Fin 8192, wt L lab a b * simK L Z a b) = ((∑ b, w b * s b : ℝ) : EReal) := by
      rw [← coe_sum]
      refine Finset.sum_congr rfl fun b _ => ?_
      rw [hw b, hKR, hs' b, EReal.coe_mul]
    unfold outK
    rw [wsAt_final, wzAt_final, hwz, hM, hl, hW, Ideal.log_coe, if_neg (not_le.mpr hlpos), Ideal.div_coe hW0,
      ← EReal.coe_add, ← EReal.coe_mul, ← EReal.coe_sub, key]
    exact congrArg _ (by ring)

include hL in

theorem lossK_eq_lossR (hZ : ∀ a p, ∃ v : ℝ, Z a p = (v : EReal)) (hlab : ∀ a, ∃ v : ℝ, lab a = (v : EReal)) :
    lossK L Z lab = lossR L Z lab := by
  choose ρ hρR hρK using fun a => Pair.row_eq L hL Z lab hZ hlab a
  unfold lossK lossR
  congr 1
  rw [Finset.sum_congr rfl fun a _ => hρK a, Finset.sum_congr rfl fun a _ => hρR a, coe_sum, coe_sum,
    ← EReal.coe_neg, Finset.sum_neg_distrib]

end Cert.Spec

end
-- ==== Proof.Math.lean ====
import proofs.«115278_j52183852646963_1_alg».proof.Proof.MathPair

noncomputable section

namespace Cert.Spec

open Idealize.ShloMosaic

theorem stack_ind {α : Type} {P : α → Prop} {u v : Fin 4096 → α} (hu : ∀ r, P (u r)) (hv : ∀ r, P (v r)) (a : Fin 8192) :
    P (stack u v a) := by
  unfold stack
  split_ifs
  · exact hu _
  · exact hv _

theorem kerLoss_eq_refLoss (L : Lits) (hL : L.Good) (y1 y2 : Fin 4096 → Fin 2048 → EReal) (labels : Fin 4096 → EReal)
    (W1 : Fin 2048 → Fin 2048 → EReal) (g b : Fin 2048 → EReal) (W2 : Fin 128 → Fin 2048 → EReal)
    (hy1 : ∀ r k, ∃ v : ℝ, y1 r k = (v : EReal)) (hy2 : ∀ r k, ∃ v : ℝ, y2 r k = (v : EReal))
    (hlabels : ∀ r, ∃ v : ℝ, labels r = (v : EReal)) (hW1 : ∀ j k, ∃ v : ℝ, W1 j k = (v : EReal))
    (hg : ∀ j, ∃ v : ℝ, g j = (v : EReal)) (hb : ∀ j, ∃ v : ℝ, b j = (v : EReal))
    (hW2 : ∀ p j, ∃ v : ℝ, W2 p j = (v : EReal))
    (hn1 : ∀ r, 0 < rowNorm L y1 W1 g b W2 (varR L y1 W1) r)
    (hn2 : ∀ r, 0 < rowNorm L y2 W1 g b W2 (varR L y2 W1) r) :
    kerLoss L y1 y2 labels W1 g b W2 = refLoss L y1 y2 labels W1 g b W2 := by
  unfold kerLoss refLoss
  rw [unitK_eq_unitR L hL y1 W1 g b W2 hy1 hW1, unitK_eq_unitR L hL y2 W1 g b W2 hy2 hW1]
  exact lossK_eq_lossR L hL _ _
    (stack_ind (P := fun f : Fin 128 → EReal => ∀ p, ∃ x : ℝ, f p = (x : EReal)) (unitR_real L hL y1 W1 g b W2 hy1 hW1 hg hb hW2 hn1)
      (unitR_real L hL y2 W1 g b W2 hy2 hW1 hg hb hW2 hn2))
    (stack_ind (P := fun e : EReal => ∃ x : ℝ, e = (x : EReal)) hlabels hlabels)

end Cert.Spec

end
-- ==== Proof.Reg0.lean ====
import proofs.«115278_j52183852646963_1_alg».proof.Proof.Gen.KernelIdeal.Launch
import proofs.«115278_j52183852646963_1_alg».proof.Proof.Gen.KernelIdeal.Skeleton
import proofs.«115278_j52183852646963_1_alg».proof.Proof.Gen.KernelIdeal.Points
import proofs.«115278_j52183852646963_1_alg».proof.Proof.Carry
import Idealize.ShloMosaic.Lib.Pipeline.FrameSuffix
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (V : (c : Dev nD) → (b : Ref sig .tc) → Buf (Elt F) ((c : Thread nD τ).loc b))

abbrev cond0 (i : grid0.Coords) : Prop :=
  (Scalar.cmpi .ne (Scalar.extui (Scalar.cmpi .eq (BitVec.ofNat 32 (i 0).val) 0#32)) 0#32) = 1#1

theorem hcond0 : ∀ t : Fin cfg0.N, cond0 (grid0.coords t) ↔ t.val = 0 :=
  (by decide +kernel : ∀ t : Fin grid0.N, cond0 (grid0.coords t) ↔ t.val = 0)

theorem hzero0 : (![0, 0] : Fin 2 → Nat) = fun _ => 0 := funext fun a => by fin_cases a <;> rfl

set_option maxHeartbeats 1000000 in
/-- At the first point the body zeroes the two rows; at every point it then adds to each the block product's column sums (of squares). -/
theorem sound_kernel0_pt (c : Dev nD) (E : Set ℕ) (i : grid0.Coords)
    (arg1 : Memref sig .tc .vmem S512x2048 .f32) (harg1 : arg1.IsWhole)
    (arg2 : Memref sig .tc .vmem S2048x2048 .bf16) (harg2 : arg2.IsWhole)
    (arg3 : Memref sig .tc .vmem S1x2048 .f32) (harg3 : arg3.IsWhole)
    (arg4 : Memref sig .tc .vmem S1x2048 .f32) (harg4 : arg4.IsWhole)
    (x : Vec F S512x2048 .f32) (w : Vec F S2048x2048 .bf16) (s q : Vec F S1x2048 .f32) (K : PUnit → sProp 𝕄) :
    iprop(owns (c : Thread nD τ) arg1 fullShare x ∗ owns (c : Thread nD τ) arg2 fullShare w
        ∗ owns (c : Thread nD τ) arg3 fullShare s ∗ owns (c : Thread nD τ) arg4 fullShare q
        ∗ (iprop(owns (c : Thread nD τ) arg1 fullShare x ∗ owns (c : Thread nD τ) arg2 fullShare w
            ∗ owns (c : Thread nD τ) arg3 fullShare (k0_pay4 x w (if cond0 i then k0_pay1 else s))
            ∗ owns (c : Thread nD τ) arg4 fullShare (k0_pay5 x w (if cond0 i then k0_pay2 else q))) -∗ K ⟨⟩))
      ⊢ wp frame (wpE (defs₀ (F := F)) Variants.none c none) E (cc0__stats_kernel i arg1 harg1 arg2 harg2 arg3 harg3 arg4 harg4) K := by
  simp only [cc0__stats_kernel_eq_skeleton]; unfold cc0__stats_kernel_skel owns
  by_cases hc : cond0 i
  all_goals
    first | simp only [@if_pos (cond0 i) _ hc] | simp only [@if_neg (cond0 i) _ hc]
    iintro ⟨⟨%f1, %hf1, H1⟩, ⟨%f2, %hf2, H2⟩, ⟨%f3, %hf3, H3⟩, ⟨%f4, %hf4, H4⟩, Hk⟩
    obtain rfl := harg1.eq_unread hf1
    obtain rfl := harg2.eq_unread hf2
    obtain rfl := harg3.eq_unread hf3
    obtain rfl := harg4.eq_unread hf4
    sl_exec (disch := first | exact hc)
    sl_step
    iapply Hk
    isplitl [H1]
    · iexists _; isplitr; · ipureintro; exact harg1.read_unread _
      iexact H1
    isplitl [H2]
    · iexists _; isplitr; · ipureintro; exact harg2.read_unread _
      iexact H2
    isplitl [H3] <;>
    · iexists _; isplitr
      swap; · first | iexact H3 | iexact H4
      ipureintro
      first
      | have : cond0 i := hc
        sl_unfold_words
        rw [View.read_writes_eq_canon _ _ _ (fun y => ⟨_, List.mem_cons_self, View.mem_set_unit_zero hzero0 inb_S1x2048_S1x2048_0_0 y⟩),
          View.canon_cons_unit_zero (S := S1x2048) hzero0, View.readCov_unit_zero (S := S1x2048) _ hzero0]
        simp only [View.readAt_eq_ld, harg1.read_unread, harg2.read_unread, View.ld_unit_zero (S := S512x2048) hzero0,
          View.ld_unit_zero (S := S2048x2048) hzero0]
      | rw [View.read_writes_eq_canon _ _ _ (fun y => ⟨_, List.mem_singleton_self _, View.mem_set_unit_zero hzero0 inb_S1x2048_S1x2048_0_0 y⟩),
          View.canon_unit_zero (S := S1x2048) hzero0]
        simp only [View.readAt_eq_ld, harg1.read_unread, harg2.read_unread, harg3.read_unread, harg4.read_unread,
          View.ld_unit_zero (S := S512x2048) hzero0, View.ld_unit_zero (S := S2048x2048) hzero0, View.ld_unit_zero (S := S1x2048) hzero0]

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev xblk0 (c : Dev nD) (t : Fin cfg0.N) : Vec F S512x2048 .f32 := iblk0 V c 0 t
abbrev wblk0 (c : Dev nD) (t : Fin cfg0.N) : Vec F S2048x2048 .bf16 := iblk0 V c 1 t

/-- The two carried rows after point `n`: the zero row updated by the blocks of the points `0 … n`, in order. -/
def acc0_2 (c : Dev nD) (n : ℕ) (h : n < cfg0.N) : Vec F S1x2048 .f32 :=
  Carry.row (fun n h => k0_pay4 (xblk0 V c ⟨n, h⟩) (wblk0 V c ⟨n, h⟩)) k0_pay1 n h

def acc0_3 (c : Dev nD) (n : ℕ) (h : n < cfg0.N) : Vec F S1x2048 .f32 :=
  Carry.row (fun n h => k0_pay5 (xblk0 V c ⟨n, h⟩) (wblk0 V c ⟨n, h⟩)) k0_pay2 n h

def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => acc0_2 V c t.val t.isLt
    | ⟨3, _⟩ => acc0_3 V c t.val t.isLt
  Φ _ := Pipeline.ΦA spec0 c
  q _ := fullShare
  owed _ := 0

theorem A_eq0 (c : Dev nD) (w : Fin cfg0.W) : (dat0 V c).A w = V c (Pipeline.arrRef spec0 w) := rfl

theorem before0_in (c : Dev nD) (t : Fin cfg0.N) :
    (∀ d, (dat0 V c).before 0 t d = iblk0 V c 0 t) ∧ ∀ d, (dat0 V c).before 1 t d = iblk0 V c 1 t := by
  constructor <;> intro d <;>
  exact ((dat0 V c).before_in_eq_fetched _ rfl (fun _ => rfl) (fun _ _ _ => rfl) (fun _ => rfl) t d).trans rfl

theorem after0_in (c : Dev nD) (t : Fin cfg0.N) :
    (dat0 V c).after 0 t = iblk0 V c 0 t ∧ (dat0 V c).after 1 t = iblk0 V c 1 t := by
  dsimp only [dat0]
  exact ⟨rfl, rfl⟩

theorem flush0_out (w : Fin cfg0.W) (hw : w = 2 ∨ w = 3) (t : Fin cfg0.N) : (cfg0.win w).flush t = true ↔ t.val = 7 := by
  have := t.isLt
  have hN : cfg0.N = 8 := N_0
  rcases hw with rfl | rfl
  · rw [flush0_2]; omega
  · rw [flush0_3]; omega

theorem before0_out (c : Dev nD) (w : Fin cfg0.W) (hw : w = 2 ∨ w = 3) (t : Fin cfg0.N) (h0 : t.val ≠ 0) (d) :
    (dat0 V c).before w t d = (dat0 V c).after w ⟨t.val - 1, Nat.lt_of_le_of_lt (Nat.sub_le _ _) t.isLt⟩ := by
  have hN : t.val < 8 := lt_of_lt_of_eq t.isLt (show cfg0.N = 8 from N_0)
  have hf := Bool.eq_false_iff.mpr fun h => by have := (flush0_out w hw ⟨t.val - 1, Nat.lt_of_le_of_lt (Nat.sub_le _ _) t.isLt⟩).mp h; dsimp only at this; omega
  rcases hw with rfl | rfl <;> exact Dat.before_out_kept _ _ rfl t h0 hf (fun _ => rfl) (fun _ _ => rfl) d

/-- A carried row after point `t` updates the zero row at the first point, the row carried from the point before at a later one. -/
theorem after0_out (c : Dev nD) (t : Fin cfg0.N) (d2 d3) :
    (dat0 V c).after 2 t
        = k0_pay4 (xblk0 V c t) (wblk0 V c t) (if cond0 (grid0.coords t) then k0_pay1 else (dat0 V c).before 2 t d2)
      ∧ (dat0 V c).after 3 t
        = k0_pay5 (xblk0 V c t) (wblk0 V c t) (if cond0 (grid0.coords t) then k0_pay2 else (dat0 V c).before 3 t d3) := by
  by_cases h0 : t.val = 0
  · rw [if_pos ((hcond0 t).mpr h0), if_pos ((hcond0 t).mpr h0)]
    dsimp only [dat0]
    exact ⟨Carry.row_first _ _ t h0, Carry.row_first _ _ t h0⟩
  · rw [if_neg (h0 ∘ (hcond0 t).mp), if_neg (h0 ∘ (hcond0 t).mp), before0_out V c 2 (.inl rfl) t h0,
      before0_out V c 3 (.inr rfl) t h0]
    dsimp only [dat0]
    exact ⟨Carry.row_later _ _ t h0, Carry.row_later _ _ t h0⟩

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [(before0_in V c t).1, (before0_in V c t).2, (after0_in V c t).1, (after0_in V c t).2]
  rw [show (dat0 V c).Φ t.succ = (dat0 V c).Φ t.castSucc from rfl,
    show (dat0 V c).owesAt () t.succ = (dat0 V c).owesAt () t.castSucc from rfl]
  iintro ⟨HΦ, Ho, ⟨%d0, H0⟩, ⟨%d1, H1⟩, ⟨%d2, H2⟩, ⟨%d3, H3⟩⟩
  rw [(after0_out V c t d2 d3).1, (after0_out V c t d2 d3).2]
  iapply (sound_kernel0_pt c Set.univ (grid0.coords t) _ _ _ _ _ _ _ _ (xblk0 V c t) (wblk0 V c t) _ _ _)
  iframe
  iintro ⟨H0, H1, H2, H3⟩
  iframe

theorem body_obligation0 (c : Dev nD) : BodyObligation (dat0 (F := F) V c) (defs₀ (F := F)) Variants.none () Set.univ := fun t => by
  rw [bigSep_W0, bigSep_W0]
  exact sound_body0 V c t

theorem lt_N0 : 7 < cfg0.N := by rw [show cfg0.N = 8 from N_0]; decide

abbrev out0_2 (c : Dev nD) : Buf (Elt F) ((c : Thread nD τ).loc main_v4_0) := acc0_2 V c 7 lt_N0
abbrev out0_3 (c : Dev nD) : Buf (Elt F) ((c : Thread nD τ).loc main_v4_1) := acc0_3 V c 7 lt_N0

/-- A row's one block is its whole array, so the array ends at the row carried after the last point. -/
theorem arrAt0_2 (c : Dev nD) : (dat0 V c).arrAt 2 cfg0.N = out0_2 V c :=
  (dat0 V c).arrAt_eq_of_cover 2 _ (fun t hf => by
      obtain rfl : t = t0_7 := Fin.ext ((flush0_out 2 (.inl rfl) t).mp hf)
      refine Eq.trans ?_ (Memref.read_access_unit_zero (Elt F) main_v4_0
        (off := fun a => win0_2.index t0_7 a * main_v4_0.ty.shape.size a) (funext (by decide)) (by decide) _).symm
      dsimp only [dat0]
      rfl)
    fun i => ⟨t0_7, (flush0_2 t0_7).mpr rfl, by
      show i ∈ ((View.whole main_v4_0).slice (win0_2.rect t0_7)).set
      rw [View.set_slice_whole, Rect.mem_set_unit]
      exact fun a => by fin_cases a <;> exact ⟨Nat.zero_le _, (i _).isLt⟩⟩

theorem arrAt0_3 (c : Dev nD) : (dat0 V c).arrAt 3 cfg0.N = out0_3 V c :=
  (dat0 V c).arrAt_eq_of_cover 3 _ (fun t hf => by
      obtain rfl : t = t0_7 := Fin.ext ((flush0_out 3 (.inr rfl) t).mp hf)
      refine Eq.trans ?_ (Memref.read_access_unit_zero (Elt F) main_v4_1
        (off := fun a => win0_3.index t0_7 a * main_v4_1.ty.shape.size a) (funext (by decide)) (by decide) _).symm
      dsimp only [dat0]
      rfl)
    fun i => ⟨t0_7, (flush0_3 t0_7).mpr rfl, by
      show i ∈ ((View.whole main_v4_1).slice (win0_3.rect t0_7)).set
      rw [View.set_slice_whole, Rect.mem_set_unit]
      exact fun a => by fin_cases a <;> exact ⟨Nat.zero_le _, (i _).isLt⟩⟩

end Cert.KernelIdeal.Hand

end
-- ==== Proof.Reg1.lean ====
import proofs.«115278_j52183852646963_1_alg».proof.Proof.Gen.KernelIdeal.Launch
import proofs.«115278_j52183852646963_1_alg».proof.Proof.Gen.KernelIdeal.Skeleton
import proofs.«115278_j52183852646963_1_alg».proof.Proof.Gen.KernelIdeal.Points
import proofs.«115278_j52183852646963_1_alg».proof.Proof.Carry
import Idealize.ShloMosaic.Lib.Pipeline.FrameSuffix
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (V : (c : Dev nD) → (b : Ref sig .tc) → Buf (Elt F) ((c : Thread nD τ).loc b))

abbrev cond1 (i : grid1.Coords) : Prop :=
  (Scalar.cmpi .ne (Scalar.extui (Scalar.cmpi .eq (BitVec.ofNat 32 (i 0).val) 0#32)) 0#32) = 1#1

theorem hcond1 : ∀ t : Fin cfg1.N, cond1 (grid1.coords t) ↔ t.val = 0 :=
  (by decide +kernel : ∀ t : Fin grid1.N, cond1 (grid1.coords t) ↔ t.val = 0)

theorem hzero1 : (![0, 0] : Fin 2 → Nat) = fun _ => 0 := funext fun a => by fin_cases a <;> rfl

set_option maxHeartbeats 1000000 in
/-- At the first point the body zeroes the two rows; at every point it then adds to each the block product's column sums (of squares). -/
theorem sound_kernel1_pt (c : Dev nD) (E : Set ℕ) (i : grid1.Coords)
    (arg1 : Memref sig .tc .vmem S512x2048 .f32) (harg1 : arg1.IsWhole)
    (arg2 : Memref sig .tc .vmem S2048x2048 .bf16) (harg2 : arg2.IsWhole)
    (arg3 : Memref sig .tc .vmem S1x2048 .f32) (harg3 : arg3.IsWhole)
    (arg4 : Memref sig .tc .vmem S1x2048 .f32) (harg4 : arg4.IsWhole)
    (x : Vec F S512x2048 .f32) (w : Vec F S2048x2048 .bf16) (s q : Vec F S1x2048 .f32) (K : PUnit → sProp 𝕄) :
    iprop(owns (c : Thread nD τ) arg1 fullShare x ∗ owns (c : Thread nD τ) arg2 fullShare w
        ∗ owns (c : Thread nD τ) arg3 fullShare s ∗ owns (c : Thread nD τ) arg4 fullShare q
        ∗ (iprop(owns (c : Thread nD τ) arg1 fullShare x ∗ owns (c : Thread nD τ) arg2 fullShare w
            ∗ owns (c : Thread nD τ) arg3 fullShare (k1_pay4 x w (if cond1 i then k1_pay1 else s))
            ∗ owns (c : Thread nD τ) arg4 fullShare (k1_pay5 x w (if cond1 i then k1_pay2 else q))) -∗ K ⟨⟩))
      ⊢ wp frame (wpE (defs₀ (F := F)) Variants.none c none) E (cc1__stats_kernel i arg1 harg1 arg2 harg2 arg3 harg3 arg4 harg4) K := by
  simp only [cc1__stats_kernel_eq_skeleton]; unfold cc1__stats_kernel_skel owns
  by_cases hc : cond1 i
  all_goals
    first | simp only [@if_pos (cond1 i) _ hc] | simp only [@if_neg (cond1 i) _ hc]
    iintro ⟨⟨%f1, %hf1, H1⟩, ⟨%f2, %hf2, H2⟩, ⟨%f3, %hf3, H3⟩, ⟨%f4, %hf4, H4⟩, Hk⟩
    obtain rfl := harg1.eq_unread hf1
    obtain rfl := harg2.eq_unread hf2
    obtain rfl := harg3.eq_unread hf3
    obtain rfl := harg4.eq_unread hf4
    sl_exec (disch := first | exact hc)
    sl_step
    iapply Hk
    isplitl [H1]
    · iexists _; isplitr; · ipureintro; exact harg1.read_unread _
      iexact H1
    isplitl [H2]
    · iexists _; isplitr; · ipureintro; exact harg2.read_unread _
      iexact H2
    isplitl [H3] <;>
    · iexists _; isplitr
      swap; · first | iexact H3 | iexact H4
      ipureintro
      first
      | have : cond1 i := hc
        sl_unfold_words
        rw [View.read_writes_eq_canon _ _ _ (fun y => ⟨_, List.mem_cons_self, View.mem_set_unit_zero hzero1 inb_S1x2048_S1x2048_0_0 y⟩),
          View.canon_cons_unit_zero (S := S1x2048) hzero1, View.readCov_unit_zero (S := S1x2048) _ hzero1]
        simp only [View.readAt_eq_ld, harg1.read_unread, harg2.read_unread, View.ld_unit_zero (S := S512x2048) hzero1,
          View.ld_unit_zero (S := S2048x2048) hzero1]
      | rw [View.read_writes_eq_canon _ _ _ (fun y => ⟨_, List.mem_singleton_self _, View.mem_set_unit_zero hzero1 inb_S1x2048_S1x2048_0_0 y⟩),
          View.canon_unit_zero (S := S1x2048) hzero1]
        simp only [View.readAt_eq_ld, harg1.read_unread, harg2.read_unread, harg3.read_unread, harg4.read_unread,
          View.ld_unit_zero (S := S512x2048) hzero1, View.ld_unit_zero (S := S2048x2048) hzero1, View.ld_unit_zero (S := S1x2048) hzero1]

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev xblk1 (c : Dev nD) (t : Fin cfg1.N) : Vec F S512x2048 .f32 := iblk1 V c 0 t
abbrev wblk1 (c : Dev nD) (t : Fin cfg1.N) : Vec F S2048x2048 .bf16 := iblk1 V c 1 t

/-- The two carried rows after point `n`: the zero row updated by the blocks of the points `0 … n`, in order. -/
def acc1_2 (c : Dev nD) (n : ℕ) (h : n < cfg1.N) : Vec F S1x2048 .f32 :=
  Carry.row (fun n h => k1_pay4 (xblk1 V c ⟨n, h⟩) (wblk1 V c ⟨n, h⟩)) k1_pay1 n h

def acc1_3 (c : Dev nD) (n : ℕ) (h : n < cfg1.N) : Vec F S1x2048 .f32 :=
  Carry.row (fun n h => k1_pay5 (xblk1 V c ⟨n, h⟩) (wblk1 V c ⟨n, h⟩)) k1_pay2 n h

def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => acc1_2 V c t.val t.isLt
    | ⟨3, _⟩ => acc1_3 V c t.val t.isLt
  Φ _ := Pipeline.ΦA spec1 c
  q _ := fullShare
  owed _ := 0

theorem A_eq1 (c : Dev nD) (w : Fin cfg1.W) : (dat1 V c).A w = V c (Pipeline.arrRef spec1 w) := rfl

theorem before1_in (c : Dev nD) (t : Fin cfg1.N) :
    (∀ d, (dat1 V c).before 0 t d = iblk1 V c 0 t) ∧ ∀ d, (dat1 V c).before 1 t d = iblk1 V c 1 t := by
  constructor <;> intro d <;>
  exact ((dat1 V c).before_in_eq_fetched _ rfl (fun _ => rfl) (fun _ _ _ => rfl) (fun _ => rfl) t d).trans rfl

theorem after1_in (c : Dev nD) (t : Fin cfg1.N) :
    (dat1 V c).after 0 t = iblk1 V c 0 t ∧ (dat1 V c).after 1 t = iblk1 V c 1 t := by
  dsimp only [dat1]
  exact ⟨rfl, rfl⟩

theorem flush1_out (w : Fin cfg1.W) (hw : w = 2 ∨ w = 3) (t : Fin cfg1.N) : (cfg1.win w).flush t = true ↔ t.val = 7 := by
  have := t.isLt
  have hN : cfg1.N = 8 := N_1
  rcases hw with rfl | rfl
  · rw [flush1_2]; omega
  · rw [flush1_3]; omega

theorem before1_out (c : Dev nD) (w : Fin cfg1.W) (hw : w = 2 ∨ w = 3) (t : Fin cfg1.N) (h0 : t.val ≠ 0) (d) :
    (dat1 V c).before w t d = (dat1 V c).after w ⟨t.val - 1, Nat.lt_of_le_of_lt (Nat.sub_le _ _) t.isLt⟩ := by
  have hN : t.val < 8 := lt_of_lt_of_eq t.isLt (show cfg1.N = 8 from N_1)
  have hf := Bool.eq_false_iff.mpr fun h => by have := (flush1_out w hw ⟨t.val - 1, Nat.lt_of_le_of_lt (Nat.sub_le _ _) t.isLt⟩).mp h; dsimp only at this; omega
  rcases hw with rfl | rfl <;> exact Dat.before_out_kept _ _ rfl t h0 hf (fun _ => rfl) (fun _ _ => rfl) d

/-- A carried row after point `t` updates the zero row at the first point, the row carried from the point before at a later one. -/
theorem after1_out (c : Dev nD) (t : Fin cfg1.N) (d2 d3) :
    (dat1 V c).after 2 t
        = k1_pay4 (xblk1 V c t) (wblk1 V c t) (if cond1 (grid1.coords t) then k1_pay1 else (dat1 V c).before 2 t d2)
      ∧ (dat1 V c).after 3 t
        = k1_pay5 (xblk1 V c t) (wblk1 V c t) (if cond1 (grid1.coords t) then k1_pay2 else (dat1 V c).before 3 t d3) := by
  by_cases h0 : t.val = 0
  · rw [if_pos ((hcond1 t).mpr h0), if_pos ((hcond1 t).mpr h0)]
    dsimp only [dat1]
    exact ⟨Carry.row_first _ _ t h0, Carry.row_first _ _ t h0⟩
  · rw [if_neg (h0 ∘ (hcond1 t).mp), if_neg (h0 ∘ (hcond1 t).mp), before1_out V c 2 (.inl rfl) t h0,
      before1_out V c 3 (.inr rfl) t h0]
    dsimp only [dat1]
    exact ⟨Carry.row_later _ _ t h0, Carry.row_later _ _ t h0⟩

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [(before1_in V c t).1, (before1_in V c t).2, (after1_in V c t).1, (after1_in V c t).2]
  rw [show (dat1 V c).Φ t.succ = (dat1 V c).Φ t.castSucc from rfl,
    show (dat1 V c).owesAt () t.succ = (dat1 V c).owesAt () t.castSucc from rfl]
  iintro ⟨HΦ, Ho, ⟨%d0, H0⟩, ⟨%d1, H1⟩, ⟨%d2, H2⟩, ⟨%d3, H3⟩⟩
  rw [(after1_out V c t d2 d3).1, (after1_out V c t d2 d3).2]
  iapply (sound_kernel1_pt c Set.univ (grid1.coords t) _ _ _ _ _ _ _ _ (xblk1 V c t) (wblk1 V c t) _ _ _)
  iframe
  iintro ⟨H0, H1, H2, H3⟩
  iframe

theorem body_obligation1 (c : Dev nD) : BodyObligation (dat1 (F := F) V c) (defs₀ (F := F)) Variants.none () Set.univ := fun t => by
  rw [bigSep_W1, bigSep_W1]
  exact sound_body1 V c t

theorem lt_N1 : 7 < cfg1.N := by rw [show cfg1.N = 8 from N_1]; decide

abbrev out1_2 (c : Dev nD) : Buf (Elt F) ((c : Thread nD τ).loc main_v11_0) := acc1_2 V c 7 lt_N1
abbrev out1_3 (c : Dev nD) : Buf (Elt F) ((c : Thread nD τ).loc main_v11_1) := acc1_3 V c 7 lt_N1

/-- A row's one block is its whole array, so the array ends at the row carried after the last point. -/
theorem arrAt1_2 (c : Dev nD) : (dat1 V c).arrAt 2 cfg1.N = out1_2 V c :=
  (dat1 V c).arrAt_eq_of_cover 2 _ (fun t hf => by
      obtain rfl : t = t1_7 := Fin.ext ((flush1_out 2 (.inl rfl) t).mp hf)
      refine Eq.trans ?_ (Memref.read_access_unit_zero (Elt F) main_v11_0
        (off := fun a => win1_2.index t1_7 a * main_v11_0.ty.shape.size a) (funext (by decide)) (by decide) _).symm
      dsimp only [dat1]
      rfl)
    fun i => ⟨t1_7, (flush1_2 t1_7).mpr rfl, by
      show i ∈ ((View.whole main_v11_0).slice (win1_2.rect t1_7)).set
      rw [View.set_slice_whole, Rect.mem_set_unit]
      exact fun a => by fin_cases a <;> exact ⟨Nat.zero_le _, (i _).isLt⟩⟩

theorem arrAt1_3 (c : Dev nD) : (dat1 V c).arrAt 3 cfg1.N = out1_3 V c :=
  (dat1 V c).arrAt_eq_of_cover 3 _ (fun t hf => by
      obtain rfl : t = t1_7 := Fin.ext ((flush1_out 3 (.inr rfl) t).mp hf)
      refine Eq.trans ?_ (Memref.read_access_unit_zero (Elt F) main_v11_1
        (off := fun a => win1_3.index t1_7 a * main_v11_1.ty.shape.size a) (funext (by decide)) (by decide) _).symm
      dsimp only [dat1]
      rfl)
    fun i => ⟨t1_7, (flush1_3 t1_7).mpr rfl, by
      show i ∈ ((View.whole main_v11_1).slice (win1_3.rect t1_7)).set
      rw [View.set_slice_whole, Rect.mem_set_unit]
      exact fun a => by fin_cases a <;> exact ⟨Nat.zero_le _, (i _).isLt⟩⟩

end Cert.KernelIdeal.Hand

end
-- ==== Proof.Reg2.lean ====
import proofs.«115278_j52183852646963_1_alg».proof.Proof.Gen.KernelIdeal.Launch
import proofs.«115278_j52183852646963_1_alg».proof.Proof.Gen.KernelIdeal.Skeleton
import proofs.«115278_j52183852646963_1_alg».proof.Proof.Gen.KernelIdeal.Points
import Idealize.ShloMosaic.Lib.Pipeline.FrameBody
import Idealize.ShloMosaic.Lib.QrPanel.Panel
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F] [Named F]

local notation "𝕄" => MT nD τ sig Unit (Elt F) ℕ (Pipeline.UD sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

-- The one store covers the result's block, and every load is of a whole block, so the result's block ends at the body's value of the seven.
theorem sound_kernel2 (c : Dev nD) (E : Set ℕ) (i : grid2.Coords) (arg1 : Memref sig .tc .vmem S512x2048 .f32) (harg1 : arg1.IsWhole) (arg2 : Memref sig .tc .vmem S2048x2048 .bf16) (harg2 : arg2.IsWhole) (arg3 arg4 arg5 arg6 : Memref sig .tc .vmem S1x2048 .f32) (harg3 : arg3.IsWhole) (harg4 : arg4.IsWhole) (harg5 : arg5.IsWhole) (harg6 : arg6.IsWhole) (arg7 : Memref sig .tc .vmem S128x2048 .bf16) (harg7 : arg7.IsWhole) (arg8 : Memref sig .tc .vmem S512x128 .f32) (harg8 : arg8.IsWhole)
    (x0 : Vec F S512x2048 .f32) (x1 : Vec F S2048x2048 .bf16) (x2 x3 x4 x5 : Vec F S1x2048 .f32) (x6 : Vec F S128x2048 .bf16) (K : PUnit → sProp 𝕄) :
    iprop(owns c.tc arg1 fullShare x0 ∗ owns c.tc arg2 fullShare x1 ∗ owns c.tc arg3 fullShare x2 ∗ owns c.tc arg4 fullShare x3
        ∗ owns c.tc arg5 fullShare x4 ∗ owns c.tc arg6 fullShare x5 ∗ owns c.tc arg7 fullShare x6 ∗ (∃ d, owns c.tc arg8 fullShare d)
        ∗ (iprop(owns c.tc arg1 fullShare x0 ∗ owns c.tc arg2 fullShare x1 ∗ owns c.tc arg3 fullShare x2 ∗ owns c.tc arg4 fullShare x3
            ∗ owns c.tc arg5 fullShare x4 ∗ owns c.tc arg6 fullShare x5 ∗ owns c.tc arg7 fullShare x6 ∗ owns c.tc arg8 fullShare (k2_pay1 x0 x1 x3 x2 x4 x5 x6)) -∗ K ⟨⟩))
      ⊢ wp frame (wpE (defs₀ (F := F)) Variants.none c none) E (cc2__project_kernel i arg1 harg1 arg2 harg2 arg3 harg3 arg4 harg4 arg5 harg5 arg6 harg6 arg7 harg7 arg8 harg8) K := by
  simp only [cc2__project_kernel_eq_skeleton]; unfold cc2__project_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]; swap; isplitl [H1]; swap; isplitl [H2]; swap; isplitl [H3]; swap; isplitl [H4]; swap; isplitl [H5]; swap; isplitl [H6]; swap
  all_goals
    iexists _; isplitr; swap; iassumption
    ipureintro
    first
      | rfl
      | refine (View.read_writes_eq_canon _ _ _ (View.cover_of_tiled _ S512x128.size (by rfl))).trans ?_
        rw [View.canon_unit_zero QrPanel.Panel.zeros2]
        congr <;> exact View.ld_unit_zero QrPanel.Panel.zeros2 _ _

def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => k2_pay1 (iblk2 V c 0 t) (iblk2 V c 1 t) (iblk2 V c 3 t) (iblk2 V c 2 t) (iblk2 V c 4 t) (iblk2 V c 5 t) (iblk2 V c 6 t)
  Φ _ := Pipeline.ΦA spec2 c
  q _ := fullShare
  owed _ := 0

theorem A_eq2 (c : Dev nD) (w : Fin cfg2.W) : (dat2 V c).A w = V c (Pipeline.arrRef spec2 w) := rfl

-- By cases on the window: the library's lemma for an input window applies to each of the first seven, and the eighth is the output.
theorem before2_in (c : Dev nD) (w : Fin 8) (hw : (cfg2.win w).isOut = false) (t : Fin cfg2.N) (d) :
    (dat2 V c).before w t d = (dat2 V c).fetched w t d := by
  fin_cases w
  all_goals first
    | exact absurd hw (by decide)
    | exact (dat2 V c).before_in_eq_fetched _ hw (fun _ => rfl) (fun _ _ _ => rfl) (fun _ => by dsimp only [dat2]; rfl) t d

theorem body_obligation2 (c : Dev nD) : BodyObligation (dat2 (F := F) V c) (defs₀ (F := F)) Variants.none () Set.univ := fun t => by
  rw [bigSep_W2, bigSep_W2]
  simp only [before2_in V c 0 rfl, before2_in V c 1 rfl, before2_in V c 2 rfl, before2_in V c 3 rfl, before2_in V c 4 rfl, before2_in V c 5 rfl, before2_in V c 6 rfl]
  dsimp only [dat2, Dat.owesAt, Dat.bound]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ (grid2.coords t) _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro H
  iframe

def out2_7 (c : Dev nD) : Buf (Elt F) ((c : Thread nD τ).loc main_v18) := (dat2 V c).arrAt 7 cfg2.N

theorem arrAt2_7 (c : Dev nD) : (dat2 V c).arrAt 7 cfg2.N = out2_7 V c := rfl

end Cert.KernelIdeal.Hand

end
-- ==== Proof.Reg3.lean ====
import proofs.«115278_j52183852646963_1_alg».proof.Proof.Gen.KernelIdeal.Launch
import proofs.«115278_j52183852646963_1_alg».proof.Proof.Gen.KernelIdeal.Skeleton
import proofs.«115278_j52183852646963_1_alg».proof.Proof.Gen.KernelIdeal.Points
import Idealize.ShloMosaic.Lib.Pipeline.FrameBody
import Idealize.ShloMosaic.Lib.QrPanel.Panel
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F] [Named F]

local notation "𝕄" => MT nD τ sig Unit (Elt F) ℕ (Pipeline.UD sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

-- The one store covers the result's block, and every load is of a whole block, so the result's block ends at the body's value of the seven.
theorem sound_kernel3 (c : Dev nD) (E : Set ℕ) (i : grid3.Coords) (arg1 : Memref sig .tc .vmem S512x2048 .f32) (harg1 : arg1.IsWhole) (arg2 : Memref sig .tc .vmem S2048x2048 .bf16) (harg2 : arg2.IsWhole) (arg3 arg4 arg5 arg6 : Memref sig .tc .vmem S1x2048 .f32) (harg3 : arg3.IsWhole) (harg4 : arg4.IsWhole) (harg5 : arg5.IsWhole) (harg6 : arg6.IsWhole) (arg7 : Memref sig .tc .vmem S128x2048 .bf16) (harg7 : arg7.IsWhole) (arg8 : Memref sig .tc .vmem S512x128 .f32) (harg8 : arg8.IsWhole)
    (x0 : Vec F S512x2048 .f32) (x1 : Vec F S2048x2048 .bf16) (x2 x3 x4 x5 : Vec F S1x2048 .f32) (x6 : Vec F S128x2048 .bf16) (K : PUnit → sProp 𝕄) :
    iprop(owns c.tc arg1 fullShare x0 ∗ owns c.tc arg2 fullShare x1 ∗ owns c.tc arg3 fullShare x2 ∗ owns c.tc arg4 fullShare x3
        ∗ owns c.tc arg5 fullShare x4 ∗ owns c.tc arg6 fullShare x5 ∗ owns c.tc arg7 fullShare x6 ∗ (∃ d, owns c.tc arg8 fullShare d)
        ∗ (iprop(owns c.tc arg1 fullShare x0 ∗ owns c.tc arg2 fullShare x1 ∗ owns c.tc arg3 fullShare x2 ∗ owns c.tc arg4 fullShare x3
            ∗ owns c.tc arg5 fullShare x4 ∗ owns c.tc arg6 fullShare x5 ∗ owns c.tc arg7 fullShare x6 ∗ owns c.tc arg8 fullShare (k3_pay1 x0 x1 x3 x2 x4 x5 x6)) -∗ K ⟨⟩))
      ⊢ wp frame (wpE (defs₀ (F := F)) Variants.none c none) E (cc3__project_kernel i arg1 harg1 arg2 harg2 arg3 harg3 arg4 harg4 arg5 harg5 arg6 harg6 arg7 harg7 arg8 harg8) K := by
  simp only [cc3__project_kernel_eq_skeleton]; unfold cc3__project_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]; swap; isplitl [H1]; swap; isplitl [H2]; swap; isplitl [H3]; swap; isplitl [H4]; swap; isplitl [H5]; swap; isplitl [H6]; swap
  all_goals
    iexists _; isplitr; swap; iassumption
    ipureintro
    first
      | rfl
      | refine (View.read_writes_eq_canon _ _ _ (View.cover_of_tiled _ S512x128.size (by rfl))).trans ?_
        rw [View.canon_unit_zero QrPanel.Panel.zeros2]
        congr <;> exact View.ld_unit_zero QrPanel.Panel.zeros2 _ _

def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => k3_pay1 (iblk3 V c 0 t) (iblk3 V c 1 t) (iblk3 V c 3 t) (iblk3 V c 2 t) (iblk3 V c 4 t) (iblk3 V c 5 t) (iblk3 V c 6 t)
  Φ _ := Pipeline.ΦA spec3 c
  q _ := fullShare
  owed _ := 0

theorem A_eq3 (c : Dev nD) (w : Fin cfg3.W) : (dat3 V c).A w = V c (Pipeline.arrRef spec3 w) := rfl

-- By cases on the window: the library's lemma for an input window applies to each of the first seven, and the eighth is the output.
theorem before3_in (c : Dev nD) (w : Fin 8) (hw : (cfg3.win w).isOut = false) (t : Fin cfg3.N) (d) :
    (dat3 V c).before w t d = (dat3 V c).fetched w t d := by
  fin_cases w
  all_goals first
    | exact absurd hw (by decide)
    | exact (dat3 V c).before_in_eq_fetched _ hw (fun _ => rfl) (fun _ _ _ => rfl) (fun _ => by dsimp only [dat3]; rfl) t d

theorem body_obligation3 (c : Dev nD) : BodyObligation (dat3 (F := F) V c) (defs₀ (F := F)) Variants.none () Set.univ := fun t => by
  rw [bigSep_W3, bigSep_W3]
  simp only [before3_in V c 0 rfl, before3_in V c 1 rfl, before3_in V c 2 rfl, before3_in V c 3 rfl, before3_in V c 4 rfl, before3_in V c 5 rfl, before3_in V c 6 rfl]
  dsimp only [dat3, Dat.owesAt, Dat.bound]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ (grid3.coords t) _ _ _ _ _ _ _ _ _ _ _ _ _ _ _ _ (iblk3 V c 0 t) (iblk3 V c 1 t) (iblk3 V c 2 t) (iblk3 V c 3 t) (iblk3 V c 4 t) (iblk3 V c 5 t) (iblk3 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro H
  iframe

def out3_7 (c : Dev nD) : Buf (Elt F) ((c : Thread nD τ).loc main_v19) := (dat3 V c).arrAt 7 cfg3.N

theorem arrAt3_7 (c : Dev nD) : (dat3 V c).arrAt 7 cfg3.N = out3_7 V c := rfl

end Cert.KernelIdeal.Hand

end
-- ==== Proof.Reg4Defs.lean ====
import proofs.«115278_j52183852646963_1_alg».proof.Proof.Gen.KernelIdeal.Skeleton
import Idealize.ShloMosaic.Lib.Pipeline.FrameBody

noncomputable section

namespace Cert.KernelIdeal.Hand

open Idealize.ShloMosaic Idealize.SL.Sem
open Cert.KernelIdeal Cert.KernelIdeal.Gen

variable {F : FTy → Type} [FloatOps F] [Named F]

structure Sc (F : FTy → Type) where
  m : Vec F S512x1 .f32
  l : Vec F S512x1 .f32
  ws : Vec F S512x1 .f32
  wz : Vec F S512x1 .f32

def scInit : Sc F := ⟨k4_pay2, k4_pay3, k4_pay4, k4_pay5⟩

def zRow (i : grid4.Coords) (Z : Vec F S8192x128 .f32) : Vec F S512x128 .f32 :=
  View.ld Z (Rect.unit (s := S8192x128) (k4_off1 i) S512x128.size (k4_off1_inb i))
def zCol (i : grid4.Coords) (Z : Vec F S8192x128 .f32) : Vec F S512x128 .f32 :=
  View.ld Z (Rect.unit (s := S8192x128) (k4_off2 i) S512x128.size (k4_off2_inb i))
def labCol (i : grid4.Coords) (lc : Vec F S8192x1 .f32) : Vec F S512x1 .f32 :=
  View.ld lc (Rect.unit (s := S8192x1) (k4_off3 i) S512x1.size (k4_off3_inb i))
def labRow (i : grid4.Coords) (lr : Vec F S1x8192 .f32) : Vec F S1x512 .f32 :=
  View.ld lr (Rect.unit (s := S1x8192) (k4_off4 i) S1x512.size (k4_off4_inb i))

def simTile (i : grid4.Coords) (Z : Vec F S8192x128 .f32) : FVec F S512x512 .f32 :=
  k4_pay7 i (zRow i Z) (zCol i Z)
def wtTile (i : grid4.Coords) (lc : Vec F S8192x1 .f32) (lr : Vec F S1x8192 .f32) : FVec F S512x512 .f32 :=
  k4_pay8 i (labCol i lc) (labRow i lr)

def scBase (i : grid4.Coords) (s : Sc F) : Sc F := if (i 1).val = 0 then scInit else s

def scStep (i : grid4.Coords) (Z : Vec F S8192x128 .f32) (lc : Vec F S8192x1 .f32) (lr : Vec F S1x8192 .f32) (s : Sc F) : Sc F :=
  ⟨k4_pay11 (simTile i Z) (scBase i s).m,
   k4_pay10 (simTile i Z) (scBase i s).m (scBase i s).m (scBase i s).l,
   k4_pay12 (wtTile i lc lr) (scBase i s).ws,
   k4_pay13 (simTile i Z) (wtTile i lc lr) (scBase i s).wz⟩

def scAtN (Z : Vec F S8192x128 .f32) (lc : Vec F S8192x1 .f32) (lr : Vec F S1x8192 .f32) : ℕ → Sc F
  | 0 => scInit
  | t + 1 => if h : t < grid4.N then scStep (grid4.coords ⟨t, h⟩) Z lc lr (scAtN Z lc lr t) else scAtN Z lc lr t

theorem scAtN_succ (Z : Vec F S8192x128 .f32) (lc : Vec F S8192x1 .f32) (lr : Vec F S1x8192 .f32) (t : Fin grid4.N) :
    scAtN Z lc lr (t.val + 1) = scStep (grid4.coords t) Z lc lr (scAtN Z lc lr t.val) := by
  rw [scAtN, dif_pos t.isLt]

def outOf (s : Sc F) : Vec F S512x1 .f32 := k4_pay1 s.m s.l s.wz s.ws

def outAt (Z : Vec F S8192x128 .f32) (lc : Vec F S8192x1 .f32) (lr : Vec F S1x8192 .f32) (t : Fin grid4.N) : Vec F S512x1 .f32 :=
  outOf (scAtN Z lc lr (t.val + 1))

end Cert.KernelIdeal.Hand

end
-- ==== Proof.Reg4Dat.lean ====
import proofs.«115278_j52183852646963_1_alg».proof.Proof.Gen.KernelIdeal.Launch
import proofs.«115278_j52183852646963_1_alg».proof.Proof.Gen.KernelIdeal.Skeleton
import proofs.«115278_j52183852646963_1_alg».proof.Proof.Gen.KernelIdeal.Points
import proofs.«115278_j52183852646963_1_alg».proof.Proof.Reg4Defs
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (Pipeline.UD sig nD τ) ℕ

section Region

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def Z4 (c : Dev nD) : Vec F S8192x128 .f32 := V c main_v20
def lc4 (c : Dev nD) : Vec F S8192x1 .f32 := V c main_v22
def lr4 (c : Dev nD) : Vec F S1x8192 .f32 := V c main_v23

theorem iblk4_0 (c : Dev nD) (t : Fin cfg4.N) : iblk4 V c 0 t = Z4 V c :=
  funext fun y => congrArg (V c main_v20) (funext fun a => Fin.ext ((cfg4.win 0).rect_emb_val_of_index_zero t a (by fin_cases a <;> rfl) y))

theorem iblk4_1 (c : Dev nD) (t : Fin cfg4.N) : iblk4 V c 1 t = lc4 V c :=
  funext fun y => congrArg (V c main_v22) (funext fun a => Fin.ext ((cfg4.win 1).rect_emb_val_of_index_zero t a (by fin_cases a <;> rfl) y))

theorem iblk4_2 (c : Dev nD) (t : Fin cfg4.N) : iblk4 V c 2 t = lr4 V c :=
  funext fun y => congrArg (V c main_v23) (funext fun a => Fin.ext ((cfg4.win 2).rect_emb_val_of_index_zero t a (by fin_cases a <;> rfl) y))

def sc4 (c : Dev nD) (n : ℕ) : Sc F := scAtN (Z4 V c) (lc4 V c) (lr4 V c) n

abbrev scM4_0 : Memref sig .tc .vmem S512x1 .f32 := Memref.whole cc4_scratch0
abbrev scM4_1 : Memref sig .tc .vmem S512x1 .f32 := Memref.whole cc4_scratch1
abbrev scM4_2 : Memref sig .tc .vmem S512x1 .f32 := Memref.whole cc4_scratch2
abbrev scM4_3 : Memref sig .tc .vmem S512x1 .f32 := Memref.whole cc4_scratch3

def scPts (c : Dev nD) (s : Sc F) : sProp 𝕄 :=
  iprop(owns (c : Thread nD τ) scM4_0 fullShare s.m ∗ owns (c : Thread nD τ) scM4_1 fullShare s.l
    ∗ owns (c : Thread nD τ) scM4_2 fullShare s.ws ∗ owns (c : Thread nD τ) scM4_3 fullShare s.wz)

def Φ4 (c : Dev nD) (t : Fin (cfg4.N + 1)) : sProp 𝕄 :=
  iprop((∃ s : Sc F, ⌜t.val ≠ 0 → s = sc4 V c t.val⌝ ∗ scPts c s)
    ∗ Pipeline.scopedRestBut (Ix := Unit) (Name := ℕ) (U := Pipeline.UD sig nD τ) (Lvl := ℕ) (Val := Elt F) spec4 c [cc4_scratch0, cc4_scratch1, cc4_scratch2, cc4_scratch3]
    ∗ ∃ r, prngReg c r)

def dat4 (c : Dev nD) : Dat τ (Elt F) Unit ℕ (Pipeline.UD sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => outAt (Z4 V c) (lc4 V c) (lr4 V c) t
  Φ t := Φ4 V c t
  q _ := fullShare
  owed _ := 0

theorem A_eq4 (c : Dev nD) (w : Fin cfg4.W) : (dat4 V c).A w = V c (Pipeline.arrRef spec4 w) := rfl

theorem after4_3 (c : Dev nD) (t : Fin cfg4.N) : (dat4 V c).after 3 t = outAt (Z4 V c) (lc4 V c) (lr4 V c) t := rfl

theorem before4_0 (c : Dev nD) (t : Fin cfg4.N) (d) : (dat4 V c).before 0 t d = iblk4 V c 0 t :=
  (dat4 V c).before_in_eq_fetched 0 rfl (fun _ => rfl) (fun _ _ _ => rfl) (fun _ => rfl) t d
theorem before4_1 (c : Dev nD) (t : Fin cfg4.N) (d) : (dat4 V c).before 1 t d = iblk4 V c 1 t :=
  (dat4 V c).before_in_eq_fetched 1 rfl (fun _ => rfl) (fun _ _ _ => rfl) (fun _ => rfl) t d
theorem before4_2 (c : Dev nD) (t : Fin cfg4.N) (d) : (dat4 V c).before 2 t d = iblk4 V c 2 t :=
  (dat4 V c).before_in_eq_fetched 2 rfl (fun _ => rfl) (fun _ _ _ => rfl) (fun _ => rfl) t d

def out4_3 (c : Dev nD) : Buf (Elt F) ((c : Thread nD τ).loc main_v24) := (dat4 V c).arrAt 3 cfg4.N

theorem arrAt4_3 (c : Dev nD) : (dat4 V c).arrAt 3 cfg4.N = out4_3 V c := rfl

end Region

end Cert.KernelIdeal.Hand
end
-- ==== Proof.Reg4Rest.lean ====
import proofs.«115278_j52183852646963_1_alg».proof.Proof.Reg4Dat

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (Pipeline.UD sig nD τ) ℕ

section Region

variable (V : (c : Dev nD) → (b : Ref sig .tc) → Buf (Elt F) ((c : Thread nD τ).loc b))

-- At point 0 the invariant constrains no column, so any contents satisfy it.
theorem hin4 (c : Dev nD) :
    iprop((∃ r, prngReg c r) ∗ Pipeline.scopedRest (Ix := Unit) (Name := ℕ) (U := Pipeline.UD sig nD τ) (Lvl := ℕ) (Val := Elt F) spec4 c)
      ⊢ (dat4 V c).Φ 0 := by
  show _ ⊢ Φ4 V c 0
  rw [Gen.scopedRest4_split c]
  unfold Φ4 scPts
  simp only [scM4_0, scM4_1, scM4_2, scM4_3, owns_whole]
  iintro ⟨Hr, ⟨⟨%f0, H0⟩, ⟨%f1, H1⟩, ⟨%f2, H2⟩, ⟨%f3, H3⟩⟩, HB⟩
  iframe
  iexists (⟨f0, f1, f2, f3⟩ : Sc F)
  iframe
  ipureintro; exact fun h => (h (Fin.val_zero _)).elim

theorem hout4 (c : Dev nD) :
    (dat4 V c).Φ (Fin.last cfg4.N)
      ⊢ iprop((∃ r, prngReg c r) ∗ Pipeline.scopedRest (Ix := Unit) (Name := ℕ) (U := Pipeline.UD sig nD τ) (Lvl := ℕ) (Val := Elt F) spec4 c) := by
  show Φ4 V c (Fin.last cfg4.N) ⊢ _
  rw [Gen.scopedRest4_split c]
  unfold Φ4 scPts
  simp only [scM4_0, scM4_1, scM4_2, scM4_3, owns_whole]
  iintro ⟨⟨%s, -, H0, H1, H2, H3⟩, HB, Hr⟩
  iframe
  isplitl [H0]; swap; isplitl [H1]; swap; isplitl [H2]
  all_goals (iexists _; iassumption)

end Region

end Cert.KernelIdeal.Hand

end
-- ==== Proof.Reg4.lean ====
import proofs.«115278_j52183852646963_1_alg».proof.Proof.Reg4Dat

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (Pipeline.UD sig nD τ) ℕ

theorem cond1_iff (i : grid4.Coords) : Scalar.cmpi .ne (Scalar.extui (Scalar.cmpi .eq (BitVec.ofNat 32 (i 1).val) 0#32) : BitVec 32) 0#32 = 1#1 ↔ (i 1).val = 0 :=
  (by decide : ∀ j : Fin 16, Scalar.cmpi .ne (Scalar.extui (Scalar.cmpi .eq (BitVec.ofNat 32 j.val) 0#32) : BitVec 32) 0#32 = 1#1 ↔ j.val = 0) (i 1)

theorem cond2_iff (i : grid4.Coords) : k4_cond2 i = 1#1 ↔ (i 1).val = 15 := by
  have : ∀ j : Fin 16, (Scalar.cmpi .ne (Scalar.extui (Scalar.cmpi .eq (BitVec.ofNat 32 j.val) 15#32) : BitVec 32) 0#32 = 1#1) ↔ j.val = 15 := by decide
  exact this (i 1)

theorem hz2 : (![0, 0] : Fin S512x1.rank → Nat) = fun _ => 0 := by funext a; fin_cases a <;> rfl

theorem read_writes_col {κ : Kind} {sp : Space} (v : View sig κ sp S512x1 .f32) (f : v.ty.Contents (Elt F))
    (w : Vec F S512x1 .f32) (L : List (View.Piece (Elt F) S512x1 .f32)) :
    v.read (Elt F) (v.writes (Elt F) f (⟨Rect.unit (s := S512x1) ![0, 0] ![512, 1] inb_S512x1_S512x1_0_0, w⟩ :: L)) = w := by
  rw [View.read_writes_eq_canon _ _ _ (fun y => ⟨_, List.mem_cons_self, View.mem_set_unit_zero hz2 inb_S512x1_S512x1_0_0 y⟩), View.canon_cons_unit_zero hz2]

theorem readCov_col {κ : Kind} {sp : Space} (v : View sig κ sp S512x1 .f32) (w : Vec F S512x1 .f32) :
    v.readCov [(⟨Rect.unit (s := S512x1) ![0, 0] ![512, 1] inb_S512x1_S512x1_0_0, w⟩ : View.Piece (Elt F) S512x1 .f32)]
      (Rect.unit (s := S512x1) ![0, 0] ![512, 1] inb_S512x1_S512x1_0_0).toLoadRect = w :=
  View.readCov_unit_zero v hz2 _ w

theorem readAt_col {κ : Kind} {sp : Space} (v : View sig κ sp S512x1 .f32) (f : v.ty.Contents (Elt F)) :
    v.readAt (Elt F) (Rect.unit (s := S512x1) ![0, 0] ![512, 1] inb_S512x1_S512x1_0_0).toLoadRect f = v.read (Elt F) f :=
  View.ld_unit_zero hz2 _ _

theorem sound_kernel4 (c : Dev nD) (E : Set ℕ) (i : grid4.Coords)
    (arg2 : Memref sig .tc .vmem S8192x128 .f32) (harg2 : arg2.IsWhole) (arg3 : Memref sig .tc .vmem S8192x1 .f32) (harg3 : arg3.IsWhole)
    (arg4 : Memref sig .tc .vmem S1x8192 .f32) (harg4 : arg4.IsWhole) (arg5 : Memref sig .tc .vmem S512x1 .f32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (x0 : Vec F S8192x128 .f32) (x1 : Vec F S8192x1 .f32) (x2 : Vec F S1x8192 .f32) (y : Vec F S512x1 .f32) (s : Sc F)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare y
        ∗ owns (c : Thread nD τ) arg6 fullShare s.m ∗ owns (c : Thread nD τ) arg7 fullShare s.l
        ∗ owns (c : Thread nD τ) arg8 fullShare s.ws ∗ owns (c : Thread nD τ) arg9 fullShare s.wz
        ∗ (iprop(owns (c : Thread nD τ) arg2 fullShare x0 ∗ owns (c : Thread nD τ) arg3 fullShare x1 ∗ owns (c : Thread nD τ) arg4 fullShare x2
            ∗ owns (c : Thread nD τ) arg5 fullShare (if (i 1).val = 15 then outOf (scStep i x0 x1 x2 s) else y)
            ∗ owns (c : Thread nD τ) arg6 fullShare (scStep i x0 x1 x2 s).m ∗ owns (c : Thread nD τ) arg7 fullShare (scStep i x0 x1 x2 s).l
            ∗ owns (c : Thread nD τ) arg8 fullShare (scStep i x0 x1 x2 s).ws ∗ owns (c : Thread nD τ) arg9 fullShare (scStep i x0 x1 x2 s).wz) -∗ K ⟨⟩))
      ⊢ wp frame (wpE (defs₀ (F := F)) Variants.none c none) E (cc4__loss_kernel i arg2 harg2 arg3 harg3 arg4 harg4 arg5 harg5 arg6 harg6 arg7 harg7 arg8 harg8 arg9 harg9) K := by
  obtain ⟨sm, sl, sws, swz⟩ := s
  by_cases hj0 : (i 1).val = 0 <;> by_cases hj15 : (i 1).val = 15
  · omega
  all_goals
    have h1 := hj0
    have h2 := hj15
    rw [← cond1_iff] at h1
    rw [← cond2_iff] at h2
    simp only [hj15, ↓reduceIte, cc4__loss_kernel_eq_skeleton]; unfold cc4__loss_kernel_skel
    simp only [k4_part1_eq_skeleton, k4_part2_eq_skeleton]; unfold k4_part1_skel k4_part2_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    subst hf2 hf3 hf4 hf5 hf6 hf7 hf8 hf9
    sl_exec
    sl_step
    iapply Hk
    isplitl [H2]; swap; isplitl [H3]; swap; isplitl [H4]; swap; isplitl [H5]; swap
    isplitl [H6]; swap; isplitl [H7]; swap; isplitl [H8]
    all_goals
      iexists _; isplitr; swap; iassumption
      ipureintro; try sl_unfold_run_names
      simp only [read_writes_col, readAt_col, readCov_col, scStep, scBase, scInit, outOf, simTile, wtTile, zRow, zCol, labCol, labRow, hj0, ↓reduceIte] <;> rfl

theorem coords4_1 : ∀ t : Fin grid4.N, ((grid4.coords t) 1).val = t.val % 16 := by decide +kernel

theorem idle4_3 (t : Fin cfg4.N) : cfg4.idle 3 (cfg4.grid.coords t) = true ↔ ((cfg4.grid.coords t) 1).val ≠ 15 := by
  show (!(k4_cond2 (cfg4.grid.coords t) == 1#1)) = true ↔ _
  rw [Ne, ← cond2_iff]; simp

section Region

variable (V : (c : Dev nD) → (b : Ref sig .tc) → Buf (Elt F) ((c : Thread nD τ).loc b))

theorem sound_body4 (c : Dev nD) (t : Fin cfg4.N) :
    iprop(Φ4 V c t.castSucc ∗ (dat4 V c).owesAt () t.castSucc
        ∗ (∃ d, owns (c : Thread nD τ) (st4_0 t) fullShare ((dat4 V c).before 0 t d))
        ∗ (∃ d, owns (c : Thread nD τ) (st4_1 t) fullShare ((dat4 V c).before 1 t d))
        ∗ (∃ d, owns (c : Thread nD τ) (st4_2 t) fullShare ((dat4 V c).before 2 t d))
        ∗ (∃ d, owns (c : Thread nD τ) (st4_3 t) fullShare ((dat4 V c).before 3 t d)))
      ⊢ wp frame (wpE (defs₀ (F := F)) Variants.none c none) Set.univ (bodyAt4 t) (fun _ =>
          iprop(Φ4 V c t.succ ∗ (dat4 V c).owesAt () t.castSucc
            ∗ owns (c : Thread nD τ) (st4_0 t) fullShare (iblk4 V c 0 t)
            ∗ owns (c : Thread nD τ) (st4_1 t) fullShare (iblk4 V c 1 t)
            ∗ owns (c : Thread nD τ) (st4_2 t) fullShare (iblk4 V c 2 t)
            ∗ (if ((grid4.coords t) 1).val = 15 then owns (c : Thread nD τ) (st4_3 t) fullShare ((dat4 V c).after 3 t)
                else ∃ d, owns (c : Thread nD τ) (st4_3 t) fullShare ((dat4 V c).before 3 t d)))) := by
  unfold bodyAt4 Φ4 scPts
  simp only [before4_0, before4_1, before4_2]
  iintro ⟨⟨⟨%s, %hs, Hm, Hl, Hws, Hwz⟩, Hrest, Hg⟩, Ho, ⟨%d0, H0⟩, ⟨%d1, H1⟩, ⟨%d2, H2⟩, ⟨%d3, H3⟩⟩
  have hstep : scStep (grid4.coords t) (iblk4 V c 0 t) (iblk4 V c 1 t) (iblk4 V c 2 t) s = sc4 V c (t.val + 1) := by
    unfold sc4; rw [scAtN_succ, iblk4_0, iblk4_1, iblk4_2]
    by_cases ht0 : t.val = 0
    · simp only [scStep, scBase, if_pos (show ((grid4.coords t) 1).val = 0 by rw [coords4_1]; omega)]
    · rw [hs ht0]; rfl
  iapply (sound_kernel4 c Set.univ (grid4.coords t) _ _ _ _ _ _ _ _ _ _ _ _ _ _ _ _
    (iblk4 V c 0 t) (iblk4 V c 1 t) (iblk4 V c 2 t) ((dat4 V c).before 3 t d3) s _)
  rw [hstep]
  iframe H0 H1 H2 H3 Hm Hl Hws Hwz
  iintro ⟨H0, H1, H2, H3, Hm, Hl, Hws, Hwz⟩
  iframe
  isplitr [H3]
  · iexists _; iframe; ipureintro; exact fun _ => rfl
  by_cases h : ((grid4.coords t) 1).val = 15
  · simp only [if_pos h]; iexact H3
  · simp only [if_neg h]; iexists d3; iexact H3

theorem body_obligation4 (c : Dev nD) : BodyObligation (dat4 (F := F) V c) (defs₀ (F := F)) Variants.none () Set.univ := fun t => by
  rw [bigSep_W4, bigSep_W4]
  have := sound_body4 V c t
  by_cases hj15 : ((grid4.coords t) 1).val = 15
  · rw [if_pos hj15] at this
    rw [show cfg4.idle 3 (cfg4.grid.coords t) = false by rw [← Bool.not_eq_true, idle4_3]; exact fun h => h hj15]
    exact this
  · rw [if_neg hj15] at this
    rw [(idle4_3 t).mpr hj15, show (cfg4.win 3).flush t = false by rw [← Bool.not_eq_true, flush4_3, ← coords4_1]; exact hj15]
    exact this

end Region

end Cert.KernelIdeal.Hand
end
-- ==== Proof.Run.lean ====
import proofs.«115278_j52183852646963_1_alg».proof.Proof.Gen.KernelIdeal.Launch
import proofs.«115278_j52183852646963_1_alg».proof.Proof.Gen.KernelIdeal.Skeleton
import proofs.«115278_j52183852646963_1_alg».proof.Proof.Gen.KernelIdeal.Points
import proofs.«115278_j52183852646963_1_alg».proof.Proof.Gen.KernelIdeal.Regions
import proofs.«115278_j52183852646963_1_alg».proof.Proof.Reg0
import proofs.«115278_j52183852646963_1_alg».proof.Proof.Reg1
import proofs.«115278_j52183852646963_1_alg».proof.Proof.Reg2
import proofs.«115278_j52183852646963_1_alg».proof.Proof.Reg3
import proofs.«115278_j52183852646963_1_alg».proof.Proof.Reg4Dat
import proofs.«115278_j52183852646963_1_alg».proof.Proof.Reg4Rest
import proofs.«115278_j52183852646963_1_alg».proof.Proof.Reg4
import proofs.«115278_j52183852646963_1_alg».proof.Proof.Seam

noncomputable section

namespace Cert.KernelIdeal.Hand

open Cert.KernelIdeal Cert.KernelIdeal.Gen Cert.Seam
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ (Pipeline.UD sig nD τ) ℕ

variable (m : (ℓ : Loc nD τ sig) → Buf (Elt F) ℓ)

abbrev atTc (W : Dev nD → Valuation τ sig (Elt F)) : (c : Dev nD) → (b : Ref sig .tc) → Buf (Elt F) ((c : Thread nD τ).loc b) :=
  fun c b => W c b

def U2 (c : Dev nD) : Valuation τ sig (Elt F) :=
  Function.update (Function.update (V1 m c) main_v4_0 (out0_2 (atTc (V1 m)) c)) main_v4_1 (out0_3 (atTc (V1 m)) c)
def U3 (c : Dev nD) : Valuation τ sig (Elt F) := StableHlo.after hostOps1 (U2 m c)
def U4 (c : Dev nD) : Valuation τ sig (Elt F) :=
  Function.update (Function.update (U3 m c) main_v11_0 (out1_2 (atTc (U3 m)) c)) main_v11_1 (out1_3 (atTc (U3 m)) c)
def U5 (c : Dev nD) : Valuation τ sig (Elt F) := StableHlo.after hostOps2 (U4 m c)
def U6 (c : Dev nD) : Valuation τ sig (Elt F) := Function.update (U5 m c) main_v18 (out2_7 (atTc (U5 m)) c)
def U7 (c : Dev nD) : Valuation τ sig (Elt F) := Function.update (U6 m c) main_v19 (out3_7 (atTc (U6 m)) c)
def U8 (c : Dev nD) : Valuation τ sig (Elt F) := StableHlo.after hostOps4 (U7 m c)
def U9 (c : Dev nD) : Valuation τ sig (Elt F) := Function.update (U8 m c) main_v24 (out4_3 (atTc (U8 m)) c)

-- Each region's outputs, computed from the contents it is entered at; the regions are threaded without reference to `outs` itself.
def outs : Outs (F := F) := fun J r c =>
  match J with
  | 2 => U2 m c r
  | 4 => U4 m c r
  | 6 => U6 m c r
  | 7 => U7 m c r
  | 9 => U9 m c r
  | _ => V1 m c r

theorem V2_eq (c : Dev nD) : V2 m (outs m) c = U2 m c :=
  update_update_self (V1 m c) _ _ (StableHlo.devRef_ne_of_ne (by decide))
theorem V3_eq (c : Dev nD) : V3 m (outs m) c = U3 m c := congrArg (StableHlo.after hostOps1) (V2_eq m c)
theorem V4_eq (c : Dev nD) : V4 m (outs m) c = U4 m c := by
  show Function.update (Function.update (V3 m (outs m) c) _ _) _ _ = _
  rw [V3_eq]
  exact update_update_self (U3 m c) _ _ (StableHlo.devRef_ne_of_ne (by decide))
theorem V5_eq (c : Dev nD) : V5 m (outs m) c = U5 m c := congrArg (StableHlo.after hostOps2) (V4_eq m c)
theorem V6_eq (c : Dev nD) : V6 m (outs m) c = U6 m c := by
  show Function.update (V5 m (outs m) c) _ _ = _
  rw [V5_eq]
  exact update_self_self (U5 m c) _
theorem V7_eq (c : Dev nD) : V7 m (outs m) c = U7 m c := by
  show Function.update (V6 m (outs m) c) _ _ = _
  rw [V6_eq]
  exact update_self_self (U6 m c) _
theorem V8_eq (c : Dev nD) : V8 m (outs m) c = U8 m c := congrArg (StableHlo.after hostOps4) (V7_eq m c)
theorem V9_eq (c : Dev nD) : V9 m (outs m) c = U9 m c := by
  show Function.update (V8 m (outs m) c) _ _ = _
  rw [V8_eq]
  exact update_self_self (U8 m c) _

theorem atTc_eq {V U : Dev nD → Valuation τ sig (Elt F)} (h : ∀ c, V c = U c) : atTc U = atTc V := by
  funext c b; show U c b = V c b; rw [h]

theorem outs_main_v4_0 (c : Dev nD) : outs m 2 main_v4_0 c = out0_2 (atTc (fun c => V1 m c)) c := by
  show U2 m c main_v4_0 = _; unfold U2; exact update_fst _ _ _ (StableHlo.devRef_ne_of_ne (by decide))
theorem outs_main_v4_1 (c : Dev nD) : outs m 2 main_v4_1 c = out0_3 (atTc (fun c => V1 m c)) c := by
  show U2 m c main_v4_1 = _; unfold U2; rw [Function.update_self]
theorem outs_main_v11_0 (c : Dev nD) : outs m 4 main_v11_0 c = out1_2 (atTc (fun c => V3 m (outs m) c)) c := by
  rw [← atTc_eq (V3_eq m)]; show U4 m c main_v11_0 = _; unfold U4; exact update_fst _ _ _ (StableHlo.devRef_ne_of_ne (by decide))
theorem outs_main_v11_1 (c : Dev nD) : outs m 4 main_v11_1 c = out1_3 (atTc (fun c => V3 m (outs m) c)) c := by
  rw [← atTc_eq (V3_eq m)]; show U4 m c main_v11_1 = _; unfold U4; rw [Function.update_self]
theorem outs_main_v18 (c : Dev nD) : outs m 6 main_v18 c = out2_7 (atTc (fun c => V5 m (outs m) c)) c := by
  rw [← atTc_eq (V5_eq m)]; show U6 m c main_v18 = _; unfold U6; rw [Function.update_self]
theorem outs_main_v19 (c : Dev nD) : outs m 7 main_v19 c = out3_7 (atTc (fun c => V6 m (outs m) c)) c := by
  rw [← atTc_eq (V6_eq m)]; show U7 m c main_v19 = _; unfold U7; rw [Function.update_self]
theorem outs_main_v24 (c : Dev nD) : outs m 9 main_v24 c = out4_3 (atTc (fun c => V8 m (outs m) c)) c := by
  rw [← atTc_eq (V8_eq m)]; show U9 m c main_v24 = _; unfold U9; rw [Function.update_self]

-- The regions' proof data, each at the contents its region is entered at.
def pdats : (p : Fin 5) → (c : Dev nD) → Dat τ (Elt F) Unit ℕ (Pipeline.UD sig nD τ) ℕ (cfgs p) c
  | ⟨0, _⟩ => fun c => dat0 (atTc (V1 m)) c
  | ⟨1, _⟩ => fun c => dat1 (atTc (V3 m (outs m))) c
  | ⟨2, _⟩ => fun c => dat2 (atTc (V5 m (outs m))) c
  | ⟨3, _⟩ => fun c => dat3 (atTc (V6 m (outs m))) c
  | ⟨4, _⟩ => fun c => dat4 (atTc (V8 m (outs m))) c

abbrev 𝒱₀ : Variants := Variants.none
abbrev L : GSem nD τ sig → Finset Unit := fun _ => ∅
abbrev lv : GSem nD τ sig → Unit → ℕ := fun _ _ => 0

abbrev owesNone (c : Dev nD) : sProp 𝕄 := iprop(∃ W, owes (c : Thread nD τ) (0 : CellTallies nD τ sig Unit) W)
abbrev prngSome (c : Dev nD) : sProp 𝕄 := iprop(∃ r, prngReg c r)
-- The resource kept between any two items besides the buffers' contents.
abbrev R (c : Dev nD) : sProp 𝕄 := iprop(prngSome (F := F) c ∗ owesNone (F := F) c)
abbrev E : Fin 6 → Dev nD → sProp 𝕄 := fun _ c => R (F := F) c

set_option backward.isDefEq.respectTransparency.types false in
-- A region as a segment from contents `Uin` to contents `Uout` that agree off its output arrays `O`; every other window's array ends as it began.
def regOf (p : Fin 5) (lf : Pipeline.LaunchFacts (nD := nD) (τ := τ) cfgs p)
    (Uin Uout : Dev nD → Valuation τ sig (Elt F))
    (hbody : ∀ c, BodyObligation (pdats m p c) (defs₀ (F := F)) Variants.none () Set.univ)
    (hA : ∀ c w, (pdats m p c).A w = atTc Uin c (Pipeline.arrRef (cfgs p).spec w))
    (O : List (Ref sig .tc))
    (hrest : ∀ c b, b ∉ O → atTc Uout c b = atTc Uin c b)
    (hF : ∀ c w, Pipeline.arrRef (cfgs p).spec w ∈ O → (pdats m p c).arrAt w (cfgs p).N = atTc Uout c (Pipeline.arrRef (cfgs p).spec w))
    (hin : ∀ c, iprop(prngSome (F := F) c ∗ Pipeline.scopedRest (Ix := Unit) (Name := ℕ) (U := Pipeline.UD sig nD τ) (Lvl := ℕ) (Val := Elt F) (cfgs p).spec c)
      ⊢ ((pdats m p c).Φ 0 : sProp 𝕄))
    (hout : ∀ c, ((pdats m p c).Φ (Fin.last (cfgs p).N) : sProp 𝕄)
      ⊢ iprop(prngSome (F := F) c ∗ Pipeline.scopedRest (Ix := Unit) (Name := ℕ) (U := Pipeline.UD sig nD τ) (Lvl := ℕ) (Val := Elt F) (cfgs p).spec c))
    (hq : ∀ c w, (pdats m p c).q w = fullShare := by exact fun _ _ => rfl)
    (howed : ∀ c t, (pdats m p c).owed t = 0 := by exact fun _ _ => rfl)
    (hrec : ∀ c t, (pdats m p c).recorded t = Set.univ := by exact fun _ _ => rfl)
    (hO : ∀ r ∈ O, ∃ w, Pipeline.arrRef (cfgs p).spec w = r := by decide)
    (hio : ∀ w, Pipeline.arrRef (cfgs p).spec w ∉ O → ((cfgs p).win w).isOut = false := by decide) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Uin c) ∗ R (F := F) c)
  post c := iprop(StableHlo.held (c : Thread nD τ) (Pipeline.ucRefs τ sig) (Uout c) ∗ R (F := F) c)
  X c := prngSome (F := F) c
  Y c := prngSome (F := F) c
  Z c := Pipeline.unscopedRest (Ix := Unit) (Name := ℕ) (U := Pipeline.UD sig nD τ) (Lvl := ℕ) (cfgs p).spec c (atTc Uin c)
  hentry c := by
    rw [Pipeline.ownSems0_none]
    have hsplit := Pipeline.arrays_of_unscopedBufs (p := p) (pcfgs (F := F)) adm (pdats m) lf.win lf.arr_whole c
      ((pdats m p c).share_full (hq c)) (atTc Uin c) (hA c)
    rw [Pipeline.unscopedBufs_held] at hsplit
    iintro ⟨⟨Hbufs, Hprng, Howes⟩, -, -⟩
    ihave Hsp := hsplit $$ Hbufs
    icases Hsp with ⟨Harr, Hrest⟩
    imodintro
    iframe
    isplitr
    · unfold Pipeline.prefHeld; rw [show (Finset.univ : Finset (Fin 0)) = ∅ from rfl, BI.bigSep_empty]; iempintro
    iapply (owesAt_of_none (pdats m p c) 0 (howed c 0) (hrec c 0)); iexact Howes
  hin c := by
    iintro ⟨Hprng, -, Hsc⟩
    iapply (hin c)
    iframe
  hout c := by
    rw [Pipeline.ownSems0_none]
    exact (hout c).trans (sep_mono_right BI.emp_sep.2)
  hexit c := by
    have hjoin := Pipeline.unscopedBufs_of_arrays (p := p) (pcfgs (F := F)) adm (Ix := Unit) (Name := ℕ) (U := Pipeline.UD sig nD τ) (Lvl := ℕ)
      lf.win lf.arr_whole c (pdats m) ((pdats m p c).share_full (hq c))
      (atTc Uin c) (atTc Uout c) ((pdats m p c).arrAt · (cfgs p).N)
      (fun w => if h : Pipeline.arrRef (cfgs p).spec w ∈ O then hF c w h
        else ((pdats m p c).arrAt_in w (hio w h) _).trans ((hA c w).trans (hrest c _ h).symm))
      (fun b hb => hrest c b (not_mem_of_not_arr _ O hO hb))
    rw [Pipeline.unscopedBufs_held] at hjoin
    iintro ⟨Harr, Howes, Hprng, Hrest⟩
    imodintro
    isplitl [Harr Hrest]
    · iapply hjoin; isplitl [Harr] <;> iassumption
    isplitl [Hprng]; · iexact Hprng
    iapply (none_of_owesAt (pdats m p c) (Fin.last _) (howed c _)); iexact Howes

def reg0 : Pipeline.RegionSeg (pcfgs (F := F)) adm (pdats m) () defs₀ 𝒱₀ L lv 0 :=
  regOf m 0 launch0 (V1 m) (V2 m (outs m)) (body_obligation0 _)
    (A_eq0 _) [main_v4_0, main_v4_1] (V2_of m (outs m))
    (fun c w h => by
      rcases (by decide : ∀ w : Fin cfg0.W, Pipeline.arrRef spec0 w ∈ [main_v4_0, main_v4_1] → w = 2 ∨ w = 3) w h with rfl | rfl
      · exact (arrAt0_2 _ c).trans ((congrFun (V2_eq m c) _).trans (outs_main_v4_0 m c)).symm
      · exact (arrAt0_3 _ c).trans ((congrFun (V2_eq m c) _).trans (outs_main_v4_1 m c)).symm)
    (fun _ => sep_comm.1) (fun _ => sep_comm.1)

def reg1 : Pipeline.RegionSeg (pcfgs (F := F)) adm (pdats m) () defs₀ 𝒱₀ L lv 1 :=
  regOf m 1 launch1 (V3 m (outs m)) (V4 m (outs m)) (body_obligation1 _)
    (A_eq1 _) [main_v11_0, main_v11_1] (V4_of m (outs m))
    (fun c w h => by
      rcases (by decide : ∀ w : Fin cfg1.W, Pipeline.arrRef spec1 w ∈ [main_v11_0, main_v11_1] → w = 2 ∨ w = 3) w h with rfl | rfl
      · exact (arrAt1_2 _ c).trans ((congrFun (V4_eq m c) _).trans (outs_main_v11_0 m c)).symm
      · exact (arrAt1_3 _ c).trans ((congrFun (V4_eq m c) _).trans (outs_main_v11_1 m c)).symm)
    (fun _ => sep_comm.1) (fun _ => sep_comm.1)

def reg2 : Pipeline.RegionSeg (pcfgs (F := F)) adm (pdats m) () defs₀ 𝒱₀ L lv 2 :=
  regOf m 2 launch2 (V5 m (outs m)) (V6 m (outs m)) (body_obligation2 _)
    (A_eq2 _) [main_v18] (V6_of m (outs m))
    (fun c w h => by
      obtain rfl : w = 7 := (by decide : ∀ w : Fin cfg2.W, Pipeline.arrRef spec2 w ∈ [main_v18] → w = 7) w h
      exact (arrAt2_7 _ c).trans ((congrFun (V6_eq m c) _).trans (outs_main_v18 m c)).symm)
    (fun _ => sep_comm.1) (fun _ => sep_comm.1)

def reg3 : Pipeline.RegionSeg (pcfgs (F := F)) adm (pdats m) () defs₀ 𝒱₀ L lv 3 :=
  regOf m 3 launch3 (V6 m (outs m)) (V7 m (outs m)) (body_obligation3 _)
    (A_eq3 _) [main_v19] (V7_of m (outs m))
    (fun c w h => by
      obtain rfl : w = 7 := (by decide : ∀ w : Fin cfg3.W, Pipeline.arrRef spec3 w ∈ [main_v19] → w = 7) w h
      exact (arrAt3_7 _ c).trans ((congrFun (V7_eq m c) _).trans (outs_main_v19 m c)).symm)
    (fun _ => sep_comm.1) (fun _ => sep_comm.1)

def reg4 : Pipeline.RegionSeg (pcfgs (F := F)) adm (pdats m) () defs₀ 𝒱₀ L lv 4 :=
  regOf m 4 launch4 (V8 m (outs m)) (V9 m (outs m)) (body_obligation4 _)
    (A_eq4 _) [main_v24] (V9_of m (outs m))
    (fun c w h => by
      obtain rfl : w = 3 := (by decide : ∀ w : Fin cfg4.W, Pipeline.arrRef spec4 w ∈ [main_v24] → w = 3) w h
      exact (arrAt4_3 _ c).trans ((congrFun (V9_eq m c) _).trans (outs_main_v24 m c)).symm)
    (hin4 _) (hout4 _)

variable (ρ : Dev nD → PrngReg)

abbrev EP : Emb (URounds (GSem nD τ sig) Unit) (MT nD τ sig Unit (Elt F) ℕ (Pipeline.UD sig nD τ) ℕ) := embL

def u₀ : Pipeline.UD sig nD τ := (initOf (Pipeline.cells cfgs cellOf_inj) (Pipeline.launchToks cfgs cellOf_inj), 1)

theorem hu₀ : (ownU u₀ : sProp 𝕄)
    ⊢ |={Set.univ}=> iprop(BI.own ((EP (F := F)) (initOf (Pipeline.cells cfgs cellOf_inj) (Pipeline.launchToks cfgs cellOf_inj)))
        ∗ bigSep Finset.univ fun _ : Dev nD => (BI.emp : sProp 𝕄)) := by
  unfold u₀
  iintro Hu
  ihave H := (ownU_pair _ _) $$ Hu
  icases H with ⟨HP, -⟩
  imodintro
  iframe
  rw [BI.bigSep_emp_const]
  iempintro

theorem hE5 (c : Dev nD) : E (F := F) 5 c ⊢ (owesNone (F := F) c : sProp 𝕄) := by
  iintro ⟨-, Howes⟩; iexact Howes

def QYfin (c : Dev nD) (s : MemSt nD τ sig (Elt F)) : Prop :=
  s.mem ((c.tc : Thread nD τ).loc main_v26) = V10 m (outs m) c main_v26
  ∧ s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)
  ∧ s.mem ((c.tc : Thread nD τ).loc main_arg5) = m ((c.tc : Thread nD τ).loc main_arg5)
  ∧ s.mem ((c.tc : Thread nD τ).loc main_arg6) = m ((c.tc : Thread nD τ).loc main_arg6)

set_option backward.isDefEq.respectTransparency.types false in
-- Every weakly fair execution terminates; the final memory holds the result where the last boundary contents put it, and each argument as launched.
theorem run_main : θ_run defs (onTc (τ := τ) (main (F := F))) ⟨m, fun _ => 0, ρ⟩ (fun r => ∀ c : Dev nD, QYfin m c r.2) := by
  refine Pipeline.θ_run_regions_kit_dev (pcfgs (F := F)) adm (pdats m) () cellOf_inj (EP (F := F)) defs₀ 𝒱₀ L lv m ρ main
    (segs m (outs m) 𝒱₀ L lv (E (F := F)) () (pdats m) (reg0 m) (reg1 m) (reg2 m) (reg3 m) (reg4 m))
    (fun c Q => by
      rewrite [main_chain c, Pipeline.Seg.run_eq_chain]
      exact .rfl)
    (fun c => by simp only [segs, Pipeline.Seg.pipes_host, Pipeline.Seg.pipes_region, Pipeline.Seg.pipes_nil]; decide)
    0 (fun _ _ => rfl) (fun _ => (BI.emp : sProp 𝕄)) u₀ hu₀
    (T₀ := fun c => iprop(StableHlo.held (c : Thread nD τ) (Pipeline.ucRefs τ sig) (V0 m c) ∗ E (F := F) 0 c))
    (Tₙ := fun c => StableHlo.held (c : Thread nD τ) (Pipeline.ucRefs τ sig) (V10 m (outs m) c))
    (hch := fun c => ⟨.rfl, .rfl, .rfl, .rfl, .rfl, .rfl, .rfl, .rfl, .rfl, .rfl, sep_mono .rfl (hE5 c)⟩)
    (hinit := Pipeline.initEach L lv fun c => by
      iintro ⟨⟨Hb, -, Howes, -, Hprng, -⟩, -⟩
      imodintro
      isplitl [Hb]
      · rw [← Pipeline.unscopedBufs_held (Ix := Unit) (Name := ℕ) (U := Pipeline.UD sig nD τ) (Lvl := ℕ) c (V0 m c)]; iexact Hb
      isplitl [Hprng]; · iexists _; iexact Hprng
      iexists ∅; iexact Howes)
    (QY := QYfin m) (hfin := fun c s' => ?_) (hQ := fun _ h => h)
  unfold StableHlo.held
  iintro ⟨Hheld, HSI⟩
  ihave Hr := (pointsTo_read_all (Pipeline.ucRefs τ sig) (fun b => ((c : Thread nD τ).1, b)) (V10 m (outs m) c) s') $$ [Hheld HSI]
  · isplitl [Hheld] <;> iassumption
  icases Hr with ⟨%h, HSI⟩
  imodintro
  isplitr
  · ipureintro
    have g := fun (r : Ref sig .tc) (hr : _) => h (Proc.devRef .tc r) (Finset.mem_filter.mpr ⟨StableHlo.devRef_mem_tcRefs r, hr⟩)
    exact ⟨g main_v26 (by decide), (g main_arg0 (by decide)).trans (V10_main_arg0 m (outs m) c),
      (g main_arg1 (by decide)).trans (V10_main_arg1 m (outs m) c), (g main_arg2 (by decide)).trans (V10_main_arg2 m (outs m) c),
      (g main_arg3 (by decide)).trans (V10_main_arg3 m (outs m) c), (g main_arg4 (by decide)).trans (V10_main_arg4 m (outs m) c),
      (g main_arg5 (by decide)).trans (V10_main_arg5 m (outs m) c), (g main_arg6 (by decide)).trans (V10_main_arg6 m (outs m) c)⟩
  · iexact HSI

-- The frame is the valued run with the result's conjunct dropped.
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  OrdCont.mono (θ_run defs (onTc (τ := τ) (main (F := F))) ⟨m, fun _ => 0, ρ⟩) (fun _ h c => (h c).2) (run_main m ρ)

end Cert.KernelIdeal.Hand

end
-- ==== Proof.Adapt.lean ====
import Idealize.ShloMosaic.Lib.ValueIdx

namespace Cert.Adapt

open Idealize.ShloMosaic Idealize.ShloMosaic.ValueIdx

def arr2 {n0 n1 : Nat} (v : (⟨2, ![n0, n1]⟩ : Shape).Idx → EReal) : Fin n0 → Fin n1 → EReal :=
  fun r k => v (ix2 r k)

def arr1 {n : Nat} (v : (⟨1, ![n]⟩ : Shape).Idx → EReal) : Fin n → EReal :=
  fun r => v (ix1 r)

def arrCol {n : Nat} (v : (⟨2, ![n, 1]⟩ : Shape).Idx → EReal) : Fin n → EReal :=
  fun r => v (ix2 r 0)

def arrRow {n : Nat} (v : (⟨2, ![1, n]⟩ : Shape).Idx → EReal) : Fin n → EReal :=
  fun k => v (ix2 0 k)

@[simp] theorem arr2_apply {n0 n1 : Nat} (v : (⟨2, ![n0, n1]⟩ : Shape).Idx → EReal) (r : Fin n0) (k : Fin n1) :
    arr2 v r k = v (ix2 r k) := rfl

@[simp] theorem arr1_apply {n : Nat} (v : (⟨1, ![n]⟩ : Shape).Idx → EReal) (r : Fin n) :
    arr1 v r = v (ix1 r) := rfl
@[simp] theorem arrCol_apply {n : Nat} (v : (⟨2, ![n, 1]⟩ : Shape).Idx → EReal) (r : Fin n) :
    arrCol v r = v (ix2 r 0) := rfl
@[simp] theorem arrRow_apply {n : Nat} (v : (⟨2, ![1, n]⟩ : Shape).Idx → EReal) (k : Fin n) :
    arrRow v k = v (ix2 0 k) := rfl

end Cert.Adapt
-- ==== Proof.Lits.lean ====
import proofs.«115278_j52183852646963_1_alg».proof.Proof.Spec

noncomputable section

namespace Cert.Lits

open Idealize.ShloMosaic

theorem ofBits_zero : Ideal.ofBits .f32 0x00000000#32 = 0 := by
  simp [Ideal.ofBits, Ideal.ieee]

theorem ofBits_one : Ideal.ofBits .f32 0x3F800000#32 = 1 := by
  simp [Ideal.ofBits, Ideal.ieee, -EReal.coe_mul]; norm_num

theorem ofBits_ninf : Ideal.ofBits .f32 0xFF800000#32 = ⊥ := by
  simp [Ideal.ofBits, Ideal.ieee]

theorem ofBits_pinf : Ideal.ofBits .f32 0x7F800000#32 = ⊤ := by
  simp [Ideal.ofBits, Ideal.ieee]

theorem ofBits_cnt : Ideal.ofBits .f32 0x45800000#32 = ((4096 : ℝ) : EReal) := by
  simp [Ideal.ofBits, Ideal.ieee, -EReal.coe_mul]; norm_num

theorem ofBits_eps : Ideal.ofBits .f32 0x3727C5AC#32 = ((2748779 / 274877906944 : ℝ) : EReal) := by
  simp [Ideal.ofBits, Ideal.ieee, -EReal.coe_mul]; norm_num

theorem ofBits_temp : Ideal.ofBits .f32 0x3DCCCCCD#32 = ((13421773 / 134217728 : ℝ) : EReal) := by
  simp [Ideal.ofBits, Ideal.ieee, -EReal.coe_mul]; norm_num

theorem ofBits_big : Ideal.ofBits .f32 0x4CBEBC20#32 = ((100000000 : ℝ) : EReal) := by
  simp [Ideal.ofBits, Ideal.ieee, -EReal.coe_mul]; norm_num

theorem ofBits_ngam : Ideal.ofBits .f32 0xBCA3D70A#32 = ((-(5368709 / 268435456) : ℝ) : EReal) := by
  simp [Ideal.ofBits, Ideal.ieee, -EReal.coe_mul]; norm_num

def lits : Cert.Spec.Lits where
  cnt := Ideal.ofBits .f32 0x45800000#32
  eps := Ideal.ofBits .f32 0x3727C5AC#32
  temp := Ideal.ofBits .f32 0x3DCCCCCD#32
  itemp := ((134217728 / 13421773 : ℝ) : EReal)
  big := Ideal.ofBits .f32 0x4CBEBC20#32
  ngam := Ideal.ofBits .f32 0xBCA3D70A#32

theorem lits_cnt : Ideal.ofBits .f32 0x45800000#32 = lits.cnt := rfl
theorem lits_eps : Ideal.ofBits .f32 0x3727C5AC#32 = lits.eps := rfl
theorem cnt_eq : lits.cnt = ((4096 : ℝ) : EReal) := ofBits_cnt
theorem eps_eq : lits.eps = ((2748779 / 274877906944 : ℝ) : EReal) := ofBits_eps
theorem temp_eq : lits.temp = ((13421773 / 134217728 : ℝ) : EReal) := ofBits_temp
theorem itemp_eq : lits.itemp = ((134217728 / 13421773 : ℝ) : EReal) := rfl
theorem big_eq : lits.big = ((100000000 : ℝ) : EReal) := ofBits_big
theorem ngam_eq : lits.ngam = ((-(5368709 / 268435456) : ℝ) : EReal) := ofBits_ngam

theorem lits_good : lits.Good where
  cnt := cnt_eq
  eps := ⟨2748779 / 274877906944, by norm_num, eps_eq⟩
  temp := ⟨13421773 / 134217728, by norm_num, temp_eq, by
    rw [itemp_eq]; congr 1; norm_num⟩
  big := ⟨100000000, big_eq⟩
  ngam := ⟨-(5368709 / 268435456), ngam_eq⟩

end Cert.Lits

end
-- ==== Proof.ProjWith.lean ====
import proofs.«115278_j52183852646963_1_alg».proof.Proof.Spec

noncomputable section

namespace Cert.Spec

open Idealize.ShloMosaic

section Row

variable (eps : EReal) (xr : Fin 2048 → EReal) (W1 : Fin 2048 → Fin 2048 → EReal) (mu var g b : Fin 2048 → EReal)
  (W2 : Fin 128 → Fin 2048 → EReal)

def linRow (j : Fin 2048) : EReal := ∑ k : Fin 2048, xr k * W1 j k

def actRow (j : Fin 2048) : EReal :=
  max (((linRow xr W1 j - mu j) * Ideal.rsqrt (var j + eps)) * g j + b j) 0

def projRow (p : Fin 128) : EReal := ∑ j : Fin 2048, actRow eps xr W1 mu var g b j * W2 p j
def normRow : EReal := Ideal.sqrt (∑ p : Fin 128, projRow eps xr W1 mu var g b W2 p * projRow eps xr W1 mu var g b W2 p)
def unitRow (p : Fin 128) : EReal := Ideal.div (projRow eps xr W1 mu var g b W2 p) (normRow eps xr W1 mu var g b W2)

end Row

def unitWith (eps : EReal) (x : Fin 4096 → Fin 2048 → EReal) (W1 : Fin 2048 → Fin 2048 → EReal) (mu var g b : Fin 2048 → EReal)
    (W2 : Fin 128 → Fin 2048 → EReal) (r : Fin 4096) (p : Fin 128) : EReal :=
  unitRow eps (x r) W1 mu var g b W2 p

end Cert.Spec

end
-- ==== Proof.KernelValue.lean ====
import proofs.«115278_j52183852646963_1_alg».proof.Proof.Gen.KernelIdeal.Regions
import proofs.«115278_j52183852646963_1_alg».proof.Proof.Spec
import proofs.«115278_j52183852646963_1_alg».proof.Proof.Adapt
import proofs.«115278_j52183852646963_1_alg».proof.Proof.Lits
import proofs.«115278_j52183852646963_1_alg».proof.Proof.ProjWith
import Idealize.ShloMosaic.Lib.StableHlo.Run
import Idealize.ShloMosaic.Lib.IdealHost
import Idealize.ShloMosaic.Lib.ValueLayout
import Idealize.ShloMosaic.Lib.Pipeline.Value

noncomputable section

namespace Cert.KernelIdeal.KernelValue

open Idealize.ShloMosaic Idealize.ShloMosaic.TcCoe Idealize.ShloMosaic.ValueIdx
open Cert.KernelIdeal Cert.KernelIdeal.Gen Cert.Adapt Cert.Lits
open Idealize.ShloMosaic.StableHlo
open scoped BigOperators

theorem concat1_apply (x₁ x₂ : S4096.Idx → EReal) (h : Shape.Concatenates [S4096, S4096] S8192 0) (a : Fin 8192) :
    concatenate S8192 0 [⟨S4096, x₁⟩, ⟨S4096, x₂⟩] h (ix1 a) = Spec.stack (arr1 x₁) (arr1 x₂) a := by
  unfold Spec.stack
  by_cases ha : a.val < 4096
  · rw [dif_pos ha]
    exact concatenate_pair_apply_left 0 x₁ x₂ h (ix1 a) rfl (ix1 ⟨a.val, ha⟩)
      (fun b => match b with | ⟨0, _⟩ => rfl)
  · rw [dif_neg ha]
    exact concatenate_pair_apply_right 0 x₁ x₂ h (ix1 a) rfl rfl (ix1 ⟨a.val - 4096, by omega⟩)
      (fun b hb => match b, hb with | ⟨0, _⟩, hb => absurd rfl hb)
      (by show a.val - 4096 + 4096 = a.val; omega)

theorem concat2_apply (x₁ x₂ : S4096x128.Idx → EReal) (h : Shape.Concatenates [S4096x128, S4096x128] S8192x128 0)
    (a : Fin 8192) (p : Fin 128) :
    concatenate S8192x128 0 [⟨S4096x128, x₁⟩, ⟨S4096x128, x₂⟩] h (ix2 a p) = Spec.stack (arr2 x₁) (arr2 x₂) a p := by
  unfold Spec.stack
  by_cases ha : a.val < 4096
  · rw [dif_pos ha]
    exact concatenate_pair_apply_left 0 x₁ x₂ h (ix2 a p) rfl (ix2 ⟨a.val, ha⟩ p)
      (fun b => match b with | ⟨0, _⟩ => rfl | ⟨1, _⟩ => rfl)
  · rw [dif_neg ha]
    exact concatenate_pair_apply_right 0 x₁ x₂ h (ix2 a p) rfl rfl (ix2 ⟨a.val - 4096, by omega⟩ p)
      (fun b hb => match b, hb with | ⟨0, _⟩, hb => absurd rfl hb | ⟨1, _⟩, _ => rfl)
      (by show a.val - 4096 + 4096 = a.val; omega)

-- A projection normalised with the batch's own column mean and mean of squares less squared mean is the specification's.
theorem unitK_of {x : Fin 4096 → Fin 2048 → EReal} {W1 : Fin 2048 → Fin 2048 → EReal} {g b μ v : Fin 2048 → EReal}
    {W2 : Fin 128 → Fin 2048 → EReal} {z : Fin 4096 → Fin 128 → EReal}
    (hμ : ∀ j, μ j = Ideal.div (Spec.colSum x W1 j) lits.cnt)
    (hv : ∀ j, v j = Ideal.div (Spec.colSumSq x W1 j) lits.cnt - μ j * μ j)
    (hz : z = Spec.unitWith lits.eps x W1 μ v g b W2) : z = Spec.unitK lits x W1 g b W2 := by
  obtain rfl : μ = Spec.mean lits x W1 := funext hμ
  obtain rfl : v = Spec.varK lits x W1 := funext hv
  exact hz

theorem arrRow_cast {n : ℕ} {x : (⟨1, ![n]⟩ : Shape).Idx → EReal} {y : (⟨2, ![1, n]⟩ : Shape).Idx → EReal}
    {h : (⟨1, ![n]⟩ : Shape).ShapeCasts ⟨2, ![1, n]⟩} (e : y = shapeCast ⟨2, ![1, n]⟩ x h) : arrRow y = arr1 x := by
  funext j
  show y (ix2 0 j) = x (ix1 j)
  rw [e]
  exact shapeCast_a_1a_apply _ _ 0 j

section Walk

variable (m : (ℓ : Loc nD τ sig) → Buf (Elt Ideal) ℓ) (outs : Outs (F := Ideal)) (c : Dev nD)

abbrev inY1 : FVec Ideal S4096x2048 .f32 := m ((c : Thread nD τ).loc main_arg0)
abbrev inY2 : FVec Ideal S4096x2048 .f32 := m ((c : Thread nD τ).loc main_arg1)
abbrev inLab : FVec Ideal S4096 .f32 := m ((c : Thread nD τ).loc main_arg2)
abbrev inW1 : FVec Ideal S2048x2048 .f32 := m ((c : Thread nD τ).loc main_arg3)
abbrev inG : FVec Ideal S2048 .f32 := m ((c : Thread nD τ).loc main_arg4)
abbrev inB : FVec Ideal S2048 .f32 := m ((c : Thread nD τ).loc main_arg5)
abbrev inW2 : FVec Ideal S128x2048 .f32 := m ((c : Thread nD τ).loc main_arg6)

abbrev w1b : FVec Ideal S2048x2048 .bf16 := V1 m c main_v0
abbrev w2b : FVec Ideal S128x2048 .bf16 := V1 m c main_v1
abbrev gRow : FVec Ideal S1x2048 .f32 := V1 m c main_v2
abbrev bRow : FVec Ideal S1x2048 .f32 := V1 m c main_v3

abbrev sum1 : FVec Ideal S1x2048 .f32 := outs 2 main_v4_0 c
abbrev sq1 : FVec Ideal S1x2048 .f32 := outs 2 main_v4_1 c
abbrev sum2 : FVec Ideal S1x2048 .f32 := outs 4 main_v11_0 c
abbrev sq2 : FVec Ideal S1x2048 .f32 := outs 4 main_v11_1 c
abbrev z1 : FVec Ideal S4096x128 .f32 := outs 6 main_v18 c
abbrev z2 : FVec Ideal S4096x128 .f32 := outs 7 main_v19 c
abbrev rowLoss : FVec Ideal S8192x1 .f32 := outs 9 main_v24 c

abbrev mean1 : FVec Ideal S1x2048 .f32 := V3 m outs c main_v6
abbrev var1 : FVec Ideal S1x2048 .f32 := V3 m outs c main_v10
abbrev mean2 : FVec Ideal S1x2048 .f32 := V5 m outs c main_v13
abbrev var2 : FVec Ideal S1x2048 .f32 := V5 m outs c main_v17
abbrev zz : FVec Ideal S8192x128 .f32 := V8 m outs c main_v20
abbrev labs : FVec Ideal S8192 .f32 := V8 m outs c main_v21
abbrev labCol : FVec Ideal S8192x1 .f32 := V8 m outs c main_v22
abbrev labRow : FVec Ideal S1x8192 .f32 := V8 m outs c main_v23
abbrev result : FVec Ideal S_ .f32 := V10 m outs c main_v26

abbrev cntRow : FVec Ideal S1x2048 .f32 :=
  broadcastInDim S1x2048 ![] bcast_S_S1x2048 (constant (F := Ideal) S_ .f32 0x45800000#32)

theorem w1b_eq : arr2 (w1b m c) = arr2 (inW1 m c) := by
  refine congrArg (arr2 (n0 := 2048) (n1 := 2048)) ?_
  show StableHlo.after hostOps0 (V0 m c) (Proc.devRef .tc main_v0) = _
  after_results
  rfl

theorem w2b_eq : arr2 (w2b m c) = arr2 (inW2 m c) := by
  refine congrArg (arr2 (n0 := 128) (n1 := 2048)) ?_
  show StableHlo.after hostOps0 (V0 m c) (Proc.devRef .tc main_v1) = _
  after_results
  rfl

theorem gRow_eq : arrRow (gRow m c) = arr1 (inG m c) :=
  arrRow_cast (h := shapeCasts_S2048_S1x2048) (by
    show StableHlo.after hostOps0 (V0 m c) (Proc.devRef .tc main_v2) = _
    after_results
    rfl)

theorem bRow_eq : arrRow (bRow m c) = arr1 (inB m c) :=
  arrRow_cast (h := shapeCasts_S2048_S1x2048) (by
    show StableHlo.after hostOps0 (V0 m c) (Proc.devRef .tc main_v3) = _
    after_results
    rfl)

theorem V2_main_v4_0 : V2 m outs c main_v4_0 = outs 2 main_v4_0 c := by
  simp only [V2, Function.update_self, Function.update_of_ne
    (StableHlo.devRef_ne_of_ne (by decide) : (Proc.devRef .tc main_v4_0 : DevRef τ sig) ≠ Proc.devRef .tc main_v4_1)]

theorem V4_main_v11_0 : V4 m outs c main_v11_0 = outs 4 main_v11_0 c := by
  simp only [V4, Function.update_self, Function.update_of_ne
    (StableHlo.devRef_ne_of_ne (by decide) : (Proc.devRef .tc main_v11_0 : DevRef τ sig) ≠ Proc.devRef .tc main_v11_1)]

theorem mean1_apply (j : Fin 2048) : arrRow (mean1 m outs c) j = Ideal.div (sum1 outs c (ix2 0 j)) lits.cnt := by
  have e : mean1 m outs c = Host.divf (V2 m outs c main_v4_0 : FVec Ideal S1x2048 .f32) cntRow := by
    show StableHlo.after hostOps1 (V2 m outs c) (Proc.devRef .tc main_v6) = _
    after_results
  show mean1 m outs c (ix2 0 j) = _
  rw [e, V2_main_v4_0]; rfl

theorem var1_apply (j : Fin 2048) :
    arrRow (var1 m outs c) j
      = Ideal.div (sq1 outs c (ix2 0 j)) lits.cnt - arrRow (mean1 m outs c) j * arrRow (mean1 m outs c) j := by
  have e : var1 m outs c = subf (Host.divf (outs 2 main_v4_1 c : FVec Ideal S1x2048 .f32) cntRow)
      (mulf (Host.divf (V2 m outs c main_v4_0 : FVec Ideal S1x2048 .f32) cntRow)
        (Host.divf (V2 m outs c main_v4_0 : FVec Ideal S1x2048 .f32) cntRow)) := by
    show StableHlo.after hostOps1 (V2 m outs c) (Proc.devRef .tc main_v10) = _
    after_results
    rfl
  rw [mean1_apply]
  show var1 m outs c (ix2 0 j) = _
  rw [e, V2_main_v4_0]; rfl

theorem mean2_apply (j : Fin 2048) : arrRow (mean2 m outs c) j = Ideal.div (sum2 outs c (ix2 0 j)) lits.cnt := by
  have e : mean2 m outs c = Host.divf (V4 m outs c main_v11_0 : FVec Ideal S1x2048 .f32) cntRow := by
    show StableHlo.after hostOps2 (V4 m outs c) (Proc.devRef .tc main_v13) = _
    after_results
  show mean2 m outs c (ix2 0 j) = _
  rw [e, V4_main_v11_0]; rfl

theorem var2_apply (j : Fin 2048) :
    arrRow (var2 m outs c) j
      = Ideal.div (sq2 outs c (ix2 0 j)) lits.cnt - arrRow (mean2 m outs c) j * arrRow (mean2 m outs c) j := by
  have e : var2 m outs c = subf (Host.divf (outs 4 main_v11_1 c : FVec Ideal S1x2048 .f32) cntRow)
      (mulf (Host.divf (V4 m outs c main_v11_0 : FVec Ideal S1x2048 .f32) cntRow)
        (Host.divf (V4 m outs c main_v11_0 : FVec Ideal S1x2048 .f32) cntRow)) := by
    show StableHlo.after hostOps2 (V4 m outs c) (Proc.devRef .tc main_v17) = _
    after_results
    rfl
  rw [mean2_apply]
  show var2 m outs c (ix2 0 j) = _
  rw [e, V4_main_v11_0]; rfl

theorem V1_main_arg0 : V1 m c main_arg0 = m ((c : Thread nD τ).loc main_arg0) :=
  (V1_of m c main_arg0 (by decide)).trans rfl

theorem V3_main_arg1 : V3 m outs c main_arg1 = m ((c : Thread nD τ).loc main_arg1) :=
  (V3_of m outs c main_arg1 (by decide)).trans <| (V2_of m outs c main_arg1 (by decide)).trans <|
    (V1_of m c main_arg1 (by decide)).trans rfl
theorem V3_main_v0 : V3 m outs c main_v0 = V1 m c main_v0 :=
  (V3_of m outs c main_v0 (by decide)).trans (V2_of m outs c main_v0 (by decide))

theorem V5_main_arg0 : V5 m outs c main_arg0 = m ((c : Thread nD τ).loc main_arg0) :=
  (V5_of m outs c main_arg0 (by decide)).trans <| (V4_of m outs c main_arg0 (by decide)).trans <|
    (V3_of m outs c main_arg0 (by decide)).trans <| (V2_of m outs c main_arg0 (by decide)).trans (V1_main_arg0 m c)
theorem V5_main_v0 : V5 m outs c main_v0 = V1 m c main_v0 :=
  (V5_of m outs c main_v0 (by decide)).trans <| (V4_of m outs c main_v0 (by decide)).trans (V3_main_v0 m outs c)
theorem V5_main_v1 : V5 m outs c main_v1 = V1 m c main_v1 :=
  (V5_of m outs c main_v1 (by decide)).trans <| (V4_of m outs c main_v1 (by decide)).trans <|
    (V3_of m outs c main_v1 (by decide)).trans (V2_of m outs c main_v1 (by decide))
theorem V5_main_v2 : V5 m outs c main_v2 = V1 m c main_v2 :=
  (V5_of m outs c main_v2 (by decide)).trans <| (V4_of m outs c main_v2 (by decide)).trans <|
    (V3_of m outs c main_v2 (by decide)).trans (V2_of m outs c main_v2 (by decide))
theorem V5_main_v3 : V5 m outs c main_v3 = V1 m c main_v3 :=
  (V5_of m outs c main_v3 (by decide)).trans <| (V4_of m outs c main_v3 (by decide)).trans <|
    (V3_of m outs c main_v3 (by decide)).trans (V2_of m outs c main_v3 (by decide))
theorem V5_main_v6 : V5 m outs c main_v6 = V3 m outs c main_v6 :=
  (V5_of m outs c main_v6 (by decide)).trans (V4_of m outs c main_v6 (by decide))
theorem V5_main_v10 : V5 m outs c main_v10 = V3 m outs c main_v10 :=
  (V5_of m outs c main_v10 (by decide)).trans (V4_of m outs c main_v10 (by decide))

theorem V6_main_arg1 : V6 m outs c main_arg1 = m ((c : Thread nD τ).loc main_arg1) :=
  (V6_of m outs c main_arg1 (by decide)).trans <| (V5_of m outs c main_arg1 (by decide)).trans <|
    (V4_of m outs c main_arg1 (by decide)).trans (V3_main_arg1 m outs c)

theorem V7_main_arg2 : V7 m outs c main_arg2 = m ((c : Thread nD τ).loc main_arg2) :=
  (V7_of m outs c main_arg2 (by decide)).trans <| (V6_of m outs c main_arg2 (by decide)).trans <|
    (V5_of m outs c main_arg2 (by decide)).trans <| (V4_of m outs c main_arg2 (by decide)).trans <|
    (V3_of m outs c main_arg2 (by decide)).trans <| (V2_of m outs c main_arg2 (by decide)).trans <|
    (V1_of m c main_arg2 (by decide)).trans rfl

theorem zz_eq : arr2 (zz m outs c) = Spec.stack (arr2 (z1 outs c)) (arr2 (z2 outs c)) := by
  have e : zz m outs c = concatenate S8192x128 0 [⟨S4096x128, (V7 m outs c main_v18 : FVec Ideal S4096x128 .f32)⟩,
      ⟨S4096x128, (V7 m outs c main_v19 : FVec Ideal S4096x128 .f32)⟩] concatenates_S4096x128_S4096x128_S8192x128_d0 := by
    show StableHlo.after hostOps4 (V7 m outs c) (Proc.devRef .tc main_v20) = _
    after_results
  funext a p
  show zz m outs c (ix2 a p) = _
  rw [e, (V7_of m outs c main_v18 (by decide)).trans (Function.update_self ..),
    show V7 m outs c main_v19 = outs 7 main_v19 c from Function.update_self ..]
  exact concat2_apply _ _ _ a p

theorem labs_eq : arr1 (labs m outs c) = Spec.stack (arr1 (inLab m c)) (arr1 (inLab m c)) := by
  have e : labs m outs c = concatenate S8192 0 [⟨S4096, (V7 m outs c main_arg2 : FVec Ideal S4096 .f32)⟩,
      ⟨S4096, (V7 m outs c main_arg2 : FVec Ideal S4096 .f32)⟩] concatenates_S4096_S4096_S8192_d0 := by
    show StableHlo.after hostOps4 (V7 m outs c) (Proc.devRef .tc main_v21) = _
    after_results
  funext a
  show labs m outs c (ix1 a) = _
  rw [e, V7_main_arg2]
  exact concat1_apply _ _ _ a

theorem labCol_eq : arrCol (labCol m outs c) = Spec.stack (arr1 (inLab m c)) (arr1 (inLab m c)) := by
  have e : labCol m outs c = shapeCast S8192x1 (labs m outs c) shapeCasts_S8192_S8192x1 := by
    show StableHlo.after hostOps4 (V7 m outs c) (Proc.devRef .tc main_v22)
      = shapeCast S8192x1 (StableHlo.after hostOps4 (V7 m outs c) (Proc.devRef .tc main_v21)) shapeCasts_S8192_S8192x1
    after_results
    rfl
  rw [← labs_eq m outs c]
  funext a
  show labCol m outs c (ix2 a 0) = labs m outs c (ix1 a)
  rw [e]
  exact shapeCast_apply _ _ _ _ (by
    rw [Shape.rowMajor_val_one, Shape.rowMajor_val_two]
    show a.val = a.val * 1 + 0
    omega)

theorem labRow_eq : arrRow (labRow m outs c) = Spec.stack (arr1 (inLab m c)) (arr1 (inLab m c)) :=
  (arrRow_cast (h := shapeCasts_S8192_S1x8192) (by
    show StableHlo.after hostOps4 (V7 m outs c) (Proc.devRef .tc main_v23)
      = shapeCast S1x8192 (StableHlo.after hostOps4 (V7 m outs c) (Proc.devRef .tc main_v21)) shapeCasts_S8192_S1x8192
    after_results
    rfl)).trans (labs_eq m outs c)

theorem result_eq :
    result m outs c = fun _ => Ideal.div (∑ a : Fin 8192, rowLoss outs c (ix2 a 0)) lits.cnt := by
  have e : result m outs c
      = Host.divf (Host.reduceAdd (V9 m outs c main_v24 : FVec Ideal S8192x1 .f32) (constant (F := Ideal) S_ .f32 0x00000000#32)
          reducesTo_S8192x1_S_d0_1 h_S_) (constant (F := Ideal) S_ .f32 0x45800000#32) := by
    show StableHlo.after hostOps5 (V9 m outs c) (Proc.devRef .tc main_v26) = _
    after_results
  rw [e, show V9 m outs c main_v24 = outs 9 main_v24 c from Function.update_self ..]
  funext i
  rw [hostDivf_apply, hostReduceAdd_apply, Ideal.hostReduceAdd_total _ (fun b => b.elim0), sum_idx2]
  show Ideal.div (Ideal.ofBits .f32 0x00000000#32 + ∑ a : Fin 8192, ∑ b : Fin 1, rowLoss outs c (ix2 a b)) lits.cnt = _
  rw [Ideal.ofBits_zero_f32, zero_add]
  simp only [Fin.sum_univ_one]

end Walk

end Cert.KernelIdeal.KernelValue
end
-- ==== Proof.MathIdx.lean ====
import proofs.«115278_j52183852646963_1_alg».proof.Proof.Spec

namespace Cert.Spec.Idx

def row8 (t : Fin 8) (r : Fin 512) : Fin 4096 := ⟨t.val * 512 + r.val, by have := t.isLt; have := r.isLt; omega⟩

def blk8 (a : Fin 4096) : Fin 8 := ⟨a.val / 512, by have := a.isLt; omega⟩
def off8 (a : Fin 4096) : Fin 512 := ⟨a.val % 512, by omega⟩

@[simp] theorem row8_val (t : Fin 8) (r : Fin 512) : (row8 t r).val = t.val * 512 + r.val := rfl
@[simp] theorem blk8_val (a : Fin 4096) : (blk8 a).val = a.val / 512 := rfl
@[simp] theorem off8_val (a : Fin 4096) : (off8 a).val = a.val % 512 := rfl

theorem row8_div (t : Fin 8) (r : Fin 512) : (row8 t r).val / 512 = t.val := by
  have := r.isLt; rw [row8_val]; omega
theorem row8_mod (t : Fin 8) (r : Fin 512) : (row8 t r).val % 512 = r.val := by
  have := r.isLt; rw [row8_val]; omega

@[simp] theorem blk8_row8 (t : Fin 8) (r : Fin 512) : blk8 (row8 t r) = t := Fin.ext (row8_div t r)
@[simp] theorem off8_row8 (t : Fin 8) (r : Fin 512) : off8 (row8 t r) = r := Fin.ext (row8_mod t r)
@[simp] theorem row8_blk8_off8 (a : Fin 4096) : row8 (blk8 a) (off8 a) = a := by
  apply Fin.ext; simp only [row8_val, blk8_val, off8_val]; omega

def row8Equiv : Fin 8 × Fin 512 ≃ Fin 4096 where
  toFun p := row8 p.1 p.2
  invFun a := (blk8 a, off8 a)
  left_inv p := Prod.ext (blk8_row8 p.1 p.2) (off8_row8 p.1 p.2)
  right_inv a := row8_blk8_off8 a

theorem sum_row8 {M : Type} [AddCommMonoid M] (f : Fin 4096 → M) :
    ∑ t : Fin 8, ∑ r : Fin 512, f (row8 t r) = ∑ a : Fin 4096, f a := by
  rw [← Fintype.sum_prod_type' (f := fun t r => f (row8 t r))]
  exact Equiv.sum_comp row8Equiv f

@[simp] theorem col_val (i : Fin 16) (r : Fin 512) : (col i r).val = i.val * 512 + r.val := rfl
theorem stack_lo {α : Type} (u v : Fin 4096 → α) (a : Fin 4096) :
    stack u v ⟨a.val, by have := a.isLt; omega⟩ = u a := by
  unfold stack; rw [dif_pos a.isLt]

theorem stack_hi {α : Type} (u v : Fin 4096 → α) (a : Fin 4096) :
    stack u v ⟨a.val + 4096, by have := a.isLt; omega⟩ = v a := by
  unfold stack
  rw [dif_neg (by simp)]
  exact congrArg v (Fin.ext (by simp))

end Cert.Spec.Idx
-- ==== Proof.Reg0Value.lean ====
import proofs.«115278_j52183852646963_1_alg».proof.Proof.Reg0
import proofs.«115278_j52183852646963_1_alg».proof.Proof.Spec
import proofs.«115278_j52183852646963_1_alg».proof.Proof.Adapt
import proofs.«115278_j52183852646963_1_alg».proof.Proof.MathIdx
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.TcCoe Idealize.SL.Sem
open Idealize.ShloMosaic.ValueIdx

abbrev kEquiv0 : dot_S512x2048_S2048x2048_S512x2048_1_1_0_0_n_n.contr.Idx ≃ Fin 2048 :=
  contrEquiv1 _ 2048 rfl rfl

/-- The block product at an entry: the row's inner product with a weight row. -/
theorem k0_pay3_apply (x : Vec Ideal S512x2048 .f32) (w : Vec Ideal S2048x2048 .bf16) (r : Fin 512) (j : Fin 2048) :
    k0_pay3 x w (ix2 r j) = ∑ k : Fin 2048, x (ix2 r k) * w (ix2 j k) := by
  unfold k0_pay3
  refine (Ideal.matmul_constant_zero_apply _ none _ _ (ix2 r j)).trans ?_
  refine (Equiv.sum_comp kEquiv0.symm _).symm.trans (Finset.sum_congr rfl fun k _ => ?_)
  have hk := contrEquiv1_symm_val dot_S512x2048_S2048x2048_S512x2048_1_1_0_0_n_n 2048 rfl rfl k
  exact congrArg₂ (· * ·) (congrArg x (Shape.idx_ext₂ rfl ((DotDims.lhsIdx_val_of_single _ rfl _ _).trans hk)))
    ((congrFun (shapeCast_self w _) _).trans (congrArg w (Shape.idx_ext₂ rfl ((DotDims.rhsIdx_val_of_single _ rfl _ _).trans hk))))

theorem cast_row0 (v : S2048.Idx → EReal) (j : Fin 2048) :
    shapeCast S1x2048 v shapeCasts_S2048_S1x2048 (ix2 0 j) = v (ix1 j) := by
  refine (shapeCast_addUnit_apply ![2048] v shapeCasts_S2048_S1x2048 (ix2 0 j)).trans (congrArg v ?_)
  funext a
  match a with
  | ⟨0, _⟩ => rfl

theorem lift0 (j : Fin 2048) (r : Fin 512) : reduces_S512x2048_S2048.lift (ix1 j) r = ix2 r j :=
  Shape.idx_ext₂ rfl rfl

/-- A carried row's update adds, at column `j`, the sum over the block's rows of the product (of its square). -/
theorem k0_pay45_apply (x : Vec Ideal S512x2048 .f32) (w : Vec Ideal S2048x2048 .bf16) (s : Vec Ideal S1x2048 .f32) (j : Fin 2048) :
    k0_pay4 x w s (ix2 0 j) = s (ix2 0 j) + ∑ r : Fin 512, k0_pay3 x w (ix2 r j)
      ∧ k0_pay5 x w s (ix2 0 j) = s (ix2 0 j) + ∑ r : Fin 512, k0_pay3 x w (ix2 r j) * k0_pay3 x w (ix2 r j) := by
  unfold k0_pay4 k0_pay5
  constructor <;>
  · show shapeCast S1x2048 s shapeCasts_S1x2048_S1x2048 (ix2 0 j) + shapeCast S1x2048 _ shapeCasts_S2048_S1x2048 (ix2 0 j) = _
    refine congrArg₂ (· + ·) (congrFun (shapeCast_self s _) _) ((cast_row0 _ j).trans
      ((Ideal.multiReduction_add_single _ _ reduces_S512x2048_S2048 _ _ (ix1 j)).trans (Finset.sum_congr rfl fun r _ => ?_)))
    exact (congrArg _ (lift0 j r)).trans rfl

section Blocks

open Cert.Adapt Cert.Spec.Idx

variable (W : (c : Dev nD) → (b : Ref sig .tc) → Buf (Elt Ideal) ((c : Thread nD τ).loc b))

abbrev pt0 (t : Fin cfg0.N) : Fin 8 := ⟨t.val, lt_of_lt_of_eq t.isLt N_0⟩

theorem index0_0 : ∀ t : Fin cfg0.N, win0_0.index t 0 = t.val ∧ win0_0.index t 1 = 0 :=
  (by decide +kernel : ∀ t : Fin grid0.N, win0_0.index t 0 = t.val ∧ win0_0.index t 1 = 0)

theorem index0_1 : ∀ t : Fin cfg0.N, win0_1.index t 0 = 0 ∧ win0_1.index t 1 = 0 :=
  (by decide +kernel : ∀ t : Fin grid0.N, win0_1.index t 0 = 0 ∧ win0_1.index t 1 = 0)

/-- Row `r` of the block of point `t` is row `512 t + r` of the batch. -/
theorem xblk0_apply (c : Dev nD) (t : Fin cfg0.N) (r : Fin 512) (k : Fin 2048) :
    xblk0 W c t (ix2 r k) = W c main_arg0 (ix2 (row8 (pt0 t) r) k) := by
  show ((cfg0.win 0).blk t).view.read (Elt Ideal) (W c main_arg0) (ix2 r k) = _
  rw [View.read_apply]
  refine congrArg (W c main_arg0) (Shape.idx_ext₂ ?_ (Pipeline.Window.rect_emb_val_of_index_zero win0_0 t 1 (index0_0 t).2 _))
  refine (Pipeline.Window.rect_emb_val win0_0 t (ix2 r k) 0).trans ?_
  rw [(index0_0 t).1]; rfl

/-- The weights' block is the whole matrix at every point. -/
theorem wblk0_apply (c : Dev nD) (t : Fin cfg0.N) (j k : Fin 2048) :
    wblk0 W c t (ix2 j k) = W c main_v0 (ix2 j k) := by
  show ((cfg0.win 1).blk t).view.read (Elt Ideal) (W c main_v0) (ix2 j k) = _
  rw [View.read_apply]
  exact congrArg (W c main_v0) (Shape.idx_ext₂ (Pipeline.Window.rect_emb_val_of_index_zero win0_1 t 0 (index0_1 t).1 _)
    (Pipeline.Window.rect_emb_val_of_index_zero win0_1 t 1 (index0_1 t).2 _))

/-- So the block product at `(r, j)` is the first linear map of row `512 t + r` at column `j`. -/
theorem pay3_blk0 (c : Dev nD) (t : Fin cfg0.N) (r : Fin 512) (j : Fin 2048) :
    k0_pay3 (xblk0 W c t) (wblk0 W c t) (ix2 r j)
      = Spec.lin (arr2 (W c main_arg0)) (arr2 (W c main_v0)) (row8 (pt0 t) r) j := by
  refine (k0_pay3_apply _ _ r j).trans (Finset.sum_congr rfl fun k _ => ?_)
  rw [xblk0_apply, wblk0_apply]
  rfl

/-- What point `t` adds to a column: `f` summed over the point's 512 rows. -/
def add0_of (f : Fin 4096 → EReal) (t : ℕ) : EReal := if ht : t < 8 then ∑ r : Fin 512, f (row8 ⟨t, ht⟩ r) else 0

/-- The eight points' additions are the sum over all 4096 rows, split into eight runs of 512. -/
theorem sum_add0 (f : Fin 4096 → EReal) : ∑ t ∈ Finset.range (7 + 1), add0_of f t = ∑ a, f a := by
  rw [← sum_row8 f, ← Fin.sum_univ_eq_sum_range (add0_of f) 8]
  exact Finset.sum_congr rfl fun t _ => dif_pos t.isLt

/-- A row carried from zero by an update adding, at column `j`, the block's sum of `f` of the product ends at the sum over all rows of `f` of the first linear map. -/
theorem out0_of (k : Vec Ideal S512x2048 .f32 → Vec Ideal S2048x2048 .bf16 → Vec Ideal S1x2048 .f32 → Vec Ideal S1x2048 .f32)
    (z : Vec Ideal S1x2048 .f32) (f : EReal → EReal) (j : Fin 2048) (hz : z (ix2 0 j) = 0)
    (hk : ∀ x w s, k x w s (ix2 0 j) = s (ix2 0 j) + ∑ r : Fin 512, f (k0_pay3 x w (ix2 r j))) (c : Dev nD) :
    Carry.row (fun n h => k (xblk0 W c ⟨n, h⟩) (wblk0 W c ⟨n, h⟩)) z 7 lt_N0 (ix2 0 j)
      = ∑ a, f (Spec.lin (arr2 (W c main_arg0)) (arr2 (W c main_v0)) a j) := by
  refine (Carry.row_apply _ z (ix2 0 j) (add0_of fun a => f (Spec.lin (arr2 (W c main_arg0)) (arr2 (W c main_v0)) a j))
    hz (fun n h s => ?_) 7 lt_N0).trans (sum_add0 _)
  rw [hk, add0_of, dif_pos (lt_of_lt_of_eq h N_0)]
  exact congrArg _ (Finset.sum_congr rfl fun r _ => congrArg f (pay3_blk0 W c ⟨n, h⟩ r j))

theorem out0_2_apply (c : Dev nD) (j : Fin 2048) :
    out0_2 W c (ix2 0 j) = Spec.colSum (arr2 (W c main_arg0)) (arr2 (W c main_v0)) j :=
  (out0_of W (k0_pay4 (F := Ideal)) (k0_pay1 (F := Ideal)) (fun v => v) j Ideal.ofBits_zero_f32 (fun x w s => (k0_pay45_apply x w s j).1) c :)

theorem out0_3_apply (c : Dev nD) (j : Fin 2048) :
    out0_3 W c (ix2 0 j) = Spec.colSumSq (arr2 (W c main_arg0)) (arr2 (W c main_v0)) j :=
  (out0_of W (k0_pay5 (F := Ideal)) (k0_pay2 (F := Ideal)) (fun v => v * v) j Ideal.ofBits_zero_f32 (fun x w s => (k0_pay45_apply x w s j).2) c :)

end Blocks

end Cert.KernelIdeal.Hand

end
-- ==== Proof.Reg1Value.lean ====
import proofs.«115278_j52183852646963_1_alg».proof.Proof.Reg1
import proofs.«115278_j52183852646963_1_alg».proof.Proof.Spec
import proofs.«115278_j52183852646963_1_alg».proof.Proof.Adapt
import proofs.«115278_j52183852646963_1_alg».proof.Proof.MathIdx
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.TcCoe Idealize.SL.Sem
open Idealize.ShloMosaic.ValueIdx

abbrev kEquiv1 : dot_S512x2048_S2048x2048_S512x2048_1_1_0_0_n_n.contr.Idx ≃ Fin 2048 :=
  contrEquiv1 _ 2048 rfl rfl

/-- The block product at an entry: the row's inner product with a weight row. -/
theorem k1_pay3_apply (x : Vec Ideal S512x2048 .f32) (w : Vec Ideal S2048x2048 .bf16) (r : Fin 512) (j : Fin 2048) :
    k1_pay3 x w (ix2 r j) = ∑ k : Fin 2048, x (ix2 r k) * w (ix2 j k) := by
  unfold k1_pay3
  refine (Ideal.matmul_constant_zero_apply _ none _ _ (ix2 r j)).trans ?_
  refine (Equiv.sum_comp kEquiv1.symm _).symm.trans (Finset.sum_congr rfl fun k _ => ?_)
  have hk := contrEquiv1_symm_val dot_S512x2048_S2048x2048_S512x2048_1_1_0_0_n_n 2048 rfl rfl k
  exact congrArg₂ (· * ·) (congrArg x (Shape.idx_ext₂ rfl ((DotDims.lhsIdx_val_of_single _ rfl _ _).trans hk)))
    ((congrFun (shapeCast_self w _) _).trans (congrArg w (Shape.idx_ext₂ rfl ((DotDims.rhsIdx_val_of_single _ rfl _ _).trans hk))))

theorem cast_row1 (v : S2048.Idx → EReal) (j : Fin 2048) :
    shapeCast S1x2048 v shapeCasts_S2048_S1x2048 (ix2 0 j) = v (ix1 j) := by
  refine (shapeCast_addUnit_apply ![2048] v shapeCasts_S2048_S1x2048 (ix2 0 j)).trans (congrArg v ?_)
  funext a
  match a with
  | ⟨0, _⟩ => rfl

theorem lift1 (j : Fin 2048) (r : Fin 512) : reduces_S512x2048_S2048.lift (ix1 j) r = ix2 r j :=
  Shape.idx_ext₂ rfl rfl

/-- A carried row's update adds, at column `j`, the sum over the block's rows of the product (of its square). -/
theorem k1_pay45_apply (x : Vec Ideal S512x2048 .f32) (w : Vec Ideal S2048x2048 .bf16) (s : Vec Ideal S1x2048 .f32) (j : Fin 2048) :
    k1_pay4 x w s (ix2 0 j) = s (ix2 0 j) + ∑ r : Fin 512, k1_pay3 x w (ix2 r j)
      ∧ k1_pay5 x w s (ix2 0 j) = s (ix2 0 j) + ∑ r : Fin 512, k1_pay3 x w (ix2 r j) * k1_pay3 x w (ix2 r j) := by
  unfold k1_pay4 k1_pay5
  constructor <;>
  · show shapeCast S1x2048 s shapeCasts_S1x2048_S1x2048 (ix2 0 j) + shapeCast S1x2048 _ shapeCasts_S2048_S1x2048 (ix2 0 j) = _
    refine congrArg₂ (· + ·) (congrFun (shapeCast_self s _) _) ((cast_row1 _ j).trans
      ((Ideal.multiReduction_add_single _ _ reduces_S512x2048_S2048 _ _ (ix1 j)).trans (Finset.sum_congr rfl fun r _ => ?_)))
    exact (congrArg _ (lift1 j r)).trans rfl

section Blocks

open Cert.Adapt Cert.Spec.Idx

variable (W : (c : Dev nD) → (b : Ref sig .tc) → Buf (Elt Ideal) ((c : Thread nD τ).loc b))

abbrev pt1 (t : Fin cfg1.N) : Fin 8 := ⟨t.val, lt_of_lt_of_eq t.isLt N_1⟩

theorem index1_0 : ∀ t : Fin cfg1.N, win1_0.index t 0 = t.val ∧ win1_0.index t 1 = 0 :=
  (by decide +kernel : ∀ t : Fin grid1.N, win1_0.index t 0 = t.val ∧ win1_0.index t 1 = 0)

theorem index1_1 : ∀ t : Fin cfg1.N, win1_1.index t 0 = 0 ∧ win1_1.index t 1 = 0 :=
  (by decide +kernel : ∀ t : Fin grid1.N, win1_1.index t 0 = 0 ∧ win1_1.index t 1 = 0)

/-- Row `r` of the block of point `t` is row `512 t + r` of the batch. -/
theorem xblk1_apply (c : Dev nD) (t : Fin cfg1.N) (r : Fin 512) (k : Fin 2048) :
    xblk1 W c t (ix2 r k) = W c main_arg1 (ix2 (row8 (pt1 t) r) k) := by
  show ((cfg1.win 0).blk t).view.read (Elt Ideal) (W c main_arg1) (ix2 r k) = _
  rw [View.read_apply]
  refine congrArg (W c main_arg1) (Shape.idx_ext₂ ?_ (Pipeline.Window.rect_emb_val_of_index_zero win1_0 t 1 (index1_0 t).2 _))
  refine (Pipeline.Window.rect_emb_val win1_0 t (ix2 r k) 0).trans ?_
  rw [(index1_0 t).1]; rfl

/-- The weights' block is the whole matrix at every point. -/
theorem wblk1_apply (c : Dev nD) (t : Fin cfg1.N) (j k : Fin 2048) :
    wblk1 W c t (ix2 j k) = W c main_v0 (ix2 j k) := by
  show ((cfg1.win 1).blk t).view.read (Elt Ideal) (W c main_v0) (ix2 j k) = _
  rw [View.read_apply]
  exact congrArg (W c main_v0) (Shape.idx_ext₂ (Pipeline.Window.rect_emb_val_of_index_zero win1_1 t 0 (index1_1 t).1 _)
    (Pipeline.Window.rect_emb_val_of_index_zero win1_1 t 1 (index1_1 t).2 _))

/-- So the block product at `(r, j)` is the first linear map of row `512 t + r` at column `j`. -/
theorem pay3_blk1 (c : Dev nD) (t : Fin cfg1.N) (r : Fin 512) (j : Fin 2048) :
    k1_pay3 (xblk1 W c t) (wblk1 W c t) (ix2 r j)
      = Spec.lin (arr2 (W c main_arg1)) (arr2 (W c main_v0)) (row8 (pt1 t) r) j := by
  refine (k1_pay3_apply _ _ r j).trans (Finset.sum_congr rfl fun k _ => ?_)
  rw [xblk1_apply, wblk1_apply]
  rfl

/-- What point `t` adds to a column: `f` summed over the point's 512 rows. -/
def add1_of (f : Fin 4096 → EReal) (t : ℕ) : EReal := if ht : t < 8 then ∑ r : Fin 512, f (row8 ⟨t, ht⟩ r) else 0

/-- The eight points' additions are the sum over all 4096 rows, split into eight runs of 512. -/
theorem sum_add1 (f : Fin 4096 → EReal) : ∑ t ∈ Finset.range (7 + 1), add1_of f t = ∑ a, f a := by
  rw [← sum_row8 f, ← Fin.sum_univ_eq_sum_range (add1_of f) 8]
  exact Finset.sum_congr rfl fun t _ => dif_pos t.isLt

/-- A row carried from zero by an update adding, at column `j`, the block's sum of `f` of the product ends at the sum over all rows of `f` of the first linear map. -/
theorem out1_of (k : Vec Ideal S512x2048 .f32 → Vec Ideal S2048x2048 .bf16 → Vec Ideal S1x2048 .f32 → Vec Ideal S1x2048 .f32)
    (z : Vec Ideal S1x2048 .f32) (f : EReal → EReal) (j : Fin 2048) (hz : z (ix2 0 j) = 0)
    (hk : ∀ x w s, k x w s (ix2 0 j) = s (ix2 0 j) + ∑ r : Fin 512, f (k1_pay3 x w (ix2 r j))) (c : Dev nD) :
    Carry.row (fun n h => k (xblk1 W c ⟨n, h⟩) (wblk1 W c ⟨n, h⟩)) z 7 lt_N1 (ix2 0 j)
      = ∑ a, f (Spec.lin (arr2 (W c main_arg1)) (arr2 (W c main_v0)) a j) := by
  refine (Carry.row_apply _ z (ix2 0 j) (add1_of fun a => f (Spec.lin (arr2 (W c main_arg1)) (arr2 (W c main_v0)) a j))
    hz (fun n h s => ?_) 7 lt_N1).trans (sum_add1 _)
  rw [hk, add1_of, dif_pos (lt_of_lt_of_eq h N_1)]
  exact congrArg _ (Finset.sum_congr rfl fun r _ => congrArg f (pay3_blk1 W c ⟨n, h⟩ r j))

theorem out1_2_apply (c : Dev nD) (j : Fin 2048) :
    out1_2 W c (ix2 0 j) = Spec.colSum (arr2 (W c main_arg1)) (arr2 (W c main_v0)) j :=
  (out1_of W (k1_pay4 (F := Ideal)) (k1_pay1 (F := Ideal)) (fun v => v) j Ideal.ofBits_zero_f32 (fun x w s => (k1_pay45_apply x w s j).1) c :)

theorem out1_3_apply (c : Dev nD) (j : Fin 2048) :
    out1_3 W c (ix2 0 j) = Spec.colSumSq (arr2 (W c main_arg1)) (arr2 (W c main_v0)) j :=
  (out1_of W (k1_pay5 (F := Ideal)) (k1_pay2 (F := Ideal)) (fun v => v * v) j Ideal.ofBits_zero_f32 (fun x w s => (k1_pay45_apply x w s j).2) c :)

end Blocks

end Cert.KernelIdeal.Hand

end
-- ==== Proof.ProjPay.lean ====
import proofs.«115278_j52183852646963_1_alg».proof.Proof.Gen.KernelIdeal.Skeleton
import proofs.«115278_j52183852646963_1_alg».proof.Proof.ProjWith
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.ValueIdx

section Stages

variable {F : FTy → Type} [FloatOps F]

def projH (v0 : Vec F S512x2048 .f32) (v2 : Vec F S2048x2048 .bf16) : FVec F S512x2048 .f32 :=
  matmul dot_S512x2048_S2048x2048_S512x2048_1_1_0_0_n_n none (truncf .bf16 v0 bitsLt_bf16_f32)
    (shapeCast S2048x2048 v2 shapeCasts_S2048x2048_S2048x2048) (constant S512x2048 .f32 0x00000000#32)

def projAct (h : FVec F S512x2048 .f32) (v5 v10 v16 v20 : Vec F S1x2048 .f32) : FVec F S512x2048 .bf16 :=
  truncf .bf16
    (maximumf
      (addf
        (mulf
          (mulf (subf h (broadcastTo S512x2048 (shapeCast S1x2048 v10 shapeCasts_S1x2048_S1x2048) broadcasts_S1x2048_S512x2048))
            (broadcastTo S512x2048
              (rsqrt (addf (shapeCast S1x2048 v5 shapeCasts_S1x2048_S1x2048) (broadcast S1x2048 (Scalar.ofBits .f32 0x3727C5AC#32 : F .f32))))
              broadcasts_S1x2048_S512x2048))
          (broadcastTo S512x2048 (shapeCast S1x2048 v16 shapeCasts_S1x2048_S1x2048) broadcasts_S1x2048_S512x2048))
        (broadcastTo S512x2048 (shapeCast S1x2048 v20 shapeCasts_S1x2048_S1x2048) broadcasts_S1x2048_S512x2048))
      (broadcast S512x2048 (Scalar.ofBits .f32 0x00000000#32 : F .f32)))
    bitsLt_bf16_f32

def projZ (a : FVec F S512x2048 .bf16) (v27 : Vec F S128x2048 .bf16) : FVec F S512x128 .f32 :=
  matmul dot_S512x2048_S128x2048_S512x128_1_1_0_0_n_n none a
    (shapeCast S128x2048 v27 shapeCasts_S128x2048_S128x2048) (constant S512x128 .f32 0x00000000#32)

def projUnit (z : FVec F S512x128 .f32) : FVec F S512x128 .f32 :=
  divf z
    (broadcastTo S512x128
      (sqrt (shapeCast S512x1 (multiReduction .add [1] S512 (mulf z z) 0x00000000#32 reduces_S512x128_S512 (.inl rfl) rfl) shapeCasts_S512_S512x1))
      broadcasts_S512x1_S512x128)

end Stages

/-- An index is determined by its coordinates' values. -/
theorem ix2_of {n0 n1 : ℕ} (i : (⟨2, ![n0, n1]⟩ : Shape).Idx) (r : Fin n0) (c : Fin n1) (h0 : (i 0).val = r.val)
    (h1 : (i 1).val = c.val) : i = ix2 r c :=
  funext fun a => Fin.ext (by match a with | ⟨0, _⟩ => exact h0 | ⟨1, _⟩ => exact h1)

/-- Entry (q, j) of a product is the inner product of row q of the left factor with row j of the right. -/
theorem projH_apply (v0 : FVec Ideal S512x2048 .f32) (v2 : FVec Ideal S2048x2048 .bf16) (q : Fin 512) (j : Fin 2048) :
    projH (F := Ideal) v0 v2 (ix2 q j) = ∑ k : Fin 2048, v0 (ix2 q k) * v2 (ix2 j k) := by
  unfold projH
  simp only [matmul]
  rw [Ideal.matmul_constant_zero_apply, ← Equiv.sum_comp (contrEquiv1 dot_S512x2048_S2048x2048_S512x2048_1_1_0_0_n_n 2048 rfl rfl).symm]
  refine Finset.sum_congr rfl fun k _ => ?_
  have hk := contrEquiv1_symm_val dot_S512x2048_S2048x2048_S512x2048_1_1_0_0_n_n 2048 rfl rfl k
  have el : dot_S512x2048_S2048x2048_S512x2048_1_1_0_0_n_n.lhsIdx (ix2 q j) ((contrEquiv1 dot_S512x2048_S2048x2048_S512x2048_1_1_0_0_n_n 2048 rfl rfl).symm k) = ix2 q k :=
    ix2_of _ q k (by unfold DotDims.lhsIdx; rw [dif_neg (by decide), dif_pos (by decide)]; rfl)
      ((dot_S512x2048_S2048x2048_S512x2048_1_1_0_0_n_n.lhsIdx_val_of_single rfl _ _).trans hk)
  have er : dot_S512x2048_S2048x2048_S512x2048_1_1_0_0_n_n.rhsIdx (ix2 q j) ((contrEquiv1 dot_S512x2048_S2048x2048_S512x2048_1_1_0_0_n_n 2048 rfl rfl).symm k) = ix2 j k :=
    ix2_of _ j k (by unfold DotDims.rhsIdx; rw [dif_neg (by decide), dif_pos (by decide)]; rfl)
      ((dot_S512x2048_S2048x2048_S512x2048_1_1_0_0_n_n.rhsIdx_val_of_single rfl _ _).trans hk)
  rw [el, er, shapeCast_self]
  rfl

theorem projZ_apply (a : FVec Ideal S512x2048 .bf16) (v27 : FVec Ideal S128x2048 .bf16) (q : Fin 512) (p : Fin 128) :
    projZ (F := Ideal) a v27 (ix2 q p) = ∑ j : Fin 2048, a (ix2 q j) * v27 (ix2 p j) := by
  unfold projZ
  simp only [matmul]
  rw [Ideal.matmul_constant_zero_apply, ← Equiv.sum_comp (contrEquiv1 dot_S512x2048_S128x2048_S512x128_1_1_0_0_n_n 2048 rfl rfl).symm]
  refine Finset.sum_congr rfl fun k _ => ?_
  have hk := contrEquiv1_symm_val dot_S512x2048_S128x2048_S512x128_1_1_0_0_n_n 2048 rfl rfl k
  have el : dot_S512x2048_S128x2048_S512x128_1_1_0_0_n_n.lhsIdx (ix2 q p) ((contrEquiv1 dot_S512x2048_S128x2048_S512x128_1_1_0_0_n_n 2048 rfl rfl).symm k) = ix2 q k :=
    ix2_of _ q k (by unfold DotDims.lhsIdx; rw [dif_neg (by decide), dif_pos (by decide)]; rfl)
      ((dot_S512x2048_S128x2048_S512x128_1_1_0_0_n_n.lhsIdx_val_of_single rfl _ _).trans hk)
  have er : dot_S512x2048_S128x2048_S512x128_1_1_0_0_n_n.rhsIdx (ix2 q p) ((contrEquiv1 dot_S512x2048_S128x2048_S512x128_1_1_0_0_n_n 2048 rfl rfl).symm k) = ix2 p k :=
    ix2_of _ p k (by unfold DotDims.rhsIdx; rw [dif_neg (by decide), dif_pos (by decide)]; rfl)
      ((dot_S512x2048_S128x2048_S512x128_1_1_0_0_n_n.rhsIdx_val_of_single rfl _ _).trans hk)
  rw [el, er, shapeCast_self]

/-- A row of length 2048 spread over the 512 rows reads at its own column. -/
theorem projAct_apply (h : FVec Ideal S512x2048 .f32) (v5 v10 v16 v20 : FVec Ideal S1x2048 .f32) (q : Fin 512) (j : Fin 2048) :
    projAct (F := Ideal) h v5 v10 v16 v20 (ix2 q j)
      = max (((h (ix2 q j) - v10 (ix2 (0 : Fin 1) j)) * Ideal.rsqrt (v5 (ix2 (0 : Fin 1) j) + Ideal.ofBits .f32 0x3727C5AC#32)) * v16 (ix2 (0 : Fin 1) j)
          + v20 (ix2 (0 : Fin 1) j)) 0 := by
  have hb : ∀ v : FVec Ideal S1x2048 .f32, broadcastTo S512x2048 v broadcasts_S1x2048_S512x2048 (ix2 q j) = v (ix2 (0 : Fin 1) j) :=
    fun v => broadcastTo_1b_ab_apply v broadcasts_S1x2048_S512x2048 q j
  unfold projAct
  simp only [truncf_apply, maximumf_apply, addf_apply, mulf_apply, subf_apply, broadcast_apply, hb, shapeCast_self]
  rw [show (Scalar.ofBits (F := Ideal) .f32 0x00000000#32) = (0 : EReal) from Ideal.ofBits_zero_f32]
  rfl

/-- The entry divided by the square root of its row's sum of squares. -/
theorem projUnit_apply (z : FVec Ideal S512x128 .f32) (q : Fin 512) (p : Fin 128) :
    projUnit (F := Ideal) z (ix2 q p) = Ideal.div (z (ix2 q p)) (Ideal.sqrt (∑ p' : Fin 128, z (ix2 q p') * z (ix2 q p'))) := by
  unfold projUnit
  rw [divf_apply, broadcastTo_apply _ broadcasts_S512x1_S512x128 (ix2 q p) (ix2 q (0 : Fin 1)) fun ax => by
    match ax with
    | ⟨0, _⟩ =>
      show q.val = if (512 : ℕ) = 1 then 0 else q.val
      rw [if_neg (by decide)]
    | ⟨1, _⟩ =>
      show (0 : ℕ) = if (1 : ℕ) = 1 then 0 else p.val
      rw [if_pos rfl]]
  refine congrArg (Ideal.div _ <| Ideal.sqrt ·) ?_
  refine (shapeCast_apply _ shapeCasts_S512_S512x1 _ (ix1 q) (by
    rw [Shape.rowMajor_val_two, Shape.rowMajor_val_one]
    show q.val = q.val * 1 + 0
    omega)).trans ?_
  refine (Ideal.multiReduction_add_single _ 0x00000000#32 reduces_S512x128_S512 (.inl rfl) rfl (ix1 q)).trans ?_
  exact Finset.sum_congr rfl fun k _ => congrArg (mulf z z) (ix2_of _ q k rfl rfl)

/-- Entry (q, p) of the body is the specification's row function of row q of the block. -/
theorem k2_pay1_apply (v0 : FVec Ideal S512x2048 .f32) (v2 : FVec Ideal S2048x2048 .bf16) (v5 v10 v16 v20 : FVec Ideal S1x2048 .f32) (v27 : FVec Ideal S128x2048 .bf16) (q : Fin 512) (p : Fin 128) :
    k2_pay1 (F := Ideal) v0 v2 v5 v10 v16 v20 v27 (ix2 q p)
      = Spec.unitRow (Ideal.ofBits .f32 0x3727C5AC#32) (fun k => v0 (ix2 q k)) (fun j k => v2 (ix2 j k)) (fun j => v10 (ix2 (0 : Fin 1) j)) (fun j => v5 (ix2 (0 : Fin 1) j)) (fun j => v16 (ix2 (0 : Fin 1) j)) (fun j => v20 (ix2 (0 : Fin 1) j)) (fun p j => v27 (ix2 p j)) p := by
  show projUnit (F := Ideal) (projZ (projAct (projH v0 v2) v5 v10 v16 v20) v27) (ix2 q p) = _
  rw [projUnit_apply]
  simp only [projZ_apply, projAct_apply, projH_apply, Spec.unitRow, Spec.normRow, Spec.projRow, Spec.actRow, Spec.linRow]

theorem k3_pay1_apply (v0 : FVec Ideal S512x2048 .f32) (v2 : FVec Ideal S2048x2048 .bf16) (v5 v10 v16 v20 : FVec Ideal S1x2048 .f32) (v27 : FVec Ideal S128x2048 .bf16) (q : Fin 512) (p : Fin 128) :
    k3_pay1 (F := Ideal) v0 v2 v5 v10 v16 v20 v27 (ix2 q p)
      = Spec.unitRow (Ideal.ofBits .f32 0x3727C5AC#32) (fun k => v0 (ix2 q k)) (fun j k => v2 (ix2 j k)) (fun j => v10 (ix2 (0 : Fin 1) j)) (fun j => v5 (ix2 (0 : Fin 1) j)) (fun j => v16 (ix2 (0 : Fin 1) j)) (fun j => v20 (ix2 (0 : Fin 1) j)) (fun p j => v27 (ix2 p j)) p :=
  k2_pay1_apply v0 v2 v5 v10 v16 v20 v27 q p

end Cert.KernelIdeal.Hand

end
-- ==== Proof.Reg2Value.lean ====
import proofs.«115278_j52183852646963_1_alg».proof.Proof.Reg2
import proofs.«115278_j52183852646963_1_alg».proof.Proof.ProjPay
import proofs.«115278_j52183852646963_1_alg».proof.Proof.Adapt
import proofs.«115278_j52183852646963_1_alg».proof.Proof.Lits
import Idealize.ShloMosaic.Lib.Pipeline.Value

noncomputable section

namespace Cert.KernelIdeal.Hand

open Cert.KernelIdeal Cert.KernelIdeal.Gen Cert.Adapt
open Idealize.ShloMosaic Idealize.ShloMosaic.TcCoe Idealize.ShloMosaic.ValueIdx Idealize.SL.Sem

variable (V : (c : Dev nD) → (b : Ref sig .tc) → Buf (Elt Ideal) ((c : Thread nD τ).loc b))

theorem winIdx2_all : ∀ t : Fin cfg2.N,
    (win2_0.index t 0 = t.val ∧ win2_0.index t 1 = 0 ∧ win2_7.index t 0 = t.val ∧ win2_7.index t 1 = 0)
      ∧ ∀ a : Fin 2, (cfg2.win 1).index t a = 0 ∧ (cfg2.win 2).index t a = 0 ∧ (cfg2.win 3).index t a = 0
        ∧ (cfg2.win 4).index t a = 0 ∧ (cfg2.win 5).index t a = 0 ∧ (cfg2.win 6).index t a = 0 :=
  (by decide +kernel : ∀ t : Fin grid2.N, _)

theorem xBlk2_apply (c : Dev nD) (t : Fin cfg2.N) (q : Fin 512) (h : t.val * 512 + q.val < 4096) :
    (fun k => (iblk2 V c 0 t : FVec Ideal S512x2048 .f32) (ix2 q k)) = arr2 (V c main_arg0 : FVec Ideal S4096x2048 .f32) ⟨t.val * 512 + q.val, h⟩ := by
  obtain ⟨⟨e0, e1, -⟩, -⟩ := winIdx2_all t
  funext k
  refine congrArg (V c main_arg0) (funext fun a => Fin.ext ?_)
  match a with
  | ⟨0, _⟩ => show win2_0.index t (0 : Fin 2) * 512 + 1 * q.val = t.val * 512 + q.val; rw [e0]; omega
  | ⟨1, _⟩ => show win2_0.index t (1 : Fin 2) * 2048 + 1 * k.val = k.val; rw [e1]; omega

-- Each of these six blocks has offset zero and its array's own shape, so reading it is reading the array.
theorem w1Blk2_whole (c : Dev nD) (t : Fin cfg2.N) :
    (iblk2 V c 1 t : FVec Ideal S2048x2048 .bf16) = V c main_v0 ∧ (iblk2 V c 2 t : FVec Ideal S1x2048 .f32) = V c main_v6
      ∧ (iblk2 V c 3 t : FVec Ideal S1x2048 .f32) = V c main_v10 ∧ (iblk2 V c 4 t : FVec Ideal S1x2048 .f32) = V c main_v2
      ∧ (iblk2 V c 5 t : FVec Ideal S1x2048 .f32) = V c main_v3 ∧ (iblk2 V c 6 t : FVec Ideal S128x2048 .bf16) = V c main_v1 := by
  have h := (winIdx2_all t).2
  refine ⟨?_, ?_, ?_, ?_, ?_, ?_⟩ <;>
  · funext y
    refine congrArg (V c _) (funext fun a => Fin.ext ?_)
    show _ * _ + 1 * (y a).val = (y a).val
    simp only [h a]
    omega

-- The array the region leaves: the specification's projector of the arrays it finds, at the program's epsilon.
def projArr2 (c : Dev nD) : FVec Ideal S4096x128 .f32 := fun i =>
  Spec.unitWith Cert.Lits.lits.eps (arr2 (V c main_arg0 : FVec Ideal S4096x2048 .f32)) (arr2 (V c main_v0 : FVec Ideal S2048x2048 .bf16))
    (arrRow (V c main_v6 : FVec Ideal S1x2048 .f32)) (arrRow (V c main_v10 : FVec Ideal S1x2048 .f32))
    (arrRow (V c main_v2 : FVec Ideal S1x2048 .f32)) (arrRow (V c main_v3 : FVec Ideal S1x2048 .f32))
    (arr2 (V c main_v1 : FVec Ideal S128x2048 .bf16)) ⟨(i 0).val, idx2_lt0 i⟩ ⟨(i 1).val, idx2_lt1 i⟩

-- An entry of the body's value depends on the batch's block only through the entry's own row, which is row `512 t + q` of the batch.
theorem flushed2_7_eq (c : Dev nD) (t : Fin cfg2.N) :
    (dat2 V c).flushed 7 t = ((cfg2.win 7).blk t).view.read (Elt Ideal) (projArr2 V c) := by
  have ht : t.val < 8 := t.isLt.trans_eq N_2
  obtain ⟨⟨-, -, e0, e1⟩, -⟩ := winIdx2_all t
  obtain ⟨h1, h2, h3, h4, h5, h6⟩ := w1Blk2_whole V c t
  show (cfg2.win 7).cut (grid2.coords t) ((dat2 V c).after 7 t) = _
  dsimp only [dat2]
  funext y
  obtain ⟨q, p, rfl⟩ : ∃ (q : Fin 512) (p : Fin 128), y = ix2 q p := ⟨y 0, y 1, eq_ix2 y⟩
  rw [View.read_apply]
  have hemb : ((cfg2.win 7).blk t).view.emb (ix2 q p) = ix2 (⟨t.val * 512 + q.val, by omega⟩ : Fin 4096) p := by
    funext a
    apply Fin.ext
    match a with
    | ⟨0, _⟩ => show win2_7.index t (0 : Fin 2) * 512 + 1 * q.val = t.val * 512 + q.val; rw [e0]; omega
    | ⟨1, _⟩ => show win2_7.index t (1 : Fin 2) * 128 + 1 * p.val = p.val; rw [e1]; omega
  show k2_pay1 (F := Ideal) (iblk2 V c 0 t) (iblk2 V c 1 t) (iblk2 V c 3 t) (iblk2 V c 2 t) (iblk2 V c 4 t) (iblk2 V c 5 t) (iblk2 V c 6 t) (ix2 q p)
      = projArr2 V c (((cfg2.win 7).blk t).view.emb (ix2 q p))
  rw [hemb, k2_pay1_apply, h1, h2, h3, h4, h5, h6, xBlk2_apply V c t q (by omega)]
  rfl

-- Row `r` lies in the block of point `r / 512`.
theorem covered2_7 (i : S4096x128.Idx) :
    ∃ t : Fin cfg2.N, (cfg2.win 7).flush t = true ∧ i ∈ ((cfg2.win 7).blk t).view.set := by
  have h0 : (i 0).val < 4096 := idx2_lt0 i
  have h1 : (i 1).val < 128 := idx2_lt1 i
  obtain ⟨t, ht⟩ : ∃ t : Fin cfg2.N, t.val = (i 0).val / 512 := ⟨⟨_, (show _ < 8 by omega).trans_eq N_2.symm⟩, rfl⟩
  obtain ⟨⟨-, -, e0, e1⟩, -⟩ := winIdx2_all t
  refine ⟨t, flush2_7 t, ?_⟩
  show i ∈ ((View.whole main_v18).slice (win2_7.rect t)).set
  rw [View.set_slice_whole, Rect.mem_set_unit]
  intro a
  match a with
  | ⟨0, _⟩ => show win2_7.index t (0 : Fin 2) * 512 ≤ (i 0).val ∧ (i 0).val < win2_7.index t (0 : Fin 2) * 512 + 512; rw [e0, ht]; omega
  | ⟨1, _⟩ => show win2_7.index t (1 : Fin 2) * 128 ≤ (i 1).val ∧ (i 1).val < win2_7.index t (1 : Fin 2) * 128 + 128; rw [e1]; omega

theorem out2_7_apply (c : Dev nD) (r : Fin 4096) (p : Fin 128) :
    out2_7 V c (ix2 r p)
      = Spec.unitWith Cert.Lits.lits.eps (arr2 (V c main_arg0 : FVec Ideal S4096x2048 .f32)) (arr2 (V c main_v0 : FVec Ideal S2048x2048 .bf16))
          (arrRow (V c main_v6 : FVec Ideal S1x2048 .f32)) (arrRow (V c main_v10 : FVec Ideal S1x2048 .f32))
          (arrRow (V c main_v2 : FVec Ideal S1x2048 .f32)) (arrRow (V c main_v3 : FVec Ideal S1x2048 .f32))
          (arr2 (V c main_v1 : FVec Ideal S128x2048 .bf16)) r p :=
  congrFun ((dat2 V c).arrAt_eq_of_cover 7 (projArr2 V c) (fun t _ => flushed2_7_eq V c t) covered2_7) (ix2 r p)

end Cert.KernelIdeal.Hand

end
-- ==== Proof.Reg3Value.lean ====
import proofs.«115278_j52183852646963_1_alg».proof.Proof.Reg3
import proofs.«115278_j52183852646963_1_alg».proof.Proof.ProjPay
import proofs.«115278_j52183852646963_1_alg».proof.Proof.Adapt
import proofs.«115278_j52183852646963_1_alg».proof.Proof.Lits
import Idealize.ShloMosaic.Lib.Pipeline.Value

noncomputable section

namespace Cert.KernelIdeal.Hand

open Cert.KernelIdeal Cert.KernelIdeal.Gen Cert.Adapt
open Idealize.ShloMosaic Idealize.ShloMosaic.TcCoe Idealize.ShloMosaic.ValueIdx Idealize.SL.Sem

variable (V : (c : Dev nD) → (b : Ref sig .tc) → Buf (Elt Ideal) ((c : Thread nD τ).loc b))

theorem winIdx3_all : ∀ t : Fin cfg3.N,
    (win3_0.index t 0 = t.val ∧ win3_0.index t 1 = 0 ∧ win3_7.index t 0 = t.val ∧ win3_7.index t 1 = 0)
      ∧ ∀ a : Fin 2, (cfg3.win 1).index t a = 0 ∧ (cfg3.win 2).index t a = 0 ∧ (cfg3.win 3).index t a = 0
        ∧ (cfg3.win 4).index t a = 0 ∧ (cfg3.win 5).index t a = 0 ∧ (cfg3.win 6).index t a = 0 :=
  (by decide +kernel : ∀ t : Fin grid3.N, _)

theorem xBlk3_apply (c : Dev nD) (t : Fin cfg3.N) (q : Fin 512) (h : t.val * 512 + q.val < 4096) :
    (fun k => (iblk3 V c 0 t : FVec Ideal S512x2048 .f32) (ix2 q k)) = arr2 (V c main_arg1 : FVec Ideal S4096x2048 .f32) ⟨t.val * 512 + q.val, h⟩ := by
  obtain ⟨⟨e0, e1, -⟩, -⟩ := winIdx3_all t
  funext k
  refine congrArg (V c main_arg1) (funext fun a => Fin.ext ?_)
  match a with
  | ⟨0, _⟩ => show win3_0.index t (0 : Fin 2) * 512 + 1 * q.val = t.val * 512 + q.val; rw [e0]; omega
  | ⟨1, _⟩ => show win3_0.index t (1 : Fin 2) * 2048 + 1 * k.val = k.val; rw [e1]; omega

-- Each of these six blocks has offset zero and its array's own shape, so reading it is reading the array.
theorem w1Blk3_whole (c : Dev nD) (t : Fin cfg3.N) :
    (iblk3 V c 1 t : FVec Ideal S2048x2048 .bf16) = V c main_v0 ∧ (iblk3 V c 2 t : FVec Ideal S1x2048 .f32) = V c main_v13
      ∧ (iblk3 V c 3 t : FVec Ideal S1x2048 .f32) = V c main_v17 ∧ (iblk3 V c 4 t : FVec Ideal S1x2048 .f32) = V c main_v2
      ∧ (iblk3 V c 5 t : FVec Ideal S1x2048 .f32) = V c main_v3 ∧ (iblk3 V c 6 t : FVec Ideal S128x2048 .bf16) = V c main_v1 := by
  have h := (winIdx3_all t).2
  refine ⟨?_, ?_, ?_, ?_, ?_, ?_⟩ <;>
  · funext y
    refine congrArg (V c _) (funext fun a => Fin.ext ?_)
    show _ * _ + 1 * (y a).val = (y a).val
    simp only [h a]
    omega

-- The array the region leaves: the specification's projector of the arrays it finds, at the program's epsilon.
def projArr3 (c : Dev nD) : FVec Ideal S4096x128 .f32 := fun i =>
  Spec.unitWith Cert.Lits.lits.eps (arr2 (V c main_arg1 : FVec Ideal S4096x2048 .f32)) (arr2 (V c main_v0 : FVec Ideal S2048x2048 .bf16))
    (arrRow (V c main_v13 : FVec Ideal S1x2048 .f32)) (arrRow (V c main_v17 : FVec Ideal S1x2048 .f32))
    (arrRow (V c main_v2 : FVec Ideal S1x2048 .f32)) (arrRow (V c main_v3 : FVec Ideal S1x2048 .f32))
    (arr2 (V c main_v1 : FVec Ideal S128x2048 .bf16)) ⟨(i 0).val, idx2_lt0 i⟩ ⟨(i 1).val, idx2_lt1 i⟩

-- An entry of the body's value depends on the batch's block only through the entry's own row, which is row `512 t + q` of the batch.
theorem flushed3_7_eq (c : Dev nD) (t : Fin cfg3.N) :
    (dat3 V c).flushed 7 t = ((cfg3.win 7).blk t).view.read (Elt Ideal) (projArr3 V c) := by
  have ht : t.val < 8 := t.isLt.trans_eq N_3
  obtain ⟨⟨-, -, e0, e1⟩, -⟩ := winIdx3_all t
  obtain ⟨h1, h2, h3, h4, h5, h6⟩ := w1Blk3_whole V c t
  show (cfg3.win 7).cut (grid3.coords t) ((dat3 V c).after 7 t) = _
  dsimp only [dat3]
  funext y
  obtain ⟨q, p, rfl⟩ : ∃ (q : Fin 512) (p : Fin 128), y = ix2 q p := ⟨y 0, y 1, eq_ix2 y⟩
  rw [View.read_apply]
  have hemb : ((cfg3.win 7).blk t).view.emb (ix2 q p) = ix2 (⟨t.val * 512 + q.val, by omega⟩ : Fin 4096) p := by
    funext a
    apply Fin.ext
    match a with
    | ⟨0, _⟩ => show win3_7.index t (0 : Fin 2) * 512 + 1 * q.val = t.val * 512 + q.val; rw [e0]; omega
    | ⟨1, _⟩ => show win3_7.index t (1 : Fin 2) * 128 + 1 * p.val = p.val; rw [e1]; omega
  show k3_pay1 (F := Ideal) (iblk3 V c 0 t) (iblk3 V c 1 t) (iblk3 V c 3 t) (iblk3 V c 2 t) (iblk3 V c 4 t) (iblk3 V c 5 t) (iblk3 V c 6 t) (ix2 q p)
      = projArr3 V c (((cfg3.win 7).blk t).view.emb (ix2 q p))
  rw [hemb, k3_pay1_apply, h1, h2, h3, h4, h5, h6, xBlk3_apply V c t q (by omega)]
  rfl

-- Row `r` lies in the block of point `r / 512`.
theorem covered3_7 (i : S4096x128.Idx) :
    ∃ t : Fin cfg3.N, (cfg3.win 7).flush t = true ∧ i ∈ ((cfg3.win 7).blk t).view.set := by
  have h0 : (i 0).val < 4096 := idx2_lt0 i
  have h1 : (i 1).val < 128 := idx2_lt1 i
  obtain ⟨t, ht⟩ : ∃ t : Fin cfg3.N, t.val = (i 0).val / 512 := ⟨⟨_, (show _ < 8 by omega).trans_eq N_3.symm⟩, rfl⟩
  obtain ⟨⟨-, -, e0, e1⟩, -⟩ := winIdx3_all t
  refine ⟨t, flush3_7 t, ?_⟩
  show i ∈ ((View.whole main_v19).slice (win3_7.rect t)).set
  rw [View.set_slice_whole, Rect.mem_set_unit]
  intro a
  match a with
  | ⟨0, _⟩ => show win3_7.index t (0 : Fin 2) * 512 ≤ (i 0).val ∧ (i 0).val < win3_7.index t (0 : Fin 2) * 512 + 512; rw [e0, ht]; omega
  | ⟨1, _⟩ => show win3_7.index t (1 : Fin 2) * 128 ≤ (i 1).val ∧ (i 1).val < win3_7.index t (1 : Fin 2) * 128 + 128; rw [e1]; omega

theorem out3_7_apply (c : Dev nD) (r : Fin 4096) (p : Fin 128) :
    out3_7 V c (ix2 r p)
      = Spec.unitWith Cert.Lits.lits.eps (arr2 (V c main_arg1 : FVec Ideal S4096x2048 .f32)) (arr2 (V c main_v0 : FVec Ideal S2048x2048 .bf16))
          (arrRow (V c main_v13 : FVec Ideal S1x2048 .f32)) (arrRow (V c main_v17 : FVec Ideal S1x2048 .f32))
          (arrRow (V c main_v2 : FVec Ideal S1x2048 .f32)) (arrRow (V c main_v3 : FVec Ideal S1x2048 .f32))
          (arr2 (V c main_v1 : FVec Ideal S128x2048 .bf16)) r p :=
  congrFun ((dat3 V c).arrAt_eq_of_cover 7 (projArr3 V c) (fun t _ => flushed3_7_eq V c t) covered3_7) (ix2 r p)

end Cert.KernelIdeal.Hand

end
-- ==== Proof.Reg4Arr.lean ====
import proofs.«115278_j52183852646963_1_alg».proof.Proof.Gen.KernelIdeal.Launch
import proofs.«115278_j52183852646963_1_alg».proof.Proof.Gen.KernelIdeal.Points
import proofs.«115278_j52183852646963_1_alg».proof.Proof.Reg4Defs
import Idealize.ShloMosaic.Lib.ValueIdx
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F] [Named F]

def outArr (Z : Vec F S8192x128 .f32) (lc : Vec F S8192x1 .f32) (lr : Vec F S1x8192 .f32) : Vec F S8192x1 .f32 := fun i =>
  outAt Z lc lr ⟨16 * ((i 0).val / 512) + 15, by have h : (i 0).val < 8192 := (i 0).isLt; show _ < 256; omega⟩
    (ix2 (⟨(i 0).val % 512, Nat.mod_lt _ (by norm_num)⟩ : Fin 512) (0 : Fin 1))

theorem outAt_congr (Z : Vec F S8192x128 .f32) (lc : Vec F S8192x1 .f32) (lr : Vec F S1x8192 .f32)
    {t t' : Fin grid4.N} {j j' : S512x1.Idx} (ht : t.val = t'.val) (hj : ∀ a, (j a).val = (j' a).val) :
    outAt Z lc lr t j = outAt Z lc lr t' j' := by
  obtain rfl : t = t' := Fin.ext ht
  obtain rfl : j = j' := funext fun a => Fin.ext (hj a)
  rfl

theorem idx4_3 : ∀ t : Fin cfg4.N, win4_3.index t (0 : Fin 2) = t.val / 16 ∧ win4_3.index t (1 : Fin 2) = 0 :=
  (by decide +kernel : ∀ t : Fin grid4.N, win4_3.index t (0 : Fin 2) = t.val / 16 ∧ win4_3.index t (1 : Fin 2) = 0)

theorem read_blk_outArr (Z : Vec F S8192x128 .f32) (lc : Vec F S8192x1 .f32) (lr : Vec F S1x8192 .f32)
    (t : Fin cfg4.N) (hf : (cfg4.win 3).flush t = true) :
    ((cfg4.win 3).blk t).view.read (Elt F) (outArr Z lc lr) = (cfg4.win 3).cut (grid4.coords t) (outAt Z lc lr t) := by
  have h15 : t.val % 16 = 15 := (flush4_3 t).mp hf
  have htl : t.val < 256 := t.isLt
  obtain ⟨e0, e1⟩ := idx4_3 t
  funext j
  show outArr Z lc lr (((cfg4.win 3).blk t).view.emb j) = outAt Z lc lr t ((cfg4.win 3).xinj (grid4.coords t) j)
  have hj0 : (j 0).val < 512 := (j 0).isLt
  have hj1 : (j 1).val < 1 := (j 1).isLt
  have hemb : ((((cfg4.win 3).blk t).view.emb j) 0).val = win4_3.index t (0 : Fin 2) * 512 + 1 * (j 0).val := rfl
  unfold outArr
  refine outAt_congr Z lc lr ?_ fun a => ?_
  · show 16 * (((((cfg4.win 3).blk t).view.emb j) 0).val / 512) + 15 = t.val
    rw [hemb, e0]; omega
  · match a with
    | ⟨0, _⟩ =>
      show ((((cfg4.win 3).blk t).view.emb j) 0).val % 512 = (j 0).val
      rw [hemb, e0]; omega
    | ⟨1, _⟩ =>
      show 0 = (j 1).val
      omega

theorem cover4_3 (c : Dev nD) (i : ((cfg4.win 3).arr.view.loc (c.tc : Thread nD τ)).2.ty.Idx) :
    ∃ t : Fin cfg4.N, (cfg4.win 3).flush t = true ∧ i ∈ ((cfg4.win 3).blk t).view.set := by
  have hi0 : (i 0).val < 8192 := (i 0).isLt
  have hi1 : (i 1).val < 1 := (i 1).isLt
  obtain ⟨t, ht⟩ : ∃ t : Fin cfg4.N, t.val = 16 * ((i 0).val / 512) + 15 := ⟨⟨_, by show _ < 256; omega⟩, rfl⟩
  obtain ⟨e0, e1⟩ := idx4_3 t
  refine ⟨t, (flush4_3 t).mpr (by omega), ?_⟩
  show i ∈ ((View.whole main_v24).slice (win4_3.rect t)).set
  rw [View.set_slice_whole, Rect.mem_set_unit]
  intro a
  match a with
  | ⟨0, _⟩ =>
    show win4_3.index t (0 : Fin 2) * 512 ≤ (i 0).val ∧ (i 0).val < win4_3.index t (0 : Fin 2) * 512 + 512
    rw [e0]; omega
  | ⟨1, _⟩ =>
    show win4_3.index t (1 : Fin 2) * 1 ≤ (i 1).val ∧ (i 1).val < win4_3.index t (1 : Fin 2) * 1 + 1
    rw [e1]; omega

end Cert.KernelIdeal.Hand

end
-- ==== Proof.LitsNamed.lean ====
import proofs.«115278_j52183852646963_1_alg».proof.Proof.Lits
import proofs.«115278_j52183852646963_1_alg».proof.KernelIdeal
import Idealize.ShloMosaic.PureOps.IdealRules

noncomputable section

namespace Cert.Lits

open Idealize.ShloMosaic

theorem named_itemp :
    Named.named (F := Ideal) Cert.KernelIdeal.κ "inv_temp" (φ := .f32) 0x41200000#32 = lits.itemp :=
  IdealRules.named_const.ideal_named_scalar _ _ _ _ rfl

end Cert.Lits

end
-- ==== Proof.Reg4Value.lean ====
import proofs.«115278_j52183852646963_1_alg».proof.Proof.Reg4Defs
import proofs.«115278_j52183852646963_1_alg».proof.Proof.Spec
import proofs.«115278_j52183852646963_1_alg».proof.Proof.Adapt
import proofs.«115278_j52183852646963_1_alg».proof.Proof.LitsNamed
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Idealize.ShloMosaic Idealize.ShloMosaic.ValueIdx Cert.KernelIdeal Cert.KernelIdeal.Gen Cert.Adapt Cert.Lits

theorem colCast_apply {α : Type} (x : S512.Idx → α) (h : S512.ShapeCasts S512x1) (r : Fin 512) (z : Fin 1) :
    shapeCast S512x1 x h (ix2 r z) = x (ix1 r) := by
  refine shapeCast_apply x h (ix2 r z) (ix1 r) ?_
  rw [Shape.rowMajor_val_one, Shape.rowMajor_val_two]
  show r.val = r.val * 1 + z.val
  have := z.isLt
  omega

theorem lift_row (h : S512x512.Reduces [1] S512) (r c : Fin 512) : h.lift (ix1 r) c = ix2 r c := by
  funext a
  match a with
  | ⟨0, _⟩ => rfl
  | ⟨1, _⟩ => rfl

theorem spreadCol_apply {α : Type} (x : S512x1.Idx → α) (h : S512x1.Broadcasts S512x512) (r c : Fin 512) :
    broadcastTo S512x512 x h (ix2 r c) = x (ix2 r 0) := by
  refine broadcastTo_apply x h (ix2 r c) (ix2 r 0) fun a => ?_
  match a with
  | ⟨0, _⟩ => rfl
  | ⟨1, _⟩ => rfl

theorem fold_max_bot {ι : Type} (s : Finset ι) (g : ι → EReal) : s.fold max ⊥ g = s.sup g := by
  classical
  induction s using Finset.induction_on with
  | empty => simp
  | insert a s ha ih => rw [Finset.fold_insert ha, Finset.sup_insert, ih]

theorem pay2_apply (j : S512x1.Idx) : k4_pay2 (F := Ideal) j = ⊥ := by
  unfold k4_pay2
  rw [shapeCast_self]
  exact ofBits_ninf

theorem pay3_apply (j : S512x1.Idx) : k4_pay3 (F := Ideal) j = 0 := by
  unfold k4_pay3
  rw [shapeCast_self]
  exact Ideal.ofBits_zero_f32

theorem pay1_apply (m l wz ws : Vec Ideal S512x1 .f32) (j : S512x1.Idx) :
    k4_pay1 m l wz ws j = (m j + Ideal.log (l j)) - Ideal.div (wz j) (ws j) := rfl

theorem word_affine (a b : ℕ) (ha : a < 16) (hb : b < 512) :
    IntOp.addi (BitVec.ofNat 32 b) (Scalar.muli (BitVec.ofNat 32 a) 512#32) = BitVec.ofNat 32 (a * 512 + b) := by
  apply BitVec.eq_of_toNat_eq
  simp only [IntOp.addi, Scalar.muli, IntOp.muli, BitVec.toNat_add, BitVec.toNat_mul, BitVec.toNat_ofNat]
  omega

theorem cmpi_eq_word (x y : ℕ) (hx : x < 8192) (hy : y < 8192) :
    IntOp.cmpi .eq (BitVec.ofNat 32 x) (BitVec.ofNat 32 y) = if x = y then 1#1 else 0#1 := by
  unfold IntOp.cmpi
  by_cases h : x = y
  · subst h; simp
  · rw [if_neg h]
    have hne : BitVec.ofNat 32 x ≠ BitVec.ofNat 32 y := by
      intro e
      have := congrArg BitVec.toNat e
      simp only [BitVec.toNat_ofNat] at this
      omega
    rw [beq_eq_false_iff_ne.mpr hne]
    rfl

theorem pay6_apply (i : grid4.Coords) (r c : Fin 512) :
    k4_pay6 i (ix2 r c) = if (i 0).val * 512 + r.val = (i 1).val * 512 + c.val then 1#1 else 0#1 := by
  have h0 : (i 0).val < 16 := (i 0).isLt
  have h1 : (i 1).val < 16 := (i 1).isLt
  show IntOp.cmpi .eq
      (IntOp.addi (iota .tc S512x512 32 [0] iota_S512x512_d0_w32 (ix2 r c)) (Scalar.muli (BitVec.ofNat 32 (i 0).val) 512#32))
      (IntOp.addi (iota .tc S512x512 32 [1] iota_S512x512_d1_w32 (ix2 r c)) (Scalar.muli (BitVec.ofNat 32 (i 1).val) 512#32)) = _
  rw [iota_single_apply, iota_single_apply]
  show IntOp.cmpi .eq (IntOp.addi (BitVec.ofNat 32 r.val) _) (IntOp.addi (BitVec.ofNat 32 c.val) _) = _
  rw [word_affine _ _ h0 r.isLt, word_affine _ _ h1 c.isLt]
  exact cmpi_eq_word _ _ (by omega) (by omega)

theorem select_pay6 {α : Type} (i : grid4.Coords) (A B : S512x512.Idx → α) (r c : Fin 512) :
    select (k4_pay6 i) A B (ix2 r c)
      = if (i 0).val * 512 + r.val = (i 1).val * 512 + c.val then A (ix2 r c) else B (ix2 r c) := by
  rw [select_apply, pay6_apply]
  by_cases h : (i 0).val * 512 + r.val = (i 1).val * 512 + c.val
  · rw [if_pos h, if_pos h]; exact select_one _ _
  · rw [if_neg h, if_neg h]; exact select_zero _ _

theorem gram_apply (A B : FVec Ideal S512x128 .bf16) (r c : Fin 512) :
    FloatOps.matmul dot_S512x128_S512x128_S512x512_1_1_0_0_n_n none A B (constant S512x512 .f32 0x00000000#32) (ix2 r c)
      = ∑ p : Fin 128, A (ix2 r p) * B (ix2 c p) := by
  rw [Ideal.matmul_constant_zero_apply,
    ← Equiv.sum_comp (contrEquiv1 dot_S512x128_S512x128_S512x512_1_1_0_0_n_n 128 rfl rfl).symm]
  refine Finset.sum_congr rfl fun p _ => ?_
  have c2 := contrEquiv1_symm_val dot_S512x128_S512x128_S512x512_1_1_0_0_n_n 128 rfl rfl p
  congr 2 <;>
  · funext ax; apply Fin.ext
    match ax with
    | ⟨0, _⟩ => simp [DotDims.lhsIdx, DotDims.rhsIdx, dot_S512x128_S512x128_S512x512_1_1_0_0_n_n]; rfl
    | ⟨1, _⟩ => simp [DotDims.lhsIdx, DotDims.rhsIdx, dot_S512x128_S512x128_S512x512_1_1_0_0_n_n]; exact c2

theorem rowSum_apply (x : FVec Ideal S512x512 .f32) (hφ : FKind.Formats .f32)
    (hacc : (0x00000000#32 : BitVec 32) = FKind.add.neutral .f32 hφ) (r : Fin 512) :
    multiReduction .add [1] S512 x 0x00000000#32 reduces_S512x512_S512 hφ hacc (ix1 r) = ∑ c : Fin 512, x (ix2 r c) := by
  refine (Ideal.multiReduction_add_single x _ reduces_S512x512_S512 hφ hacc (ix1 r)).trans ?_
  exact Finset.sum_congr rfl fun c _ => congrArg x (lift_row _ r c)

theorem rowMax_apply (x : FVec Ideal S512x512 .f32) (hφ : FKind.Formats .f32)
    (hacc : (0xFF800000#32 : BitVec 32) = FKind.maximumf.neutral .f32 hφ) (r : Fin 512) :
    multiReduction .maximumf [1] S512 x 0xFF800000#32 reduces_S512x512_S512 hφ hacc (ix1 r)
      = Finset.univ.sup fun c : Fin 512 => x (ix2 r c) := by
  refine (Ideal.multiReduction_maximumf_single x _ reduces_S512x512_S512 hφ hacc (ix1 r)).trans ?_
  show Finset.univ.fold max (Ideal.ofBits .f32 0xFF800000#32) _ = _
  rw [ofBits_ninf, fold_max_bot]
  exact congrArg (Finset.univ.sup) (funext fun c => congrArg x (lift_row _ r c))

theorem pay9_apply (s : FVec Ideal S512x512 .f32) (m : Vec Ideal S512x1 .f32) (r : Fin 512) (z : Fin 1) :
    k4_pay9 s m (ix2 r z) = max (m (ix2 r z)) (Finset.univ.sup fun c : Fin 512 => s (ix2 r c)) := by
  unfold k4_pay9
  rw [maximumf_apply, colCast_apply]
  exact congrArg (max (m (ix2 r z))) (rowMax_apply s _ _ r)

theorem pay10_apply (s : FVec Ideal S512x512 .f32) (m m' l : Vec Ideal S512x1 .f32) (r : Fin 512) :
    k4_pay10 s m m' l (ix2 r 0)
      = l (ix2 r 0) * Ideal.exp (m' (ix2 r 0) - k4_pay9 s m (ix2 r 0))
        + ∑ c : Fin 512, Ideal.exp (s (ix2 r c) - k4_pay9 s m (ix2 r 0)) := by
  unfold k4_pay10
  rw [shapeCast_self, addf_apply, colCast_apply]
  refine congrArg₂ (· + ·) rfl ((rowSum_apply _ _ _ r).trans (Finset.sum_congr rfl fun c _ => ?_))
  show Ideal.exp (s (ix2 r c) - broadcastTo S512x512 (k4_pay9 s m) broadcasts_S512x1_S512x512 (ix2 r c)) = _
  rw [spreadCol_apply]

theorem pay12_apply (w : FVec Ideal S512x512 .f32) (ws : Vec Ideal S512x1 .f32) (r : Fin 512) :
    k4_pay12 w ws (ix2 r 0) = ws (ix2 r 0) + ∑ c : Fin 512, w (ix2 r c) := by
  unfold k4_pay12
  rw [shapeCast_self, addf_apply, colCast_apply]
  exact congrArg (ws (ix2 r 0) + ·) (rowSum_apply w _ _ r)

theorem pay13_apply (s w : FVec Ideal S512x512 .f32) (wz : Vec Ideal S512x1 .f32) (r : Fin 512) :
    k4_pay13 s w wz (ix2 r 0) = wz (ix2 r 0) + ∑ c : Fin 512, w (ix2 r c) * s (ix2 r c) := by
  unfold k4_pay13
  rw [shapeCast_self, addf_apply, colCast_apply]
  exact congrArg (wz (ix2 r 0) + ·) (rowSum_apply (mulf w s) _ _ r)

theorem col_eq_iff (I J : Fin 16) (r c : Fin 512) :
    (I.val * 512 + r.val = J.val * 512 + c.val) ↔ Spec.col I r = Spec.col J c := by
  rw [Fin.ext_iff]; rfl

theorem zRow_apply (i : grid4.Coords) (Z : Vec Ideal S8192x128 .f32) (r : Fin 512) (p : Fin 128) :
    zRow i Z (ix2 r p) = Z (ix2 (Spec.col (i 0) r) p) := by
  refine congrArg Z (funext fun a => Fin.ext ?_)
  show (k4_off1 i) a + 1 * (ix2 r p a).val = _
  rw [k4_off1_eq]
  match a with
  | ⟨0, _⟩ => show 512 * (i 0).val + 1 * r.val = (i 0).val * 512 + r.val; omega
  | ⟨1, _⟩ => show 0 + 1 * p.val = p.val; omega

theorem zCol_apply (i : grid4.Coords) (Z : Vec Ideal S8192x128 .f32) (c : Fin 512) (p : Fin 128) :
    zCol i Z (ix2 c p) = Z (ix2 (Spec.col (i 1) c) p) := by
  refine congrArg Z (funext fun a => Fin.ext ?_)
  show (k4_off2 i) a + 1 * (ix2 c p a).val = _
  rw [k4_off2_eq]
  match a with
  | ⟨0, _⟩ => show 512 * (i 1).val + 1 * c.val = (i 1).val * 512 + c.val; omega
  | ⟨1, _⟩ => show 0 + 1 * p.val = p.val; omega

theorem labCol_apply (i : grid4.Coords) (lc : Vec Ideal S8192x1 .f32) (r : Fin 512) :
    labCol i lc (ix2 r 0) = lc (ix2 (Spec.col (i 0) r) 0) := by
  refine congrArg lc (funext fun a => Fin.ext ?_)
  show (k4_off3 i) a + 1 * (ix2 r (0 : Fin 1) a).val = _
  rw [k4_off3_eq]
  match a with
  | ⟨0, _⟩ => show 512 * (i 0).val + 1 * r.val = (i 0).val * 512 + r.val; omega
  | ⟨1, _⟩ => rfl

theorem labRow_apply (i : grid4.Coords) (lr : Vec Ideal S1x8192 .f32) (c : Fin 512) :
    labRow i lr (ix2 0 c) = lr (ix2 0 (Spec.col (i 1) c)) := by
  refine congrArg lr (funext fun a => Fin.ext ?_)
  show (k4_off4 i) a + 1 * (ix2 (0 : Fin 1) c a).val = _
  rw [k4_off4_eq]
  match a with
  | ⟨0, _⟩ => rfl
  | ⟨1, _⟩ => show 512 * (i 1).val + 1 * c.val = (i 1).val * 512 + c.val; omega

theorem simTile_apply (i : grid4.Coords) (Z : Vec Ideal S8192x128 .f32) (r c : Fin 512) :
    simTile i Z (ix2 r c) = Spec.simK lits (arr2 Z) (Spec.col (i 0) r) (Spec.col (i 1) c) := by
  unfold simTile k4_pay7 Spec.simK Spec.dotZ
  rw [select_pay6, shapeCast_self, shapeCast_self, ← named_itemp]
  simp only [subf_apply, mulf_apply, broadcast_apply, gram_apply, truncf_apply, zRow_apply, zCol_apply, arr2_apply]
  exact if_congr (col_eq_iff (i 0) (i 1) r c) rfl rfl

theorem wtTile_apply (i : grid4.Coords) (lc : Vec Ideal S8192x1 .f32) (lr : Vec Ideal S1x8192 .f32)
    (hlab : ∀ b : Fin 8192, lr (ix2 0 b) = lc (ix2 b 0)) (r c : Fin 512) :
    wtTile i lc lr (ix2 r c) = Spec.wt lits (arrCol lc) (Spec.col (i 0) r) (Spec.col (i 1) c) := by
  unfold wtTile k4_pay8 Spec.wt
  rw [select_pay6, shapeCast_self, shapeCast_self]
  show (if _ then Ideal.ofBits .f32 0x00000000#32 else
      Ideal.exp ((Ideal.ofBits .f32 0xBCA3D70A#32
          * (broadcastTo S512x512 (labCol i lc) broadcasts_S512x1_S512x512 (ix2 r c)
            - broadcastTo S512x512 (labRow i lr) broadcasts_S1x512_S512x512 (ix2 r c)))
        * (broadcastTo S512x512 (labCol i lc) broadcasts_S512x1_S512x512 (ix2 r c)
            - broadcastTo S512x512 (labRow i lr) broadcasts_S1x512_S512x512 (ix2 r c)))) = _
  rw [spreadCol_apply, broadcastTo_1b_ab_apply, Ideal.ofBits_zero_f32, labCol_apply, labRow_apply, hlab, mul_assoc]
  exact if_congr (col_eq_iff _ _ _ _) rfl rfl

def Reads (A : Fin 8192 → Fin 128 → EReal) (lab : Fin 8192 → EReal) (s : Sc Ideal)
    (ρ : Fin 512 → Fin 8192) (J : ℕ) : Prop :=
  ∀ r : Fin 512, s.m (ix2 r 0) = Spec.mAt lits A (ρ r) J ∧ s.l (ix2 r 0) = Spec.lAt lits A (ρ r) J
    ∧ s.ws (ix2 r 0) = Spec.wsAt lits lab (ρ r) J ∧ s.wz (ix2 r 0) = Spec.wzAt lits A lab (ρ r) J

theorem reads_init (A : Fin 8192 → Fin 128 → EReal) (lab : Fin 8192 → EReal) (ρ : Fin 512 → Fin 8192) :
    Reads A lab scInit ρ 0 :=
  fun r => ⟨pay2_apply (ix2 r 0), pay3_apply (ix2 r 0), pay3_apply (ix2 r 0), pay3_apply (ix2 r 0)⟩

section Induction

variable (Z : Vec Ideal S8192x128 .f32) (lc : Vec Ideal S8192x1 .f32)
  (lr : Vec Ideal S1x8192 .f32) (hlab : ∀ b : Fin 8192, lr (ix2 0 b) = lc (ix2 b 0))
include hlab

theorem reads_step (i : grid4.Coords) (s : Sc Ideal)
    (h : Reads (arr2 Z) (arrCol lc) (scBase i s) (Spec.col (i 0)) (i 1).val) :
    Reads (arr2 Z) (arrCol lc) (scStep i Z lc lr s) (Spec.col (i 0)) ((i 1).val + 1) := by
  intro r
  obtain ⟨hm, hl, hws, hwz⟩ := h r
  have hj : (i 1).val < 16 := (i 1).isLt
  have hm' : k4_pay9 (simTile i Z) (scBase i s).m (ix2 r 0)
      = Spec.mAt lits (arr2 Z) (Spec.col (i 0) r) ((i 1).val + 1) := by
    rw [pay9_apply, hm, Spec.mAt, dif_pos hj]
    exact congrArg (max _ <| Finset.univ.sup ·) (funext fun c => simTile_apply i Z r c)
  refine ⟨?_, ?_, ?_, ?_⟩
  · show k4_pay11 (simTile i Z) (scBase i s).m (ix2 r 0) = _
    unfold k4_pay11; rw [shapeCast_self]; exact hm'
  · show k4_pay10 (simTile i Z) (scBase i s).m (scBase i s).m (scBase i s).l (ix2 r 0) = _
    rw [pay10_apply, hm', hl, hm, Spec.lAt, dif_pos hj]
    exact congrArg (_ + ·) (Finset.sum_congr rfl fun c _ => congrArg (Ideal.exp <| · - _) (simTile_apply i Z r c))
  · show k4_pay12 (wtTile i lc lr) (scBase i s).ws (ix2 r 0) = _
    rw [pay12_apply, hws, Spec.wsAt, dif_pos hj]
    exact congrArg (_ + ·) (Finset.sum_congr rfl fun c _ => wtTile_apply i lc lr hlab r c)
  · show k4_pay13 (simTile i Z) (wtTile i lc lr) (scBase i s).wz (ix2 r 0) = _
    rw [pay13_apply, hwz, Spec.wzAt, dif_pos hj]
    exact congrArg (_ + ·) (Finset.sum_congr rfl fun c _ =>
      congrArg₂ (· * ·) (wtTile_apply i lc lr hlab r c) (simTile_apply i Z r c))

theorem reads_next (I : Fin 16) (J : ℕ) (hJ : J < 16)
    (h : J = 0 ∨ Reads (arr2 Z) (arrCol lc) (scAtN Z lc lr (16 * I.val + J)) (Spec.col I) J) :
    Reads (arr2 Z) (arrCol lc) (scAtN Z lc lr (16 * I.val + J + 1)) (Spec.col I) (J + 1) := by
  have hI := I.isLt
  have ht : 16 * I.val + J < grid4.N := by show _ < 256; omega
  have h0 : grid4.coords ⟨16 * I.val + J, ht⟩ 0 = I := Fin.ext (by show (16 * I.val + J) / 16 % 16 = I.val; omega)
  have h1 : (grid4.coords ⟨16 * I.val + J, ht⟩ 1).val = J := by show (16 * I.val + J) / 1 % 16 = J; omega
  have key := reads_step Z lc lr hlab (grid4.coords ⟨16 * I.val + J, ht⟩) (scAtN Z lc lr (16 * I.val + J)) (by
    unfold scBase
    rw [h0, h1]
    by_cases hz : J = 0
    · rw [if_pos hz, hz]; exact reads_init _ _ _
    · rw [if_neg hz]; exact h.resolve_left hz)
  rw [h0, h1, ← scAtN_succ Z lc lr ⟨16 * I.val + J, ht⟩] at key
  exact key

theorem reads_tile (I : Fin 16) : ∀ J, J < 16 →
    Reads (arr2 Z) (arrCol lc) (scAtN Z lc lr (16 * I.val + J + 1)) (Spec.col I) (J + 1)
  | 0, hJ => reads_next Z lc lr hlab I 0 hJ (Or.inl rfl)
  | K + 1, hJ => reads_next Z lc lr hlab I (K + 1) hJ (Or.inr (reads_tile I K (by omega)))

theorem outAt_row (a : Fin 8192) (ht : 16 * (a.val / 512) + 15 < grid4.N) :
    outAt Z lc lr ⟨16 * (a.val / 512) + 15, ht⟩ (ix2 (⟨a.val % 512, Nat.mod_lt _ (by norm_num)⟩ : Fin 512) 0)
      = Spec.outK lits (arr2 Z) (arrCol lc) a := by
  have hI : a.val / 512 < 16 := by have := a.isLt; omega
  obtain ⟨hm, hl, hws, hwz⟩ :=
    reads_tile Z lc lr hlab ⟨a.val / 512, hI⟩ 15 (by norm_num) ⟨a.val % 512, Nat.mod_lt _ (by norm_num)⟩
  rw [show Spec.col ⟨a.val / 512, hI⟩ ⟨a.val % 512, Nat.mod_lt _ (by norm_num)⟩ = a from
    Fin.ext (by show a.val / 512 * 512 + a.val % 512 = a.val; omega)] at hm hl hws hwz
  show k4_pay1 _ _ _ _ _ = _
  rw [pay1_apply, hm, hl, hws, hwz]
  rfl

end Induction

end Cert.KernelIdeal.Hand

end
-- ==== Proof.Reg4Out.lean ====
import proofs.«115278_j52183852646963_1_alg».proof.Proof.Reg4Dat
import proofs.«115278_j52183852646963_1_alg».proof.Proof.Reg4Arr
import proofs.«115278_j52183852646963_1_alg».proof.Proof.Reg4Value

noncomputable section

namespace Cert.KernelIdeal.Hand

open Cert.KernelIdeal Cert.KernelIdeal.Gen Cert.Adapt
open Idealize.ShloMosaic Idealize.ShloMosaic.TcCoe Idealize.ShloMosaic.ValueIdx
open Idealize.SL Idealize.SL.Sem
open Idealize.ShloMosaic.Pipeline (Dat Cfg Window)

-- The result agrees with `outArr` on every block of a cover of its index set, so it is `outArr`.
theorem out4_3_eq {F : FTy → Type} [FloatOps F] [Named F]
    (V : (c : Dev nD) → (b : Ref sig .tc) → Buf (Elt F) ((c : Thread nD τ).loc b)) (c : Dev nD) :
    out4_3 V c = outArr (Z4 V c) (lc4 V c) (lr4 V c) :=
  (dat4 V c).arrAt_eq_of_cover 3 (outArr (Z4 V c) (lc4 V c) (lr4 V c)) (fun t hf => by
    rw [read_blk_outArr _ _ _ t hf]
    show (cfg4.win 3).cut (grid4.coords t) ((dat4 V c).after 3 t) = _
    rw [after4_3]) (cover4_3 c)

theorem out4_3_apply (V : (c : Dev nD) → (b : Ref sig .tc) → Buf (Elt Ideal) ((c : Thread nD τ).loc b)) (c : Dev nD)
    (hlab : arrRow (lr4 V c) = arrCol (lc4 V c)) (a : Fin 8192) :
    out4_3 V c (ix2 a 0) = Spec.outK Cert.Lits.lits (arr2 (Z4 V c)) (arrCol (lc4 V c)) a := by
  rw [out4_3_eq]
  exact outAt_row (Z4 V c) (lc4 V c) (lr4 V c) (congrFun hlab) a (by have := a.isLt; show _ < 256; omega)

end Cert.KernelIdeal.Hand

end
-- ==== Proof.KernelGlue.lean ====
import proofs.«115278_j52183852646963_1_alg».proof.Proof.KernelValue
import proofs.«115278_j52183852646963_1_alg».proof.Proof.Reg0Value
import proofs.«115278_j52183852646963_1_alg».proof.Proof.Reg1Value
import proofs.«115278_j52183852646963_1_alg».proof.Proof.Reg2Value
import proofs.«115278_j52183852646963_1_alg».proof.Proof.Reg3Value
import proofs.«115278_j52183852646963_1_alg».proof.Proof.Reg4Out
import proofs.«115278_j52183852646963_1_alg».proof.Proof.Run

noncomputable section

namespace Cert.KernelIdeal.Hand

open Idealize.ShloMosaic Idealize.ShloMosaic.TcCoe Idealize.ShloMosaic.ValueIdx
open Cert.KernelIdeal Cert.KernelIdeal.Gen Cert.Adapt Cert.Lits Cert.KernelIdeal.KernelValue
open Idealize.SL Idealize.SL.Sem

theorem main_v26_value (m : (ℓ : Loc nD τ sig) → Buf (Elt Ideal) ℓ) (c : Dev nD) :
    V10 m (outs m) c main_v26
      = fun _ => Spec.kerLoss lits
          (arr2 (m ((c : Thread nD τ).loc main_arg0) : FVec Ideal S4096x2048 .f32))
          (arr2 (m ((c : Thread nD τ).loc main_arg1) : FVec Ideal S4096x2048 .f32))
          (arr1 (m ((c : Thread nD τ).loc main_arg2) : FVec Ideal S4096 .f32))
          (arr2 (m ((c : Thread nD τ).loc main_arg3) : FVec Ideal S2048x2048 .f32))
          (arr1 (m ((c : Thread nD τ).loc main_arg4) : FVec Ideal S2048 .f32))
          (arr1 (m ((c : Thread nD τ).loc main_arg5) : FVec Ideal S2048 .f32))
          (arr2 (m ((c : Thread nD τ).loc main_arg6) : FVec Ideal S128x2048 .f32)) := by
  have h1 : arr2 (z1 (outs m) c)
      = Spec.unitK lits (arr2 (inY1 m c)) (arr2 (inW1 m c)) (arr1 (inG m c)) (arr1 (inB m c)) (arr2 (inW2 m c)) :=
    unitK_of (μ := arrRow (mean1 m (outs m) c)) (v := arrRow (var1 m (outs m) c))
      (fun j => by
        rw [mean1_apply, show sum1 (outs m) c = _ from outs_main_v4_0 m c, out0_2_apply]
        dsimp only [atTc]
        rw [V1_main_arg0, w1b_eq])
      (fun j => by
        rw [var1_apply, show sq1 (outs m) c = _ from outs_main_v4_1 m c, out0_3_apply]
        dsimp only [atTc]
        rw [V1_main_arg0, w1b_eq])
      (funext fun r => funext fun p => by
        rw [arr2_apply, show z1 (outs m) c = _ from outs_main_v18 m c, out2_7_apply]
        dsimp only [atTc]
        rw [V5_main_arg0, V5_main_v0, V5_main_v1, V5_main_v2, V5_main_v3, V5_main_v6, V5_main_v10, w1b_eq, w2b_eq,
          gRow_eq, bRow_eq])
  have h2 : arr2 (z2 (outs m) c)
      = Spec.unitK lits (arr2 (inY2 m c)) (arr2 (inW1 m c)) (arr1 (inG m c)) (arr1 (inB m c)) (arr2 (inW2 m c)) :=
    unitK_of (μ := arrRow (mean2 m (outs m) c)) (v := arrRow (var2 m (outs m) c))
      (fun j => by
        rw [mean2_apply, show sum2 (outs m) c = _ from outs_main_v11_0 m c, out1_2_apply]
        dsimp only [atTc]
        rw [V3_main_arg1, V3_main_v0, w1b_eq])
      (fun j => by
        rw [var2_apply, show sq2 (outs m) c = _ from outs_main_v11_1 m c, out1_3_apply]
        dsimp only [atTc]
        rw [V3_main_arg1, V3_main_v0, w1b_eq])
      (funext fun r => funext fun p => by
        rw [arr2_apply, show z2 (outs m) c = _ from outs_main_v19 m c, out3_7_apply]
        dsimp only [atTc]
        rw [V6_main_arg1, V6_of m (outs m) c main_v0 (by decide), V6_of m (outs m) c main_v1 (by decide),
          V6_of m (outs m) c main_v2 (by decide), V6_of m (outs m) c main_v3 (by decide), V6_of m (outs m) c main_v13 (by decide),
          V6_of m (outs m) c main_v17 (by decide), V5_main_v0, V5_main_v1, V5_main_v2, V5_main_v3, w1b_eq, w2b_eq, gRow_eq, bRow_eq])
  rw [show V10 m (outs m) c main_v26 = _ from result_eq m (outs m) c]
  funext _
  show _ = Ideal.div (∑ a : Fin 8192, Spec.outK lits _ _ a) lits.cnt
  refine congrArg (Ideal.div · lits.cnt) (Finset.sum_congr rfl fun a _ => ?_)
  rw [show rowLoss (outs m) c = _ from outs_main_v24 m c,
    out4_3_apply (atTc fun c => V8 m (outs m) c) c ((labRow_eq m (outs m) c).trans (labCol_eq m (outs m) c).symm) a]
  exact congrArg₂ (fun Z l => Spec.outK lits Z l a) ((zz_eq m (outs m) c).trans (by rw [h1, h2])) (labCol_eq m (outs m) c)

end Cert.KernelIdeal.Hand

end
-- ==== Proof.ReadP.lean ====
import proofs.«115278_j52183852646963_1_alg».proof.Proof.Gen.ReferenceIdeal
import Idealize.ShloMosaic.Lib.Pipeline.Value
import Idealize.ShloMosaic.Lib.ValueIdx
import Idealize.ShloMosaic.PureOps.Ideal.Laws

noncomputable section

namespace Cert.ReferenceIdeal.ReadP

open Cert.ReferenceIdeal Cert.ReferenceIdeal.Gen Idealize.ShloMosaic Idealize.ShloMosaic.TcCoe Idealize.SL.Sem Idealize.ShloMosaic.StableHlo

variable {F : FTy → Type} [FloatOps F]

variable (x0 x1 : (⟨S4096x2048, .f32⟩ : BufTy).Contents (Elt F)) (x2 : (⟨S4096, .f32⟩ : BufTy).Contents (Elt F))
  (x3 : (⟨S2048x2048, .f32⟩ : BufTy).Contents (Elt F)) (x4 x5 : (⟨S2048, .f32⟩ : BufTy).Contents (Elt F))
  (x6 : (⟨S128x2048, .f32⟩ : BufTy).Contents (Elt F))

def val_main_v0 : (⟨S2048x2048, .f32⟩ : BufTy).Contents (Elt F) :=
  transpose S2048x2048 [1, 0] (x3) transposes_S2048x2048_S2048x2048_1_0

abbrev idx_main_v0 (i : S2048x2048.Idx) : S2048x2048.Idx := fun a => match a with
  | ⟨0, _⟩ => ⟨(i 1).val, (i 1).isLt⟩
  | ⟨1, _⟩ => ⟨(i 0).val, (i 0).isLt⟩

theorem val_main_v0_apply (i : S2048x2048.Idx) :
    val_main_v0 (F := F) x3 i = x3 (idx_main_v0 i) := by
  unfold val_main_v0
  exact transpose_apply [1, 0] x3 transposes_S2048x2048_S2048x2048_1_0 i (idx_main_v0 i) (fun b => match b with
    | ⟨0, _⟩ => rfl
    | ⟨1, _⟩ => rfl)

def val_main_v1 : (⟨S4096x2048, .f32⟩ : BufTy).Contents (Elt F) :=
  Host.dotGeneral dot_S4096x2048_S2048x2048_S4096x2048_1_0_0_1_n_n none (x0) (val_main_v0 (F := F) x3)

theorem lhs_main_v1_0 (i : S4096x2048.Idx) (q : dot_S4096x2048_S2048x2048_S4096x2048_1_0_0_1_n_n.contr.Idx) :
    (dot_S4096x2048_S2048x2048_S4096x2048_1_0_0_1_n_n.lhsIdx i q 0).val = (i 0).val := by
  unfold DotDims.lhsIdx
  rw [dif_neg (show ¬(0 : Fin S4096x2048.rank) ∈ dot_S4096x2048_S2048x2048_S4096x2048_1_0_0_1_n_n.lhsBatch by decide), dif_pos (show (0 : Fin S4096x2048.rank) ∈ dot_S4096x2048_S2048x2048_S4096x2048_1_0_0_1_n_n.lhsNonContracting by decide)]
  rfl

theorem lhs_main_v1_1 (i : S4096x2048.Idx) (q : dot_S4096x2048_S2048x2048_S4096x2048_1_0_0_1_n_n.contr.Idx) :
    (dot_S4096x2048_S2048x2048_S4096x2048_1_0_0_1_n_n.lhsIdx i q 1).val = (q ⟨0, by decide⟩).val :=
  dot_S4096x2048_S2048x2048_S4096x2048_1_0_0_1_n_n.lhsIdx_val_of_single rfl i q

theorem rhs_main_v1_0 (i : S4096x2048.Idx) (q : dot_S4096x2048_S2048x2048_S4096x2048_1_0_0_1_n_n.contr.Idx) :
    (dot_S4096x2048_S2048x2048_S4096x2048_1_0_0_1_n_n.rhsIdx i q 0).val = (q ⟨0, by decide⟩).val :=
  dot_S4096x2048_S2048x2048_S4096x2048_1_0_0_1_n_n.rhsIdx_val_of_single rfl i q

theorem rhs_main_v1_1 (i : S4096x2048.Idx) (q : dot_S4096x2048_S2048x2048_S4096x2048_1_0_0_1_n_n.contr.Idx) :
    (dot_S4096x2048_S2048x2048_S4096x2048_1_0_0_1_n_n.rhsIdx i q 1).val = (i 1).val := by
  unfold DotDims.rhsIdx
  rw [dif_neg (show ¬(1 : Fin S2048x2048.rank) ∈ dot_S4096x2048_S2048x2048_S4096x2048_1_0_0_1_n_n.rhsBatch by decide), dif_pos (show (1 : Fin S2048x2048.rank) ∈ dot_S4096x2048_S2048x2048_S4096x2048_1_0_0_1_n_n.rhsNonContracting by decide)]
  rfl

abbrev lidx_main_v1 (i : S4096x2048.Idx) (k : Fin 2048) : S4096x2048.Idx := fun a => match a with
  | ⟨0, _⟩ => ⟨(i 0).val, (i 0).isLt⟩
  | ⟨1, _⟩ => ⟨k.val, k.isLt⟩

abbrev ridx_main_v1 (i : S4096x2048.Idx) (k : Fin 2048) : S2048x2048.Idx := fun a => match a with
  | ⟨0, _⟩ => ⟨k.val, k.isLt⟩
  | ⟨1, _⟩ => ⟨(i 1).val, (i 1).isLt⟩

theorem val_main_v1_apply (x0 : (⟨S4096x2048, .f32⟩ : BufTy).Contents (Elt Ideal)) (x3 : (⟨S2048x2048, .f32⟩ : BufTy).Contents (Elt Ideal)) (i : S4096x2048.Idx) :
    val_main_v1 (F := Ideal) x0 x3 i = ∑ k : Fin 2048, x0 (lidx_main_v1 i k) * (val_main_v0 (F := Ideal) x3) (ridx_main_v1 i k) := by
  unfold val_main_v1
  generalize val_main_v0 (F := Ideal) x3 = y0
  simp only [Host.dotGeneral]
  rw [Ideal.dotGeneral_apply, ← Equiv.sum_comp (ValueIdx.contrEquiv1 dot_S4096x2048_S2048x2048_S4096x2048_1_0_0_1_n_n 2048 rfl rfl).symm]
  refine Finset.sum_congr rfl fun k _ => ?_
  have hk := ValueIdx.contrEquiv1_symm_val dot_S4096x2048_S2048x2048_S4096x2048_1_0_0_1_n_n 2048 rfl rfl k
  have el : dot_S4096x2048_S2048x2048_S4096x2048_1_0_0_1_n_n.lhsIdx i ((ValueIdx.contrEquiv1 dot_S4096x2048_S2048x2048_S4096x2048_1_0_0_1_n_n 2048 rfl rfl).symm k) = lidx_main_v1 i k := funext fun a => Fin.ext (by
    match a with
    | ⟨0, _⟩ => exact lhs_main_v1_0 _ _
    | ⟨1, _⟩ => exact (lhs_main_v1_1 _ _).trans hk)
  have er : dot_S4096x2048_S2048x2048_S4096x2048_1_0_0_1_n_n.rhsIdx i ((ValueIdx.contrEquiv1 dot_S4096x2048_S2048x2048_S4096x2048_1_0_0_1_n_n 2048 rfl rfl).symm k) = ridx_main_v1 i k := funext fun a => Fin.ext (by
    match a with
    | ⟨0, _⟩ => exact (rhs_main_v1_0 _ _).trans hk
    | ⟨1, _⟩ => exact rhs_main_v1_1 _ _)
  rw [el, er]

def val_main_cst : (⟨S_, .f32⟩ : BufTy).Contents (Elt F) :=
  constant S_ .f32 0x00000000#32

def val_main_v2 : (⟨S2048, .f32⟩ : BufTy).Contents (Elt F) :=
  Host.reduceAdd (val_main_v1 (F := F) x0 x3) (val_main_cst (F := F)) reducesTo_S4096x2048_S2048_d0 h_S_

abbrev idx_main_v2 (i : S2048.Idx) (k : Fin 4096) : S4096x2048.Idx := fun a => match a with
  | ⟨0, _⟩ => ⟨k.val, k.isLt⟩
  | ⟨1, _⟩ => ⟨(i 0).val, (i 0).isLt⟩

theorem val_main_v2_apply (x0 : (⟨S4096x2048, .f32⟩ : BufTy).Contents (Elt Ideal)) (x3 : (⟨S2048x2048, .f32⟩ : BufTy).Contents (Elt Ideal)) (i : S2048.Idx) :
    val_main_v2 (F := Ideal) x0 x3 i = (val_main_cst (F := Ideal)) (Shape.Idx.first h_S_) + ∑ k : Fin 4096, (val_main_v1 (F := Ideal) x0 x3) (idx_main_v2 i k) := by
  unfold val_main_v2
  generalize val_main_v1 (F := Ideal) x0 x3 = y0
  simp only [Host.reduceAdd, Ideal.hostReduceAdd_def]
  rw [Ideal.hostReduceAdd_single reducesTo_S4096x2048_S2048_d0 (by decide)]
  refine congrArg (_ + ·) (Finset.sum_congr rfl fun k _ => ?_)
  exact congrArg y0 (funext fun a => Fin.ext (by match a with | ⟨0, _⟩ => rfl | ⟨1, _⟩ => rfl))

def val_main_cst_0 : (⟨S_, .f32⟩ : BufTy).Contents (Elt F) :=
  constant S_ .f32 0x45800000#32

def val_main_v3 : (⟨S2048, .f32⟩ : BufTy).Contents (Elt F) :=
  broadcastInDim S2048 ![] bcast_S_S2048 (val_main_cst_0 (F := F))

def val_main_v4 : (⟨S2048, .f32⟩ : BufTy).Contents (Elt F) :=
  Host.divf (val_main_v2 (F := F) x0 x3) (val_main_v3 (F := F))

def val_main_v5 : (⟨S1x2048, .f32⟩ : BufTy).Contents (Elt F) :=
  broadcastInDim S1x2048 ![1] bcast_S2048_S1x2048_1 (val_main_v4 (F := F) x0 x3)

abbrev idx_main_v5 (i : S1x2048.Idx) : S2048.Idx := fun a => match a with
  | ⟨0, _⟩ => ⟨(i 1).val, (i 1).isLt⟩

theorem val_main_v5_apply (i : S1x2048.Idx) :
    val_main_v5 (F := F) x0 x3 i = val_main_v4 (F := F) x0 x3 (idx_main_v5 i) := by
  unfold val_main_v5
  generalize val_main_v4 (F := F) x0 x3 = y
  exact broadcastInDim_apply _ bcast_S2048_S1x2048_1 y i (idx_main_v5 i) (fun a => match a with
    | ⟨0, _⟩ => by show (i 1).val = if (2048 : Nat) = 1 then 0 else (i 1).val; rw [if_neg (by decide)])

def val_main_v6 : (⟨S4096x2048, .f32⟩ : BufTy).Contents (Elt F) :=
  broadcastInDim S4096x2048 ![0, 1] bcast_S1x2048_S4096x2048_0_1 (val_main_v5 (F := F) x0 x3)

abbrev idx_main_v6 (i : S4096x2048.Idx) : S1x2048.Idx := fun a => match a with
  | ⟨0, _⟩ => ⟨0, Nat.one_pos⟩
  | ⟨1, _⟩ => ⟨(i 1).val, (i 1).isLt⟩

theorem val_main_v6_apply (i : S4096x2048.Idx) :
    val_main_v6 (F := F) x0 x3 i = val_main_v5 (F := F) x0 x3 (idx_main_v6 i) := by
  unfold val_main_v6
  generalize val_main_v5 (F := F) x0 x3 = y
  exact broadcastInDim_apply _ bcast_S1x2048_S4096x2048_0_1 y i (idx_main_v6 i) (fun a => match a with
    | ⟨0, _⟩ => by show 0 = if (1 : Nat) = 1 then 0 else (i 0).val; rw [if_pos rfl]
    | ⟨1, _⟩ => by show (i 1).val = if (2048 : Nat) = 1 then 0 else (i 1).val; rw [if_neg (by decide)])

def val_main_v7 : (⟨S4096x2048, .f32⟩ : BufTy).Contents (Elt F) :=
  subf (val_main_v1 (F := F) x0 x3) (val_main_v6 (F := F) x0 x3)

def val_main_v8 : (⟨S4096x2048, .f32⟩ : BufTy).Contents (Elt F) :=
  mulf (val_main_v7 (F := F) x0 x3) (val_main_v7 (F := F) x0 x3)

def val_main_cst_1 : (⟨S_, .f32⟩ : BufTy).Contents (Elt F) :=
  constant S_ .f32 0x00000000#32

def val_main_v9 : (⟨S2048, .f32⟩ : BufTy).Contents (Elt F) :=
  Host.reduceAdd (val_main_v8 (F := F) x0 x3) (val_main_cst_1 (F := F)) reducesTo_S4096x2048_S2048_d0 h_S_

abbrev idx_main_v9 (i : S2048.Idx) (k : Fin 4096) : S4096x2048.Idx := fun a => match a with
  | ⟨0, _⟩ => ⟨k.val, k.isLt⟩
  | ⟨1, _⟩ => ⟨(i 0).val, (i 0).isLt⟩

theorem val_main_v9_apply (x0 : (⟨S4096x2048, .f32⟩ : BufTy).Contents (Elt Ideal)) (x3 : (⟨S2048x2048, .f32⟩ : BufTy).Contents (Elt Ideal)) (i : S2048.Idx) :
    val_main_v9 (F := Ideal) x0 x3 i = (val_main_cst_1 (F := Ideal)) (Shape.Idx.first h_S_) + ∑ k : Fin 4096, (val_main_v8 (F := Ideal) x0 x3) (idx_main_v9 i k) := by
  unfold val_main_v9
  generalize val_main_v8 (F := Ideal) x0 x3 = y0
  simp only [Host.reduceAdd, Ideal.hostReduceAdd_def]
  rw [Ideal.hostReduceAdd_single reducesTo_S4096x2048_S2048_d0 (by decide)]
  refine congrArg (_ + ·) (Finset.sum_congr rfl fun k _ => ?_)
  exact congrArg y0 (funext fun a => Fin.ext (by match a with | ⟨0, _⟩ => rfl | ⟨1, _⟩ => rfl))

def val_main_cst_2 : (⟨S_, .f32⟩ : BufTy).Contents (Elt F) :=
  constant S_ .f32 0x45800000#32

def val_main_v10 : (⟨S2048, .f32⟩ : BufTy).Contents (Elt F) :=
  broadcastInDim S2048 ![] bcast_S_S2048 (val_main_cst_2 (F := F))

def val_main_v11 : (⟨S2048, .f32⟩ : BufTy).Contents (Elt F) :=
  Host.divf (val_main_v9 (F := F) x0 x3) (val_main_v10 (F := F))

def val_main_v12 : (⟨S1x2048, .f32⟩ : BufTy).Contents (Elt F) :=
  broadcastInDim S1x2048 ![1] bcast_S2048_S1x2048_1 (val_main_v4 (F := F) x0 x3)

def val_main_v13 : (⟨S4096x2048, .f32⟩ : BufTy).Contents (Elt F) :=
  broadcastInDim S4096x2048 ![0, 1] bcast_S1x2048_S4096x2048_0_1 (val_main_v12 (F := F) x0 x3)

def val_main_v14 : (⟨S4096x2048, .f32⟩ : BufTy).Contents (Elt F) :=
  subf (val_main_v1 (F := F) x0 x3) (val_main_v13 (F := F) x0 x3)

def val_main_cst_3 : (⟨S_, .f32⟩ : BufTy).Contents (Elt F) :=
  constant S_ .f32 0x3727C5AC#32

def val_main_v15 : (⟨S2048, .f32⟩ : BufTy).Contents (Elt F) :=
  broadcastInDim S2048 ![] bcast_S_S2048 (val_main_cst_3 (F := F))

def val_main_v16 : (⟨S2048, .f32⟩ : BufTy).Contents (Elt F) :=
  addf (val_main_v11 (F := F) x0 x3) (val_main_v15 (F := F))

def val_main_v17 : (⟨S2048, .f32⟩ : BufTy).Contents (Elt F) :=
  Host.rsqrt (val_main_v16 (F := F) x0 x3)

def val_main_v18 : (⟨S1x2048, .f32⟩ : BufTy).Contents (Elt F) :=
  broadcastInDim S1x2048 ![1] bcast_S2048_S1x2048_1 (val_main_v17 (F := F) x0 x3)

abbrev idx_main_v18 (i : S1x2048.Idx) : S2048.Idx := fun a => match a with
  | ⟨0, _⟩ => ⟨(i 1).val, (i 1).isLt⟩

theorem val_main_v18_apply (i : S1x2048.Idx) :
    val_main_v18 (F := F) x0 x3 i = val_main_v17 (F := F) x0 x3 (idx_main_v18 i) := by
  unfold val_main_v18
  generalize val_main_v17 (F := F) x0 x3 = y
  exact broadcastInDim_apply _ bcast_S2048_S1x2048_1 y i (idx_main_v18 i) (fun a => match a with
    | ⟨0, _⟩ => by show (i 1).val = if (2048 : Nat) = 1 then 0 else (i 1).val; rw [if_neg (by decide)])

def val_main_v19 : (⟨S4096x2048, .f32⟩ : BufTy).Contents (Elt F) :=
  broadcastInDim S4096x2048 ![0, 1] bcast_S1x2048_S4096x2048_0_1 (val_main_v18 (F := F) x0 x3)

abbrev idx_main_v19 (i : S4096x2048.Idx) : S1x2048.Idx := fun a => match a with
  | ⟨0, _⟩ => ⟨0, Nat.one_pos⟩
  | ⟨1, _⟩ => ⟨(i 1).val, (i 1).isLt⟩

theorem val_main_v19_apply (i : S4096x2048.Idx) :
    val_main_v19 (F := F) x0 x3 i = val_main_v18 (F := F) x0 x3 (idx_main_v19 i) := by
  unfold val_main_v19
  generalize val_main_v18 (F := F) x0 x3 = y
  exact broadcastInDim_apply _ bcast_S1x2048_S4096x2048_0_1 y i (idx_main_v19 i) (fun a => match a with
    | ⟨0, _⟩ => by show 0 = if (1 : Nat) = 1 then 0 else (i 0).val; rw [if_pos rfl]
    | ⟨1, _⟩ => by show (i 1).val = if (2048 : Nat) = 1 then 0 else (i 1).val; rw [if_neg (by decide)])

def val_main_v20 : (⟨S4096x2048, .f32⟩ : BufTy).Contents (Elt F) :=
  mulf (val_main_v14 (F := F) x0 x3) (val_main_v19 (F := F) x0 x3)

def val_main_v21 : (⟨S1x2048, .f32⟩ : BufTy).Contents (Elt F) :=
  broadcastInDim S1x2048 ![1] bcast_S2048_S1x2048_1 (x4)

abbrev idx_main_v21 (i : S1x2048.Idx) : S2048.Idx := fun a => match a with
  | ⟨0, _⟩ => ⟨(i 1).val, (i 1).isLt⟩

theorem val_main_v21_apply (i : S1x2048.Idx) :
    val_main_v21 (F := F) x4 i = x4 (idx_main_v21 i) := by
  unfold val_main_v21
  exact broadcastInDim_apply _ bcast_S2048_S1x2048_1 x4 i (idx_main_v21 i) (fun a => match a with
    | ⟨0, _⟩ => by show (i 1).val = if (2048 : Nat) = 1 then 0 else (i 1).val; rw [if_neg (by decide)])

def val_main_v22 : (⟨S4096x2048, .f32⟩ : BufTy).Contents (Elt F) :=
  broadcastInDim S4096x2048 ![0, 1] bcast_S1x2048_S4096x2048_0_1 (val_main_v21 (F := F) x4)

abbrev idx_main_v22 (i : S4096x2048.Idx) : S1x2048.Idx := fun a => match a with
  | ⟨0, _⟩ => ⟨0, Nat.one_pos⟩
  | ⟨1, _⟩ => ⟨(i 1).val, (i 1).isLt⟩

theorem val_main_v22_apply (i : S4096x2048.Idx) :
    val_main_v22 (F := F) x4 i = val_main_v21 (F := F) x4 (idx_main_v22 i) := by
  unfold val_main_v22
  generalize val_main_v21 (F := F) x4 = y
  exact broadcastInDim_apply _ bcast_S1x2048_S4096x2048_0_1 y i (idx_main_v22 i) (fun a => match a with
    | ⟨0, _⟩ => by show 0 = if (1 : Nat) = 1 then 0 else (i 0).val; rw [if_pos rfl]
    | ⟨1, _⟩ => by show (i 1).val = if (2048 : Nat) = 1 then 0 else (i 1).val; rw [if_neg (by decide)])

def val_main_v23 : (⟨S4096x2048, .f32⟩ : BufTy).Contents (Elt F) :=
  mulf (val_main_v20 (F := F) x0 x3) (val_main_v22 (F := F) x4)

def val_main_v24 : (⟨S1x2048, .f32⟩ : BufTy).Contents (Elt F) :=
  broadcastInDim S1x2048 ![1] bcast_S2048_S1x2048_1 (x5)

abbrev idx_main_v24 (i : S1x2048.Idx) : S2048.Idx := fun a => match a with
  | ⟨0, _⟩ => ⟨(i 1).val, (i 1).isLt⟩

theorem val_main_v24_apply (i : S1x2048.Idx) :
    val_main_v24 (F := F) x5 i = x5 (idx_main_v24 i) := by
  unfold val_main_v24
  exact broadcastInDim_apply _ bcast_S2048_S1x2048_1 x5 i (idx_main_v24 i) (fun a => match a with
    | ⟨0, _⟩ => by show (i 1).val = if (2048 : Nat) = 1 then 0 else (i 1).val; rw [if_neg (by decide)])

def val_main_v25 : (⟨S4096x2048, .f32⟩ : BufTy).Contents (Elt F) :=
  broadcastInDim S4096x2048 ![0, 1] bcast_S1x2048_S4096x2048_0_1 (val_main_v24 (F := F) x5)

abbrev idx_main_v25 (i : S4096x2048.Idx) : S1x2048.Idx := fun a => match a with
  | ⟨0, _⟩ => ⟨0, Nat.one_pos⟩
  | ⟨1, _⟩ => ⟨(i 1).val, (i 1).isLt⟩

theorem val_main_v25_apply (i : S4096x2048.Idx) :
    val_main_v25 (F := F) x5 i = val_main_v24 (F := F) x5 (idx_main_v25 i) := by
  unfold val_main_v25
  generalize val_main_v24 (F := F) x5 = y
  exact broadcastInDim_apply _ bcast_S1x2048_S4096x2048_0_1 y i (idx_main_v25 i) (fun a => match a with
    | ⟨0, _⟩ => by show 0 = if (1 : Nat) = 1 then 0 else (i 0).val; rw [if_pos rfl]
    | ⟨1, _⟩ => by show (i 1).val = if (2048 : Nat) = 1 then 0 else (i 1).val; rw [if_neg (by decide)])

def val_main_v26 : (⟨S4096x2048, .f32⟩ : BufTy).Contents (Elt F) :=
  addf (val_main_v23 (F := F) x0 x3 x4) (val_main_v25 (F := F) x5)

def val_main_call0_cst : (⟨S_, .f32⟩ : BufTy).Contents (Elt F) :=
  constant S_ .f32 0x00000000#32

def val_main_call0_v0 : (⟨S4096x2048, .f32⟩ : BufTy).Contents (Elt F) :=
  broadcastInDim S4096x2048 ![] bcast_S_S4096x2048 (val_main_call0_cst (F := F))

def val_main_v27 : (⟨S4096x2048, .f32⟩ : BufTy).Contents (Elt F) :=
  maximumf (val_main_v26 (F := F) x0 x3 x4 x5) (val_main_call0_v0 (F := F))

def val_main_v28 : (⟨S2048x128, .f32⟩ : BufTy).Contents (Elt F) :=
  transpose S2048x128 [1, 0] (x6) transposes_S128x2048_S2048x128_1_0

abbrev idx_main_v28 (i : S2048x128.Idx) : S128x2048.Idx := fun a => match a with
  | ⟨0, _⟩ => ⟨(i 1).val, (i 1).isLt⟩
  | ⟨1, _⟩ => ⟨(i 0).val, (i 0).isLt⟩

theorem val_main_v28_apply (i : S2048x128.Idx) :
    val_main_v28 (F := F) x6 i = x6 (idx_main_v28 i) := by
  unfold val_main_v28
  exact transpose_apply [1, 0] x6 transposes_S128x2048_S2048x128_1_0 i (idx_main_v28 i) (fun b => match b with
    | ⟨0, _⟩ => rfl
    | ⟨1, _⟩ => rfl)

def val_main_v29 : (⟨S4096x128, .f32⟩ : BufTy).Contents (Elt F) :=
  Host.dotGeneral dot_S4096x2048_S2048x128_S4096x128_1_0_0_1_n_n none (val_main_v27 (F := F) x0 x3 x4 x5) (val_main_v28 (F := F) x6)

theorem lhs_main_v29_0 (i : S4096x128.Idx) (q : dot_S4096x2048_S2048x128_S4096x128_1_0_0_1_n_n.contr.Idx) :
    (dot_S4096x2048_S2048x128_S4096x128_1_0_0_1_n_n.lhsIdx i q 0).val = (i 0).val := by
  unfold DotDims.lhsIdx
  rw [dif_neg (show ¬(0 : Fin S4096x2048.rank) ∈ dot_S4096x2048_S2048x128_S4096x128_1_0_0_1_n_n.lhsBatch by decide), dif_pos (show (0 : Fin S4096x2048.rank) ∈ dot_S4096x2048_S2048x128_S4096x128_1_0_0_1_n_n.lhsNonContracting by decide)]
  rfl

theorem lhs_main_v29_1 (i : S4096x128.Idx) (q : dot_S4096x2048_S2048x128_S4096x128_1_0_0_1_n_n.contr.Idx) :
    (dot_S4096x2048_S2048x128_S4096x128_1_0_0_1_n_n.lhsIdx i q 1).val = (q ⟨0, by decide⟩).val :=
  dot_S4096x2048_S2048x128_S4096x128_1_0_0_1_n_n.lhsIdx_val_of_single rfl i q

theorem rhs_main_v29_0 (i : S4096x128.Idx) (q : dot_S4096x2048_S2048x128_S4096x128_1_0_0_1_n_n.contr.Idx) :
    (dot_S4096x2048_S2048x128_S4096x128_1_0_0_1_n_n.rhsIdx i q 0).val = (q ⟨0, by decide⟩).val :=
  dot_S4096x2048_S2048x128_S4096x128_1_0_0_1_n_n.rhsIdx_val_of_single rfl i q

theorem rhs_main_v29_1 (i : S4096x128.Idx) (q : dot_S4096x2048_S2048x128_S4096x128_1_0_0_1_n_n.contr.Idx) :
    (dot_S4096x2048_S2048x128_S4096x128_1_0_0_1_n_n.rhsIdx i q 1).val = (i 1).val := by
  unfold DotDims.rhsIdx
  rw [dif_neg (show ¬(1 : Fin S2048x128.rank) ∈ dot_S4096x2048_S2048x128_S4096x128_1_0_0_1_n_n.rhsBatch by decide), dif_pos (show (1 : Fin S2048x128.rank) ∈ dot_S4096x2048_S2048x128_S4096x128_1_0_0_1_n_n.rhsNonContracting by decide)]
  rfl

abbrev lidx_main_v29 (i : S4096x128.Idx) (k : Fin 2048) : S4096x2048.Idx := fun a => match a with
  | ⟨0, _⟩ => ⟨(i 0).val, (i 0).isLt⟩
  | ⟨1, _⟩ => ⟨k.val, k.isLt⟩

abbrev ridx_main_v29 (i : S4096x128.Idx) (k : Fin 2048) : S2048x128.Idx := fun a => match a with
  | ⟨0, _⟩ => ⟨k.val, k.isLt⟩
  | ⟨1, _⟩ => ⟨(i 1).val, (i 1).isLt⟩

theorem val_main_v29_apply (x0 : (⟨S4096x2048, .f32⟩ : BufTy).Contents (Elt Ideal)) (x3 : (⟨S2048x2048, .f32⟩ : BufTy).Contents (Elt Ideal)) (x4 x5 : (⟨S2048, .f32⟩ : BufTy).Contents (Elt Ideal)) (x6 : (⟨S128x2048, .f32⟩ : BufTy).Contents (Elt Ideal)) (i : S4096x128.Idx) :
    val_main_v29 (F := Ideal) x0 x3 x4 x5 x6 i = ∑ k : Fin 2048, (val_main_v27 (F := Ideal) x0 x3 x4 x5) (lidx_main_v29 i k) * (val_main_v28 (F := Ideal) x6) (ridx_main_v29 i k) := by
  unfold val_main_v29
  generalize val_main_v27 (F := Ideal) x0 x3 x4 x5 = y0
  generalize val_main_v28 (F := Ideal) x6 = y1
  simp only [Host.dotGeneral]
  rw [Ideal.dotGeneral_apply, ← Equiv.sum_comp (ValueIdx.contrEquiv1 dot_S4096x2048_S2048x128_S4096x128_1_0_0_1_n_n 2048 rfl rfl).symm]
  refine Finset.sum_congr rfl fun k _ => ?_
  have hk := ValueIdx.contrEquiv1_symm_val dot_S4096x2048_S2048x128_S4096x128_1_0_0_1_n_n 2048 rfl rfl k
  have el : dot_S4096x2048_S2048x128_S4096x128_1_0_0_1_n_n.lhsIdx i ((ValueIdx.contrEquiv1 dot_S4096x2048_S2048x128_S4096x128_1_0_0_1_n_n 2048 rfl rfl).symm k) = lidx_main_v29 i k := funext fun a => Fin.ext (by
    match a with
    | ⟨0, _⟩ => exact lhs_main_v29_0 _ _
    | ⟨1, _⟩ => exact (lhs_main_v29_1 _ _).trans hk)
  have er : dot_S4096x2048_S2048x128_S4096x128_1_0_0_1_n_n.rhsIdx i ((ValueIdx.contrEquiv1 dot_S4096x2048_S2048x128_S4096x128_1_0_0_1_n_n 2048 rfl rfl).symm k) = ridx_main_v29 i k := funext fun a => Fin.ext (by
    match a with
    | ⟨0, _⟩ => exact (rhs_main_v29_0 _ _).trans hk
    | ⟨1, _⟩ => exact rhs_main_v29_1 _ _)
  rw [el, er]

def val_main_v30 : (⟨S2048x2048, .f32⟩ : BufTy).Contents (Elt F) :=
  transpose S2048x2048 [1, 0] (x3) transposes_S2048x2048_S2048x2048_1_0

def val_main_v31 : (⟨S4096x2048, .f32⟩ : BufTy).Contents (Elt F) :=
  Host.dotGeneral dot_S4096x2048_S2048x2048_S4096x2048_1_0_0_1_n_n none (x1) (val_main_v30 (F := F) x3)

def val_main_cst_4 : (⟨S_, .f32⟩ : BufTy).Contents (Elt F) :=
  constant S_ .f32 0x00000000#32

def val_main_v32 : (⟨S2048, .f32⟩ : BufTy).Contents (Elt F) :=
  Host.reduceAdd (val_main_v31 (F := F) x1 x3) (val_main_cst_4 (F := F)) reducesTo_S4096x2048_S2048_d0 h_S_

def val_main_cst_5 : (⟨S_, .f32⟩ : BufTy).Contents (Elt F) :=
  constant S_ .f32 0x45800000#32

def val_main_v33 : (⟨S2048, .f32⟩ : BufTy).Contents (Elt F) :=
  broadcastInDim S2048 ![] bcast_S_S2048 (val_main_cst_5 (F := F))

def val_main_v34 : (⟨S2048, .f32⟩ : BufTy).Contents (Elt F) :=
  Host.divf (val_main_v32 (F := F) x1 x3) (val_main_v33 (F := F))

def val_main_v35 : (⟨S1x2048, .f32⟩ : BufTy).Contents (Elt F) :=
  broadcastInDim S1x2048 ![1] bcast_S2048_S1x2048_1 (val_main_v34 (F := F) x1 x3)

def val_main_v36 : (⟨S4096x2048, .f32⟩ : BufTy).Contents (Elt F) :=
  broadcastInDim S4096x2048 ![0, 1] bcast_S1x2048_S4096x2048_0_1 (val_main_v35 (F := F) x1 x3)

def val_main_v37 : (⟨S4096x2048, .f32⟩ : BufTy).Contents (Elt F) :=
  subf (val_main_v31 (F := F) x1 x3) (val_main_v36 (F := F) x1 x3)

def val_main_v38 : (⟨S4096x2048, .f32⟩ : BufTy).Contents (Elt F) :=
  mulf (val_main_v37 (F := F) x1 x3) (val_main_v37 (F := F) x1 x3)

def val_main_cst_6 : (⟨S_, .f32⟩ : BufTy).Contents (Elt F) :=
  constant S_ .f32 0x00000000#32

def val_main_v39 : (⟨S2048, .f32⟩ : BufTy).Contents (Elt F) :=
  Host.reduceAdd (val_main_v38 (F := F) x1 x3) (val_main_cst_6 (F := F)) reducesTo_S4096x2048_S2048_d0 h_S_

def val_main_cst_7 : (⟨S_, .f32⟩ : BufTy).Contents (Elt F) :=
  constant S_ .f32 0x45800000#32

def val_main_v40 : (⟨S2048, .f32⟩ : BufTy).Contents (Elt F) :=
  broadcastInDim S2048 ![] bcast_S_S2048 (val_main_cst_7 (F := F))

def val_main_v41 : (⟨S2048, .f32⟩ : BufTy).Contents (Elt F) :=
  Host.divf (val_main_v39 (F := F) x1 x3) (val_main_v40 (F := F))

def val_main_v42 : (⟨S1x2048, .f32⟩ : BufTy).Contents (Elt F) :=
  broadcastInDim S1x2048 ![1] bcast_S2048_S1x2048_1 (val_main_v34 (F := F) x1 x3)

def val_main_v43 : (⟨S4096x2048, .f32⟩ : BufTy).Contents (Elt F) :=
  broadcastInDim S4096x2048 ![0, 1] bcast_S1x2048_S4096x2048_0_1 (val_main_v42 (F := F) x1 x3)

def val_main_v44 : (⟨S4096x2048, .f32⟩ : BufTy).Contents (Elt F) :=
  subf (val_main_v31 (F := F) x1 x3) (val_main_v43 (F := F) x1 x3)

def val_main_cst_8 : (⟨S_, .f32⟩ : BufTy).Contents (Elt F) :=
  constant S_ .f32 0x3727C5AC#32

def val_main_v45 : (⟨S2048, .f32⟩ : BufTy).Contents (Elt F) :=
  broadcastInDim S2048 ![] bcast_S_S2048 (val_main_cst_8 (F := F))

def val_main_v46 : (⟨S2048, .f32⟩ : BufTy).Contents (Elt F) :=
  addf (val_main_v41 (F := F) x1 x3) (val_main_v45 (F := F))

def val_main_v47 : (⟨S2048, .f32⟩ : BufTy).Contents (Elt F) :=
  Host.rsqrt (val_main_v46 (F := F) x1 x3)

def val_main_v48 : (⟨S1x2048, .f32⟩ : BufTy).Contents (Elt F) :=
  broadcastInDim S1x2048 ![1] bcast_S2048_S1x2048_1 (val_main_v47 (F := F) x1 x3)

def val_main_v49 : (⟨S4096x2048, .f32⟩ : BufTy).Contents (Elt F) :=
  broadcastInDim S4096x2048 ![0, 1] bcast_S1x2048_S4096x2048_0_1 (val_main_v48 (F := F) x1 x3)

def val_main_v50 : (⟨S4096x2048, .f32⟩ : BufTy).Contents (Elt F) :=
  mulf (val_main_v44 (F := F) x1 x3) (val_main_v49 (F := F) x1 x3)

def val_main_v51 : (⟨S1x2048, .f32⟩ : BufTy).Contents (Elt F) :=
  broadcastInDim S1x2048 ![1] bcast_S2048_S1x2048_1 (x4)

def val_main_v52 : (⟨S4096x2048, .f32⟩ : BufTy).Contents (Elt F) :=
  broadcastInDim S4096x2048 ![0, 1] bcast_S1x2048_S4096x2048_0_1 (val_main_v51 (F := F) x4)

def val_main_v53 : (⟨S4096x2048, .f32⟩ : BufTy).Contents (Elt F) :=
  mulf (val_main_v50 (F := F) x1 x3) (val_main_v52 (F := F) x4)

def val_main_v54 : (⟨S1x2048, .f32⟩ : BufTy).Contents (Elt F) :=
  broadcastInDim S1x2048 ![1] bcast_S2048_S1x2048_1 (x5)

def val_main_v55 : (⟨S4096x2048, .f32⟩ : BufTy).Contents (Elt F) :=
  broadcastInDim S4096x2048 ![0, 1] bcast_S1x2048_S4096x2048_0_1 (val_main_v54 (F := F) x5)

def val_main_v56 : (⟨S4096x2048, .f32⟩ : BufTy).Contents (Elt F) :=
  addf (val_main_v53 (F := F) x1 x3 x4) (val_main_v55 (F := F) x5)

def val_main_call1_cst : (⟨S_, .f32⟩ : BufTy).Contents (Elt F) :=
  constant S_ .f32 0x00000000#32

def val_main_call1_v0 : (⟨S4096x2048, .f32⟩ : BufTy).Contents (Elt F) :=
  broadcastInDim S4096x2048 ![] bcast_S_S4096x2048 (val_main_call1_cst (F := F))

def val_main_v57 : (⟨S4096x2048, .f32⟩ : BufTy).Contents (Elt F) :=
  maximumf (val_main_v56 (F := F) x1 x3 x4 x5) (val_main_call1_v0 (F := F))

def val_main_v58 : (⟨S2048x128, .f32⟩ : BufTy).Contents (Elt F) :=
  transpose S2048x128 [1, 0] (x6) transposes_S128x2048_S2048x128_1_0

def val_main_v59 : (⟨S4096x128, .f32⟩ : BufTy).Contents (Elt F) :=
  Host.dotGeneral dot_S4096x2048_S2048x128_S4096x128_1_0_0_1_n_n none (val_main_v57 (F := F) x1 x3 x4 x5) (val_main_v58 (F := F) x6)

def val_main_call2_v0 : (⟨S4096x128, .f32⟩ : BufTy).Contents (Elt F) :=
  mulf (val_main_v29 (F := F) x0 x3 x4 x5 x6) (val_main_v29 (F := F) x0 x3 x4 x5 x6)

def val_main_call2_cst : (⟨S_, .f32⟩ : BufTy).Contents (Elt F) :=
  constant S_ .f32 0x00000000#32

def val_main_call2_v1 : (⟨S4096, .f32⟩ : BufTy).Contents (Elt F) :=
  Host.reduceAdd (val_main_call2_v0 (F := F) x0 x3 x4 x5 x6) (val_main_call2_cst (F := F)) reducesTo_S4096x128_S4096_d1 h_S_

abbrev idx_main_call2_v1 (i : S4096.Idx) (k : Fin 128) : S4096x128.Idx := fun a => match a with
  | ⟨0, _⟩ => ⟨(i 0).val, (i 0).isLt⟩
  | ⟨1, _⟩ => ⟨k.val, k.isLt⟩

theorem val_main_call2_v1_apply (x0 : (⟨S4096x2048, .f32⟩ : BufTy).Contents (Elt Ideal)) (x3 : (⟨S2048x2048, .f32⟩ : BufTy).Contents (Elt Ideal)) (x4 x5 : (⟨S2048, .f32⟩ : BufTy).Contents (Elt Ideal)) (x6 : (⟨S128x2048, .f32⟩ : BufTy).Contents (Elt Ideal)) (i : S4096.Idx) :
    val_main_call2_v1 (F := Ideal) x0 x3 x4 x5 x6 i = (val_main_call2_cst (F := Ideal)) (Shape.Idx.first h_S_) + ∑ k : Fin 128, (val_main_call2_v0 (F := Ideal) x0 x3 x4 x5 x6) (idx_main_call2_v1 i k) := by
  unfold val_main_call2_v1
  generalize val_main_call2_v0 (F := Ideal) x0 x3 x4 x5 x6 = y0
  simp only [Host.reduceAdd, Ideal.hostReduceAdd_def]
  rw [Ideal.hostReduceAdd_single reducesTo_S4096x128_S4096_d1 (by decide)]
  refine congrArg (_ + ·) (Finset.sum_congr rfl fun k _ => ?_)
  exact congrArg y0 (funext fun a => Fin.ext (by match a with | ⟨0, _⟩ => rfl | ⟨1, _⟩ => rfl))

def val_main_call2_v2 : (⟨S4096x1, .f32⟩ : BufTy).Contents (Elt F) :=
  broadcastInDim S4096x1 ![0] bcast_S4096_S4096x1_0 (val_main_call2_v1 (F := F) x0 x3 x4 x5 x6)

abbrev idx_main_call2_v2 (i : S4096x1.Idx) : S4096.Idx := fun a => match a with
  | ⟨0, _⟩ => ⟨(i 0).val, (i 0).isLt⟩

theorem val_main_call2_v2_apply (i : S4096x1.Idx) :
    val_main_call2_v2 (F := F) x0 x3 x4 x5 x6 i = val_main_call2_v1 (F := F) x0 x3 x4 x5 x6 (idx_main_call2_v2 i) := by
  unfold val_main_call2_v2
  generalize val_main_call2_v1 (F := F) x0 x3 x4 x5 x6 = y
  exact broadcastInDim_apply _ bcast_S4096_S4096x1_0 y i (idx_main_call2_v2 i) (fun a => match a with
    | ⟨0, _⟩ => by show (i 0).val = if (4096 : Nat) = 1 then 0 else (i 0).val; rw [if_neg (by decide)])

def val_main_v60 : (⟨S4096x1, .f32⟩ : BufTy).Contents (Elt F) :=
  Host.sqrt (val_main_call2_v2 (F := F) x0 x3 x4 x5 x6)

theorem val_main_v60_apply (i : S4096x1.Idx) :
    val_main_v60 (F := F) x0 x3 x4 x5 x6 i = FloatOps.hostUnary .sqrt (val_main_call2_v2 (F := F) x0 x3 x4 x5 x6 i) := rfl

def val_main_v61 : (⟨S4096x128, .f32⟩ : BufTy).Contents (Elt F) :=
  broadcastInDim S4096x128 ![0, 1] bcast_S4096x1_S4096x128_0_1 (val_main_v60 (F := F) x0 x3 x4 x5 x6)

abbrev idx_main_v61 (i : S4096x128.Idx) : S4096x1.Idx := fun a => match a with
  | ⟨0, _⟩ => ⟨(i 0).val, (i 0).isLt⟩
  | ⟨1, _⟩ => ⟨0, Nat.one_pos⟩

theorem val_main_v61_apply (i : S4096x128.Idx) :
    val_main_v61 (F := F) x0 x3 x4 x5 x6 i = val_main_v60 (F := F) x0 x3 x4 x5 x6 (idx_main_v61 i) := by
  unfold val_main_v61
  generalize val_main_v60 (F := F) x0 x3 x4 x5 x6 = y
  exact broadcastInDim_apply _ bcast_S4096x1_S4096x128_0_1 y i (idx_main_v61 i) (fun a => match a with
    | ⟨0, _⟩ => by show (i 0).val = if (4096 : Nat) = 1 then 0 else (i 0).val; rw [if_neg (by decide)]
    | ⟨1, _⟩ => by show 0 = if (1 : Nat) = 1 then 0 else (i 1).val; rw [if_pos rfl])

def val_main_v62 : (⟨S4096x128, .f32⟩ : BufTy).Contents (Elt F) :=
  Host.divf (val_main_v29 (F := F) x0 x3 x4 x5 x6) (val_main_v61 (F := F) x0 x3 x4 x5 x6)

def val_main_call3_v0 : (⟨S4096x128, .f32⟩ : BufTy).Contents (Elt F) :=
  mulf (val_main_v59 (F := F) x1 x3 x4 x5 x6) (val_main_v59 (F := F) x1 x3 x4 x5 x6)

def val_main_call3_cst : (⟨S_, .f32⟩ : BufTy).Contents (Elt F) :=
  constant S_ .f32 0x00000000#32

def val_main_call3_v1 : (⟨S4096, .f32⟩ : BufTy).Contents (Elt F) :=
  Host.reduceAdd (val_main_call3_v0 (F := F) x1 x3 x4 x5 x6) (val_main_call3_cst (F := F)) reducesTo_S4096x128_S4096_d1 h_S_

def val_main_call3_v2 : (⟨S4096x1, .f32⟩ : BufTy).Contents (Elt F) :=
  broadcastInDim S4096x1 ![0] bcast_S4096_S4096x1_0 (val_main_call3_v1 (F := F) x1 x3 x4 x5 x6)

def val_main_v63 : (⟨S4096x1, .f32⟩ : BufTy).Contents (Elt F) :=
  Host.sqrt (val_main_call3_v2 (F := F) x1 x3 x4 x5 x6)

def val_main_v64 : (⟨S4096x128, .f32⟩ : BufTy).Contents (Elt F) :=
  broadcastInDim S4096x128 ![0, 1] bcast_S4096x1_S4096x128_0_1 (val_main_v63 (F := F) x1 x3 x4 x5 x6)

def val_main_v65 : (⟨S4096x128, .f32⟩ : BufTy).Contents (Elt F) :=
  Host.divf (val_main_v59 (F := F) x1 x3 x4 x5 x6) (val_main_v64 (F := F) x1 x3 x4 x5 x6)

def val_main_v66 : (⟨S4096x4096, .i32⟩ : BufTy).Contents (Elt F) :=
  iotaInDim S4096x4096 32 0

def val_main_v67 : (⟨S4096x4096, .i32⟩ : BufTy).Contents (Elt F) :=
  iotaInDim S4096x4096 32 1

def val_main_c : (⟨S_, .i32⟩ : BufTy).Contents (Elt F) :=
  constantI S_ 32 0#32

def val_main_v68 : (⟨S4096x4096, .i32⟩ : BufTy).Contents (Elt F) :=
  broadcastInDim S4096x4096 ![] bcast_S_S4096x4096 (val_main_c (F := F))

def val_main_v69 : (⟨S4096x4096, .i32⟩ : BufTy).Contents (Elt F) :=
  addi (val_main_v66 (F := F)) (val_main_v68 (F := F))

def val_main_v70 : (⟨S4096x4096, .i1⟩ : BufTy).Contents (Elt F) :=
  cmpi .eq (val_main_v69 (F := F)) (val_main_v67 (F := F))

def val_main_v71 : (⟨S4096x4096, .f32⟩ : BufTy).Contents (Elt F) :=
  uitofp .f32 (val_main_v70 (F := F))

def val_main_v72 : (⟨S128x4096, .f32⟩ : BufTy).Contents (Elt F) :=
  transpose S128x4096 [1, 0] (val_main_v62 (F := F) x0 x3 x4 x5 x6) transposes_S4096x128_S128x4096_1_0

def val_main_v73 : (⟨S4096x4096, .f32⟩ : BufTy).Contents (Elt F) :=
  Host.dotGeneral dot_S4096x128_S128x4096_S4096x4096_1_0_0_1_n_n none (val_main_v62 (F := F) x0 x3 x4 x5 x6) (val_main_v72 (F := F) x0 x3 x4 x5 x6)

def val_main_cst_9 : (⟨S_, .f32⟩ : BufTy).Contents (Elt F) :=
  constant S_ .f32 0x3DCCCCCD#32

def val_main_v74 : (⟨S4096x4096, .f32⟩ : BufTy).Contents (Elt F) :=
  broadcastInDim S4096x4096 ![] bcast_S_S4096x4096 (val_main_cst_9 (F := F))

def val_main_v75 : (⟨S4096x4096, .f32⟩ : BufTy).Contents (Elt F) :=
  Host.divf (val_main_v73 (F := F) x0 x3 x4 x5 x6) (val_main_v74 (F := F))

def val_main_cst_10 : (⟨S_, .f32⟩ : BufTy).Contents (Elt F) :=
  constant S_ .f32 0x4CBEBC20#32

def val_main_v76 : (⟨S4096x4096, .f32⟩ : BufTy).Contents (Elt F) :=
  broadcastInDim S4096x4096 ![] bcast_S_S4096x4096 (val_main_cst_10 (F := F))

def val_main_v77 : (⟨S4096x4096, .f32⟩ : BufTy).Contents (Elt F) :=
  mulf (val_main_v76 (F := F)) (val_main_v71 (F := F))

def val_main_v78 : (⟨S4096x4096, .f32⟩ : BufTy).Contents (Elt F) :=
  subf (val_main_v75 (F := F) x0 x3 x4 x5 x6) (val_main_v77 (F := F))

def val_main_v79 : (⟨S128x4096, .f32⟩ : BufTy).Contents (Elt F) :=
  transpose S128x4096 [1, 0] (val_main_v65 (F := F) x1 x3 x4 x5 x6) transposes_S4096x128_S128x4096_1_0

def val_main_v80 : (⟨S4096x4096, .f32⟩ : BufTy).Contents (Elt F) :=
  Host.dotGeneral dot_S4096x128_S128x4096_S4096x4096_1_0_0_1_n_n none (val_main_v65 (F := F) x1 x3 x4 x5 x6) (val_main_v79 (F := F) x1 x3 x4 x5 x6)

def val_main_cst_11 : (⟨S_, .f32⟩ : BufTy).Contents (Elt F) :=
  constant S_ .f32 0x3DCCCCCD#32

def val_main_v81 : (⟨S4096x4096, .f32⟩ : BufTy).Contents (Elt F) :=
  broadcastInDim S4096x4096 ![] bcast_S_S4096x4096 (val_main_cst_11 (F := F))

def val_main_v82 : (⟨S4096x4096, .f32⟩ : BufTy).Contents (Elt F) :=
  Host.divf (val_main_v80 (F := F) x1 x3 x4 x5 x6) (val_main_v81 (F := F))

def val_main_cst_12 : (⟨S_, .f32⟩ : BufTy).Contents (Elt F) :=
  constant S_ .f32 0x4CBEBC20#32

def val_main_v83 : (⟨S4096x4096, .f32⟩ : BufTy).Contents (Elt F) :=
  broadcastInDim S4096x4096 ![] bcast_S_S4096x4096 (val_main_cst_12 (F := F))

def val_main_v84 : (⟨S4096x4096, .f32⟩ : BufTy).Contents (Elt F) :=
  mulf (val_main_v83 (F := F)) (val_main_v71 (F := F))

def val_main_v85 : (⟨S4096x4096, .f32⟩ : BufTy).Contents (Elt F) :=
  subf (val_main_v82 (F := F) x1 x3 x4 x5 x6) (val_main_v84 (F := F))

def val_main_v86 : (⟨S128x4096, .f32⟩ : BufTy).Contents (Elt F) :=
  transpose S128x4096 [1, 0] (val_main_v65 (F := F) x1 x3 x4 x5 x6) transposes_S4096x128_S128x4096_1_0

abbrev idx_main_v86 (i : S128x4096.Idx) : S4096x128.Idx := fun a => match a with
  | ⟨0, _⟩ => ⟨(i 1).val, (i 1).isLt⟩
  | ⟨1, _⟩ => ⟨(i 0).val, (i 0).isLt⟩

theorem val_main_v86_apply (i : S128x4096.Idx) :
    val_main_v86 (F := F) x1 x3 x4 x5 x6 i = val_main_v65 (F := F) x1 x3 x4 x5 x6 (idx_main_v86 i) := by
  unfold val_main_v86
  generalize val_main_v65 (F := F) x1 x3 x4 x5 x6 = y
  exact transpose_apply [1, 0] y transposes_S4096x128_S128x4096_1_0 i (idx_main_v86 i) (fun b => match b with
    | ⟨0, _⟩ => rfl
    | ⟨1, _⟩ => rfl)

def val_main_v87 : (⟨S4096x4096, .f32⟩ : BufTy).Contents (Elt F) :=
  Host.dotGeneral dot_S4096x128_S128x4096_S4096x4096_1_0_0_1_n_n none (val_main_v62 (F := F) x0 x3 x4 x5 x6) (val_main_v86 (F := F) x1 x3 x4 x5 x6)

theorem lhs_main_v87_0 (i : S4096x4096.Idx) (q : dot_S4096x128_S128x4096_S4096x4096_1_0_0_1_n_n.contr.Idx) :
    (dot_S4096x128_S128x4096_S4096x4096_1_0_0_1_n_n.lhsIdx i q 0).val = (i 0).val := by
  unfold DotDims.lhsIdx
  rw [dif_neg (show ¬(0 : Fin S4096x128.rank) ∈ dot_S4096x128_S128x4096_S4096x4096_1_0_0_1_n_n.lhsBatch by decide), dif_pos (show (0 : Fin S4096x128.rank) ∈ dot_S4096x128_S128x4096_S4096x4096_1_0_0_1_n_n.lhsNonContracting by decide)]
  rfl

theorem lhs_main_v87_1 (i : S4096x4096.Idx) (q : dot_S4096x128_S128x4096_S4096x4096_1_0_0_1_n_n.contr.Idx) :
    (dot_S4096x128_S128x4096_S4096x4096_1_0_0_1_n_n.lhsIdx i q 1).val = (q ⟨0, by decide⟩).val :=
  dot_S4096x128_S128x4096_S4096x4096_1_0_0_1_n_n.lhsIdx_val_of_single rfl i q

theorem rhs_main_v87_0 (i : S4096x4096.Idx) (q : dot_S4096x128_S128x4096_S4096x4096_1_0_0_1_n_n.contr.Idx) :
    (dot_S4096x128_S128x4096_S4096x4096_1_0_0_1_n_n.rhsIdx i q 0).val = (q ⟨0, by decide⟩).val :=
  dot_S4096x128_S128x4096_S4096x4096_1_0_0_1_n_n.rhsIdx_val_of_single rfl i q

theorem rhs_main_v87_1 (i : S4096x4096.Idx) (q : dot_S4096x128_S128x4096_S4096x4096_1_0_0_1_n_n.contr.Idx) :
    (dot_S4096x128_S128x4096_S4096x4096_1_0_0_1_n_n.rhsIdx i q 1).val = (i 1).val := by
  unfold DotDims.rhsIdx
  rw [dif_neg (show ¬(1 : Fin S128x4096.rank) ∈ dot_S4096x128_S128x4096_S4096x4096_1_0_0_1_n_n.rhsBatch by decide), dif_pos (show (1 : Fin S128x4096.rank) ∈ dot_S4096x128_S128x4096_S4096x4096_1_0_0_1_n_n.rhsNonContracting by decide)]
  rfl

abbrev lidx_main_v87 (i : S4096x4096.Idx) (k : Fin 128) : S4096x128.Idx := fun a => match a with
  | ⟨0, _⟩ => ⟨(i 0).val, (i 0).isLt⟩
  | ⟨1, _⟩ => ⟨k.val, k.isLt⟩

abbrev ridx_main_v87 (i : S4096x4096.Idx) (k : Fin 128) : S128x4096.Idx := fun a => match a with
  | ⟨0, _⟩ => ⟨k.val, k.isLt⟩
  | ⟨1, _⟩ => ⟨(i 1).val, (i 1).isLt⟩

theorem val_main_v87_apply (x0 x1 : (⟨S4096x2048, .f32⟩ : BufTy).Contents (Elt Ideal)) (x3 : (⟨S2048x2048, .f32⟩ : BufTy).Contents (Elt Ideal)) (x4 x5 : (⟨S2048, .f32⟩ : BufTy).Contents (Elt Ideal)) (x6 : (⟨S128x2048, .f32⟩ : BufTy).Contents (Elt Ideal)) (i : S4096x4096.Idx) :
    val_main_v87 (F := Ideal) x0 x1 x3 x4 x5 x6 i = ∑ k : Fin 128, (val_main_v62 (F := Ideal) x0 x3 x4 x5 x6) (lidx_main_v87 i k) * (val_main_v86 (F := Ideal) x1 x3 x4 x5 x6) (ridx_main_v87 i k) := by
  unfold val_main_v87
  generalize val_main_v62 (F := Ideal) x0 x3 x4 x5 x6 = y0
  generalize val_main_v86 (F := Ideal) x1 x3 x4 x5 x6 = y1
  simp only [Host.dotGeneral]
  rw [Ideal.dotGeneral_apply, ← Equiv.sum_comp (ValueIdx.contrEquiv1 dot_S4096x128_S128x4096_S4096x4096_1_0_0_1_n_n 128 rfl rfl).symm]
  refine Finset.sum_congr rfl fun k _ => ?_
  have hk := ValueIdx.contrEquiv1_symm_val dot_S4096x128_S128x4096_S4096x4096_1_0_0_1_n_n 128 rfl rfl k
  have el : dot_S4096x128_S128x4096_S4096x4096_1_0_0_1_n_n.lhsIdx i ((ValueIdx.contrEquiv1 dot_S4096x128_S128x4096_S4096x4096_1_0_0_1_n_n 128 rfl rfl).symm k) = lidx_main_v87 i k := funext fun a => Fin.ext (by
    match a with
    | ⟨0, _⟩ => exact lhs_main_v87_0 _ _
    | ⟨1, _⟩ => exact (lhs_main_v87_1 _ _).trans hk)
  have er : dot_S4096x128_S128x4096_S4096x4096_1_0_0_1_n_n.rhsIdx i ((ValueIdx.contrEquiv1 dot_S4096x128_S128x4096_S4096x4096_1_0_0_1_n_n 128 rfl rfl).symm k) = ridx_main_v87 i k := funext fun a => Fin.ext (by
    match a with
    | ⟨0, _⟩ => exact (rhs_main_v87_0 _ _).trans hk
    | ⟨1, _⟩ => exact rhs_main_v87_1 _ _)
  rw [el, er]

def val_main_cst_13 : (⟨S_, .f32⟩ : BufTy).Contents (Elt F) :=
  constant S_ .f32 0x3DCCCCCD#32

def val_main_v88 : (⟨S4096x4096, .f32⟩ : BufTy).Contents (Elt F) :=
  broadcastInDim S4096x4096 ![] bcast_S_S4096x4096 (val_main_cst_13 (F := F))

def val_main_v89 : (⟨S4096x4096, .f32⟩ : BufTy).Contents (Elt F) :=
  Host.divf (val_main_v87 (F := F) x0 x1 x3 x4 x5 x6) (val_main_v88 (F := F))

def val_main_v90 : (⟨S8192, .f32⟩ : BufTy).Contents (Elt F) :=
  concatenate S8192 0 [⟨S4096, (x2)⟩, ⟨S4096, (x2)⟩] concatenates_S4096_S4096_S8192_d0

def val_main_v91 : (⟨S8192x1, .f32⟩ : BufTy).Contents (Elt F) :=
  shapeCast _ (val_main_v90 (F := F) x2) shapeCasts_S8192_S8192x1

abbrev idx_main_v91 (i : S8192x1.Idx) : S8192.Idx := fun a => match a with
  | ⟨0, _⟩ => ⟨(i 0).val * 1 + (i 1).val, by have h0 : (i 0).val < 8192 := (i 0).isLt; have h1 : (i 1).val < 1 := (i 1).isLt; show (i 0).val * 1 + (i 1).val < 8192; omega⟩

theorem val_main_v91_apply (i : S8192x1.Idx) :
    val_main_v91 (F := F) x2 i = val_main_v90 (F := F) x2 (idx_main_v91 i) := by
  unfold val_main_v91
  generalize val_main_v90 (F := F) x2 = y
  exact shapeCast_apply y shapeCasts_S8192_S8192x1 i (idx_main_v91 i)
    (by rewrite [Shape.rowMajor_val_one, Shape.rowMajor_val_two]; have h0 : (i 0).val < 8192 := (i 0).isLt; have h1 : (i 1).val < 1 := (i 1).isLt; show (i 0).val * 1 + (i 1).val = (i 0).val * 1 + (i 1).val; omega)

def val_main_v92 : (⟨S8192x1x1, .f32⟩ : BufTy).Contents (Elt F) :=
  broadcastInDim S8192x1x1 ![0, 2] bcast_S8192x1_S8192x1x1_0_2 (val_main_v91 (F := F) x2)

abbrev idx_main_v92 (i : S8192x1x1.Idx) : S8192x1.Idx := fun a => match a with
  | ⟨0, _⟩ => ⟨(i 0).val, (i 0).isLt⟩
  | ⟨1, _⟩ => ⟨0, Nat.one_pos⟩

theorem val_main_v92_apply (i : S8192x1x1.Idx) :
    val_main_v92 (F := F) x2 i = val_main_v91 (F := F) x2 (idx_main_v92 i) := by
  unfold val_main_v92
  generalize val_main_v91 (F := F) x2 = y
  exact broadcastInDim_apply _ bcast_S8192x1_S8192x1x1_0_2 y i (idx_main_v92 i) (fun a => match a with
    | ⟨0, _⟩ => by show (i 0).val = if (8192 : Nat) = 1 then 0 else (i 0).val; rw [if_neg (by decide)]
    | ⟨1, _⟩ => by show 0 = if (1 : Nat) = 1 then 0 else (i 2).val; rw [if_pos rfl])

def val_main_v93 : (⟨S1x8192x1, .f32⟩ : BufTy).Contents (Elt F) :=
  broadcastInDim S1x8192x1 ![1, 2] bcast_S8192x1_S1x8192x1_1_2 (val_main_v91 (F := F) x2)

abbrev idx_main_v93 (i : S1x8192x1.Idx) : S8192x1.Idx := fun a => match a with
  | ⟨0, _⟩ => ⟨(i 1).val, (i 1).isLt⟩
  | ⟨1, _⟩ => ⟨0, Nat.one_pos⟩

theorem val_main_v93_apply (i : S1x8192x1.Idx) :
    val_main_v93 (F := F) x2 i = val_main_v91 (F := F) x2 (idx_main_v93 i) := by
  unfold val_main_v93
  generalize val_main_v91 (F := F) x2 = y
  exact broadcastInDim_apply _ bcast_S8192x1_S1x8192x1_1_2 y i (idx_main_v93 i) (fun a => match a with
    | ⟨0, _⟩ => by show (i 1).val = if (8192 : Nat) = 1 then 0 else (i 1).val; rw [if_neg (by decide)]
    | ⟨1, _⟩ => by show 0 = if (1 : Nat) = 1 then 0 else (i 2).val; rw [if_pos rfl])

def val_main_v94 : (⟨S8192x8192x1, .f32⟩ : BufTy).Contents (Elt F) :=
  broadcastInDim S8192x8192x1 ![0, 1, 2] bcast_S8192x1x1_S8192x8192x1_0_1_2 (val_main_v92 (F := F) x2)

abbrev idx_main_v94 (i : S8192x8192x1.Idx) : S8192x1x1.Idx := fun a => match a with
  | ⟨0, _⟩ => ⟨(i 0).val, (i 0).isLt⟩
  | ⟨1, _⟩ => ⟨0, Nat.one_pos⟩
  | ⟨2, _⟩ => ⟨0, Nat.one_pos⟩

theorem val_main_v94_apply (i : S8192x8192x1.Idx) :
    val_main_v94 (F := F) x2 i = val_main_v92 (F := F) x2 (idx_main_v94 i) := by
  unfold val_main_v94
  generalize val_main_v92 (F := F) x2 = y
  exact broadcastInDim_apply _ bcast_S8192x1x1_S8192x8192x1_0_1_2 y i (idx_main_v94 i) (fun a => match a with
    | ⟨0, _⟩ => by show (i 0).val = if (8192 : Nat) = 1 then 0 else (i 0).val; rw [if_neg (by decide)]
    | ⟨1, _⟩ => by show 0 = if (1 : Nat) = 1 then 0 else (i 1).val; rw [if_pos rfl]
    | ⟨2, _⟩ => by show 0 = if (1 : Nat) = 1 then 0 else (i 2).val; rw [if_pos rfl])

def val_main_v95 : (⟨S8192x8192x1, .f32⟩ : BufTy).Contents (Elt F) :=
  broadcastInDim S8192x8192x1 ![0, 1, 2] bcast_S1x8192x1_S8192x8192x1_0_1_2 (val_main_v93 (F := F) x2)

abbrev idx_main_v95 (i : S8192x8192x1.Idx) : S1x8192x1.Idx := fun a => match a with
  | ⟨0, _⟩ => ⟨0, Nat.one_pos⟩
  | ⟨1, _⟩ => ⟨(i 1).val, (i 1).isLt⟩
  | ⟨2, _⟩ => ⟨0, Nat.one_pos⟩

theorem val_main_v95_apply (i : S8192x8192x1.Idx) :
    val_main_v95 (F := F) x2 i = val_main_v93 (F := F) x2 (idx_main_v95 i) := by
  unfold val_main_v95
  generalize val_main_v93 (F := F) x2 = y
  exact broadcastInDim_apply _ bcast_S1x8192x1_S8192x8192x1_0_1_2 y i (idx_main_v95 i) (fun a => match a with
    | ⟨0, _⟩ => by show 0 = if (1 : Nat) = 1 then 0 else (i 0).val; rw [if_pos rfl]
    | ⟨1, _⟩ => by show (i 1).val = if (8192 : Nat) = 1 then 0 else (i 1).val; rw [if_neg (by decide)]
    | ⟨2, _⟩ => by show 0 = if (1 : Nat) = 1 then 0 else (i 2).val; rw [if_pos rfl])

def val_main_v96 : (⟨S8192x8192x1, .f32⟩ : BufTy).Contents (Elt F) :=
  subf (val_main_v94 (F := F) x2) (val_main_v95 (F := F) x2)

theorem val_main_v96_apply (i : S8192x8192x1.Idx) :
    val_main_v96 (F := F) x2 i = FloatOps.subf (val_main_v94 (F := F) x2 i) (val_main_v95 (F := F) x2 i) := rfl

def val_main_v97 : (⟨S8192x8192x1, .f32⟩ : BufTy).Contents (Elt F) :=
  mulf (val_main_v96 (F := F) x2) (val_main_v96 (F := F) x2)

theorem val_main_v97_apply (i : S8192x8192x1.Idx) :
    val_main_v97 (F := F) x2 i = FloatOps.mulf (val_main_v96 (F := F) x2 i) (val_main_v96 (F := F) x2 i) := rfl

def val_main_cst_14 : (⟨S_, .f32⟩ : BufTy).Contents (Elt F) :=
  constant S_ .f32 0x00000000#32

def val_main_v98 : (⟨S8192x8192, .f32⟩ : BufTy).Contents (Elt F) :=
  Host.reduceAdd (val_main_v97 (F := F) x2) (val_main_cst_14 (F := F)) reducesTo_S8192x8192x1_S8192x8192_d2 h_S_

abbrev idx_main_v98 (i : S8192x8192.Idx) (k : Fin 1) : S8192x8192x1.Idx := fun a => match a with
  | ⟨0, _⟩ => ⟨(i 0).val, (i 0).isLt⟩
  | ⟨1, _⟩ => ⟨(i 1).val, (i 1).isLt⟩
  | ⟨2, _⟩ => ⟨k.val, k.isLt⟩

theorem val_main_v98_apply (x2 : (⟨S4096, .f32⟩ : BufTy).Contents (Elt Ideal)) (i : S8192x8192.Idx) :
    val_main_v98 (F := Ideal) x2 i = (val_main_cst_14 (F := Ideal)) (Shape.Idx.first h_S_) + ∑ k : Fin 1, (val_main_v97 (F := Ideal) x2) (idx_main_v98 i k) := by
  unfold val_main_v98
  generalize val_main_v97 (F := Ideal) x2 = y0
  simp only [Host.reduceAdd, Ideal.hostReduceAdd_def]
  rw [Ideal.hostReduceAdd_single reducesTo_S8192x8192x1_S8192x8192_d2 (by decide)]
  refine congrArg (_ + ·) (Finset.sum_congr rfl fun k _ => ?_)
  exact congrArg y0 (funext fun a => Fin.ext (by match a with | ⟨0, _⟩ => rfl | ⟨1, _⟩ => rfl | ⟨2, _⟩ => rfl))

def val_main_cst_15 : (⟨S_, .f32⟩ : BufTy).Contents (Elt F) :=
  constant S_ .f32 0xBCA3D70A#32

def val_main_v99 : (⟨S8192x8192, .f32⟩ : BufTy).Contents (Elt F) :=
  broadcastInDim S8192x8192 ![] bcast_S_S8192x8192 (val_main_cst_15 (F := F))

def val_main_v100 : (⟨S8192x8192, .f32⟩ : BufTy).Contents (Elt F) :=
  mulf (val_main_v99 (F := F)) (val_main_v98 (F := F) x2)

def val_main_v101 : (⟨S8192x8192, .f32⟩ : BufTy).Contents (Elt F) :=
  Host.exp (val_main_v100 (F := F) x2)

def val_main_v102 : (⟨S8192x8192, .i32⟩ : BufTy).Contents (Elt F) :=
  iotaInDim S8192x8192 32 0

def val_main_v103 : (⟨S8192x8192, .i32⟩ : BufTy).Contents (Elt F) :=
  iotaInDim S8192x8192 32 1

def val_main_c_16 : (⟨S_, .i32⟩ : BufTy).Contents (Elt F) :=
  constantI S_ 32 0#32

def val_main_v104 : (⟨S8192x8192, .i32⟩ : BufTy).Contents (Elt F) :=
  broadcastInDim S8192x8192 ![] bcast_S_S8192x8192 (val_main_c_16 (F := F))

def val_main_v105 : (⟨S8192x8192, .i32⟩ : BufTy).Contents (Elt F) :=
  addi (val_main_v102 (F := F)) (val_main_v104 (F := F))

def val_main_v106 : (⟨S8192x8192, .i1⟩ : BufTy).Contents (Elt F) :=
  cmpi .eq (val_main_v105 (F := F)) (val_main_v103 (F := F))

def val_main_v107 : (⟨S8192x8192, .f32⟩ : BufTy).Contents (Elt F) :=
  uitofp .f32 (val_main_v106 (F := F))

def val_main_cst_17 : (⟨S_, .f32⟩ : BufTy).Contents (Elt F) :=
  constant S_ .f32 0x3F800000#32

def val_main_v108 : (⟨S8192x8192, .f32⟩ : BufTy).Contents (Elt F) :=
  broadcastInDim S8192x8192 ![] bcast_S_S8192x8192 (val_main_cst_17 (F := F))

def val_main_v109 : (⟨S8192x8192, .f32⟩ : BufTy).Contents (Elt F) :=
  subf (val_main_v108 (F := F)) (val_main_v107 (F := F))

def val_main_v110 : (⟨S8192x8192, .f32⟩ : BufTy).Contents (Elt F) :=
  mulf (val_main_v101 (F := F) x2) (val_main_v109 (F := F))

def val_main_cst_18 : (⟨S_, .f32⟩ : BufTy).Contents (Elt F) :=
  constant S_ .f32 0x00000000#32

def val_main_v111 : (⟨S8192, .f32⟩ : BufTy).Contents (Elt F) :=
  Host.reduceAdd (val_main_v110 (F := F) x2) (val_main_cst_18 (F := F)) reducesTo_S8192x8192_S8192_d1 h_S_

abbrev idx_main_v111 (i : S8192.Idx) (k : Fin 8192) : S8192x8192.Idx := fun a => match a with
  | ⟨0, _⟩ => ⟨(i 0).val, (i 0).isLt⟩
  | ⟨1, _⟩ => ⟨k.val, k.isLt⟩

theorem val_main_v111_apply (x2 : (⟨S4096, .f32⟩ : BufTy).Contents (Elt Ideal)) (i : S8192.Idx) :
    val_main_v111 (F := Ideal) x2 i = (val_main_cst_18 (F := Ideal)) (Shape.Idx.first h_S_) + ∑ k : Fin 8192, (val_main_v110 (F := Ideal) x2) (idx_main_v111 i k) := by
  unfold val_main_v111
  generalize val_main_v110 (F := Ideal) x2 = y0
  simp only [Host.reduceAdd, Ideal.hostReduceAdd_def]
  rw [Ideal.hostReduceAdd_single reducesTo_S8192x8192_S8192_d1 (by decide)]
  refine congrArg (_ + ·) (Finset.sum_congr rfl fun k _ => ?_)
  exact congrArg y0 (funext fun a => Fin.ext (by match a with | ⟨0, _⟩ => rfl | ⟨1, _⟩ => rfl))

def val_main_v112 : (⟨S8192x1, .f32⟩ : BufTy).Contents (Elt F) :=
  broadcastInDim S8192x1 ![0] bcast_S8192_S8192x1_0 (val_main_v111 (F := F) x2)

abbrev idx_main_v112 (i : S8192x1.Idx) : S8192.Idx := fun a => match a with
  | ⟨0, _⟩ => ⟨(i 0).val, (i 0).isLt⟩

theorem val_main_v112_apply (i : S8192x1.Idx) :
    val_main_v112 (F := F) x2 i = val_main_v111 (F := F) x2 (idx_main_v112 i) := by
  unfold val_main_v112
  generalize val_main_v111 (F := F) x2 = y
  exact broadcastInDim_apply _ bcast_S8192_S8192x1_0 y i (idx_main_v112 i) (fun a => match a with
    | ⟨0, _⟩ => by show (i 0).val = if (8192 : Nat) = 1 then 0 else (i 0).val; rw [if_neg (by decide)])

def val_main_v113 : (⟨S8192x8192, .f32⟩ : BufTy).Contents (Elt F) :=
  broadcastInDim S8192x8192 ![0, 1] bcast_S8192x1_S8192x8192_0_1 (val_main_v112 (F := F) x2)

abbrev idx_main_v113 (i : S8192x8192.Idx) : S8192x1.Idx := fun a => match a with
  | ⟨0, _⟩ => ⟨(i 0).val, (i 0).isLt⟩
  | ⟨1, _⟩ => ⟨0, Nat.one_pos⟩

theorem val_main_v113_apply (i : S8192x8192.Idx) :
    val_main_v113 (F := F) x2 i = val_main_v112 (F := F) x2 (idx_main_v113 i) := by
  unfold val_main_v113
  generalize val_main_v112 (F := F) x2 = y
  exact broadcastInDim_apply _ bcast_S8192x1_S8192x8192_0_1 y i (idx_main_v113 i) (fun a => match a with
    | ⟨0, _⟩ => by show (i 0).val = if (8192 : Nat) = 1 then 0 else (i 0).val; rw [if_neg (by decide)]
    | ⟨1, _⟩ => by show 0 = if (1 : Nat) = 1 then 0 else (i 1).val; rw [if_pos rfl])

def val_main_v114 : (⟨S8192x8192, .f32⟩ : BufTy).Contents (Elt F) :=
  Host.divf (val_main_v110 (F := F) x2) (val_main_v113 (F := F) x2)

theorem val_main_v114_apply (i : S8192x8192.Idx) :
    val_main_v114 (F := F) x2 i = FloatOps.hostDivf (val_main_v110 (F := F) x2 i) (val_main_v113 (F := F) x2 i) := rfl

def val_main_v115 : (⟨S4096x8192, .f32⟩ : BufTy).Contents (Elt F) :=
  concatenate S4096x8192 1 [⟨S4096x4096, (val_main_v78 (F := F) x0 x3 x4 x5 x6)⟩, ⟨S4096x4096, (val_main_v89 (F := F) x0 x1 x3 x4 x5 x6)⟩] concatenates_S4096x4096_S4096x4096_S4096x8192_d1

def val_main_v116 : (⟨S4096x4096, .f32⟩ : BufTy).Contents (Elt F) :=
  transpose S4096x4096 [1, 0] (val_main_v89 (F := F) x0 x1 x3 x4 x5 x6) transposes_S4096x4096_S4096x4096_1_0

abbrev idx_main_v116 (i : S4096x4096.Idx) : S4096x4096.Idx := fun a => match a with
  | ⟨0, _⟩ => ⟨(i 1).val, (i 1).isLt⟩
  | ⟨1, _⟩ => ⟨(i 0).val, (i 0).isLt⟩

theorem val_main_v116_apply (i : S4096x4096.Idx) :
    val_main_v116 (F := F) x0 x1 x3 x4 x5 x6 i = val_main_v89 (F := F) x0 x1 x3 x4 x5 x6 (idx_main_v116 i) := by
  unfold val_main_v116
  generalize val_main_v89 (F := F) x0 x1 x3 x4 x5 x6 = y
  exact transpose_apply [1, 0] y transposes_S4096x4096_S4096x4096_1_0 i (idx_main_v116 i) (fun b => match b with
    | ⟨0, _⟩ => rfl
    | ⟨1, _⟩ => rfl)

def val_main_v117 : (⟨S4096x8192, .f32⟩ : BufTy).Contents (Elt F) :=
  concatenate S4096x8192 1 [⟨S4096x4096, (val_main_v116 (F := F) x0 x1 x3 x4 x5 x6)⟩, ⟨S4096x4096, (val_main_v85 (F := F) x1 x3 x4 x5 x6)⟩] concatenates_S4096x4096_S4096x4096_S4096x8192_d1

def val_main_v118 : (⟨S8192x8192, .f32⟩ : BufTy).Contents (Elt F) :=
  concatenate S8192x8192 0 [⟨S4096x8192, (val_main_v115 (F := F) x0 x1 x3 x4 x5 x6)⟩, ⟨S4096x8192, (val_main_v117 (F := F) x0 x1 x3 x4 x5 x6)⟩] concatenates_S4096x8192_S4096x8192_S8192x8192_d0

def val_main_call4_cst : (⟨S_, .f32⟩ : BufTy).Contents (Elt F) :=
  constant S_ .f32 0xFF800000#32

theorem val_main_call4_cst_apply (i : S_.Idx) :
    val_main_call4_cst (F := F) i = FloatOps.ofBits .f32 0xFF800000#32 := rfl

def val_main_call4_v0 : (⟨S8192, .f32⟩ : BufTy).Contents (Elt F) :=
  Host.reduce FloatOps.maximumf (val_main_v118 (F := F) x0 x1 x3 x4 x5 x6) (val_main_call4_cst (F := F)) reducesTo_S8192x8192_S8192_d1 h_S_

def val_main_call4_cst_0 : (⟨S_, .f32⟩ : BufTy).Contents (Elt F) :=
  constant S_ .f32 0xFF800000#32

theorem val_main_call4_cst_0_apply (i : S_.Idx) :
    val_main_call4_cst_0 (F := F) i = FloatOps.ofBits .f32 0xFF800000#32 := rfl

def val_main_call4_v1 : (⟨S8192, .f32⟩ : BufTy).Contents (Elt F) :=
  broadcastInDim S8192 ![] bcast_S_S8192 (val_main_call4_cst_0 (F := F))

abbrev idx_main_call4_v1 (i : S8192.Idx) : S_.Idx := fun a => a.elim0

theorem val_main_call4_v1_apply (i : S8192.Idx) :
    val_main_call4_v1 (F := F) i = val_main_call4_cst_0 (F := F) (idx_main_call4_v1 i) := by
  unfold val_main_call4_v1
  generalize val_main_call4_cst_0 (F := F) = y
  exact broadcastInDim_apply _ bcast_S_S8192 y i (idx_main_call4_v1 i) (fun a => a.elim0)

def val_main_call4_v2 : (⟨S8192, .f32⟩ : BufTy).Contents (Elt F) :=
  maximumf (val_main_call4_v1 (F := F)) (val_main_call4_v0 (F := F) x0 x1 x3 x4 x5 x6)

theorem val_main_call4_v2_apply (i : S8192.Idx) :
    val_main_call4_v2 (F := F) x0 x1 x3 x4 x5 x6 i = FloatOps.maximumf (val_main_call4_v1 (F := F) i) (val_main_call4_v0 (F := F) x0 x1 x3 x4 x5 x6 i) := rfl

def val_main_call4_v3 : (⟨S8192x1, .f32⟩ : BufTy).Contents (Elt F) :=
  broadcastInDim S8192x1 ![0] bcast_S8192_S8192x1_0 (val_main_call4_v2 (F := F) x0 x1 x3 x4 x5 x6)

abbrev idx_main_call4_v3 (i : S8192x1.Idx) : S8192.Idx := fun a => match a with
  | ⟨0, _⟩ => ⟨(i 0).val, (i 0).isLt⟩

theorem val_main_call4_v3_apply (i : S8192x1.Idx) :
    val_main_call4_v3 (F := F) x0 x1 x3 x4 x5 x6 i = val_main_call4_v2 (F := F) x0 x1 x3 x4 x5 x6 (idx_main_call4_v3 i) := by
  unfold val_main_call4_v3
  generalize val_main_call4_v2 (F := F) x0 x1 x3 x4 x5 x6 = y
  exact broadcastInDim_apply _ bcast_S8192_S8192x1_0 y i (idx_main_call4_v3 i) (fun a => match a with
    | ⟨0, _⟩ => by show (i 0).val = if (8192 : Nat) = 1 then 0 else (i 0).val; rw [if_neg (by decide)])

def val_main_call4_v4 : (⟨S8192x8192, .f32⟩ : BufTy).Contents (Elt F) :=
  broadcastInDim S8192x8192 ![0, 1] bcast_S8192x1_S8192x8192_0_1 (val_main_call4_v3 (F := F) x0 x1 x3 x4 x5 x6)

abbrev idx_main_call4_v4 (i : S8192x8192.Idx) : S8192x1.Idx := fun a => match a with
  | ⟨0, _⟩ => ⟨(i 0).val, (i 0).isLt⟩
  | ⟨1, _⟩ => ⟨0, Nat.one_pos⟩

theorem val_main_call4_v4_apply (i : S8192x8192.Idx) :
    val_main_call4_v4 (F := F) x0 x1 x3 x4 x5 x6 i = val_main_call4_v3 (F := F) x0 x1 x3 x4 x5 x6 (idx_main_call4_v4 i) := by
  unfold val_main_call4_v4
  generalize val_main_call4_v3 (F := F) x0 x1 x3 x4 x5 x6 = y
  exact broadcastInDim_apply _ bcast_S8192x1_S8192x8192_0_1 y i (idx_main_call4_v4 i) (fun a => match a with
    | ⟨0, _⟩ => by show (i 0).val = if (8192 : Nat) = 1 then 0 else (i 0).val; rw [if_neg (by decide)]
    | ⟨1, _⟩ => by show 0 = if (1 : Nat) = 1 then 0 else (i 1).val; rw [if_pos rfl])

def val_main_call4_v5 : (⟨S8192x8192, .f32⟩ : BufTy).Contents (Elt F) :=
  subf (val_main_v118 (F := F) x0 x1 x3 x4 x5 x6) (val_main_call4_v4 (F := F) x0 x1 x3 x4 x5 x6)

theorem val_main_call4_v5_apply (i : S8192x8192.Idx) :
    val_main_call4_v5 (F := F) x0 x1 x3 x4 x5 x6 i = FloatOps.subf (val_main_v118 (F := F) x0 x1 x3 x4 x5 x6 i) (val_main_call4_v4 (F := F) x0 x1 x3 x4 x5 x6 i) := rfl

def val_main_call4_v6 : (⟨S8192x8192, .f32⟩ : BufTy).Contents (Elt F) :=
  Host.exp (val_main_call4_v5 (F := F) x0 x1 x3 x4 x5 x6)

theorem val_main_call4_v6_apply (i : S8192x8192.Idx) :
    val_main_call4_v6 (F := F) x0 x1 x3 x4 x5 x6 i = FloatOps.hostUnary .exp (val_main_call4_v5 (F := F) x0 x1 x3 x4 x5 x6 i) := rfl

def val_main_call4_cst_1 : (⟨S_, .f32⟩ : BufTy).Contents (Elt F) :=
  constant S_ .f32 0x00000000#32

def val_main_call4_v7 : (⟨S8192, .f32⟩ : BufTy).Contents (Elt F) :=
  Host.reduceAdd (val_main_call4_v6 (F := F) x0 x1 x3 x4 x5 x6) (val_main_call4_cst_1 (F := F)) reducesTo_S8192x8192_S8192_d1 h_S_

abbrev idx_main_call4_v7 (i : S8192.Idx) (k : Fin 8192) : S8192x8192.Idx := fun a => match a with
  | ⟨0, _⟩ => ⟨(i 0).val, (i 0).isLt⟩
  | ⟨1, _⟩ => ⟨k.val, k.isLt⟩

theorem val_main_call4_v7_apply (x0 x1 : (⟨S4096x2048, .f32⟩ : BufTy).Contents (Elt Ideal)) (x3 : (⟨S2048x2048, .f32⟩ : BufTy).Contents (Elt Ideal)) (x4 x5 : (⟨S2048, .f32⟩ : BufTy).Contents (Elt Ideal)) (x6 : (⟨S128x2048, .f32⟩ : BufTy).Contents (Elt Ideal)) (i : S8192.Idx) :
    val_main_call4_v7 (F := Ideal) x0 x1 x3 x4 x5 x6 i = (val_main_call4_cst_1 (F := Ideal)) (Shape.Idx.first h_S_) + ∑ k : Fin 8192, (val_main_call4_v6 (F := Ideal) x0 x1 x3 x4 x5 x6) (idx_main_call4_v7 i k) := by
  unfold val_main_call4_v7
  generalize val_main_call4_v6 (F := Ideal) x0 x1 x3 x4 x5 x6 = y0
  simp only [Host.reduceAdd, Ideal.hostReduceAdd_def]
  rw [Ideal.hostReduceAdd_single reducesTo_S8192x8192_S8192_d1 (by decide)]
  refine congrArg (_ + ·) (Finset.sum_congr rfl fun k _ => ?_)
  exact congrArg y0 (funext fun a => Fin.ext (by match a with | ⟨0, _⟩ => rfl | ⟨1, _⟩ => rfl))

def val_main_call4_v8 : (⟨S8192x1, .f32⟩ : BufTy).Contents (Elt F) :=
  broadcastInDim S8192x1 ![0] bcast_S8192_S8192x1_0 (val_main_call4_v7 (F := F) x0 x1 x3 x4 x5 x6)

abbrev idx_main_call4_v8 (i : S8192x1.Idx) : S8192.Idx := fun a => match a with
  | ⟨0, _⟩ => ⟨(i 0).val, (i 0).isLt⟩

theorem val_main_call4_v8_apply (i : S8192x1.Idx) :
    val_main_call4_v8 (F := F) x0 x1 x3 x4 x5 x6 i = val_main_call4_v7 (F := F) x0 x1 x3 x4 x5 x6 (idx_main_call4_v8 i) := by
  unfold val_main_call4_v8
  generalize val_main_call4_v7 (F := F) x0 x1 x3 x4 x5 x6 = y
  exact broadcastInDim_apply _ bcast_S8192_S8192x1_0 y i (idx_main_call4_v8 i) (fun a => match a with
    | ⟨0, _⟩ => by show (i 0).val = if (8192 : Nat) = 1 then 0 else (i 0).val; rw [if_neg (by decide)])

def val_main_call4_v9 : (⟨S8192x1, .f32⟩ : BufTy).Contents (Elt F) :=
  Host.log (val_main_call4_v8 (F := F) x0 x1 x3 x4 x5 x6)

theorem val_main_call4_v9_apply (i : S8192x1.Idx) :
    val_main_call4_v9 (F := F) x0 x1 x3 x4 x5 x6 i = FloatOps.hostUnary .log (val_main_call4_v8 (F := F) x0 x1 x3 x4 x5 x6 i) := rfl

def val_main_call4_v10 : (⟨S8192x8192, .f32⟩ : BufTy).Contents (Elt F) :=
  broadcastInDim S8192x8192 ![0, 1] bcast_S8192x1_S8192x8192_0_1 (val_main_call4_v9 (F := F) x0 x1 x3 x4 x5 x6)

abbrev idx_main_call4_v10 (i : S8192x8192.Idx) : S8192x1.Idx := fun a => match a with
  | ⟨0, _⟩ => ⟨(i 0).val, (i 0).isLt⟩
  | ⟨1, _⟩ => ⟨0, Nat.one_pos⟩

theorem val_main_call4_v10_apply (i : S8192x8192.Idx) :
    val_main_call4_v10 (F := F) x0 x1 x3 x4 x5 x6 i = val_main_call4_v9 (F := F) x0 x1 x3 x4 x5 x6 (idx_main_call4_v10 i) := by
  unfold val_main_call4_v10
  generalize val_main_call4_v9 (F := F) x0 x1 x3 x4 x5 x6 = y
  exact broadcastInDim_apply _ bcast_S8192x1_S8192x8192_0_1 y i (idx_main_call4_v10 i) (fun a => match a with
    | ⟨0, _⟩ => by show (i 0).val = if (8192 : Nat) = 1 then 0 else (i 0).val; rw [if_neg (by decide)]
    | ⟨1, _⟩ => by show 0 = if (1 : Nat) = 1 then 0 else (i 1).val; rw [if_pos rfl])

def val_main_v119 : (⟨S8192x8192, .f32⟩ : BufTy).Contents (Elt F) :=
  subf (val_main_call4_v5 (F := F) x0 x1 x3 x4 x5 x6) (val_main_call4_v10 (F := F) x0 x1 x3 x4 x5 x6)

theorem val_main_v119_apply (i : S8192x8192.Idx) :
    val_main_v119 (F := F) x0 x1 x3 x4 x5 x6 i = FloatOps.subf (val_main_call4_v5 (F := F) x0 x1 x3 x4 x5 x6 i) (val_main_call4_v10 (F := F) x0 x1 x3 x4 x5 x6 i) := rfl

def val_main_v120 : (⟨S8192x8192, .f32⟩ : BufTy).Contents (Elt F) :=
  mulf (val_main_v114 (F := F) x2) (val_main_v119 (F := F) x0 x1 x3 x4 x5 x6)

theorem val_main_v120_apply (i : S8192x8192.Idx) :
    val_main_v120 (F := F) x0 x1 x2 x3 x4 x5 x6 i = FloatOps.mulf (val_main_v114 (F := F) x2 i) (val_main_v119 (F := F) x0 x1 x3 x4 x5 x6 i) := rfl

def val_main_cst_19 : (⟨S_, .f32⟩ : BufTy).Contents (Elt F) :=
  constant S_ .f32 0x00000000#32

theorem val_main_cst_19_apply (i : S_.Idx) :
    val_main_cst_19 (F := F) i = FloatOps.ofBits .f32 0x00000000#32 := rfl

def val_main_v121 : (⟨S_, .f32⟩ : BufTy).Contents (Elt F) :=
  Host.reduceAdd (val_main_v120 (F := F) x0 x1 x2 x3 x4 x5 x6) (val_main_cst_19 (F := F)) reducesTo_S8192x8192_S_d0_1 h_S_

theorem val_main_v121_apply (x0 x1 : (⟨S4096x2048, .f32⟩ : BufTy).Contents (Elt Ideal)) (x2 : (⟨S4096, .f32⟩ : BufTy).Contents (Elt Ideal)) (x3 : (⟨S2048x2048, .f32⟩ : BufTy).Contents (Elt Ideal)) (x4 x5 : (⟨S2048, .f32⟩ : BufTy).Contents (Elt Ideal)) (x6 : (⟨S128x2048, .f32⟩ : BufTy).Contents (Elt Ideal)) (i : S_.Idx) :
    val_main_v121 (F := Ideal) x0 x1 x2 x3 x4 x5 x6 i = (val_main_cst_19 (F := Ideal)) (Shape.Idx.first h_S_) + ∑ j : S8192x8192.Idx, (val_main_v120 (F := Ideal) x0 x1 x2 x3 x4 x5 x6) j := by
  unfold val_main_v121
  generalize val_main_v120 (F := Ideal) x0 x1 x2 x3 x4 x5 x6 = y0
  simp only [Host.reduceAdd, Ideal.hostReduceAdd_def]
  exact Ideal.hostReduceAdd_total reducesTo_S8192x8192_S_d0_1 (fun b => b.elim0) y0 _ i

def val_main_v122 : (⟨S_, .f32⟩ : BufTy).Contents (Elt F) :=
  Host.negf (val_main_v121 (F := F) x0 x1 x2 x3 x4 x5 x6)

theorem val_main_v122_apply (i : S_.Idx) :
    val_main_v122 (F := F) x0 x1 x2 x3 x4 x5 x6 i = FloatOps.hostNegf (val_main_v121 (F := F) x0 x1 x2 x3 x4 x5 x6 i) := rfl

def val_main_cst_20 : (⟨S_, .f32⟩ : BufTy).Contents (Elt F) :=
  constant S_ .f32 0x45800000#32

theorem val_main_cst_20_apply (i : S_.Idx) :
    val_main_cst_20 (F := F) i = FloatOps.ofBits .f32 0x45800000#32 := rfl

def val_main_v123 : (⟨S_, .f32⟩ : BufTy).Contents (Elt F) :=
  Host.divf (val_main_v122 (F := F) x0 x1 x2 x3 x4 x5 x6) (val_main_cst_20 (F := F))

theorem val_main_v123_apply (i : S_.Idx) :
    val_main_v123 (F := F) x0 x1 x2 x3 x4 x5 x6 i = FloatOps.hostDivf (val_main_v122 (F := F) x0 x1 x2 x3 x4 x5 x6 i) (val_main_cst_20 (F := F) i) := rfl

end Cert.ReferenceIdeal.ReadP

end
-- ==== Proof.RefRun.lean ====
import proofs.«115278_j52183852646963_1_alg».proof.Proof.ReadP
import Idealize.ShloMosaic.Lib.StableHlo.Run

set_option Elab.async false

noncomputable section

namespace Cert.ReferenceIdeal.HandRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

abbrev args : List (Ref sig .tc) := [main_arg0, main_arg1, main_arg2, main_arg3, main_arg4, main_arg5, main_arg6]

/-- What the run of a line asks of each operation, and that it writes no argument. -/
structure Ok (op : HloOp τ sig (Elt F)) : Prop where
  sub : op.bufs ⊆ tcRefs τ sig
  fresh : op.fresh = ∅
  keep : ∀ r ∈ args, Proc.devRef .tc r ∉ op.writes

/-- An operation that writes one buffer, not an argument, is such an operation. -/
theorem ok_of {op : HloOp τ sig (Elt F)} {y : Ref sig .tc}
    (hb : op.bufs ⊆ tcRefs τ sig := by simp only [nullary_bufs_sub, unary_bufs_sub, binary_bufs_sub, reshape_bufs_sub])
    (hw : op.writes = {Proc.devRef .tc y} := by rfl) (hy : y ∉ args := by decide) (hf : op.fresh = ∅ := by rfl) : Ok op :=
  ⟨hb, hf, fun r hr h => hy (Proc.devRef_injective _ (Finset.mem_singleton.mp (hw ▸ h)) ▸ hr)⟩

abbrev ops_a : List (HloOp τ sig (Elt F)) :=
  [ unary main_arg3 main_v0 (transpose S2048x2048 [1, 0] · transposes_S2048x2048_S2048x2048_1_0),
    binary main_arg0 main_v0 main_v1 (fun l r => Host.dotGeneral dot_S4096x2048_S2048x2048_S4096x2048_1_0_0_1_n_n none l r),
    nullary main_cst (constant S_ .f32 0x00000000#32),
    binary main_v1 main_cst main_v2 (fun x v => Host.reduceAdd x v reducesTo_S4096x2048_S2048_d0 h_S_),
    nullary main_cst_0 (constant S_ .f32 0x45800000#32),
    unary main_cst_0 main_v3 (broadcastInDim S2048 ![] bcast_S_S2048),
    binary main_v2 main_v3 main_v4 Host.divf,
    unary main_v4 main_v5 (broadcastInDim S1x2048 ![1] bcast_S2048_S1x2048_1),
    unary main_v5 main_v6 (broadcastInDim S4096x2048 ![0, 1] bcast_S1x2048_S4096x2048_0_1),
    binary main_v1 main_v6 main_v7 subf,
    binary main_v7 main_v7 main_v8 mulf,
    nullary main_cst_1 (constant S_ .f32 0x00000000#32),
    binary main_v8 main_cst_1 main_v9 (fun x v => Host.reduceAdd x v reducesTo_S4096x2048_S2048_d0 h_S_),
    nullary main_cst_2 (constant S_ .f32 0x45800000#32),
    unary main_cst_2 main_v10 (broadcastInDim S2048 ![] bcast_S_S2048),
    binary main_v9 main_v10 main_v11 Host.divf,
    unary main_v4 main_v12 (broadcastInDim S1x2048 ![1] bcast_S2048_S1x2048_1),
    unary main_v12 main_v13 (broadcastInDim S4096x2048 ![0, 1] bcast_S1x2048_S4096x2048_0_1),
    binary main_v1 main_v13 main_v14 subf,
    nullary main_cst_3 (constant S_ .f32 0x3727C5AC#32),
    unary main_cst_3 main_v15 (broadcastInDim S2048 ![] bcast_S_S2048),
    binary main_v11 main_v15 main_v16 addf,
    unary main_v16 main_v17 Host.rsqrt,
    unary main_v17 main_v18 (broadcastInDim S1x2048 ![1] bcast_S2048_S1x2048_1),
    unary main_v18 main_v19 (broadcastInDim S4096x2048 ![0, 1] bcast_S1x2048_S4096x2048_0_1),
    binary main_v14 main_v19 main_v20 mulf,
    unary main_arg4 main_v21 (broadcastInDim S1x2048 ![1] bcast_S2048_S1x2048_1),
    unary main_v21 main_v22 (broadcastInDim S4096x2048 ![0, 1] bcast_S1x2048_S4096x2048_0_1),
    binary main_v20 main_v22 main_v23 mulf,
    unary main_arg5 main_v24 (broadcastInDim S1x2048 ![1] bcast_S2048_S1x2048_1),
    unary main_v24 main_v25 (broadcastInDim S4096x2048 ![0, 1] bcast_S1x2048_S4096x2048_0_1),
    binary main_v23 main_v25 main_v26 addf,
    nullary main_call0_cst (constant S_ .f32 0x00000000#32),
    unary main_call0_cst main_call0_v0 (broadcastInDim S4096x2048 ![] bcast_S_S4096x2048),
    binary main_v26 main_call0_v0 main_v27 maximumf,
    unary main_arg6 main_v28 (transpose S2048x128 [1, 0] · transposes_S128x2048_S2048x128_1_0),
    binary main_v27 main_v28 main_v29 (fun l r => Host.dotGeneral dot_S4096x2048_S2048x128_S4096x128_1_0_0_1_n_n none l r) ]

theorem ok_a : (ops_a : List (HloOp τ sig (Elt F))).Forall Ok := by (repeat' apply And.intro) <;> exact ok_of

abbrev ops_b : List (HloOp τ sig (Elt F)) :=
  [ unary main_arg3 main_v30 (transpose S2048x2048 [1, 0] · transposes_S2048x2048_S2048x2048_1_0),
    binary main_arg1 main_v30 main_v31 (fun l r => Host.dotGeneral dot_S4096x2048_S2048x2048_S4096x2048_1_0_0_1_n_n none l r),
    nullary main_cst_4 (constant S_ .f32 0x00000000#32),
    binary main_v31 main_cst_4 main_v32 (fun x v => Host.reduceAdd x v reducesTo_S4096x2048_S2048_d0 h_S_),
    nullary main_cst_5 (constant S_ .f32 0x45800000#32),
    unary main_cst_5 main_v33 (broadcastInDim S2048 ![] bcast_S_S2048),
    binary main_v32 main_v33 main_v34 Host.divf,
    unary main_v34 main_v35 (broadcastInDim S1x2048 ![1] bcast_S2048_S1x2048_1),
    unary main_v35 main_v36 (broadcastInDim S4096x2048 ![0, 1] bcast_S1x2048_S4096x2048_0_1),
    binary main_v31 main_v36 main_v37 subf,
    binary main_v37 main_v37 main_v38 mulf,
    nullary main_cst_6 (constant S_ .f32 0x00000000#32),
    binary main_v38 main_cst_6 main_v39 (fun x v => Host.reduceAdd x v reducesTo_S4096x2048_S2048_d0 h_S_),
    nullary main_cst_7 (constant S_ .f32 0x45800000#32),
    unary main_cst_7 main_v40 (broadcastInDim S2048 ![] bcast_S_S2048),
    binary main_v39 main_v40 main_v41 Host.divf,
    unary main_v34 main_v42 (broadcastInDim S1x2048 ![1] bcast_S2048_S1x2048_1),
    unary main_v42 main_v43 (broadcastInDim S4096x2048 ![0, 1] bcast_S1x2048_S4096x2048_0_1),
    binary main_v31 main_v43 main_v44 subf,
    nullary main_cst_8 (constant S_ .f32 0x3727C5AC#32),
    unary main_cst_8 main_v45 (broadcastInDim S2048 ![] bcast_S_S2048),
    binary main_v41 main_v45 main_v46 addf,
    unary main_v46 main_v47 Host.rsqrt,
    unary main_v47 main_v48 (broadcastInDim S1x2048 ![1] bcast_S2048_S1x2048_1),
    unary main_v48 main_v49 (broadcastInDim S4096x2048 ![0, 1] bcast_S1x2048_S4096x2048_0_1) ]

theorem ok_b : (ops_b : List (HloOp τ sig (Elt F))).Forall Ok := by (repeat' apply And.intro) <;> exact ok_of

abbrev ops_c : List (HloOp τ sig (Elt F)) :=
  [ binary main_v44 main_v49 main_v50 mulf,
    unary main_arg4 main_v51 (broadcastInDim S1x2048 ![1] bcast_S2048_S1x2048_1),
    unary main_v51 main_v52 (broadcastInDim S4096x2048 ![0, 1] bcast_S1x2048_S4096x2048_0_1),
    binary main_v50 main_v52 main_v53 mulf,
    unary main_arg5 main_v54 (broadcastInDim S1x2048 ![1] bcast_S2048_S1x2048_1),
    unary main_v54 main_v55 (broadcastInDim S4096x2048 ![0, 1] bcast_S1x2048_S4096x2048_0_1),
    binary main_v53 main_v55 main_v56 addf,
    nullary main_call1_cst (constant S_ .f32 0x00000000#32),
    unary main_call1_cst main_call1_v0 (broadcastInDim S4096x2048 ![] bcast_S_S4096x2048),
    binary main_v56 main_call1_v0 main_v57 maximumf,
    unary main_arg6 main_v58 (transpose S2048x128 [1, 0] · transposes_S128x2048_S2048x128_1_0),
    binary main_v57 main_v58 main_v59 (fun l r => Host.dotGeneral dot_S4096x2048_S2048x128_S4096x128_1_0_0_1_n_n none l r) ]

theorem ok_c : (ops_c : List (HloOp τ sig (Elt F))).Forall Ok := by (repeat' apply And.intro) <;> exact ok_of

abbrev ops_d : List (HloOp τ sig (Elt F)) :=
  [ binary main_v29 main_v29 main_call2_v0 mulf,
    nullary main_call2_cst (constant S_ .f32 0x00000000#32),
    binary main_call2_v0 main_call2_cst main_call2_v1 (fun x v => Host.reduceAdd x v reducesTo_S4096x128_S4096_d1 h_S_),
    unary main_call2_v1 main_call2_v2 (broadcastInDim S4096x1 ![0] bcast_S4096_S4096x1_0),
    unary main_call2_v2 main_v60 Host.sqrt,
    unary main_v60 main_v61 (broadcastInDim S4096x128 ![0, 1] bcast_S4096x1_S4096x128_0_1),
    binary main_v29 main_v61 main_v62 Host.divf,
    binary main_v59 main_v59 main_call3_v0 mulf,
    nullary main_call3_cst (constant S_ .f32 0x00000000#32),
    binary main_call3_v0 main_call3_cst main_call3_v1 (fun x v => Host.reduceAdd x v reducesTo_S4096x128_S4096_d1 h_S_),
    unary main_call3_v1 main_call3_v2 (broadcastInDim S4096x1 ![0] bcast_S4096_S4096x1_0),
    unary main_call3_v2 main_v63 Host.sqrt,
    unary main_v63 main_v64 (broadcastInDim S4096x128 ![0, 1] bcast_S4096x1_S4096x128_0_1),
    binary main_v59 main_v64 main_v65 Host.divf ]

theorem ok_d : (ops_d : List (HloOp τ sig (Elt F))).Forall Ok := by (repeat' apply And.intro) <;> exact ok_of

abbrev ops_e : List (HloOp τ sig (Elt F)) :=
  [ nullary main_v66 (iotaInDim S4096x4096 32 0),
    nullary main_v67 (iotaInDim S4096x4096 32 1),
    nullary main_c (constantI S_ 32 0#32),
    unary main_c main_v68 (broadcastInDim S4096x4096 ![] bcast_S_S4096x4096),
    binary main_v66 main_v68 main_v69 addi,
    binary main_v69 main_v67 main_v70 (cmpi .eq),
    unary main_v70 main_v71 (uitofp .f32) ]

theorem ok_e : (ops_e : List (HloOp τ sig (Elt F))).Forall Ok := by (repeat' apply And.intro) <;> exact ok_of

abbrev ops_f : List (HloOp τ sig (Elt F)) :=
  [ unary main_v62 main_v72 (transpose S128x4096 [1, 0] · transposes_S4096x128_S128x4096_1_0),
    binary main_v62 main_v72 main_v73 (fun l r => Host.dotGeneral dot_S4096x128_S128x4096_S4096x4096_1_0_0_1_n_n none l r),
    nullary main_cst_9 (constant S_ .f32 0x3DCCCCCD#32),
    unary main_cst_9 main_v74 (broadcastInDim S4096x4096 ![] bcast_S_S4096x4096),
    binary main_v73 main_v74 main_v75 Host.divf,
    nullary main_cst_10 (constant S_ .f32 0x4CBEBC20#32),
    unary main_cst_10 main_v76 (broadcastInDim S4096x4096 ![] bcast_S_S4096x4096),
    binary main_v76 main_v71 main_v77 mulf,
    binary main_v75 main_v77 main_v78 subf,
    unary main_v65 main_v79 (transpose S128x4096 [1, 0] · transposes_S4096x128_S128x4096_1_0),
    binary main_v65 main_v79 main_v80 (fun l r => Host.dotGeneral dot_S4096x128_S128x4096_S4096x4096_1_0_0_1_n_n none l r),
    nullary main_cst_11 (constant S_ .f32 0x3DCCCCCD#32),
    unary main_cst_11 main_v81 (broadcastInDim S4096x4096 ![] bcast_S_S4096x4096),
    binary main_v80 main_v81 main_v82 Host.divf,
    nullary main_cst_12 (constant S_ .f32 0x4CBEBC20#32),
    unary main_cst_12 main_v83 (broadcastInDim S4096x4096 ![] bcast_S_S4096x4096),
    binary main_v83 main_v71 main_v84 mulf,
    binary main_v82 main_v84 main_v85 subf,
    unary main_v65 main_v86 (transpose S128x4096 [1, 0] · transposes_S4096x128_S128x4096_1_0),
    binary main_v62 main_v86 main_v87 (fun l r => Host.dotGeneral dot_S4096x128_S128x4096_S4096x4096_1_0_0_1_n_n none l r),
    nullary main_cst_13 (constant S_ .f32 0x3DCCCCCD#32),
    unary main_cst_13 main_v88 (broadcastInDim S4096x4096 ![] bcast_S_S4096x4096),
    binary main_v87 main_v88 main_v89 Host.divf ]

theorem ok_f : (ops_f : List (HloOp τ sig (Elt F))).Forall Ok := by (repeat' apply And.intro) <;> exact ok_of

abbrev ops_g : List (HloOp τ sig (Elt F)) :=
  [ binary main_arg2 main_arg2 main_v90 (fun a b => concatenate S8192 0 [⟨S4096, a⟩, ⟨S4096, b⟩] concatenates_S4096_S4096_S8192_d0),
    reshape main_v90 main_v91 rfl shapeCasts_S8192_S8192x1,
    unary main_v91 main_v92 (broadcastInDim S8192x1x1 ![0, 2] bcast_S8192x1_S8192x1x1_0_2),
    unary main_v91 main_v93 (broadcastInDim S1x8192x1 ![1, 2] bcast_S8192x1_S1x8192x1_1_2),
    unary main_v92 main_v94 (broadcastInDim S8192x8192x1 ![0, 1, 2] bcast_S8192x1x1_S8192x8192x1_0_1_2),
    unary main_v93 main_v95 (broadcastInDim S8192x8192x1 ![0, 1, 2] bcast_S1x8192x1_S8192x8192x1_0_1_2),
    binary main_v94 main_v95 main_v96 subf,
    binary main_v96 main_v96 main_v97 mulf,
    nullary main_cst_14 (constant S_ .f32 0x00000000#32),
    binary main_v97 main_cst_14 main_v98 (fun x v => Host.reduceAdd x v reducesTo_S8192x8192x1_S8192x8192_d2 h_S_),
    nullary main_cst_15 (constant S_ .f32 0xBCA3D70A#32),
    unary main_cst_15 main_v99 (broadcastInDim S8192x8192 ![] bcast_S_S8192x8192),
    binary main_v99 main_v98 main_v100 mulf,
    unary main_v100 main_v101 Host.exp ]

theorem ok_g : (ops_g : List (HloOp τ sig (Elt F))).Forall Ok := by (repeat' apply And.intro) <;> exact ok_of

abbrev ops_h : List (HloOp τ sig (Elt F)) :=
  [ nullary main_v102 (iotaInDim S8192x8192 32 0),
    nullary main_v103 (iotaInDim S8192x8192 32 1),
    nullary main_c_16 (constantI S_ 32 0#32),
    unary main_c_16 main_v104 (broadcastInDim S8192x8192 ![] bcast_S_S8192x8192),
    binary main_v102 main_v104 main_v105 addi,
    binary main_v105 main_v103 main_v106 (cmpi .eq),
    unary main_v106 main_v107 (uitofp .f32),
    nullary main_cst_17 (constant S_ .f32 0x3F800000#32),
    unary main_cst_17 main_v108 (broadcastInDim S8192x8192 ![] bcast_S_S8192x8192),
    binary main_v108 main_v107 main_v109 subf,
    binary main_v101 main_v109 main_v110 mulf,
    nullary main_cst_18 (constant S_ .f32 0x00000000#32),
    binary main_v110 main_cst_18 main_v111 (fun x v => Host.reduceAdd x v reducesTo_S8192x8192_S8192_d1 h_S_),
    unary main_v111 main_v112 (broadcastInDim S8192x1 ![0] bcast_S8192_S8192x1_0),
    unary main_v112 main_v113 (broadcastInDim S8192x8192 ![0, 1] bcast_S8192x1_S8192x8192_0_1),
    binary main_v110 main_v113 main_v114 Host.divf ]

theorem ok_h : (ops_h : List (HloOp τ sig (Elt F))).Forall Ok := by (repeat' apply And.intro) <;> exact ok_of

abbrev ops_i : List (HloOp τ sig (Elt F)) :=
  [ binary main_v78 main_v89 main_v115 (fun a b => concatenate S4096x8192 1 [⟨S4096x4096, a⟩, ⟨S4096x4096, b⟩] concatenates_S4096x4096_S4096x4096_S4096x8192_d1) ]

theorem ok_i : (ops_i : List (HloOp τ sig (Elt F))).Forall Ok := by (repeat' apply And.intro) <;> exact ok_of

abbrev ops_j : List (HloOp τ sig (Elt F)) :=
  [ unary main_v89 main_v116 (transpose S4096x4096 [1, 0] · transposes_S4096x4096_S4096x4096_1_0) ]

theorem ok_j : (ops_j : List (HloOp τ sig (Elt F))).Forall Ok := by (repeat' apply And.intro) <;> exact ok_of

abbrev ops_k : List (HloOp τ sig (Elt F)) :=
  [ binary main_v116 main_v85 main_v117 (fun a b => concatenate S4096x8192 1 [⟨S4096x4096, a⟩, ⟨S4096x4096, b⟩] concatenates_S4096x4096_S4096x4096_S4096x8192_d1) ]

theorem ok_k : (ops_k : List (HloOp τ sig (Elt F))).Forall Ok := by (repeat' apply And.intro) <;> exact ok_of

abbrev ops_l : List (HloOp τ sig (Elt F)) :=
  [ binary main_v115 main_v117 main_v118 (fun a b => concatenate S8192x8192 0 [⟨S4096x8192, a⟩, ⟨S4096x8192, b⟩] concatenates_S4096x8192_S4096x8192_S8192x8192_d0) ]

theorem ok_l : (ops_l : List (HloOp τ sig (Elt F))).Forall Ok := by (repeat' apply And.intro) <;> exact ok_of

abbrev ops_m : List (HloOp τ sig (Elt F)) :=
  [ TRef.nullary (TRef.of (T := ⟨S_, .f32⟩) main_call4_cst) (constant S_ .f32 0xFF800000#32),
    TRef.binary (TRef.of (T := ⟨S8192x8192, .f32⟩) main_v118) (TRef.of (T := ⟨S_, .f32⟩) main_call4_cst) (TRef.of (T := ⟨S8192, .f32⟩) main_call4_v0) (fun x v => Host.reduce FloatOps.maximumf x v reducesTo_S8192x8192_S8192_d1 h_S_) ]

theorem ok_m : (ops_m : List (HloOp τ sig (Elt F))).Forall Ok := by (repeat' apply And.intro) <;> exact ok_of

abbrev ops_n : List (HloOp τ sig (Elt F)) :=
  [ TRef.nullary (TRef.of (T := ⟨S_, .f32⟩) main_call4_cst_0) (constant S_ .f32 0xFF800000#32),
    TRef.unary (TRef.of (T := ⟨S_, .f32⟩) main_call4_cst_0) (TRef.of (T := ⟨S8192, .f32⟩) main_call4_v1) (broadcastInDim S8192 ![] bcast_S_S8192),
    TRef.binary (TRef.of (T := ⟨S8192, .f32⟩) main_call4_v1) (TRef.of (T := ⟨S8192, .f32⟩) main_call4_v0) (TRef.of (T := ⟨S8192, .f32⟩) main_call4_v2) maximumf ]

theorem ok_n : (ops_n : List (HloOp τ sig (Elt F))).Forall Ok := by (repeat' apply And.intro) <;> exact ok_of

abbrev ops_o : List (HloOp τ sig (Elt F)) :=
  [ TRef.unary (TRef.of (T := ⟨S8192, .f32⟩) main_call4_v2) (TRef.of (T := ⟨S8192x1, .f32⟩) main_call4_v3) (broadcastInDim S8192x1 ![0] bcast_S8192_S8192x1_0),
    TRef.unary (TRef.of (T := ⟨S8192x1, .f32⟩) main_call4_v3) (TRef.of (T := ⟨S8192x8192, .f32⟩) main_call4_v4) (broadcastInDim S8192x8192 ![0, 1] bcast_S8192x1_S8192x8192_0_1),
    TRef.binary (TRef.of (T := ⟨S8192x8192, .f32⟩) main_v118) (TRef.of (T := ⟨S8192x8192, .f32⟩) main_call4_v4) (TRef.of (T := ⟨S8192x8192, .f32⟩) main_call4_v5) subf ]

theorem ok_o : (ops_o : List (HloOp τ sig (Elt F))).Forall Ok := by (repeat' apply And.intro) <;> exact ok_of

abbrev ops_p : List (HloOp τ sig (Elt F)) :=
  [ TRef.unary (TRef.of (T := ⟨S8192x8192, .f32⟩) main_call4_v5) (TRef.of (T := ⟨S8192x8192, .f32⟩) main_call4_v6) Host.exp,
    TRef.nullary (TRef.of (T := ⟨S_, .f32⟩) main_call4_cst_1) (constant S_ .f32 0x00000000#32),
    TRef.binary (TRef.of (T := ⟨S8192x8192, .f32⟩) main_call4_v6) (TRef.of (T := ⟨S_, .f32⟩) main_call4_cst_1) (TRef.of (T := ⟨S8192, .f32⟩) main_call4_v7) (fun x v => Host.reduceAdd x v reducesTo_S8192x8192_S8192_d1 h_S_) ]

theorem ok_p : (ops_p : List (HloOp τ sig (Elt F))).Forall Ok := by (repeat' apply And.intro) <;> exact ok_of

abbrev ops_q : List (HloOp τ sig (Elt F)) :=
  [ TRef.unary (TRef.of (T := ⟨S8192, .f32⟩) main_call4_v7) (TRef.of (T := ⟨S8192x1, .f32⟩) main_call4_v8) (broadcastInDim S8192x1 ![0] bcast_S8192_S8192x1_0),
    TRef.unary (TRef.of (T := ⟨S8192x1, .f32⟩) main_call4_v8) (TRef.of (T := ⟨S8192x1, .f32⟩) main_call4_v9) Host.log,
    TRef.unary (TRef.of (T := ⟨S8192x1, .f32⟩) main_call4_v9) (TRef.of (T := ⟨S8192x8192, .f32⟩) main_call4_v10) (broadcastInDim S8192x8192 ![0, 1] bcast_S8192x1_S8192x8192_0_1),
    TRef.binary (TRef.of (T := ⟨S8192x8192, .f32⟩) main_call4_v5) (TRef.of (T := ⟨S8192x8192, .f32⟩) main_call4_v10) (TRef.of (T := ⟨S8192x8192, .f32⟩) main_v119) subf ]

theorem ok_q : (ops_q : List (HloOp τ sig (Elt F))).Forall Ok := by (repeat' apply And.intro) <;> exact ok_of

abbrev ops_r : List (HloOp τ sig (Elt F)) :=
  [ binary main_v114 main_v119 main_v120 mulf,
    nullary main_cst_19 (constant S_ .f32 0x00000000#32),
    binary main_v120 main_cst_19 main_v121 (fun x v => Host.reduceAdd x v reducesTo_S8192x8192_S_d0_1 h_S_),
    unary main_v121 main_v122 Host.negf,
    nullary main_cst_20 (constant S_ .f32 0x45800000#32),
    binary main_v122 main_cst_20 main_v123 Host.divf ]

theorem ok_r : (ops_r : List (HloOp τ sig (Elt F))).Forall Ok := by (repeat' apply And.intro) <;> exact ok_of

def ops_w0 : List (HloOp τ sig (Elt F)) := ops_a ++ ops_b
set_option maxRecDepth 8192 in
theorem main_part0_eq (c : Dev nD) : main_part0 (F := F) c = seq ops_w0 := rfl

def ops_w1 : List (HloOp τ sig (Elt F)) := ops_c ++ (ops_d ++ (ops_e ++ (ops_f ++ ops_g)))
set_option maxRecDepth 8192 in
theorem main_part1_eq (c : Dev nD) : main_part1 (F := F) c = seq ops_w1 := rfl

def ops_w2 : List (HloOp τ sig (Elt F)) := ops_h ++ (ops_i ++ (ops_j ++ (ops_k ++ (ops_l ++ (ops_m ++ (ops_n ++ (ops_o ++ (ops_p ++ (ops_q ++ ops_r)))))))))
set_option maxRecDepth 8192 in
theorem main_part2_eq (c : Dev nD) : main_part2 (F := F) c = seq ops_w2 := rfl

def ops : List (HloOp τ sig (Elt F)) := ops_w0 ++ (ops_w1 ++ ops_w2)

theorem main_eq (c : Dev nD) : main (F := F) c = seq ops := by
  simp only [ops, seq_append, ← main_part0_eq c, ← main_part1_eq c, ← main_part2_eq c]
  rfl

theorem ops_ok : (ops : List (HloOp τ sig (Elt F))).Forall Ok := by
  simp only [ops, ops_w0, ops_w1, ops_w2, List.forall_append]
  exact ⟨⟨ok_a, ok_b⟩, ⟨ok_c, ok_d, ok_e, ok_f, ok_g⟩, ok_h, ok_i, ok_j, ok_k, ok_l, ok_m, ok_n, ok_o, ok_p, ok_q, ok_r⟩

variable (W : Valuation τ sig (Elt F)) (x0 x1 : (⟨S4096x2048, .f32⟩ : BufTy).Contents (Elt F)) (x2 : (⟨S4096, .f32⟩ : BufTy).Contents (Elt F))
  (x3 : (⟨S2048x2048, .f32⟩ : BufTy).Contents (Elt F)) (x4 x5 : (⟨S2048, .f32⟩ : BufTy).Contents (Elt F)) (x6 : (⟨S128x2048, .f32⟩ : BufTy).Contents (Elt F))

/-- The seven arguments hold `x0 … x6`. -/
abbrev Args : Prop :=
  W (Proc.devRef .tc main_arg0) = x0 ∧ W (Proc.devRef .tc main_arg1) = x1 ∧ W (Proc.devRef .tc main_arg2) = x2 ∧ W (Proc.devRef .tc main_arg3) = x3
    ∧ W (Proc.devRef .tc main_arg4) = x4 ∧ W (Proc.devRef .tc main_arg5) = x5 ∧ W (Proc.devRef .tc main_arg6) = x6

structure Known_a : Prop where
  args : Args W x0 x1 x2 x3 x4 x5 x6
  v29 : W (Proc.devRef .tc main_v29) = val_main_v29 x0 x3 x4 x5 x6

structure Known_b : Prop where
  args : Args W x0 x1 x2 x3 x4 x5 x6
  v29 : W (Proc.devRef .tc main_v29) = val_main_v29 x0 x3 x4 x5 x6
  v44 : W (Proc.devRef .tc main_v44) = val_main_v44 x1 x3
  v49 : W (Proc.devRef .tc main_v49) = val_main_v49 x1 x3

structure Known_c : Prop where
  args : Args W x0 x1 x2 x3 x4 x5 x6
  v29 : W (Proc.devRef .tc main_v29) = val_main_v29 x0 x3 x4 x5 x6
  v59 : W (Proc.devRef .tc main_v59) = val_main_v59 x1 x3 x4 x5 x6

structure Known_d : Prop where
  args : Args W x0 x1 x2 x3 x4 x5 x6
  v62 : W (Proc.devRef .tc main_v62) = val_main_v62 x0 x3 x4 x5 x6
  v65 : W (Proc.devRef .tc main_v65) = val_main_v65 x1 x3 x4 x5 x6

structure Known_e : Prop where
  args : Args W x0 x1 x2 x3 x4 x5 x6
  v62 : W (Proc.devRef .tc main_v62) = val_main_v62 x0 x3 x4 x5 x6
  v65 : W (Proc.devRef .tc main_v65) = val_main_v65 x1 x3 x4 x5 x6
  v71 : W (Proc.devRef .tc main_v71) = val_main_v71

structure Known_f : Prop where
  args : Args W x0 x1 x2 x3 x4 x5 x6
  v78 : W (Proc.devRef .tc main_v78) = val_main_v78 x0 x3 x4 x5 x6
  v85 : W (Proc.devRef .tc main_v85) = val_main_v85 x1 x3 x4 x5 x6
  v89 : W (Proc.devRef .tc main_v89) = val_main_v89 x0 x1 x3 x4 x5 x6

structure Known_g : Prop where
  args : Args W x0 x1 x2 x3 x4 x5 x6
  v78 : W (Proc.devRef .tc main_v78) = val_main_v78 x0 x3 x4 x5 x6
  v85 : W (Proc.devRef .tc main_v85) = val_main_v85 x1 x3 x4 x5 x6
  v89 : W (Proc.devRef .tc main_v89) = val_main_v89 x0 x1 x3 x4 x5 x6
  v101 : W (Proc.devRef .tc main_v101) = val_main_v101 x2

structure Known_h : Prop where
  args : Args W x0 x1 x2 x3 x4 x5 x6
  v78 : W (Proc.devRef .tc main_v78) = val_main_v78 x0 x3 x4 x5 x6
  v85 : W (Proc.devRef .tc main_v85) = val_main_v85 x1 x3 x4 x5 x6
  v89 : W (Proc.devRef .tc main_v89) = val_main_v89 x0 x1 x3 x4 x5 x6
  v114 : W (Proc.devRef .tc main_v114) = val_main_v114 x2

structure Known_i : Prop where
  args : Args W x0 x1 x2 x3 x4 x5 x6
  v85 : W (Proc.devRef .tc main_v85) = val_main_v85 x1 x3 x4 x5 x6
  v89 : W (Proc.devRef .tc main_v89) = val_main_v89 x0 x1 x3 x4 x5 x6
  v114 : W (Proc.devRef .tc main_v114) = val_main_v114 x2
  v115 : W (Proc.devRef .tc main_v115) = val_main_v115 x0 x1 x3 x4 x5 x6

structure Known_j : Prop where
  args : Args W x0 x1 x2 x3 x4 x5 x6
  v85 : W (Proc.devRef .tc main_v85) = val_main_v85 x1 x3 x4 x5 x6
  v114 : W (Proc.devRef .tc main_v114) = val_main_v114 x2
  v115 : W (Proc.devRef .tc main_v115) = val_main_v115 x0 x1 x3 x4 x5 x6
  v116 : W (Proc.devRef .tc main_v116) = val_main_v116 x0 x1 x3 x4 x5 x6

structure Known_k : Prop where
  args : Args W x0 x1 x2 x3 x4 x5 x6
  v114 : W (Proc.devRef .tc main_v114) = val_main_v114 x2
  v115 : W (Proc.devRef .tc main_v115) = val_main_v115 x0 x1 x3 x4 x5 x6
  v117 : W (Proc.devRef .tc main_v117) = val_main_v117 x0 x1 x3 x4 x5 x6

structure Known_l : Prop where
  args : Args W x0 x1 x2 x3 x4 x5 x6
  v114 : W (Proc.devRef .tc main_v114) = val_main_v114 x2
  v118 : W (Proc.devRef .tc main_v118) = val_main_v118 x0 x1 x3 x4 x5 x6

structure Known_m : Prop where
  args : Args W x0 x1 x2 x3 x4 x5 x6
  v114 : W (Proc.devRef .tc main_v114) = val_main_v114 x2
  v118 : W (Proc.devRef .tc main_v118) = val_main_v118 x0 x1 x3 x4 x5 x6
  call4_v0 : W (Proc.devRef .tc main_call4_v0) = val_main_call4_v0 x0 x1 x3 x4 x5 x6

structure Known_n : Prop where
  args : Args W x0 x1 x2 x3 x4 x5 x6
  v114 : W (Proc.devRef .tc main_v114) = val_main_v114 x2
  v118 : W (Proc.devRef .tc main_v118) = val_main_v118 x0 x1 x3 x4 x5 x6
  call4_v2 : W (Proc.devRef .tc main_call4_v2) = val_main_call4_v2 x0 x1 x3 x4 x5 x6

structure Known_o : Prop where
  args : Args W x0 x1 x2 x3 x4 x5 x6
  v114 : W (Proc.devRef .tc main_v114) = val_main_v114 x2
  call4_v5 : W (Proc.devRef .tc main_call4_v5) = val_main_call4_v5 x0 x1 x3 x4 x5 x6

structure Known_p : Prop where
  args : Args W x0 x1 x2 x3 x4 x5 x6
  v114 : W (Proc.devRef .tc main_v114) = val_main_v114 x2
  call4_v5 : W (Proc.devRef .tc main_call4_v5) = val_main_call4_v5 x0 x1 x3 x4 x5 x6
  call4_v7 : W (Proc.devRef .tc main_call4_v7) = val_main_call4_v7 x0 x1 x3 x4 x5 x6

structure Known_q : Prop where
  args : Args W x0 x1 x2 x3 x4 x5 x6
  v114 : W (Proc.devRef .tc main_v114) = val_main_v114 x2
  v119 : W (Proc.devRef .tc main_v119) = val_main_v119 x0 x1 x3 x4 x5 x6

structure Known_r : Prop where
  args : Args W x0 x1 x2 x3 x4 x5 x6
  v123 : W (Proc.devRef .tc main_v123) = val_main_v123 x0 x1 x2 x3 x4 x5 x6

variable {W x0 x1 x2 x3 x4 x5 x6}

/-- Operations that write no argument leave the arguments as they were. -/
theorem keep {l : List (HloOp τ sig (Elt F))} (hl : l.Forall Ok) (h : Args W x0 x1 x2 x3 x4 x5 x6) : Args (after l W) x0 x1 x2 x3 x4 x5 x6 := by
  have k : ∀ r ∈ args, after l W (Proc.devRef .tc r) = W (Proc.devRef .tc r) := fun r hr =>
    after_of_forall_not_mem l W fun op ho => (List.forall_iff_forall_mem.mp hl op ho).keep r hr
  obtain ⟨a0, a1, a2, a3, a4, a5, a6⟩ := h
  exact ⟨(k _ (by decide)).trans a0, (k _ (by decide)).trans a1, (k _ (by decide)).trans a2, (k _ (by decide)).trans a3,
    (k _ (by decide)).trans a4, (k _ (by decide)).trans a5, (k _ (by decide)).trans a6⟩

theorem step_a (h : Args W x0 x1 x2 x3 x4 x5 x6) : Known_a (after ops_a W) x0 x1 x2 x3 x4 x5 x6 where
  args := keep ok_a h
  v29 := by after_results_simp <;> simp only [h] <;> rfl

theorem step_b (h : Known_a W x0 x1 x2 x3 x4 x5 x6) : Known_b (after ops_b W) x0 x1 x2 x3 x4 x5 x6 where
  args := keep ok_b h.args
  v29 := by after_results_simp <;> exact h.v29
  v44 := by after_results_simp <;> simp only [h.args] <;> rfl
  v49 := by after_results_simp <;> simp only [h.args] <;> rfl

theorem step_c (h : Known_b W x0 x1 x2 x3 x4 x5 x6) : Known_c (after ops_c W) x0 x1 x2 x3 x4 x5 x6 where
  args := keep ok_c h.args
  v29 := by after_results_simp <;> exact h.v29
  v59 := by after_results_simp <;> simp only [h.args, h.v44, h.v49] <;> rfl

theorem step_d (h : Known_c W x0 x1 x2 x3 x4 x5 x6) : Known_d (after ops_d W) x0 x1 x2 x3 x4 x5 x6 where
  args := keep ok_d h.args
  v62 := by after_results_simp <;> simp only [h.v29] <;> rfl
  v65 := by after_results_simp <;> simp only [h.v59] <;> rfl

theorem step_e (h : Known_d W x0 x1 x2 x3 x4 x5 x6) : Known_e (after ops_e W) x0 x1 x2 x3 x4 x5 x6 where
  args := keep ok_e h.args
  v62 := by after_results_simp <;> exact h.v62
  v65 := by after_results_simp <;> exact h.v65
  v71 := by after_results_simp <;> rfl

theorem step_f (h : Known_e W x0 x1 x2 x3 x4 x5 x6) : Known_f (after ops_f W) x0 x1 x2 x3 x4 x5 x6 where
  args := keep ok_f h.args
  v78 := by after_results_simp <;> simp only [h.v71, h.v62] <;> rfl
  v85 := by after_results_simp <;> simp only [h.v71, h.v65] <;> rfl
  v89 := by after_results_simp <;> simp only [h.v62, h.v65] <;> rfl

theorem step_g (h : Known_f W x0 x1 x2 x3 x4 x5 x6) : Known_g (after ops_g W) x0 x1 x2 x3 x4 x5 x6 where
  args := keep ok_g h.args
  v78 := by after_results_simp <;> exact h.v78
  v85 := by after_results_simp <;> exact h.v85
  v89 := by after_results_simp <;> exact h.v89
  v101 := by after_results_simp <;> (try simp only [h.args]) <;> (try rw [h.args.2.2.1]) <;> rfl

theorem step_h (h : Known_g W x0 x1 x2 x3 x4 x5 x6) : Known_h (after ops_h W) x0 x1 x2 x3 x4 x5 x6 where
  args := keep ok_h h.args
  v78 := by after_results_simp <;> exact h.v78
  v85 := by after_results_simp <;> exact h.v85
  v89 := by after_results_simp <;> exact h.v89
  v114 := by after_results_simp <;> simp only [h.v101] <;> rfl

theorem step_i (h : Known_h W x0 x1 x2 x3 x4 x5 x6) : Known_i (after ops_i W) x0 x1 x2 x3 x4 x5 x6 where
  args := keep ok_i h.args
  v85 := by after_results_simp <;> exact h.v85
  v89 := by after_results_simp <;> exact h.v89
  v114 := by after_results_simp <;> exact h.v114
  v115 := by after_results_simp <;> (try simp only [h.v78, h.v89]) <;> (try rw [h.v78]) <;> (try rw [h.v89]) <;> rfl

theorem step_j (h : Known_i W x0 x1 x2 x3 x4 x5 x6) : Known_j (after ops_j W) x0 x1 x2 x3 x4 x5 x6 where
  args := keep ok_j h.args
  v85 := by after_results_simp <;> exact h.v85
  v114 := by after_results_simp <;> exact h.v114
  v115 := by after_results_simp <;> exact h.v115
  v116 := by after_results_simp <;> simp only [h.v89] <;> rfl

theorem step_k (h : Known_j W x0 x1 x2 x3 x4 x5 x6) : Known_k (after ops_k W) x0 x1 x2 x3 x4 x5 x6 where
  args := keep ok_k h.args
  v114 := by after_results_simp <;> exact h.v114
  v115 := by after_results_simp <;> exact h.v115
  v117 := by after_results_simp <;> (try simp only [h.v116, h.v85]) <;> (try rw [h.v116]) <;> (try rw [h.v85]) <;> rfl

theorem step_l (h : Known_k W x0 x1 x2 x3 x4 x5 x6) : Known_l (after ops_l W) x0 x1 x2 x3 x4 x5 x6 where
  args := keep ok_l h.args
  v114 := by after_results_simp <;> exact h.v114
  v118 := by after_results_simp <;> (try simp only [h.v115, h.v117]) <;> (try rw [h.v115]) <;> (try rw [h.v117]) <;> rfl

theorem step_m (h : Known_l W x0 x1 x2 x3 x4 x5 x6) : Known_m (after ops_m W) x0 x1 x2 x3 x4 x5 x6 where
  args := keep ok_m h.args
  v114 := by after_results_simp <;> exact h.v114
  v118 := by after_results_simp <;> exact h.v118
  call4_v0 := by after_results_simp <;> simp only [TRef.ofBuf, TRef.toBuf, cast_eq, h.v118] <;> rfl

theorem step_n (h : Known_m W x0 x1 x2 x3 x4 x5 x6) : Known_n (after ops_n W) x0 x1 x2 x3 x4 x5 x6 where
  args := keep ok_n h.args
  v114 := by after_results_simp <;> exact h.v114
  v118 := by after_results_simp <;> exact h.v118
  call4_v2 := by after_results_simp <;> simp only [TRef.ofBuf, TRef.toBuf, cast_eq, h.call4_v0] <;> rfl

theorem step_o (h : Known_n W x0 x1 x2 x3 x4 x5 x6) : Known_o (after ops_o W) x0 x1 x2 x3 x4 x5 x6 where
  args := keep ok_o h.args
  v114 := by after_results_simp <;> exact h.v114
  call4_v5 := by after_results_simp <;> simp only [TRef.ofBuf, TRef.toBuf, cast_eq, h.v118, h.call4_v2] <;> rfl

theorem step_p (h : Known_o W x0 x1 x2 x3 x4 x5 x6) : Known_p (after ops_p W) x0 x1 x2 x3 x4 x5 x6 where
  args := keep ok_p h.args
  v114 := by after_results_simp <;> exact h.v114
  call4_v5 := by after_results_simp <;> exact h.call4_v5
  call4_v7 := by after_results_simp <;> simp only [TRef.ofBuf, TRef.toBuf, cast_eq, h.call4_v5] <;> rfl

theorem step_q (h : Known_p W x0 x1 x2 x3 x4 x5 x6) : Known_q (after ops_q W) x0 x1 x2 x3 x4 x5 x6 where
  args := keep ok_q h.args
  v114 := by after_results_simp <;> exact h.v114
  v119 := by after_results_simp <;> simp only [TRef.ofBuf, TRef.toBuf, cast_eq, h.call4_v5, h.call4_v7] <;> rfl

theorem step_r (h : Known_q W x0 x1 x2 x3 x4 x5 x6) : Known_r (after ops_r W) x0 x1 x2 x3 x4 x5 x6 where
  args := keep ok_r h.args
  v123 := by after_results_simp <;> simp only [h.v114, h.v119] <;> rfl

/-- From any contents, the whole line leaves the result buffer at the last stage function of the arguments' contents. -/
theorem reads (V : Valuation τ sig (Elt F)) :
    Known_r (after ops V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  simp only [ops, ops_w0, ops_w1, ops_w2, after_append]
  exact step_r (step_q (step_p (step_o (step_n (step_m (step_l (step_k (step_j (step_i (step_h (step_g (step_f (step_e (step_d (step_c (step_b (step_a ⟨rfl, rfl, rfl, rfl, rfl, rfl, rfl⟩)))))))))))))))))

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v123) = ReadP.val_main_v123 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => by
      obtain ⟨⟨a0, a1, a2, a3, a4, a5, a6⟩, v⟩ := reads (F := F) (launchContents m c)
      exact ⟨(h c _).trans v, (h c _).trans a0, (h c _).trans a1, (h c _).trans a2, (h c _).trans a3, (h c _).trans a4, (h c _).trans a5, (h c _).trans a6⟩)
    (run_seq (by decide) (by decide) defs main (fun _ => ops) main_eq (fun _ => ops_ok.imp fun _ h => h.sub) m ρ
      fun _ op ho => (List.forall_iff_forall_mem.mp ops_ok op ho).fresh)

end Cert.ReferenceIdeal.HandRun

end
-- ==== Proof.RefProj.lean ====
import proofs.«115278_j52183852646963_1_alg».proof.Proof.ReadP
import proofs.«115278_j52183852646963_1_alg».proof.Proof.Spec
import proofs.«115278_j52183852646963_1_alg».proof.Proof.Adapt

noncomputable section

namespace Cert.ReferenceIdeal.RefValue

open Cert.ReferenceIdeal Cert.ReferenceIdeal.Gen Cert.ReferenceIdeal.ReadP Idealize.ShloMosaic Idealize.ShloMosaic.ValueIdx
open Cert.Adapt Cert

/-- An array depends on an index only through its coordinates' values. -/
theorem at2 {n0 n1 : Nat} (v : (⟨2, ![n0, n1]⟩ : Shape).Idx → EReal) (i : (⟨2, ![n0, n1]⟩ : Shape).Idx) (r : Fin n0) (k : Fin n1)
    (h0 : (i 0).val = r.val) (h1 : (i 1).val = k.val) : v i = arr2 v r k :=
  congrArg v (funext fun a => Fin.ext (by match a with | ⟨0, _⟩ => exact h0 | ⟨1, _⟩ => exact h1))

theorem at1 {n : Nat} (v : (⟨1, ![n]⟩ : Shape).Idx → EReal) (i : (⟨1, ![n]⟩ : Shape).Idx) (r : Fin n)
    (h0 : (i 0).val = r.val) : v i = arr1 v r :=
  congrArg v (funext fun a => Fin.ext (by match a with | ⟨0, _⟩ => exact h0))

variable (L : Spec.Lits)
variable (x : FVec Ideal S4096x2048 .f32) (W1 : FVec Ideal S2048x2048 .f32) (g b : FVec Ideal S2048 .f32)
  (W2 : FVec Ideal S128x2048 .f32)
  (hcnt : L.cnt = Ideal.ofBits .f32 0x45800000#32) (heps : L.eps = Ideal.ofBits .f32 0x3727C5AC#32)

theorem v1_at (i : S4096x2048.Idx) (r : Fin 4096) (j : Fin 2048) (h0 : (i 0).val = r.val) (h1 : (i 1).val = j.val) :
    val_main_v1 (F := Ideal) x W1 i = Spec.lin (arr2 x) (arr2 W1) r j := by
  rw [val_main_v1_apply]
  refine Finset.sum_congr rfl fun k _ => ?_
  rw [at2 x (lidx_main_v1 i k) r k h0 rfl, val_main_v0_apply, at2 W1 (idx_main_v0 (ridx_main_v1 i k)) j k h1 rfl]

/-- The column sum starts from zero. -/
theorem v2_at (i : S2048.Idx) (j : Fin 2048) (h0 : (i 0).val = j.val) :
    val_main_v2 (F := Ideal) x W1 i = Spec.colSum (arr2 x) (arr2 W1) j := by
  rw [val_main_v2_apply]
  refine (congrArg (· + _) Ideal.ofBits_zero_f32).trans ((zero_add _).trans ?_)
  exact Finset.sum_congr rfl fun r _ => v1_at x W1 _ r j rfl h0

include hcnt

theorem v4_at (i : S2048.Idx) (j : Fin 2048) (h0 : (i 0).val = j.val) :
    val_main_v4 (F := Ideal) x W1 i = Spec.mean L (arr2 x) (arr2 W1) j := by
  rw [Spec.mean, hcnt, ← v2_at x W1 i j h0]
  rfl

theorem v6_at (i : S4096x2048.Idx) (j : Fin 2048) (h1 : (i 1).val = j.val) :
    val_main_v6 (F := Ideal) x W1 i = Spec.mean L (arr2 x) (arr2 W1) j := by
  rw [val_main_v6_apply, val_main_v5_apply]
  exact v4_at L x W1 hcnt _ j h1

/-- The mean of the squared deviations is the variance. -/
theorem v11_at (i : S2048.Idx) (j : Fin 2048) (h0 : (i 0).val = j.val) :
    val_main_v11 (F := Ideal) x W1 i = Spec.varR L (arr2 x) (arr2 W1) j := by
  rw [Spec.varR, hcnt]
  refine congrArg (Ideal.div · _) ?_
  rw [val_main_v9_apply]
  refine (congrArg (· + _) Ideal.ofBits_zero_f32).trans ((zero_add _).trans ?_)
  refine Finset.sum_congr rfl fun r _ => ?_
  rw [← v1_at x W1 (idx_main_v9 i r) r j rfl h0, ← v6_at L x W1 hcnt (idx_main_v9 i r) j h0]
  rfl

include heps

theorem v19_at (i : S4096x2048.Idx) (j : Fin 2048) (h1 : (i 1).val = j.val) :
    val_main_v19 (F := Ideal) x W1 i = Ideal.rsqrt (Spec.varR L (arr2 x) (arr2 W1) j + L.eps) := by
  rw [val_main_v19_apply, val_main_v18_apply, heps, ← v11_at L x W1 hcnt (idx_main_v18 (idx_main_v19 i)) j h1]
  rfl

theorem v27_at (i : S4096x2048.Idx) (r : Fin 4096) (j : Fin 2048) (h0 : (i 0).val = r.val) (h1 : (i 1).val = j.val) :
    val_main_v27 (F := Ideal) x W1 g b i
      = Spec.act L (arr2 x) (arr2 W1) (arr1 g) (arr1 b) (Spec.varR L (arr2 x) (arr2 W1)) r j := by
  rw [Spec.act, ← v1_at x W1 i r j h0 h1, ← v6_at L x W1 hcnt i j h1, ← v19_at L x W1 hcnt heps i j h1,
    ← at1 g (idx_main_v21 (idx_main_v22 i)) j h1, ← at1 b (idx_main_v24 (idx_main_v25 i)) j h1,
    ← val_main_v21_apply (F := Ideal) g, ← val_main_v22_apply (F := Ideal) g, ← val_main_v24_apply (F := Ideal) b,
    ← val_main_v25_apply (F := Ideal) b, ← Ideal.ofBits_zero_f32]
  rfl

theorem v29_at (i : S4096x128.Idx) (r : Fin 4096) (p : Fin 128) (h0 : (i 0).val = r.val) (h1 : (i 1).val = p.val) :
    val_main_v29 (F := Ideal) x W1 g b W2 i
      = Spec.proj L (arr2 x) (arr2 W1) (arr1 g) (arr1 b) (arr2 W2) (Spec.varR L (arr2 x) (arr2 W1)) r p := by
  rw [val_main_v29_apply]
  refine Finset.sum_congr rfl fun k _ => ?_
  rw [v27_at L x W1 g b hcnt heps _ r k h0 rfl, val_main_v28_apply, at2 W2 _ p k h1 rfl]

theorem v60_at (i : S4096x1.Idx) (r : Fin 4096) (h0 : (i 0).val = r.val) :
    val_main_v60 (F := Ideal) x W1 g b W2 i
      = Spec.rowNorm L (arr2 x) (arr2 W1) (arr1 g) (arr1 b) (arr2 W2) (Spec.varR L (arr2 x) (arr2 W1)) r := by
  rw [val_main_v60_apply, val_main_call2_v2_apply, val_main_call2_v1_apply]
  refine congrArg Ideal.sqrt ((congrArg (· + _) Ideal.ofBits_zero_f32).trans ((zero_add _).trans ?_))
  refine Finset.sum_congr rfl fun p _ => ?_
  rw [← v29_at L x W1 g b W2 hcnt heps (idx_main_call2_v1 (idx_main_call2_v2 i) p) r p h0 rfl]
  rfl

theorem norm_at (r : Fin 4096) :
    val_main_v60 (F := Ideal) x W1 g b W2 (ix2 r 0)
      = Spec.rowNorm L (arr2 x) (arr2 W1) (arr1 g) (arr1 b) (arr2 W2) (Spec.varR L (arr2 x) (arr2 W1)) r :=
  v60_at L x W1 g b W2 hcnt heps (ix2 r 0) r rfl

theorem arr2_unit :
    arr2 (val_main_v62 (F := Ideal) x W1 g b W2) = Spec.unitR L (arr2 x) (arr2 W1) (arr1 g) (arr1 b) (arr2 W2) := by
  funext r p
  rw [Spec.unitR, Spec.unit, ← v29_at L x W1 g b W2 hcnt heps (ix2 r p) r p rfl rfl,
    ← v60_at L x W1 g b W2 hcnt heps (idx_main_v61 (ix2 r p)) r rfl, ← val_main_v61_apply]
  rfl

omit hcnt heps

/-- The second batch goes through the same operations. -/
theorem v65_eq_v62 : val_main_v65 (F := Ideal) x W1 g b W2 = val_main_v62 (F := Ideal) x W1 g b W2 := rfl

end Cert.ReferenceIdeal.RefValue

end
-- ==== Proof.RefPair.lean ====
import proofs.«115278_j52183852646963_1_alg».proof.Proof.ReadP
import proofs.«115278_j52183852646963_1_alg».proof.Proof.Spec
import proofs.«115278_j52183852646963_1_alg».proof.Proof.Adapt
import proofs.«115278_j52183852646963_1_alg».proof.Proof.Lits

noncomputable section

namespace Cert.ReferenceIdeal.RefPair

open Cert.ReferenceIdeal Cert.ReferenceIdeal.Gen Cert.ReferenceIdeal.ReadP Idealize.ShloMosaic Idealize.ShloMosaic.ValueIdx
  Idealize.ShloMosaic.StableHlo Cert.Adapt Cert.Lits

theorem eye_word (r c : ℕ) (hr : r < 2 ^ 32) (hc : c < 2 ^ 32) :
    IntOp.cmpi .eq (IntOp.addi (BitVec.ofNat 32 r) 0#32) (BitVec.ofNat 32 c) = if r = c then 1#1 else 0#1 := by
  unfold IntOp.cmpi IntOp.addi
  rw [BitVec.add_zero]
  by_cases h : r = c
  · subst h; simp
  · rw [if_neg h]
    have hne : BitVec.ofNat 32 r ≠ BitVec.ofNat 32 c := by
      intro e
      have e' := congrArg BitVec.toNat e
      rw [BitVec.toNat_ofNat, BitVec.toNat_ofNat, Nat.mod_eq_of_lt hr, Nat.mod_eq_of_lt hc] at e'
      exact h e'
    rw [show (BitVec.ofNat 32 r == BitVec.ofNat 32 c) = false from beq_eq_false_iff_ne.2 hne]
    rfl

/-- The comparison of a row number with a column number, as an extended real, is the identity matrix's entry. -/
theorem eye_apply {n : ℕ} (hn : n ≤ 2 ^ 32) (r c : Fin n) :
    FloatOps.uitofp (F := Ideal) .f32 (IntOp.cmpi .eq (IntOp.addi (BitVec.ofNat 32 r.val) 0#32) (BitVec.ofNat 32 c.val))
      = (if r = c then 1 else 0 : EReal) := by
  rw [eye_word r.val c.val (by omega) (by omega)]
  show (((if r.val = c.val then 1#1 else 0#1 : BitVec 1).toNat : ℝ) : EReal) = _
  simp only [Fin.val_inj]
  split_ifs <;> simp

/-- An index is determined by its coordinates' values. -/
theorem ix2_of {n0 n1 : ℕ} (i : (⟨2, ![n0, n1]⟩ : Shape).Idx) (r : Fin n0) (c : Fin n1) (h0 : (i 0).val = r.val)
    (h1 : (i 1).val = c.val) : i = ix2 r c :=
  funext fun a => Fin.ext (by match a with | ⟨0, _⟩ => exact h0 | ⟨1, _⟩ => exact h1)

theorem ix1_of {n : ℕ} (i : (⟨1, ![n]⟩ : Shape).Idx) (r : Fin n) (h0 : (i 0).val = r.val) : i = ix1 r :=
  funext fun a => Fin.ext (by match a with | ⟨0, _⟩ => exact h0)

theorem stack_lo {α : Type} (u v : Fin 4096 → α) (a : Fin 8192) (h : a.val < 4096) :
    Spec.stack u v a = u ⟨a.val, h⟩ := dif_pos h

theorem stack_hi {α : Type} (u v : Fin 4096 → α) (a : Fin 8192) (h : ¬ a.val < 4096) (h' : a.val - 4096 < 4096) :
    Spec.stack u v a = v ⟨a.val - 4096, h'⟩ := dif_neg h

section Concat

variable {α : Type}

/-- Two blocks of 4096 rows one above the other are the stack of their rows, -/
theorem cat_rows {n : ℕ} (x₁ x₂ : (⟨2, ![4096, n]⟩ : Shape).Idx → α)
    (h : Shape.Concatenates [(⟨2, ![4096, n]⟩ : Shape), ⟨2, ![4096, n]⟩] ⟨2, ![8192, n]⟩ 0) (a : Fin 8192) (c : Fin n) :
    concatenate ⟨2, ![8192, n]⟩ 0 [⟨⟨2, ![4096, n]⟩, x₁⟩, ⟨⟨2, ![4096, n]⟩, x₂⟩] h (ix2 a c)
      = Spec.stack (fun r => x₁ (ix2 r c)) (fun r => x₂ (ix2 r c)) a := by
  have := a.isLt
  unfold Spec.stack
  split
  · exact concatenate_pair_apply_left 0 x₁ x₂ h _ rfl _ fun b => by match b with | ⟨0, _⟩ => rfl | ⟨1, _⟩ => rfl
  · exact concatenate_pair_apply_right 0 x₁ x₂ h _ rfl rfl _
      (fun b hb => by match b, hb with | ⟨0, _⟩, hb => exact absurd rfl hb | ⟨1, _⟩, _ => rfl)
      (by show a.val - 4096 + 4096 = a.val; omega)

/-- two blocks of 4096 columns side by side the stack of their columns, -/
theorem cat_cols {m : ℕ} (x₁ x₂ : (⟨2, ![m, 4096]⟩ : Shape).Idx → α)
    (h : Shape.Concatenates [(⟨2, ![m, 4096]⟩ : Shape), ⟨2, ![m, 4096]⟩] ⟨2, ![m, 8192]⟩ 1) (r : Fin m) (c : Fin 8192) :
    concatenate ⟨2, ![m, 8192]⟩ 1 [⟨⟨2, ![m, 4096]⟩, x₁⟩, ⟨⟨2, ![m, 4096]⟩, x₂⟩] h (ix2 r c)
      = Spec.stack (fun k => x₁ (ix2 r k)) (fun k => x₂ (ix2 r k)) c := by
  have := c.isLt
  unfold Spec.stack
  split
  · exact concatenate_pair_apply_left 1 x₁ x₂ h _ rfl _ fun b => by match b with | ⟨0, _⟩ => rfl | ⟨1, _⟩ => rfl
  · exact concatenate_pair_apply_right 1 x₁ x₂ h _ rfl rfl _
      (fun b hb => by match b, hb with | ⟨0, _⟩, _ => rfl | ⟨1, _⟩, hb => exact absurd rfl hb)
      (by show c.val - 4096 + 4096 = c.val; omega)

/-- and two vectors of 4096 entries end to end their stack. -/
theorem cat_vec (x₁ x₂ : (⟨1, ![4096]⟩ : Shape).Idx → α)
    (h : Shape.Concatenates [(⟨1, ![4096]⟩ : Shape), ⟨1, ![4096]⟩] ⟨1, ![8192]⟩ 0) (a : Fin 8192) :
    concatenate ⟨1, ![8192]⟩ 0 [⟨⟨1, ![4096]⟩, x₁⟩, ⟨⟨1, ![4096]⟩, x₂⟩] h (ix1 a)
      = Spec.stack (fun r => x₁ (ix1 r)) (fun r => x₂ (ix1 r)) a := by
  have := a.isLt
  unfold Spec.stack
  split
  · exact concatenate_pair_apply_left 0 x₁ x₂ h _ rfl _ fun b => by match b with | ⟨0, _⟩ => rfl
  · exact concatenate_pair_apply_right 0 x₁ x₂ h _ rfl rfl _
      (fun b hb => by match b, hb with | ⟨0, _⟩, hb => exact absurd rfl hb)
      (by show a.val - 4096 + 4096 = a.val; omega)

end Concat

/-- A row's maximum from the bottom element is the supremum of the row. -/
theorem rowmax_apply {m n : ℕ} (x : FVec Ideal ⟨2, ![m, n]⟩ .f32) (init : FVec Ideal ⟨0, ![]⟩ .f32)
    (h' : (⟨2, ![m, n]⟩ : Shape).ReducesTo [1] ⟨1, ![m]⟩) (h : (⟨2, ![m, n]⟩ : Shape).Reduces [1] ⟨1, ![m]⟩)
    (hu : 0 < (⟨0, ![]⟩ : Shape).numel) (hinit : init (Shape.Idx.first hu) = ⊥) (a : Fin m) :
    Host.reduce (FloatOps.maximumf (F := Ideal) (φ := .f32)) x init h' hu (ix1 a)
      = Finset.univ.sup fun b : Fin n => x (ix2 a b) := by
  rw [Host.reduce_eq_fold_single (FloatOps.maximumf (F := Ideal) (φ := .f32)) x init h' h hu, hinit,
    show (x ∘ h.lift (ix1 a)) = fun b : Fin n => x (ix2 a b) from funext fun k => congrArg x (ix2_of _ a k rfl rfl)]
  rfl

/-- Taking the constant off where the condition holds is taking off the constant times the condition's indicator. -/
theorem sub_ite (d B : EReal) (p : Prop) [Decidable p] : (if p then d - B else d) = d - B * (if p then 1 else 0) := by
  split_ifs
  · rw [mul_one]
  · rw [mul_zero, sub_zero]

section Stages

variable (x0 x1 : (⟨S4096x2048, .f32⟩ : BufTy).Contents (Elt Ideal)) (x2 : (⟨S4096, .f32⟩ : BufTy).Contents (Elt Ideal))
  (x3 : (⟨S2048x2048, .f32⟩ : BufTy).Contents (Elt Ideal)) (x4 x5 : (⟨S2048, .f32⟩ : BufTy).Contents (Elt Ideal))
  (x6 : (⟨S128x2048, .f32⟩ : BufTy).Contents (Elt Ideal))

local notation "Z1" => val_main_v62 (F := Ideal) x0 x3 x4 x5 x6
local notation "Z2" => val_main_v65 (F := Ideal) x1 x3 x4 x5 x6
local notation "ZZ" => Spec.stack (arr2 (val_main_v62 (F := Ideal) x0 x3 x4 x5 x6)) (arr2 (val_main_v65 (F := Ideal) x1 x3 x4 x5 x6))
local notation "LL" => Spec.stack (arr1 x2) (arr1 x2)

theorem eye71 (r c : Fin 4096) : val_main_v71 (F := Ideal) (ix2 r c) = (if r = c then 1 else 0 : EReal) :=
  eye_apply (by norm_num) r c

theorem eye107 (a b : Fin 8192) : val_main_v107 (F := Ideal) (ix2 a b) = (if a = b then 1 else 0 : EReal) :=
  eye_apply (by norm_num) a b

/-- A batch against the transpose of a batch: entry (r, c) is the inner product of row r of the first with row c of the second. -/
theorem v87_at (r c : Fin 4096) : val_main_v87 (F := Ideal) x0 x1 x3 x4 x5 x6 (ix2 r c)
    = ∑ k : Fin 128, Z1 (ix2 r k) * Z2 (ix2 c k) := by
  rw [val_main_v87_apply]
  refine Finset.sum_congr rfl fun k _ => ?_
  rw [val_main_v86_apply, ix2_of (lidx_main_v87 (ix2 r c) k) r k rfl rfl,
    ix2_of (idx_main_v86 (ridx_main_v87 (ix2 r c) k)) c k rfl rfl]

theorem v89_at (r c : Fin 4096) : val_main_v89 (F := Ideal) x0 x1 x3 x4 x5 x6 (ix2 r c)
    = Ideal.div (∑ k : Fin 128, Z1 (ix2 r k) * Z2 (ix2 c k)) lits.temp :=
  congrArg (Ideal.div · lits.temp) (v87_at x0 x1 x3 x4 x5 x6 r c)

/-- A diagonal block is the off-diagonal block of a batch with itself, less the constant times the identity. -/
theorem v85_at (r c : Fin 4096) : val_main_v85 (F := Ideal) x1 x3 x4 x5 x6 (ix2 r c)
    = Ideal.div (∑ k : Fin 128, Z2 (ix2 r k) * Z2 (ix2 c k)) lits.temp - lits.big * (if r = c then 1 else 0) := by
  rw [← eye71 r c]
  exact congrArg (Ideal.div · lits.temp - lits.big * val_main_v71 (F := Ideal) (ix2 r c)) (v87_at x1 x1 x3 x4 x5 x6 r c)

theorem v116_at (r c : Fin 4096) : val_main_v116 (F := Ideal) x0 x1 x3 x4 x5 x6 (ix2 r c)
    = val_main_v89 (F := Ideal) x0 x1 x3 x4 x5 x6 (ix2 c r) := by
  rw [val_main_v116_apply, ix2_of (idx_main_v116 (ix2 r c)) c r rfl rfl]

/-- The four blocks laid out are the similarity of the stacked rows. -/
theorem v118_at (a b : Fin 8192) :
    val_main_v118 (F := Ideal) x0 x1 x3 x4 x5 x6 (ix2 a b) = Spec.simR lits ZZ a b := by
  have ha8 := a.isLt
  have hb8 := b.isLt
  unfold val_main_v118 Spec.simR Spec.dotZ
  rw [cat_rows, sub_ite]
  by_cases ha : a.val < 4096 <;> by_cases hb : b.val < 4096
  · simp only [stack_lo _ _ a ha, stack_lo _ _ b hb, val_main_v115, cat_cols, arr2_apply]
    refine (v85_at x0 x3 x4 x5 x6 ⟨a.val, ha⟩ ⟨b.val, hb⟩).trans ?_
    simp only [Fin.mk.injEq, Fin.val_inj]
    rfl
  · have hb' : b.val - 4096 < 4096 := by omega
    have hne : a ≠ b := fun e => hb (e ▸ ha)
    simp only [stack_lo _ _ a ha, stack_hi _ _ b hb hb', val_main_v115, cat_cols, arr2_apply, if_neg hne, mul_zero, sub_zero]
    exact v89_at x0 x1 x3 x4 x5 x6 _ _
  · have ha' : a.val - 4096 < 4096 := by omega
    have hne : a ≠ b := fun e => ha (e ▸ hb)
    simp only [stack_hi _ _ a ha ha', stack_lo _ _ b hb, val_main_v117, cat_cols, arr2_apply, if_neg hne, mul_zero, sub_zero,
      v116_at]
    exact (v89_at x0 x1 x3 x4 x5 x6 _ _).trans (congrArg (Ideal.div · _) (Finset.sum_congr rfl fun p _ => mul_comm _ _))
  · have ha' : a.val - 4096 < 4096 := by omega
    have hb' : b.val - 4096 < 4096 := by omega
    simp only [stack_hi _ _ a ha ha', stack_hi _ _ b hb hb', val_main_v117, cat_cols, arr2_apply]
    refine (v85_at x1 x3 x4 x5 x6 _ _).trans ?_
    have e : ((⟨a.val - 4096, ha'⟩ : Fin 4096) = ⟨b.val - 4096, hb'⟩) = (a = b) := by
      rw [Fin.mk.injEq, ← Fin.val_inj]
      exact propext ⟨fun h => by omega, fun h => by omega⟩
    simp only [e]

theorem lab_at (a : Fin 8192) : val_main_v90 (F := Ideal) x2 (ix1 a) = LL a :=
  cat_vec _ _ _ a

theorem v94_at (a b : Fin 8192) (k : Fin 1) :
    val_main_v94 (F := Ideal) x2 (idx_main_v98 (ix2 a b) k) = LL a := by
  rw [val_main_v94_apply, val_main_v92_apply, val_main_v91_apply,
    ix1_of (idx_main_v91 (idx_main_v92 (idx_main_v94 (idx_main_v98 (ix2 a b) k)))) a (Nat.mul_one _), lab_at]

theorem v95_at (a b : Fin 8192) (k : Fin 1) :
    val_main_v95 (F := Ideal) x2 (idx_main_v98 (ix2 a b) k) = LL b := by
  rw [val_main_v95_apply, val_main_v93_apply, val_main_v91_apply,
    ix1_of (idx_main_v91 (idx_main_v93 (idx_main_v95 (idx_main_v98 (ix2 a b) k)))) b (Nat.mul_one _), lab_at]

/-- The weight: the exponential times one minus the identity's entry, zero on the diagonal. -/
theorem v110_at (a b : Fin 8192) : val_main_v110 (F := Ideal) x2 (ix2 a b) = Spec.wt lits LL a b := by
  have h : val_main_v110 (F := Ideal) x2 (ix2 a b) = Ideal.exp (lits.ngam * val_main_v98 (F := Ideal) x2 (ix2 a b))
      * (Ideal.ofBits .f32 0x3F800000#32 - val_main_v107 (F := Ideal) (ix2 a b)) := rfl
  rw [h, eye107, ofBits_one, val_main_v98_apply, Fin.sum_univ_one, val_main_v97_apply, val_main_v96_apply, v94_at, v95_at,
    show val_main_cst_14 (F := Ideal) _ = 0 from ofBits_zero, zero_add, Spec.wt]
  split_ifs
  · rw [show (1 : EReal) - 1 = 0 from by rw [← EReal.coe_one, ← EReal.coe_sub, sub_self, EReal.coe_zero], mul_zero]
  · rw [sub_zero, mul_one]
    rfl

theorem v114_at (a b : Fin 8192) :
    val_main_v114 (F := Ideal) x2 (ix2 a b) = Ideal.div (Spec.wt lits LL a b) (Spec.rowW lits LL a) := by
  rw [val_main_v114_apply, v110_at, val_main_v113_apply, val_main_v112_apply,
    ix1_of (idx_main_v112 (idx_main_v113 (ix2 a b))) a rfl, val_main_v111_apply]
  simp only [fun k : Fin 8192 => ix2_of (idx_main_v111 (ix1 a) k) a k rfl rfl, v110_at]
  refine congrArg (Ideal.div _) ((congrArg (· + _) ofBits_zero).trans (zero_add _))

theorem c2_at (a : Fin 8192) :
    val_main_call4_v2 (F := Ideal) x0 x1 x3 x4 x5 x6 (ix1 a) = Spec.rowMaxR lits ZZ a := by
  have h0 : val_main_call4_v0 (F := Ideal) x0 x1 x3 x4 x5 x6 (ix1 a)
      = Finset.univ.sup fun b : Fin 8192 => val_main_v118 (F := Ideal) x0 x1 x3 x4 x5 x6 (ix2 a b) := by
    unfold val_main_call4_v0
    exact rowmax_apply _ _ reducesTo_S8192x8192_S8192_d1 (by decide) h_S_
      (by rw [val_main_call4_cst_apply]; exact ofBits_ninf) a
  rw [val_main_call4_v2_apply, val_main_call4_v1_apply, val_main_call4_cst_0_apply, h0]
  show max (Ideal.ofBits .f32 0xFF800000#32) _ = _
  rw [ofBits_ninf, max_bot_left]
  unfold Spec.rowMaxR
  exact congrArg (Finset.sup Finset.univ) (funext fun b => v118_at x0 x1 x3 x4 x5 x6 a b)

theorem c5_at (a b : Fin 8192) : val_main_call4_v5 (F := Ideal) x0 x1 x3 x4 x5 x6 (ix2 a b)
    = Spec.simR lits ZZ a b - Spec.rowMaxR lits ZZ a := by
  rw [val_main_call4_v5_apply, v118_at, val_main_call4_v4_apply, val_main_call4_v3_apply,
    ix1_of (idx_main_call4_v3 (idx_main_call4_v4 (ix2 a b))) a rfl, c2_at]
  rfl

theorem v119_at (a b : Fin 8192) :
    val_main_v119 (F := Ideal) x0 x1 x3 x4 x5 x6 (ix2 a b) = Spec.lsmR lits ZZ a b := by
  rw [val_main_v119_apply, c5_at, val_main_call4_v10_apply, val_main_call4_v9_apply, val_main_call4_v8_apply,
    ix1_of (idx_main_call4_v8 (idx_main_call4_v10 (ix2 a b))) a rfl, val_main_call4_v7_apply]
  simp only [fun k : Fin 8192 => ix2_of (idx_main_call4_v7 (ix1 a) k) a k rfl rfl, val_main_call4_v6_apply, c5_at]
  exact congrArg (_ - Ideal.log ·) ((congrArg (· + _) ofBits_zero).trans (zero_add _))

theorem v120_at (a b : Fin 8192) : val_main_v120 (F := Ideal) x0 x1 x2 x3 x4 x5 x6 (ix2 a b)
    = Ideal.div (Spec.wt lits LL a b) (Spec.rowW lits LL a) * Spec.lsmR lits ZZ a b := by
  rw [val_main_v120_apply, v114_at, v119_at]
  rfl

end Stages

/-- The reference's result over its two normalised batches is the pairwise loss of the stacked rows and labels. -/
theorem ref_pair (x0 x1 : (⟨S4096x2048, .f32⟩ : BufTy).Contents (Elt Ideal)) (x2 : (⟨S4096, .f32⟩ : BufTy).Contents (Elt Ideal))
    (x3 : (⟨S2048x2048, .f32⟩ : BufTy).Contents (Elt Ideal)) (x4 x5 : (⟨S2048, .f32⟩ : BufTy).Contents (Elt Ideal))
    (x6 : (⟨S128x2048, .f32⟩ : BufTy).Contents (Elt Ideal)) (zi zj : (⟨S4096x128, .f32⟩ : BufTy).Contents (Elt Ideal))
    (hzi : val_main_v62 (F := Ideal) x0 x3 x4 x5 x6 = zi) (hzj : val_main_v65 (F := Ideal) x1 x3 x4 x5 x6 = zj) :
    val_main_v123 (F := Ideal) x0 x1 x2 x3 x4 x5 x6
      = fun _ => Spec.lossR lits (Spec.stack (arr2 zi) (arr2 zj)) (Spec.stack (arr1 x2) (arr1 x2)) := by
  subst hzi hzj
  funext i
  rw [val_main_v123_apply, val_main_v122_apply, val_main_v121_apply, val_main_cst_19_apply, val_main_cst_20_apply, sum_idx2]
  simp only [v120_at]
  show Ideal.div (-(Ideal.ofBits .f32 0x00000000#32 + _)) (Ideal.ofBits .f32 0x45800000#32) = _
  rw [ofBits_zero, zero_add]
  rfl

end Cert.ReferenceIdeal.RefPair

end
-- ==== Proof.RefValue.lean ====
import proofs.«115278_j52183852646963_1_alg».proof.Proof.RefProj
import proofs.«115278_j52183852646963_1_alg».proof.Proof.RefPair
import proofs.«115278_j52183852646963_1_alg».proof.Proof.Lits

noncomputable section

namespace Cert.ReferenceIdeal.RefValue

open Cert.ReferenceIdeal Cert.ReferenceIdeal.Gen Cert.ReferenceIdeal.ReadP Idealize.ShloMosaic Idealize.ShloMosaic.ValueIdx
open Cert.Adapt Cert

theorem ref_result (y1 y2 : FVec Ideal S4096x2048 .f32) (labels : FVec Ideal S4096 .f32) (W1 : FVec Ideal S2048x2048 .f32)
    (g b : FVec Ideal S2048 .f32) (W2 : FVec Ideal S128x2048 .f32) :
    val_main_v123 (F := Ideal) y1 y2 labels W1 g b W2
      = fun _ => Spec.refLoss Lits.lits (arr2 y1) (arr2 y2) (arr1 labels) (arr2 W1) (arr1 g) (arr1 b) (arr2 W2) := by
  rw [RefPair.ref_pair y1 y2 labels W1 g b W2 _ _ rfl rfl, v65_eq_v62 y2 W1 g b W2,
    arr2_unit Lits.lits y1 W1 g b W2 Lits.lits_cnt.symm Lits.lits_eps.symm,
    arr2_unit Lits.lits y2 W1 g b W2 Lits.lits_cnt.symm Lits.lits_eps.symm]
  rfl

end Cert.ReferenceIdeal.RefValue

end
-- ==== Proof.ProjChain.lean ====
import proofs.«115278_j52183852646963_1_alg».proof.Pre_finite_inputs

noncomputable section

namespace Cert.ProjChain

open Idealize.ShloMosaic Cert.Pre_finite_inputs Cert.Pre_finite_inputs.Facts

variable [Cert.Pre_finite_inputs.Facts] {F : FTy → Type} [FloatOps F]

def linChain (x : FVec F S4096x2048 .f32) (W1 : FVec F S2048x2048 .f32) : FVec F S4096x2048 .f32 :=
  Host.dotGeneral dot_S4096x2048_S2048x2048_S4096x2048_1_0_0_1_n_n none x
    (transpose S2048x2048 [1, 0] W1 transposes_S2048x2048_S2048x2048_1_0)

def meanChain (x : FVec F S4096x2048 .f32) (W1 : FVec F S2048x2048 .f32) : FVec F S2048 .f32 :=
  Host.divf
    (Host.reduceAdd (linChain x W1) (constant S_ .f32 0x00000000#32) reducesTo_S4096x2048_S2048_d0 h_S_)
    (broadcastInDim S2048 ![] bcast_S_S2048 (constant S_ .f32 0x45800000#32))

def centChain (x : FVec F S4096x2048 .f32) (W1 : FVec F S2048x2048 .f32) : FVec F S4096x2048 .f32 :=
  subf (linChain x W1)
    (broadcastInDim S4096x2048 ![0, 1] bcast_S1x2048_S4096x2048_0_1
      (broadcastInDim S1x2048 ![1] bcast_S2048_S1x2048_1 (meanChain x W1)))

def varChain (x : FVec F S4096x2048 .f32) (W1 : FVec F S2048x2048 .f32) : FVec F S2048 .f32 :=
  Host.divf
    (Host.reduceAdd (mulf (centChain x W1) (centChain x W1)) (constant S_ .f32 0x00000000#32)
      reducesTo_S4096x2048_S2048_d0 h_S_)
    (broadcastInDim S2048 ![] bcast_S_S2048 (constant S_ .f32 0x45800000#32))

def actChain (x : FVec F S4096x2048 .f32) (W1 : FVec F S2048x2048 .f32) (g b : FVec F S2048 .f32) :
    FVec F S4096x2048 .f32 :=
  maximumf
    (addf
      (mulf
        (mulf (centChain x W1)
          (broadcastInDim S4096x2048 ![0, 1] bcast_S1x2048_S4096x2048_0_1
            (broadcastInDim S1x2048 ![1] bcast_S2048_S1x2048_1
              (Host.rsqrt (addf (varChain x W1)
                (broadcastInDim S2048 ![] bcast_S_S2048 (constant S_ .f32 0x3727C5AC#32)))))))
        (broadcastInDim S4096x2048 ![0, 1] bcast_S1x2048_S4096x2048_0_1
          (broadcastInDim S1x2048 ![1] bcast_S2048_S1x2048_1 g)))
      (broadcastInDim S4096x2048 ![0, 1] bcast_S1x2048_S4096x2048_0_1
        (broadcastInDim S1x2048 ![1] bcast_S2048_S1x2048_1 b)))
    (broadcastInDim S4096x2048 ![] bcast_S_S4096x2048 (constant S_ .f32 0x00000000#32))

def projChain (x : FVec F S4096x2048 .f32) (W1 : FVec F S2048x2048 .f32) (g b : FVec F S2048 .f32)
    (W2 : FVec F S128x2048 .f32) : FVec F S4096x128 .f32 :=
  Host.dotGeneral dot_S4096x2048_S2048x128_S4096x128_1_0_0_1_n_n none (actChain x W1 g b)
    (transpose S2048x128 [1, 0] W2 transposes_S128x2048_S2048x128_1_0)

def normChain (x : FVec F S4096x2048 .f32) (W1 : FVec F S2048x2048 .f32) (g b : FVec F S2048 .f32)
    (W2 : FVec F S128x2048 .f32) : FVec F S4096x1 .f32 :=
  Host.sqrt
    (broadcastInDim S4096x1 ![0] bcast_S4096_S4096x1_0
      (Host.reduceAdd (mulf (projChain x W1 g b W2) (projChain x W1 g b W2)) (constant S_ .f32 0x00000000#32)
        reducesTo_S4096x128_S4096_d1 h_S_))

end Cert.ProjChain

end
-- ==== Proof.PreDecode.lean ====
import proofs.«115278_j52183852646963_1_alg».proof.Defs
import proofs.«115278_j52183852646963_1_alg».proof.Proof.ProjChain
import proofs.«115278_j52183852646963_1_alg».proof.Proof.Lits
import proofs.«115278_j52183852646963_1_alg».proof.Proof.Adapt
import Idealize.ShloMosaic.Lib.ReduceAll
import Idealize.ShloMosaic.Lib.ValueIdx

noncomputable section

open Cert.Lits

namespace Cert.PreDecode

open Idealize.ShloMosaic Idealize.ShloMosaic.ValueIdx Idealize.SL.Sem Cert.Pre_finite_inputs Cert.Pre_finite_inputs.Facts Cert.ProjChain Cert.Adapt

variable [Cert.Pre_finite_inputs.Facts]

local instance : Subsingleton S_.Idx := ⟨fun _ _ => funext fun d => d.elim0⟩

def allFinite {s : Shape} {axes : List (Fin s.rank)} (a : FVec Ideal s .f32)
    (hb : S_.BroadcastsInDim s (![] : Fin 0 → Fin s.rank)) (hr : s.ReducesTo axes S_) : IVec S_ 1 :=
  Host.reduce IntOp.andi (cmpf .olt (Host.absf a) (broadcastInDim s ![] hb (constant S_ .f32 0x7F800000#32)))
    (constantI S_ 1 1#1) hr h_S_

def allPos (n : FVec Ideal S4096x1 .f32) : IVec S_ 1 :=
  Host.reduce IntOp.andi (cmpf .ogt n (broadcastInDim S4096x1 ![] bcast_S_S4096x1 (constant S_ .f32 0x00000000#32)))
    (constantI S_ 1 1#1) reducesTo_S4096x1_S_d0_1 h_S_

theorem of_ofBool_decide {p : Prop} [Decidable p] (h : BitVec.ofBool (decide p) = 1#1) : p := by
  by_cases hp : p
  · exact hp
  · rw [decide_eq_false hp] at h; exact absurd h (by decide)

theorem real_of_abs_lt_top {x : EReal} (h : max x (-x) < ⊤) : ∃ v : ℝ, x = (v : EReal) := by
  induction x using EReal.rec with
  | bot => simp at h
  | coe v => exact ⟨v, rfl⟩
  | top => simp at h

theorem allFinite_real {s : Shape} {axes : List (Fin s.rank)} (a : FVec Ideal s .f32)
    (hb : S_.BroadcastsInDim s (![] : Fin 0 → Fin s.rank)) (hr : s.ReducesTo axes S_)
    (e : allFinite a hb hr ix0 = 1#1) (i : s.Idx) : ∃ v : ℝ, a i = (v : EReal) := by
  have h1 := Host.reduce_andi_all _ _ hr h_S_ ix0 e i
  have h2 : BitVec.ofBool (decide (max (a i) (-(a i)) < Ideal.ofBits .f32 0x7F800000#32)) = 1#1 := h1
  rw [ofBits_pinf] at h2
  exact real_of_abs_lt_top (of_ofBool_decide h2)

theorem allPos_pos (n : FVec Ideal S4096x1 .f32) (e : allPos n ix0 = 1#1) (i : S4096x1.Idx) : 0 < n i := by
  have h1 := Host.reduce_andi_all _ _ reducesTo_S4096x1_S_d0_1 h_S_ ix0 e i
  have h2 : BitVec.ofBool (decide (Ideal.ofBits .f32 0x00000000#32 < n i)) = 1#1 := h1
  rw [ofBits_zero] at h2
  exact of_ofBool_decide h2

variable (a0 a1 : FVec Ideal S4096x2048 .f32) (a2 : FVec Ideal S4096 .f32) (a3 : FVec Ideal S2048x2048 .f32)
  (a4 a5 : FVec Ideal S2048 .f32) (a6 : FVec Ideal S128x2048 .f32)

structure Decoded : Prop where
  y1_real : ∀ r k, ∃ v : ℝ, arr2 a0 r k = (v : EReal)
  y2_real : ∀ r k, ∃ v : ℝ, arr2 a1 r k = (v : EReal)
  labels_real : ∀ r, ∃ v : ℝ, arr1 a2 r = (v : EReal)
  W1_real : ∀ j k, ∃ v : ℝ, arr2 a3 j k = (v : EReal)
  g_real : ∀ j, ∃ v : ℝ, arr1 a4 j = (v : EReal)
  b_real : ∀ j, ∃ v : ℝ, arr1 a5 j = (v : EReal)
  W2_real : ∀ p j, ∃ v : ℝ, arr2 a6 p j = (v : EReal)
  norm1_pos : ∀ r : Fin 4096, 0 < normChain a0 a3 a4 a5 a6 (ix2 r 0)
  norm2_pos : ∀ r : Fin 4096, 0 < normChain a1 a3 a4 a5 a6 (ix2 r 0)

variable {a0 a1 a2 a3 a4 a5 a6}

theorem of_fn (h : fn (F := Ideal) a0 a1 a2 a3 a4 a5 a6 = fun _ => 1#1) : Decoded a0 a1 a2 a3 a4 a5 a6 := by
  obtain ⟨h0, p1⟩ := IntOp.andi_eq_one.1 (congrFun h ix0)
  obtain ⟨h0, p0⟩ := IntOp.andi_eq_one.1 h0
  obtain ⟨h0, f6⟩ := IntOp.andi_eq_one.1 h0
  obtain ⟨h0, f5⟩ := IntOp.andi_eq_one.1 h0
  obtain ⟨h0, f4⟩ := IntOp.andi_eq_one.1 h0
  obtain ⟨h0, f3⟩ := IntOp.andi_eq_one.1 h0
  obtain ⟨h0, f2⟩ := IntOp.andi_eq_one.1 h0
  obtain ⟨f0, f1⟩ := IntOp.andi_eq_one.1 h0
  exact ⟨fun r k => allFinite_real a0 _ _ f0 (ix2 r k), fun r k => allFinite_real a1 _ _ f1 (ix2 r k),
    fun r => allFinite_real a2 _ _ f2 (ix1 r), fun j k => allFinite_real a3 _ _ f3 (ix2 j k),
    fun j => allFinite_real a4 _ _ f4 (ix1 j), fun j => allFinite_real a5 _ _ f5 (ix1 j),
    fun p j => allFinite_real a6 _ _ f6 (ix2 p j), fun r => allPos_pos _ p0 _, fun r => allPos_pos _ p1 _⟩

theorem of_pre (m : (ℓ : Loc Cert.KernelIdeal.nD Cert.KernelIdeal.τ Cert.KernelIdeal.sig) → Buf (Elt Ideal) ℓ)
    (h : Cert.Pre_KernelIdeal m) (c : Dev Cert.KernelIdeal.nD) :
    Decoded (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) :=
  of_fn (h c)

end Cert.PreDecode

end
-- ==== Proof.PreBridge.lean ====
import proofs.«115278_j52183852646963_1_alg».proof.Proof.ProjChain
import proofs.«115278_j52183852646963_1_alg».proof.Proof.ReadP

noncomputable section

namespace Cert.ProjChain

open Idealize.ShloMosaic

variable [Cert.Pre_finite_inputs.Facts] {F : FTy → Type} [FloatOps F]

theorem normChain_eq_read (x : FVec F Cert.Pre_finite_inputs.S4096x2048 .f32) (W1 : FVec F Cert.Pre_finite_inputs.S2048x2048 .f32)
    (g b : FVec F Cert.Pre_finite_inputs.S2048 .f32) (W2 : FVec F Cert.Pre_finite_inputs.S128x2048 .f32) :
    normChain x W1 g b W2 = Cert.ReferenceIdeal.ReadP.val_main_v60 (F := F) x W1 g b W2 := rfl

end Cert.ProjChain

end
-- ==== Proof.PreSpec.lean ====
import proofs.«115278_j52183852646963_1_alg».proof.Proof.PreDecode
import proofs.«115278_j52183852646963_1_alg».proof.Proof.PreBridge
import proofs.«115278_j52183852646963_1_alg».proof.Proof.RefProj

noncomputable section

namespace Cert.PreDecode.Decoded

open Idealize.ShloMosaic Idealize.ShloMosaic.ValueIdx Cert.Pre_finite_inputs Cert.ProjChain Cert.Adapt Cert.Lits

variable [Cert.Pre_finite_inputs.Facts]
variable {a0 a1 : FVec Ideal S4096x2048 .f32} {a2 : FVec Ideal S4096 .f32} {a3 : FVec Ideal S2048x2048 .f32}
  {a4 a5 : FVec Ideal S2048 .f32} {a6 : FVec Ideal S128x2048 .f32}

theorem hn1 (d : Decoded a0 a1 a2 a3 a4 a5 a6) (r : Fin 4096) :
    0 < Cert.Spec.rowNorm lits (arr2 a0) (arr2 a3) (arr1 a4) (arr1 a5) (arr2 a6) (Cert.Spec.varR lits (arr2 a0) (arr2 a3)) r := by
  rw [← Cert.ReferenceIdeal.RefValue.norm_at lits a0 a3 a4 a5 a6 lits_cnt.symm lits_eps.symm r, ← normChain_eq_read]
  exact d.norm1_pos r

theorem hn2 (d : Decoded a0 a1 a2 a3 a4 a5 a6) (r : Fin 4096) :
    0 < Cert.Spec.rowNorm lits (arr2 a1) (arr2 a3) (arr1 a4) (arr1 a5) (arr2 a6) (Cert.Spec.varR lits (arr2 a1) (arr2 a3)) r := by
  rw [← Cert.ReferenceIdeal.RefValue.norm_at lits a1 a3 a4 a5 a6 lits_cnt.symm lits_eps.symm r, ← normChain_eq_read]
  exact d.norm2_pos r

end Cert.PreDecode.Decoded

end
-- ==== Proof.AlgebraicFinal.lean ====
import proofs.«115278_j52183852646963_1_alg».proof.Defs
import proofs.«115278_j52183852646963_1_alg».proof.Proof.Gen.Pre_finite_inputs
import proofs.«115278_j52183852646963_1_alg».proof.Proof.Math
import proofs.«115278_j52183852646963_1_alg».proof.Proof.Run
import proofs.«115278_j52183852646963_1_alg».proof.Proof.KernelGlue
import proofs.«115278_j52183852646963_1_alg».proof.Proof.RefRun
import proofs.«115278_j52183852646963_1_alg».proof.Proof.RefValue
import proofs.«115278_j52183852646963_1_alg».proof.Proof.PreSpec

noncomputable section

namespace Cert.Proof.Alg

open Idealize.ShloMosaic Idealize.ShloMosaic.TcCoe Idealize.SL.Sem Cert.Lits

theorem frame_ri : Cert.frame_ReferenceIdeal (hReferenceIdeal := Cert.ReferenceIdeal.Gen.facts)
    (hPre_finite_inputs := Cert.Pre_finite_inputs.Gen.facts) :=
  fun m ρ _ => (θ_run Cert.ReferenceIdeal.defs _ _).mono (fun _ h c => (h c).2)
    (Cert.ReferenceIdeal.HandRun.run (F := Ideal) m ρ)

-- Both runs end at the loss of the same seven real arrays, and over real arrays with positive row norms the two arrangements agree.
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Gen.V10 m (Cert.KernelIdeal.Hand.outs (F := Ideal) m) c Cert.KernelIdeal.main_v26,
    Cert.KernelIdeal.Hand.run_main (F := Ideal) m ρ, ?_⟩
  refine (θ_run (Cert.ReferenceIdeal.defs (F := Ideal)) _ _).mono (fun _ h c => ⟨(h c).1.trans ?_, (h c).2⟩)
    (Cert.ReferenceIdeal.HandRun.run (F := Ideal) m' ρ')
  have d := Cert.PreDecode.of_pre m hpre c
  obtain ⟨h0, h1, h2, h3, h4, h5, h6⟩ := hagree c
  rw [Cert.ReferenceIdeal.RefValue.ref_result, h0, h1, h2, h3, h4, h5, h6]
  exact (funext fun _ => (Spec.kerLoss_eq_refLoss lits lits_good _ _ _ _ _ _ _ d.y1_real d.y2_real d.labels_real d.W1_real
    d.g_real d.b_real d.W2_real d.hn1 d.hn2).symm).trans (Cert.KernelIdeal.Hand.main_v26_value m c).symm

end Cert.Proof.Alg

end
-- ==== Proof.lean ====
import proofs.«115278_j52183852646963_1_alg».proof.Defs
import proofs.«115278_j52183852646963_1_alg».proof.Proof.Gen.Kernel
import proofs.«115278_j52183852646963_1_alg».proof.Proof.Gen.Kernel.Skeleton
import proofs.«115278_j52183852646963_1_alg».proof.Proof.Gen.Kernel.Launch
import proofs.«115278_j52183852646963_1_alg».proof.Proof.Gen.Kernel.Regions
import proofs.«115278_j52183852646963_1_alg».proof.Proof.Gen.Kernel.Points
import proofs.«115278_j52183852646963_1_alg».proof.Proof.Gen.KernelIdeal
import proofs.«115278_j52183852646963_1_alg».proof.Proof.Gen.KernelIdeal.Skeleton
import proofs.«115278_j52183852646963_1_alg».proof.Proof.Gen.KernelIdeal.Launch
import proofs.«115278_j52183852646963_1_alg».proof.Proof.Gen.KernelIdeal.Regions
import proofs.«115278_j52183852646963_1_alg».proof.Proof.Gen.KernelIdeal.Points
import proofs.«115278_j52183852646963_1_alg».proof.Proof.Gen.ReferenceIdeal
import proofs.«115278_j52183852646963_1_alg».proof.Proof.Gen.Pre_finite_inputs
import proofs.«115278_j52183852646963_1_alg».proof.Proof.KRun
import proofs.«115278_j52183852646963_1_alg».proof.Proof.AlgebraicFinal
import Idealize.ShloMosaic.Adequacy
import Idealize.ShloMosaic.Init

noncomputable section

namespace Cert.Proof

open Idealize.ShloMosaic Idealize.SL.Sem

theorem frame_ri : Cert.frame_ReferenceIdeal (hReferenceIdeal := Cert.ReferenceIdeal.Gen.facts) (hPre_finite_inputs := Cert.Pre_finite_inputs.Gen.facts) :=
  Alg.frame_ri

theorem preserves : Cert.preserves_Kernel_KernelIdeal :=
  IdealRules.named_const.statement Cert.KernelIdeal.κ "inv_temp" .f32 0x41200000#32 ((134217728 / 13421773 : ℝ) : EReal) rfl

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

theorem algebraic : Cert.algebraic_KernelIdeal_ReferenceIdeal (hKernelIdeal := Cert.KernelIdeal.Gen.facts) (hReferenceIdeal := Cert.ReferenceIdeal.Gen.facts)
    (hPre_finite_inputs := Cert.Pre_finite_inputs.Gen.facts) :=
  Alg.algebraic

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
